-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S2x128x2048 : Shape := ⟨3, ![2, 128, 2048]⟩
abbrev S2x2x128x1024 : Shape := ⟨4, ![2, 2, 128, 1024]⟩
abbrev S2 : Shape := ⟨1, ![2]⟩
abbrev S32 : Shape := ⟨1, ![32]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩
abbrev S128x1024 : Shape := ⟨2, ![128, 1024]⟩
abbrev S1x1x128x1024 : Shape := ⟨4, ![1, 1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x2048, .f32⟩
  | .hbm, ⟨1, _⟩ => ⟨S8192x1024, .bf16⟩
  | .local _ .vmem, ⟨0, _⟩ => ⟨S2x128x2048, .f32⟩
  | .local _ .vmem, ⟨1, _⟩ => ⟨S2x2x128x1024, .bf16⟩
  | _, _ => ⟨S4096x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_42 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v51 : BitVec 32 := Scalar.muli v2 c4096_i32
  let v52 : BitVec 32 := Scalar.addi v51 c0_i32_42
  let c0_i32_50 : BitVec 32 := 0#32
  ![v52.toNat, 0]
def k0_off2 (d0 : Dev nD) : Fin 4 → Nat :=
  let c0_i32_43 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c0_i32_51 : BitVec 32 := 0#32
  let c0_i32_52 : BitVec 32 := 0#32
  ![0, v9.toNat, 0, 0]
def k0_dev2 (d0 : Dev nD) : Nat :=
  let c0_i32_47 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_46 : BitVec 32 := 8#32
  let v53 : BitVec 32 := Scalar.muli v9 c8_i32_46
  let v54 : BitVec 32 := Scalar.addi c0_i32_47 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v55 : BitVec 32 := Scalar.muli v5 c4_i32_48
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v57 : BitVec 32 := Scalar.muli v8 c1_i32_49
  let v58 : BitVec 32 := Scalar.addi v56 v57
  v58.toNat
def k0_off3 (d0 : Dev nD) : Fin 4 → Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_56 : BitVec 32 := 0#32
  let c0_i32_57 : BitVec 32 := 0#32
  ![0, v2.toNat, 0, 0]
def k0_off4 (d0 : Dev nD) : Fin 4 → Nat :=
  let c1_i32_85 : BitVec 32 := 1#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c0_i32_93 : BitVec 32 := 0#32
  let c0_i32_94 : BitVec 32 := 0#32
  ![1, v9.toNat, 0, 0]
def k0_dev3 (d0 : Dev nD) : Nat :=
  let c0_i32_89 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_88 : BitVec 32 := 8#32
  let v97 : BitVec 32 := Scalar.muli v9 c8_i32_88
  let v98 : BitVec 32 := Scalar.addi c0_i32_89 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v99 : BitVec 32 := Scalar.muli v5 c4_i32_90
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v101 : BitVec 32 := Scalar.muli v8 c1_i32_91
  let v102 : BitVec 32 := Scalar.addi v100 v101
  v102.toNat
def k0_off5 (d0 : Dev nD) : Fin 4 → Nat :=
  let c1_i32_95 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_98 : BitVec 32 := 0#32
  let c0_i32_99 : BitVec 32 := 0#32
  ![1, v2.toNat, 0, 0]
def k0_dev4 (d0 : Dev nD) : Nat :=
  let c0_i32_143 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_142 : BitVec 32 := 8#32
  let v151 : BitVec 32 := Scalar.muli v9 c8_i32_142
  let v152 : BitVec 32 := Scalar.addi c0_i32_143 v151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v153 : BitVec 32 := Scalar.muli v5 c4_i32_144
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v155 : BitVec 32 := Scalar.muli v8 c1_i32_145
  let v156 : BitVec 32 := Scalar.addi v154 v155
  v156.toNat
def k0_dev5 (d0 : Dev nD) : Nat :=
  let c0_i32_196 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_195 : BitVec 32 := 8#32
  let v205 : BitVec 32 := Scalar.muli v9 c8_i32_195
  let v206 : BitVec 32 := Scalar.addi c0_i32_196 v205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_197 : BitVec 32 := 4#32
  let v207 : BitVec 32 := Scalar.muli v5 c4_i32_197
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v209 : BitVec 32 := Scalar.muli v8 c1_i32_198
  let v210 : BitVec 32 := Scalar.addi v208 v209
  v210.toNat
def k0_dev6 (d0 : Dev nD) : Nat :=
  let c0_i32_250 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_249 : BitVec 32 := 8#32
  let v259 : BitVec 32 := Scalar.muli v9 c8_i32_249
  let v260 : BitVec 32 := Scalar.addi c0_i32_250 v259
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v261 : BitVec 32 := Scalar.muli v5 c4_i32_251
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v263 : BitVec 32 := Scalar.muli v8 c1_i32_252
  let v264 : BitVec 32 := Scalar.addi v262 v263
  v264.toNat
def k0_dev7 (d0 : Dev nD) : Nat :=
  let c0_i32_303 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_302 : BitVec 32 := 8#32
  let v313 : BitVec 32 := Scalar.muli v9 c8_i32_302
  let v314 : BitVec 32 := Scalar.addi c0_i32_303 v313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v315 : BitVec 32 := Scalar.muli v5 c4_i32_304
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v317 : BitVec 32 := Scalar.muli v8 c1_i32_305
  let v318 : BitVec 32 := Scalar.addi v316 v317
  v318.toNat
def k0_dev8 (d0 : Dev nD) : Nat :=
  let c0_i32_356 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_355 : BitVec 32 := 8#32
  let v367 : BitVec 32 := Scalar.muli v9 c8_i32_355
  let v368 : BitVec 32 := Scalar.addi c0_i32_356 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v369 : BitVec 32 := Scalar.muli v5 c4_i32_357
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_358 : BitVec 32 := 1#32
  let v371 : BitVec 32 := Scalar.muli v8 c1_i32_358
  let v372 : BitVec 32 := Scalar.addi v370 v371
  v372.toNat
def k0_dev9 (d0 : Dev nD) : Nat :=
  let c0_i32_409 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_408 : BitVec 32 := 8#32
  let v421 : BitVec 32 := Scalar.muli v9 c8_i32_408
  let v422 : BitVec 32 := Scalar.addi c0_i32_409 v421
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v423 : BitVec 32 := Scalar.muli v5 c4_i32_410
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_411 : BitVec 32 := 1#32
  let v425 : BitVec 32 := Scalar.muli v8 c1_i32_411
  let v426 : BitVec 32 := Scalar.addi v424 v425
  v426.toNat
def k0_dev10 (d0 : Dev nD) : Nat :=
  let c0_i32_463 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_462 : BitVec 32 := 8#32
  let v475 : BitVec 32 := Scalar.muli v9 c8_i32_462
  let v476 : BitVec 32 := Scalar.addi c0_i32_463 v475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_464 : BitVec 32 := 4#32
  let v477 : BitVec 32 := Scalar.muli v5 c4_i32_464
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v479 : BitVec 32 := Scalar.muli v8 c1_i32_465
  let v480 : BitVec 32 := Scalar.addi v478 v479
  v480.toNat
def k0_dev11 (d0 : Dev nD) : Nat :=
  let c0_i32_516 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_515 : BitVec 32 := 8#32
  let v529 : BitVec 32 := Scalar.muli v9 c8_i32_515
  let v530 : BitVec 32 := Scalar.addi c0_i32_516 v529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v531 : BitVec 32 := Scalar.muli v5 c4_i32_517
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_518 : BitVec 32 := 1#32
  let v533 : BitVec 32 := Scalar.muli v8 c1_i32_518
  let v534 : BitVec 32 := Scalar.addi v532 v533
  v534.toNat
def k0_dev12 (d0 : Dev nD) : Nat :=
  let c0_i32_569 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_568 : BitVec 32 := 8#32
  let v583 : BitVec 32 := Scalar.muli v9 c8_i32_568
  let v584 : BitVec 32 := Scalar.addi c0_i32_569 v583
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_570 : BitVec 32 := 4#32
  let v585 : BitVec 32 := Scalar.muli v5 c4_i32_570
  let v586 : BitVec 32 := Scalar.addi v584 v585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_571 : BitVec 32 := 1#32
  let v587 : BitVec 32 := Scalar.muli v8 c1_i32_571
  let v588 : BitVec 32 := Scalar.addi v586 v587
  v588.toNat
def k0_dev13 (d0 : Dev nD) : Nat :=
  let c0_i32_622 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_621 : BitVec 32 := 8#32
  let v637 : BitVec 32 := Scalar.muli v9 c8_i32_621
  let v638 : BitVec 32 := Scalar.addi c0_i32_622 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_623 : BitVec 32 := 4#32
  let v639 : BitVec 32 := Scalar.muli v5 c4_i32_623
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_624 : BitVec 32 := 1#32
  let v641 : BitVec 32 := Scalar.muli v8 c1_i32_624
  let v642 : BitVec 32 := Scalar.addi v640 v641
  v642.toNat
def k0_dev14 (d0 : Dev nD) : Nat :=
  let c0_i32_675 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_674 : BitVec 32 := 8#32
  let v691 : BitVec 32 := Scalar.muli v9 c8_i32_674
  let v692 : BitVec 32 := Scalar.addi c0_i32_675 v691
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_676 : BitVec 32 := 4#32
  let v693 : BitVec 32 := Scalar.muli v5 c4_i32_676
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_677 : BitVec 32 := 1#32
  let v695 : BitVec 32 := Scalar.muli v8 c1_i32_677
  let v696 : BitVec 32 := Scalar.addi v694 v695
  v696.toNat
def k0_dev15 (d0 : Dev nD) : Nat :=
  let c0_i32_728 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_727 : BitVec 32 := 8#32
  let v745 : BitVec 32 := Scalar.muli v9 c8_i32_727
  let v746 : BitVec 32 := Scalar.addi c0_i32_728 v745
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_729 : BitVec 32 := 4#32
  let v747 : BitVec 32 := Scalar.muli v5 c4_i32_729
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v749 : BitVec 32 := Scalar.muli v8 c1_i32_730
  let v750 : BitVec 32 := Scalar.addi v748 v749
  v750.toNat
def k0_dev16 (d0 : Dev nD) : Nat :=
  let c0_i32_781 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_780 : BitVec 32 := 8#32
  let v799 : BitVec 32 := Scalar.muli v9 c8_i32_780
  let v800 : BitVec 32 := Scalar.addi c0_i32_781 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_782 : BitVec 32 := 4#32
  let v801 : BitVec 32 := Scalar.muli v5 c4_i32_782
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_783 : BitVec 32 := 1#32
  let v803 : BitVec 32 := Scalar.muli v8 c1_i32_783
  let v804 : BitVec 32 := Scalar.addi v802 v803
  v804.toNat
def k0_dev17 (d0 : Dev nD) : Nat :=
  let c0_i32_834 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_833 : BitVec 32 := 8#32
  let v853 : BitVec 32 := Scalar.muli v9 c8_i32_833
  let v854 : BitVec 32 := Scalar.addi c0_i32_834 v853
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_835 : BitVec 32 := 4#32
  let v855 : BitVec 32 := Scalar.muli v5 c4_i32_835
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v857 : BitVec 32 := Scalar.muli v8 c1_i32_836
  let v858 : BitVec 32 := Scalar.addi v856 v857
  v858.toNat
def k0_dev18 (d0 : Dev nD) : Nat :=
  let c0_i32_887 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_886 : BitVec 32 := 8#32
  let v907 : BitVec 32 := Scalar.muli v9 c8_i32_886
  let v908 : BitVec 32 := Scalar.addi c0_i32_887 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_888 : BitVec 32 := 4#32
  let v909 : BitVec 32 := Scalar.muli v5 c4_i32_888
  let v910 : BitVec 32 := Scalar.addi v908 v909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_889 : BitVec 32 := 1#32
  let v911 : BitVec 32 := Scalar.muli v8 c1_i32_889
  let v912 : BitVec 32 := Scalar.addi v910 v911
  v912.toNat
def k0_dev19 (d0 : Dev nD) : Nat :=
  let c0_i32_940 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_939 : BitVec 32 := 8#32
  let v961 : BitVec 32 := Scalar.muli v9 c8_i32_939
  let v962 : BitVec 32 := Scalar.addi c0_i32_940 v961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_941 : BitVec 32 := 4#32
  let v963 : BitVec 32 := Scalar.muli v5 c4_i32_941
  let v964 : BitVec 32 := Scalar.addi v962 v963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_942 : BitVec 32 := 1#32
  let v965 : BitVec 32 := Scalar.muli v8 c1_i32_942
  let v966 : BitVec 32 := Scalar.addi v964 v965
  v966.toNat
def k0_dev20 (d0 : Dev nD) : Nat :=
  let c0_i32_993 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_992 : BitVec 32 := 8#32
  let v1015 : BitVec 32 := Scalar.muli v9 c8_i32_992
  let v1016 : BitVec 32 := Scalar.addi c0_i32_993 v1015
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_994 : BitVec 32 := 4#32
  let v1017 : BitVec 32 := Scalar.muli v5 c4_i32_994
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_995 : BitVec 32 := 1#32
  let v1019 : BitVec 32 := Scalar.muli v8 c1_i32_995
  let v1020 : BitVec 32 := Scalar.addi v1018 v1019
  v1020.toNat
def k0_dev21 (d0 : Dev nD) : Nat :=
  let c0_i32_1046 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1045 : BitVec 32 := 8#32
  let v1069 : BitVec 32 := Scalar.muli v9 c8_i32_1045
  let v1070 : BitVec 32 := Scalar.addi c0_i32_1046 v1069
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1047 : BitVec 32 := 4#32
  let v1071 : BitVec 32 := Scalar.muli v5 c4_i32_1047
  let v1072 : BitVec 32 := Scalar.addi v1070 v1071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1073 : BitVec 32 := Scalar.muli v8 c1_i32_1048
  let v1074 : BitVec 32 := Scalar.addi v1072 v1073
  v1074.toNat
def k0_dev22 (d0 : Dev nD) : Nat :=
  let c0_i32_1099 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1098 : BitVec 32 := 8#32
  let v1123 : BitVec 32 := Scalar.muli v9 c8_i32_1098
  let v1124 : BitVec 32 := Scalar.addi c0_i32_1099 v1123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1100 : BitVec 32 := 4#32
  let v1125 : BitVec 32 := Scalar.muli v5 c4_i32_1100
  let v1126 : BitVec 32 := Scalar.addi v1124 v1125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1101 : BitVec 32 := 1#32
  let v1127 : BitVec 32 := Scalar.muli v8 c1_i32_1101
  let v1128 : BitVec 32 := Scalar.addi v1126 v1127
  v1128.toNat
def k0_dev23 (d0 : Dev nD) : Nat :=
  let c0_i32_1152 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1151 : BitVec 32 := 8#32
  let v1177 : BitVec 32 := Scalar.muli v9 c8_i32_1151
  let v1178 : BitVec 32 := Scalar.addi c0_i32_1152 v1177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1153 : BitVec 32 := 4#32
  let v1179 : BitVec 32 := Scalar.muli v5 c4_i32_1153
  let v1180 : BitVec 32 := Scalar.addi v1178 v1179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1154 : BitVec 32 := 1#32
  let v1181 : BitVec 32 := Scalar.muli v8 c1_i32_1154
  let v1182 : BitVec 32 := Scalar.addi v1180 v1181
  v1182.toNat
def k0_dev24 (d0 : Dev nD) : Nat :=
  let c0_i32_1205 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1204 : BitVec 32 := 8#32
  let v1231 : BitVec 32 := Scalar.muli v9 c8_i32_1204
  let v1232 : BitVec 32 := Scalar.addi c0_i32_1205 v1231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1206 : BitVec 32 := 4#32
  let v1233 : BitVec 32 := Scalar.muli v5 c4_i32_1206
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1235 : BitVec 32 := Scalar.muli v8 c1_i32_1207
  let v1236 : BitVec 32 := Scalar.addi v1234 v1235
  v1236.toNat
def k0_dev25 (d0 : Dev nD) : Nat :=
  let c0_i32_1258 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1257 : BitVec 32 := 8#32
  let v1285 : BitVec 32 := Scalar.muli v9 c8_i32_1257
  let v1286 : BitVec 32 := Scalar.addi c0_i32_1258 v1285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v1287 : BitVec 32 := Scalar.muli v5 c4_i32_1259
  let v1288 : BitVec 32 := Scalar.addi v1286 v1287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1260 : BitVec 32 := 1#32
  let v1289 : BitVec 32 := Scalar.muli v8 c1_i32_1260
  let v1290 : BitVec 32 := Scalar.addi v1288 v1289
  v1290.toNat
def k0_dev26 (d0 : Dev nD) : Nat :=
  let c0_i32_1311 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1310 : BitVec 32 := 8#32
  let v1339 : BitVec 32 := Scalar.muli v9 c8_i32_1310
  let v1340 : BitVec 32 := Scalar.addi c0_i32_1311 v1339
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1312 : BitVec 32 := 4#32
  let v1341 : BitVec 32 := Scalar.muli v5 c4_i32_1312
  let v1342 : BitVec 32 := Scalar.addi v1340 v1341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1313 : BitVec 32 := 1#32
  let v1343 : BitVec 32 := Scalar.muli v8 c1_i32_1313
  let v1344 : BitVec 32 := Scalar.addi v1342 v1343
  v1344.toNat
def k0_dev27 (d0 : Dev nD) : Nat :=
  let c0_i32_1364 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1363 : BitVec 32 := 8#32
  let v1393 : BitVec 32 := Scalar.muli v9 c8_i32_1363
  let v1394 : BitVec 32 := Scalar.addi c0_i32_1364 v1393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1365 : BitVec 32 := 4#32
  let v1395 : BitVec 32 := Scalar.muli v5 c4_i32_1365
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1366 : BitVec 32 := 1#32
  let v1397 : BitVec 32 := Scalar.muli v8 c1_i32_1366
  let v1398 : BitVec 32 := Scalar.addi v1396 v1397
  v1398.toNat
def k0_dev28 (d0 : Dev nD) : Nat :=
  let c0_i32_1417 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1416 : BitVec 32 := 8#32
  let v1447 : BitVec 32 := Scalar.muli v9 c8_i32_1416
  let v1448 : BitVec 32 := Scalar.addi c0_i32_1417 v1447
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1418 : BitVec 32 := 4#32
  let v1449 : BitVec 32 := Scalar.muli v5 c4_i32_1418
  let v1450 : BitVec 32 := Scalar.addi v1448 v1449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1419 : BitVec 32 := 1#32
  let v1451 : BitVec 32 := Scalar.muli v8 c1_i32_1419
  let v1452 : BitVec 32 := Scalar.addi v1450 v1451
  v1452.toNat
def k0_dev29 (d0 : Dev nD) : Nat :=
  let c0_i32_1470 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1469 : BitVec 32 := 8#32
  let v1501 : BitVec 32 := Scalar.muli v9 c8_i32_1469
  let v1502 : BitVec 32 := Scalar.addi c0_i32_1470 v1501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1471 : BitVec 32 := 4#32
  let v1503 : BitVec 32 := Scalar.muli v5 c4_i32_1471
  let v1504 : BitVec 32 := Scalar.addi v1502 v1503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1472 : BitVec 32 := 1#32
  let v1505 : BitVec 32 := Scalar.muli v8 c1_i32_1472
  let v1506 : BitVec 32 := Scalar.addi v1504 v1505
  v1506.toNat
def k0_dev30 (d0 : Dev nD) : Nat :=
  let c0_i32_1523 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1522 : BitVec 32 := 8#32
  let v1555 : BitVec 32 := Scalar.muli v9 c8_i32_1522
  let v1556 : BitVec 32 := Scalar.addi c0_i32_1523 v1555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1524 : BitVec 32 := 4#32
  let v1557 : BitVec 32 := Scalar.muli v5 c4_i32_1524
  let v1558 : BitVec 32 := Scalar.addi v1556 v1557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1525 : BitVec 32 := 1#32
  let v1559 : BitVec 32 := Scalar.muli v8 c1_i32_1525
  let v1560 : BitVec 32 := Scalar.addi v1558 v1559
  v1560.toNat
def k0_dev31 (d0 : Dev nD) : Nat :=
  let c0_i32_1576 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1575 : BitVec 32 := 8#32
  let v1609 : BitVec 32 := Scalar.muli v9 c8_i32_1575
  let v1610 : BitVec 32 := Scalar.addi c0_i32_1576 v1609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1577 : BitVec 32 := 4#32
  let v1611 : BitVec 32 := Scalar.muli v5 c4_i32_1577
  let v1612 : BitVec 32 := Scalar.addi v1610 v1611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1578 : BitVec 32 := 1#32
  let v1613 : BitVec 32 := Scalar.muli v8 c1_i32_1578
  let v1614 : BitVec 32 := Scalar.addi v1612 v1613
  v1614.toNat
def k0_dev32 (d0 : Dev nD) : Nat :=
  let c0_i32_1624 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1623 : BitVec 32 := 8#32
  let v1658 : BitVec 32 := Scalar.muli v9 c8_i32_1623
  let v1659 : BitVec 32 := Scalar.addi c0_i32_1624 v1658
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1625 : BitVec 32 := 4#32
  let v1660 : BitVec 32 := Scalar.muli v5 c4_i32_1625
  let v1661 : BitVec 32 := Scalar.addi v1659 v1660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1626 : BitVec 32 := 1#32
  let v1662 : BitVec 32 := Scalar.muli v8 c1_i32_1626
  let v1663 : BitVec 32 := Scalar.addi v1661 v1662
  v1663.toNat
def k0_dev33 (d0 : Dev nD) : Nat :=
  let c0_i32_1672 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1671 : BitVec 32 := 8#32
  let v1707 : BitVec 32 := Scalar.muli v9 c8_i32_1671
  let v1708 : BitVec 32 := Scalar.addi c0_i32_1672 v1707
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1673 : BitVec 32 := 4#32
  let v1709 : BitVec 32 := Scalar.muli v5 c4_i32_1673
  let v1710 : BitVec 32 := Scalar.addi v1708 v1709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1674 : BitVec 32 := 1#32
  let v1711 : BitVec 32 := Scalar.muli v8 c1_i32_1674
  let v1712 : BitVec 32 := Scalar.addi v1710 v1711
  v1712.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x128x2048_S1x128x2048_0_0_0 : ∀ a, (![0, 0, 0] : Fin 3 → Nat) a + S1x128x2048.size a ≤ S2x128x2048.size a
  squeezes_S1x128x2048_S128x2048 : S1x128x2048.Squeezes S128x2048
  inb_S4096x2048_S128x2048_0_0 : ∀ a, (![0, 0] : Fin 2 → Nat) a + S128x2048.size a ≤ S4096x2048.size a
  inb_S2_S1_1 : ∀ a, (![1] : Fin 1 → Nat) a + S1.size a ≤ S2.size a
  inb_S2x128x2048_S1x128x2048_1_0_0 : ∀ a, (![1, 0, 0] : Fin 3 → Nat) a + S1x128x2048.size a ≤ S2x128x2048.size a
  inb_S4096x2048_S128x2048_128_0 : ∀ a, (![128, 0] : Fin 2 → Nat) a + S128x2048.size a ≤ S4096x2048.size a
  h_S1x128x2048 : 0 < S1x128x2048.numel
  shapeCasts_S1x128x2048_S128x2048 : S1x128x2048.ShapeCasts S128x2048
  slices_S128x2048_o0_0_S128x1024 : S128x2048.Slices ![0, 0] S128x1024
  bitsLt_bf16_f32 : FTy.bits .bf16 < FTy.bits .f32
  inb_S2x2x128x1024_S1x1x128x1024_0_0_0_0 : ∀ a, (![0, 0, 0, 0] : Fin 4 → Nat) a + S1x1x128x1024.size a ≤ S2x2x128x1024.size a
  h_S1x1x128x1024 : 0 < S1x1x128x1024.numel
  shapeCasts_S1x1x128x1024_S128x1024 : S1x1x128x1024.ShapeCasts S128x1024
  shapeCasts_S128x1024_S1x1x128x1024 : S128x1024.ShapeCasts S1x1x128x1024
  packedbf16_S2x2x128x1024_S1x1x128x1024_0_0_0_0 : (Rect.unit (s := S2x2x128x1024) ![0, 0, 0, 0] S1x1x128x1024.size inb_S2x2x128x1024_S1x1x128x1024_0_0_0_0).PackedRows (EltTy.packing .bf16)
  slices_S128x2048_o0_1024_S128x1024 : S128x2048.Slices ![0, 1024] S128x1024
  inb_S2x2x128x1024_S1x1x128x1024_0_1_0_0 : ∀ a, (![0, 1, 0, 0] : Fin 4 → Nat) a + S1x1x128x1024.size a ≤ S2x2x128x1024.size a
  packedbf16_S2x2x128x1024_S1x1x128x1024_0_1_0_0 : (Rect.unit (s := S2x2x128x1024) ![0, 1, 0, 0] S1x1x128x1024.size inb_S2x2x128x1024_S1x1x128x1024_0_1_0_0).PackedRows (EltTy.packing .bf16)
  inb_S4096x2048_S128x2048_256_0 : ∀ a, (![256, 0] : Fin 2 → Nat) a + S128x2048.size a ≤ S4096x2048.size a
  inb_S32_S1_0 : ∀ a, (![0] : Fin 1 → Nat) a + S1.size a ≤ S32.size a
  squeezes_S1x1x128x1024_S128x1024 : S1x1x128x1024.Squeezes S128x1024
  inb_S2x2x128x1024_S1x1x128x1024_1_0_0_0 : ∀ a, (![1, 0, 0, 0] : Fin 4 → Nat) a + S1x1x128x1024.size a ≤ S2x2x128x1024.size a
  packedbf16_S2x2x128x1024_S1x1x128x1024_1_0_0_0 : (Rect.unit (s := S2x2x128x1024) ![1, 0, 0, 0] S1x1x128x1024.size inb_S2x2x128x1024_S1x1x128x1024_1_0_0_0).PackedRows (EltTy.packing .bf16)
  inb_S2x2x128x1024_S1x1x128x1024_1_1_0_0 : ∀ a, (![1, 1, 0, 0] : Fin 4 → Nat) a + S1x1x128x1024.size a ≤ S2x2x128x1024.size a
  packedbf16_S2x2x128x1024_S1x1x128x1024_1_1_0_0 : (Rect.unit (s := S2x2x128x1024) ![1, 1, 0, 0] S1x1x128x1024.size inb_S2x2x128x1024_S1x1x128x1024_1_1_0_0).PackedRows (EltTy.packing .bf16)
  inb_S4096x2048_S128x2048_384_0 : ∀ a, (![384, 0] : Fin 2 → Nat) a + S128x2048.size a ≤ S4096x2048.size a
  inb_S32_S1_1 : ∀ a, (![1] : Fin 1 → Nat) a + S1.size a ≤ S32.size a
  inb_S4096x2048_S128x2048_512_0 : ∀ a, (![512, 0] : Fin 2 → Nat) a + S128x2048.size a ≤ S4096x2048.size a
  inb_S32_S1_2 : ∀ a, (![2] : Fin 1 → Nat) a + S1.size a ≤ S32.size a
  inb_S4096x2048_S128x2048_640_0 : ∀ a, (![640, 0] : Fin 2 → Nat) a + S128x2048.size a ≤ S4096x2048.size a
  inb_S32_S1_3 : ∀ a, (![3] : Fin 1 → Nat) a + S1.size a ≤ S32.size a
  inb_S4096x2048_S128x2048_768_0 : ∀ a, (![768, 0] : Fin 2 → Nat) a + S128x2048.size a ≤ S4096x2048.size a
  inb_S32_S1_4 : ∀ a, (![4] : Fin 1 → Nat) a + S1.size a ≤ S32.size a
  inb_S4096x2048_S128x2048_896_0 : ∀ a, (![896, 0] : Fin 2 → Nat) a + S128x2048.size a ≤ S4096x2048.size a
  inb_S32_S1_5 : ∀ a, (![5] : Fin 1 → Nat) a + S1.size a ≤ S32.size a
  inb_S4096x2048_S128x2048_1024_0 : ∀ a, (![1024, 0] : Fin 2 → Nat) a + S128x2048.size a ≤ S4096x2048.size a
  inb_S32_S1_6 : ∀ a, (![6] : Fin 1 → Nat) a + S1.size a ≤ S32.size a
  inb_S4096x2048_S128x2048_1152_0 : ∀ a, (![1152, 0] : Fin 2 → Nat) a + S128x2048.size a ≤ S4096x2048.size a
  inb_S32_S1_7 : ∀ a, (![7] : Fin 1 → Nat) a + S1.size a ≤ S32.size a
  inb_S4096x2048_S128x2048_1280_0 : ∀ a, (![1280, 0] : Fin 2 → Nat) a + S128x2048.size a ≤ S4096x2048.size a
  inb_S32_S1_8 : ∀ a, (![8] : Fin 1 → Nat) a + S1.size a ≤ S32.size a
  inb_S4096x2048_S128x2048_1408_0 : ∀ a, (![1408, 0] : Fin 2 → Nat) a + S128x2048.size a ≤ S4096x2048.size a
  inb_S32_S1_9 : ∀ a, (![9] : Fin 1 → Nat) a + S1.size a ≤ S32.size a
  inb_S4096x2048_S128x2048_1536_0 : ∀ a, (![1536, 0] : Fin 2 → Nat) a + S128x2048.size a ≤ S4096x2048.size a
  inb_S32_S1_10 : ∀ a, (![10] : Fin 1 → Nat) a + S1.size a ≤ S32.size a
  inb_S4096x2048_S128x2048_1664_0 : ∀ a, (![1664, 0] : Fin 2 → Nat) a + S128x2048.size a ≤ S4096x2048.size a
  inb_S32_S1_11 : ∀ a, (![11] : Fin 1 → Nat) a + S1.size a ≤ S32.size a
  inb_S4096x2048_S128x2048_1792_0 : ∀ a, (![1792, 0] : Fin 2 → Nat) a + S128x2048.size a ≤ S4096x2048.size a
  inb_S32_S1_12 : ∀ a, (![12] : Fin 1 → Nat) a + S1.size a ≤ S32.size a
  inb_S4096x2048_S128x2048_1920_0 : ∀ a, (![1920, 0] : Fin 2 → Nat) a + S128x2048.size a ≤ S4096x2048.size a
  inb_S32_S1_13 : ∀ a, (![13] : Fin 1 → Nat) a + S1.size a ≤ S32.size a
  inb_S4096x2048_S128x2048_2048_0 : ∀ a, (![2048, 0] : Fin 2 → Nat) a + S128x2048.size a ≤ S4096x2048.size a
  inb_S32_S1_14 : ∀ a, (![14] : Fin 1 → Nat) a + S1.size a ≤ S32.size a
  inb_S4096x2048_S128x2048_2176_0 : ∀ a, (![2176, 0] : Fin 2 → Nat) a + S128x2048.size a ≤ S4096x2048.size a
  inb_S32_S1_15 : ∀ a, (![15] : Fin 1 → Nat) a + S1.size a ≤ S32.size a
  inb_S4096x2048_S128x2048_2304_0 : ∀ a, (![2304, 0] : Fin 2 → Nat) a + S128x2048.size a ≤ S4096x2048.size a
  inb_S32_S1_16 : ∀ a, (![16] : Fin 1 → Nat) a + S1.size a ≤ S32.size a
  inb_S4096x2048_S128x2048_2432_0 : ∀ a, (![2432, 0] : Fin 2 → Nat) a + S128x2048.size a ≤ S4096x2048.size a
  inb_S32_S1_17 : ∀ a, (![17] : Fin 1 → Nat) a + S1.size a ≤ S32.size a
  inb_S4096x2048_S128x2048_2560_0 : ∀ a, (![2560, 0] : Fin 2 → Nat) a + S128x2048.size a ≤ S4096x2048.size a
  inb_S32_S1_18 : ∀ a, (![18] : Fin 1 → Nat) a + S1.size a ≤ S32.size a
  inb_S4096x2048_S128x2048_2688_0 : ∀ a, (![2688, 0] : Fin 2 → Nat) a + S128x2048.size a ≤ S4096x2048.size a
  inb_S32_S1_19 : ∀ a, (![19] : Fin 1 → Nat) a + S1.size a ≤ S32.size a
  inb_S4096x2048_S128x2048_2816_0 : ∀ a, (![2816, 0] : Fin 2 → Nat) a + S128x2048.size a ≤ S4096x2048.size a
  inb_S32_S1_20 : ∀ a, (![20] : Fin 1 → Nat) a + S1.size a ≤ S32.size a
  inb_S4096x2048_S128x2048_2944_0 : ∀ a, (![2944, 0] : Fin 2 → Nat) a + S128x2048.size a ≤ S4096x2048.size a
  inb_S32_S1_21 : ∀ a, (![21] : Fin 1 → Nat) a + S1.size a ≤ S32.size a
  inb_S4096x2048_S128x2048_3072_0 : ∀ a, (![3072, 0] : Fin 2 → Nat) a + S128x2048.size a ≤ S4096x2048.size a
  inb_S32_S1_22 : ∀ a, (![22] : Fin 1 → Nat) a + S1.size a ≤ S32.size a
  inb_S4096x2048_S128x2048_3200_0 : ∀ a, (![3200, 0] : Fin 2 → Nat) a + S128x2048.size a ≤ S4096x2048.size a
  inb_S32_S1_23 : ∀ a, (![23] : Fin 1 → Nat) a + S1.size a ≤ S32.size a
  inb_S4096x2048_S128x2048_3328_0 : ∀ a, (![3328, 0] : Fin 2 → Nat) a + S128x2048.size a ≤ S4096x2048.size a
  inb_S32_S1_24 : ∀ a, (![24] : Fin 1 → Nat) a + S1.size a ≤ S32.size a
  inb_S4096x2048_S128x2048_3456_0 : ∀ a, (![3456, 0] : Fin 2 → Nat) a + S128x2048.size a ≤ S4096x2048.size a
  inb_S32_S1_25 : ∀ a, (![25] : Fin 1 → Nat) a + S1.size a ≤ S32.size a
  inb_S4096x2048_S128x2048_3584_0 : ∀ a, (![3584, 0] : Fin 2 → Nat) a + S128x2048.size a ≤ S4096x2048.size a
  inb_S32_S1_26 : ∀ a, (![26] : Fin 1 → Nat) a + S1.size a ≤ S32.size a
  inb_S4096x2048_S128x2048_3712_0 : ∀ a, (![3712, 0] : Fin 2 → Nat) a + S128x2048.size a ≤ S4096x2048.size a
  inb_S32_S1_27 : ∀ a, (![27] : Fin 1 → Nat) a + S1.size a ≤ S32.size a
  inb_S4096x2048_S128x2048_3840_0 : ∀ a, (![3840, 0] : Fin 2 → Nat) a + S128x2048.size a ≤ S4096x2048.size a
  inb_S32_S1_28 : ∀ a, (![28] : Fin 1 → Nat) a + S1.size a ≤ S32.size a
  inb_S4096x2048_S128x2048_3968_0 : ∀ a, (![3968, 0] : Fin 2 → Nat) a + S128x2048.size a ≤ S4096x2048.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  hcc0_scratch2 : 0 + S2.numel ≤ 68
  hcc0_scratch3 : 2 + S2.numel ≤ 68
  hcc0_scratch4 : 4 + S32.numel ≤ 68
  hcc0_scratch5 : 36 + S32.numel ≤ 68
  k0_dev1_lt : ∀ d0 : Dev nD, (k0_dev1 d0) < nD
  k0_off1_inb : ∀ d0 : Dev nD, ∀ (r : Fin 32), ∀ a, (k0_off1 d0 (BitVec.ofNat 32 (128 * r.val))) a + S128x1024.size a ≤ S8192x1024.size a
  k0_off2_inb : ∀ d0 : Dev nD, ∀ a, (k0_off2 d0) a + S1x1x128x1024.size a ≤ S2x2x128x1024.size a
  k0_off2_wordsbf16 : ∀ d0 : Dev nD, (Rect.unit (s := S2x2x128x1024) (k0_off2 d0) S1x1x128x1024.size (k0_off2_inb d0)).WholeWords (EltTy.packing .bf16)
  k0_off1_wordsbf16 : ∀ d0 : Dev nD, ∀ (r : Fin 32), (Rect.unit (s := S8192x1024) (k0_off1 d0 (BitVec.ofNat 32 (128 * r.val))) S128x1024.size (k0_off1_inb d0 r)).WholeWords (EltTy.packing .bf16)
  k0_dev2_lt : ∀ d0 : Dev nD, (k0_dev2 d0) < nD
  k0_off3_inb : ∀ d0 : Dev nD, ∀ a, (k0_off3 d0) a + S1x1x128x1024.size a ≤ S2x2x128x1024.size a
  k0_off3_wordsbf16 : ∀ d0 : Dev nD, (Rect.unit (s := S2x2x128x1024) (k0_off3 d0) S1x1x128x1024.size (k0_off3_inb d0)).WholeWords (EltTy.packing .bf16)
  k0_off4_inb : ∀ d0 : Dev nD, ∀ a, (k0_off4 d0) a + S1x1x128x1024.size a ≤ S2x2x128x1024.size a
  k0_off4_wordsbf16 : ∀ d0 : Dev nD, (Rect.unit (s := S2x2x128x1024) (k0_off4 d0) S1x1x128x1024.size (k0_off4_inb d0)).WholeWords (EltTy.packing .bf16)
  k0_dev3_lt : ∀ d0 : Dev nD, (k0_dev3 d0) < nD
  k0_off5_inb : ∀ d0 : Dev nD, ∀ a, (k0_off5 d0) a + S1x1x128x1024.size a ≤ S2x2x128x1024.size a
  k0_off5_wordsbf16 : ∀ d0 : Dev nD, (Rect.unit (s := S2x2x128x1024) (k0_off5 d0) S1x1x128x1024.size (k0_off5_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD

variable [Facts₀]

abbrev cc0_scratch2 : DmaSems sig S2 := SemArray.consecutive 0 S2 hcc0_scratch2
abbrev cc0_scratch3 : DmaSems sig S2 := SemArray.consecutive 2 S2 hcc0_scratch3
abbrev cc0_scratch4 : DmaSems sig S32 := SemArray.consecutive 4 S32 hcc0_scratch4
abbrev cc0_scratch5 : DmaSems sig S32 := SemArray.consecutive 36 S32 hcc0_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.A2A.Spec.lean ====
import Idealize.ShloMosaic.PureOps
import Idealize.ShloMosaic.Lib.ValueIdx

noncomputable section

namespace Cert.A2ASpec

open Idealize.ShloMosaic

abbrev SX : Shape := ⟨2, ![4096, 2048]⟩
abbrev SO : Shape := ⟨2, ![8192, 1024]⟩

def peer (c : Fin 16) : Fin 16 := ⟨(c.val + 8) % 16, Nat.mod_lt _ (by decide)⟩

theorem peer_peer (c : Fin 16) : peer (peer c) = c := by revert c; decide
theorem peer_ne (c : Fin 16) : peer c ≠ c := by revert c; decide

def mxOf (c : Fin 16) : Fin 2 := ⟨c.val / 8, by have := c.isLt; omega⟩

def src (mx : Fin 2) (i : SO.Idx) : SX.Idx :=
  ValueIdx.ix2 (⟨(i 0).val % 4096, Nat.mod_lt _ (by decide)⟩ : Fin 4096)
    (⟨1024 * mx.val + (i 1).val, by have := ValueIdx.idx2_lt1 i; have := mx.isLt; omega⟩ : Fin 2048)

/-- Row `g` of a device's result lies in its own row block when `g / 4096` is its first coordinate, else in its partner's. -/
def outFn {F : FTy → Type} [FloatOps F] (mx : Fin 2) (xc xp : FVec F SX .f32) : FVec F SO .bf16 :=
  fun i => FloatOps.truncf .bf16 (by decide) (if (i 0).val / 4096 = mx.val then xc (src mx i) else xp (src mx i))

end Cert.A2ASpec

end
-- ==== Proof.A2A.Proto.lean ====
import proofs.«900634_g7700000000000635_dist_a2a_v7x_xyz2x2x4_x_m4096_n1024_bf16_1_alg».proof.Proof.Gen.KernelIdeal
import proofs.«900634_g7700000000000635_dist_a2a_v7x_xyz2x2x4_x_m4096_n1024_bf16_1_alg».proof.Proof.Gen.KernelIdeal.Skeleton
import proofs.«900634_g7700000000000635_dist_a2a_v7x_xyz2x2x4_x_m4096_n1024_bf16_1_alg».proof.Proof.Gen.KernelIdeal.Launch
import proofs.«900634_g7700000000000635_dist_a2a_v7x_xyz2x2x4_x_m4096_n1024_bf16_1_alg».proof.Proof.Gen.KernelIdeal.Points
import proofs.«900634_g7700000000000635_dist_a2a_v7x_xyz2x2x4_x_m4096_n1024_bf16_1_alg».proof.Proof.A2A.Spec
import Idealize.ShloMosaic.Lib.Pipeline.Launch
import Idealize.ShloMosaic.Lib.Pipeline.Kit
import Idealize.ShloMosaic.Lib.Tactic

noncomputable section

namespace Cert.KernelIdeal.A2A
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UX : Type := UR sig nD τ × Counters
abbrev UU : Type := UR sig nD τ × UX

local notation "𝕄" => MT nD τ sig Unit (Elt F) ℕ UU ℕ

abbrev EP : Emb (UR sig nD τ) (MT nD τ sig Unit (Elt F) ℕ UU ℕ) := embL

def ER : Emb (UR sig nD τ) (MT nD τ sig Unit (Elt F) ℕ UU ℕ) :=
  (Emb.inl : Emb (UR sig nD τ) UX).trans (embR : Emb UX (MT nD τ sig Unit (Elt F) ℕ UU ℕ))

instance ER_landsIn : (ER : Emb (UR sig nD τ) (MT nD τ sig Unit (Elt F) ℕ UU ℕ)).LandsIn (upEmb : UEmb _ (MT nD τ sig Unit (Elt F) ℕ UU ℕ)) := by
  unfold ER; infer_instance

variable (m : (ℓ : Loc nD τ sig) → Buf (Elt F) ℓ) (ρ : Dev nD → PrngReg)

abbrev peer (c : Dev nD) : Dev nD := Cert.A2ASpec.peer c
abbrev mxOf (c : Dev nD) : Fin 2 := Cert.A2ASpec.mxOf c

theorem peer_peer (c : Dev nD) : peer (peer c) = c := Cert.A2ASpec.peer_peer c

def swap : Dev nD ≃ Dev nD := ⟨peer, peer, peer_peer, peer_peer⟩

theorem dev_closed (c : Dev nD) : (4 * ((c.val / 4) % 2) + (c.val % 4) + 8) - 8 * (c.val / 8) = (peer c).val := by
  revert c; decide

open Lean Elab Command in
elab "peer_equations" : command => do
  for i in [1:34] do
    let thm := mkIdent (Name.mkSimple s!"dev{i}_eq")
    let dv := mkIdent (Name.mkSimple s!"k0_dev{i}")
    let lt := mkIdent (Name.mkSimple s!"k0_dev{i}_lt")
    let eq := mkIdent (Name.mkSimple s!"k0_dev{i}_eq")
    elabCommand (← `(theorem $thm (c : Dev nD) : (⟨$dv c, $lt c⟩ : Dev nD) = peer c := Fin.ext (($eq c).trans (dev_closed c))))

peer_equations

abbrev xM : Memref sig .tc .hbm S4096x2048 .f32 := Memref.whole main_arg0
abbrev oM : Memref sig .tc .hbm S8192x1024 .bf16 := Memref.whole main_v1
abbrev stM : Memref sig .tc .vmem S2x128x2048 .f32 := Memref.whole cc0_scratch0
abbrev cvM : Memref sig .tc .vmem S2x2x128x1024 .bf16 := Memref.whole cc0_scratch1
abbrev rowWord (k : Fin 32) : BitVec 32 := BitVec.ofNat 32 (128 * k.val)
abbrev outSl (d : Dev nD) (k : Fin 32) : Memref sig .tc .hbm S128x1024 .bf16 :=
  oM.slice (Rect.unit (s := S8192x1024) (k0_off1 d (rowWord k)) S128x1024.size (k0_off1_inb d k)) (fun _ => rfl)

abbrev cvSl (off : Fin 4 → Nat) (h : ∀ a, off a + S1x1x128x1024.size a ≤ S2x2x128x1024.size a) : Memref sig .tc .vmem S128x1024 .bf16 :=
  (cvM.slice (Rect.unit (s := S2x2x128x1024) off S1x1x128x1024.size h) (fun _ => rfl)).squeeze S128x1024 squeezes_S1x1x128x1024_S128x1024

abbrev cvO0 (d : Dev nD) : Memref sig .tc .vmem S128x1024 .bf16 := cvSl (k0_off2 d) (k0_off2_inb d)
abbrev cvO1 (d : Dev nD) : Memref sig .tc .vmem S128x1024 .bf16 := cvSl (k0_off4 d) (k0_off4_inb d)

def cvO (d : Dev nD) (k : Fin 32) : Memref sig .tc .vmem S128x1024 .bf16 := if k.val % 2 = 0 then cvO0 d else cvO1 d

theorem inb32 (k : Fin 32) : ∀ a, (![k.val] : Fin 1 → Nat) a + S1.size a ≤ S32.size a :=
  Rect.inb₁ k.isLt

abbrev barS : Sem sig := (SemArray.scalar (sig.barrier 0 rfl) : Sems sig S_).sem
abbrev sendS (k : Fin 32) : DmaSem sig := ((cc0_scratch4.slice (Rect.unit (s := S32) ![k.val] S1.size (inb32 k))).squeeze S_ squeezes_S1_S_).sem
abbrev recvS (k : Fin 32) : DmaSem sig := ((cc0_scratch5.slice (Rect.unit (s := S32) ![k.val] S1.size (inb32 k))).squeeze S_ squeezes_S1_S_).sem

private theorem cell0 : ((Shape.reshapeEquiv (squeezes_S1_S_).numel_eq (fun i : Fin 0 => i.elim0) : S1.Idx) 0).val < 1 :=
  ((Shape.reshapeEquiv (squeezes_S1_S_).numel_eq (fun i : Fin 0 => i.elim0) : S1.Idx) 0).isLt

private theorem cell_val (b : ℕ) (hb : b + S32.numel ≤ 68) (k : Fin 32) :
    (((SemArray.consecutive b S32 hb : DmaSems sig S32).slice (Rect.unit (s := S32) ![k.val] S1.size (inb32 k))).squeeze S_ squeezes_S1_S_).sem.val = b + k.val := by
  simp only [SemArray.sem, SemArray.ix_squeeze, SemArray.ix_slice, SemArray.consecutive]
  rw [Shape.rowMajor_val_one, Rect.emb_apply]
  have h := cell0
  simp only [Rect.off_unit, Rect.stride_unit, Matrix.cons_val_zero, Nat.one_mul]
  omega

theorem sendS_val (k : Fin 32) : (sendS k).val = 4 + k.val := cell_val 4 _ k
theorem recvS_val (k : Fin 32) : (recvS k).val = 36 + k.val := cell_val 36 _ k

abbrev barCell (c : Dev nD) : GSem nD τ sig := ((c : Thread nD τ), .reg barS)
abbrev sendCell (c : Dev nD) (k : Fin 32) : GSem nD τ sig := ((c : Thread nD τ), .dma (sendS k))
abbrev recvCell (c : Dev nD) (k : Fin 32) : GSem nD τ sig := ((c : Thread nD τ), .dma (recvS k))
abbrev N : ℕ := (outSl (0 : Dev nD) (0 : Fin 32)).view.amount (.dma (recvS 0))

theorem N_pos : 0 < N := View.dmaCredit_pos _ (by decide)
theorem amount_outSl (d : Dev nD) (k : Fin 32) (q : DmaSem sig) : (outSl d k).view.amount (.dma q) = N := rfl

def Xc (c : Dev nD) : FVec F Cert.A2ASpec.SX .f32 := m ((c : Thread nD τ).loc main_arg0)
def outC (c : Dev nD) : Buf (Elt F) ((c : Thread nD τ).loc main_v1) :=
  Cert.A2ASpec.outFn (F := F) (mxOf c) (Xc m c) (Xc m (peer c))

def slPts (t d : Dev nD) (k : Fin 32) (f : Buf (Elt F) ((outSl d k).view.loc (t : Thread nD τ))) : sProp 𝕄 :=
  (outSl d k).view.loc (t : Thread nD τ) ↦[(outSl d k).view.set]{fullShare} f

def cvPts (c : Dev nD) (M : Memref sig .tc .vmem S128x1024 .bf16) (f : Buf (Elt F) (M.view.loc (c : Thread nD τ))) : sProp 𝕄 :=
  M.view.loc (c : Thread nD τ) ↦[M.view.set]{fullShare} f

def barPay (c : Dev nD) : sProp 𝕄 :=
  bigSep Finset.univ fun k : Fin 32 => iprop((∃ f, slPts (F := F) (peer c) c k f) ∗ reached ER (recvCell (peer c) k) 0)

def recvPay (c : Dev nD) (k : Fin 32) : sProp 𝕄 := slPts c (peer c) k (outC m c)
def sendPay (c : Dev nD) (k : Fin 32) : sProp 𝕄 := iprop(∃ f, cvPts (F := F) c (cvO c k) f)

abbrev IsCell (g : GSem nD τ sig) : Prop := g.1.2 = .tc ∧ (g.2 = .reg barS ∨ ∃ q : DmaSem sig, g.2 = .dma q ∧ 4 ≤ q.val)

instance (g : GSem nD τ sig) : Decidable (IsCell g) := by unfold IsCell; infer_instance

def Rd : Rounds.Schedule (GSem nD τ sig) Unit 𝕄 where
  duties g r := if r = 0 ∧ IsCell g then {()} else ∅
  unitless _ := False
  amount g _ _ := if g.2 = .reg barS then 1 else N
  payload g _ _ := match g.2 with
    | .reg _ => barPay g.1.1
    | .dma q =>
      if h : 36 ≤ q.val then recvPay m g.1.1 ⟨q.val - 36, by have : q.val < 68 := q.isLt; omega⟩
      else if h4 : 4 ≤ q.val then sendPay g.1.1 ⟨q.val - 4, by omega⟩
      else iprop(emp)
  amount_pos g _ _ _ := by
    by_cases h : g.2 = .reg barS
    · rw [if_pos h]; exact Nat.one_pos
    · rw [if_neg h]; exact N_pos

instance Rd_payload_storable (g : GSem nD τ sig) (r : ℕ) (d : Unit) : BI.Storable (upEmb : UEmb _ 𝕄) ((Rd (F := F) m).payload g r d) := by
  dsimp only [Rd]
  unfold barPay recvPay sendPay slPts cvPts
  (repeat' split) <;> infer_instance

section Sched

variable (c : Dev nD) (k : Fin 32)

private theorem send_idx (h : (sendS k).val - 4 < 32) : (⟨(sendS k).val - 4, h⟩ : Fin 32) = k :=
  Fin.ext (by show (sendS k).val - 4 = k.val; rw [sendS_val]; omega)

private theorem recv_idx (h : (recvS k).val - 36 < 32) : (⟨(recvS k).val - 36, h⟩ : Fin 32) = k :=
  Fin.ext (by show (recvS k).val - 36 = k.val; rw [recvS_val]; omega)

theorem duties_bar : (Rd (F := F) m).duties (barCell c) 0 = {()} := by
  dsimp only [Rd]; exact if_pos ⟨rfl, rfl, .inl rfl⟩
theorem duties_send : (Rd (F := F) m).duties (sendCell c k) 0 = {()} :=
  if_pos ⟨rfl, rfl, .inr ⟨_, rfl, by rw [sendS_val]; omega⟩⟩

theorem duties_recv : (Rd (F := F) m).duties (recvCell c k) 0 = {()} :=
  if_pos ⟨rfl, rfl, .inr ⟨_, rfl, by rw [recvS_val]; omega⟩⟩

theorem duties_later (g : GSem nD τ sig) : ∀ r, 1 ≤ r → (Rd (F := F) m).duties g r = ∅ :=
  fun r hr => if_neg fun h => by omega

theorem amount_bar (d : Unit) : (Rd (F := F) m).amount (barCell c) 0 d = 1 := by
  dsimp only [Rd]; exact if_pos rfl
theorem amount_send (d : Unit) : (Rd (F := F) m).amount (sendCell c k) 0 d = N := by
  dsimp only [Rd]; exact if_neg (fun h => by cases h)
theorem amount_recv (d : Unit) : (Rd (F := F) m).amount (recvCell c k) 0 d = N := by
  dsimp only [Rd]; exact if_neg (fun h => by cases h)
theorem expect_bar : (Rd (F := F) m).expect (barCell c) 0 = 1 := by
  unfold Schedule.expect Schedule.amountOf; rw [duties_bar, Finset.sum_singleton, amount_bar]

theorem expect_send : (Rd (F := F) m).expect (sendCell c k) 0 = N := by
  unfold Schedule.expect Schedule.amountOf; rw [duties_send, Finset.sum_singleton, amount_send]

theorem expect_recv : (Rd (F := F) m).expect (recvCell c k) 0 = N := by
  unfold Schedule.expect Schedule.amountOf; rw [duties_recv, Finset.sum_singleton, amount_recv]

theorem payload_bar (d : Unit) : (Rd (F := F) m).payload (barCell c) 0 d = barPay c := rfl
theorem payload_send (d : Unit) : (Rd (F := F) m).payload (sendCell c k) 0 d = sendPay c k := by
  dsimp only [Rd]
  have h36 : ¬ 36 ≤ (sendS k).val := by rw [sendS_val]; omega
  have h4 : 4 ≤ (sendS k).val := by rw [sendS_val]; omega
  rw [dif_neg h36, dif_pos h4, send_idx]

theorem payload_recv (d : Unit) : (Rd (F := F) m).payload (recvCell c k) 0 d = recvPay m c k := by
  dsimp only [Rd]
  have h36 : 36 ≤ (recvS k).val := by rw [recvS_val]; omega
  rw [dif_pos h36, recv_idx]

end Sched

def owedRecv (c : Dev nD) : CellTallies nD τ sig Unit := ∑ k : Fin 32, tallyAt (recvCell (peer c) k) () N
def O₀ (c : Dev nD) : CellTallies nD τ sig Unit := owedRecv c + tallyAt (barCell (peer c)) () 1
def L (g : GSem nD τ sig) : Finset Unit := if g.1.2 = .tc then {()} else ∅
def lv (g : GSem nD τ sig) (_ : Unit) : ℕ :=
  match g.2 with
  | .reg _ => 1
  | .dma q => if 36 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.A2A

end
-- ==== Proof.A2A.Data.lean ====
import proofs.«900634_g7700000000000635_dist_a2a_v7x_xyz2x2x4_x_m4096_n1024_bf16_1_alg».proof.Proof.A2A.Proto

noncomputable section

namespace Cert.KernelIdeal.A2A
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem inb2 (s : Fin 2) : ∀ a, (![s.val] : Fin 1 → Nat) a + S1.size a ≤ S2.size a :=
  Rect.inb₁ s.isLt

abbrev copyS (s : Fin 2) : DmaSem sig := ((cc0_scratch2.slice (Rect.unit (s := S2) ![s.val] S1.size (inb2 s))).squeeze S_ squeezes_S1_S_).sem
abbrev locS (s : Fin 2) : DmaSem sig := ((cc0_scratch3.slice (Rect.unit (s := S2) ![s.val] S1.size (inb2 s))).squeeze S_ squeezes_S1_S_).sem

def locals0 (c : Dev nD) : sProp 𝕄 :=
  iprop(semVal ((c : Thread nD τ), .dma (copyS 0)) 0 ∗ semVal ((c : Thread nD τ), .dma (copyS 1)) 0
    ∗ semVal ((c : Thread nD τ), .dma (locS 0)) 0 ∗ semVal ((c : Thread nD τ), .dma (locS 1)) 0)

def OnlyRecv (O : CellTallies nD τ sig Unit) : Prop :=
  ∀ g u, 0 < O g u → g.1.2 = .tc ∧ ∃ q : DmaSem sig, g.2 = .dma q ∧ 36 ≤ q.val

theorem OnlyRecv.zero : OnlyRecv (0 : CellTallies nD τ sig Unit) :=
  fun _ _ h => absurd h (Nat.lt_irrefl 0)

theorem OnlyRecv.tally (d : Dev nD) (k : Fin 32) (n : ℕ) : OnlyRecv (tallyAt (recvCell d k) () n) := by
  intro g u h
  rw [tallyAt_apply] at h
  by_cases hg : g = recvCell d k ∧ u = ()
  · rw [hg.1]; exact ⟨rfl, recvS k, rfl, by rw [recvS_val]; omega⟩
  · rw [if_neg hg] at h; exact absurd h (Nat.lt_irrefl 0)

theorem OnlyRecv.add {A B : CellTallies nD τ sig Unit} (hA : OnlyRecv A) (hB : OnlyRecv B) : OnlyRecv (A + B) := by
  intro g u h
  rw [Pi.add_apply, Finsupp.add_apply] at h
  exact (Nat.eq_zero_or_pos (A g u)).elim (fun h0 => hB g u (by omega)) (hA g u)

theorem mayWait_low (c : Dev nD) (sm : SemLoc sig) (O : CellTallies nD τ sig Unit)
    (hsm : lv ((c : Thread nD τ), sm) () ≤ 1) (hO : OnlyRecv O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => by
      obtain ⟨_, q, hq, h36⟩ := hO g u hg
      rcases g with ⟨t, s⟩
      dsimp only at hq
      subst hq
      show 1 < (if 36 ≤ q.val then 2 else 0)
      rw [if_pos h36]; decide)

def invs (Kb : Dev nD → ℕ) (Ks Kr : Dev nD → Fin 32 → ℕ) (c : Dev nD) : sProp 𝕄 :=
  iprop(cellInv ER (Rd m) (Kb c) (barCell c) ∗ cellInv ER (Rd m) (Kb (peer c)) (barCell (peer c))
    ∗ bigSep Finset.univ fun k : Fin 32 =>
        iprop(cellInv ER (Rd m) (Ks c k) (sendCell c k) ∗ cellInv ER (Rd m) (Kr c k) (recvCell c k)
          ∗ cellInv ER (Rd m) (Kr (peer c) k) (recvCell (peer c) k)))

instance invs_persistent (Kb : Dev nD → ℕ) (Ks Kr : Dev nD → Fin 32 → ℕ) (c : Dev nD) : BI.Persistent (invs m Kb Ks Kr c) := by
  unfold invs; infer_instance

def ghost (Kb : Dev nD → ℕ) (Ks Kr : Dev nD → Fin 32 → ℕ) (c : Dev nD) : sProp 𝕄 :=
  iprop(invs m Kb Ks Kr c
    ∗ atPos ER (barCell c) 0 ∅ 0 ∗ reached ER (barCell (peer c)) 0 ∗ dutyTok ER (barCell (peer c)) 0 ()
    ∗ bigSep Finset.univ fun k : Fin 32 =>
        iprop(atPos ER (sendCell c k) 0 ∅ 0 ∗ atPos ER (recvCell c k) 0 ∅ 0
          ∗ reached ER (sendCell c k) 0 ∗ reached ER (recvCell c k) 0
          ∗ dutyTok ER (sendCell c k) 0 () ∗ dutyTok ER (recvCell (peer c) k) 0 ()))

def start (c : Dev nD) : sProp 𝕄 :=
  iprop((∃ Kb Ks Kr, ghost m Kb Ks Kr c) ∗ cred (tallyAt (barCell c) () 1)
    ∗ (bigSep Finset.univ fun k : Fin 32 => cred (tallyAt (recvCell c k) () N)) ∗ levAts L lv ∗ locals0 c)

def Φ₀ (c : Dev nD) : sProp 𝕄 :=
  iprop(start m c
    ∗ (xM.view.loc (c : Thread nD τ) ↦{fullShare} m ((c : Thread nD τ).loc main_arg0))
    ∗ (∃ f, oM.view.loc (c : Thread nD τ) ↦{fullShare} f)
    ∗ (∃ f, stM.view.loc (c : Thread nD τ) ↦{fullShare} f) ∗ (∃ f, cvM.view.loc (c : Thread nD τ) ↦{fullShare} f))

def Φ₁ (c : Dev nD) : sProp 𝕄 :=
  iprop((xM.view.loc (c : Thread nD τ) ↦{fullShare} m ((c : Thread nD τ).loc main_arg0))
    ∗ (oM.view.loc (c : Thread nD τ) ↦{fullShare} outC m c)
    ∗ (∃ f, stM.view.loc (c : Thread nD τ) ↦{fullShare} f) ∗ (∃ f, cvM.view.loc (c : Thread nD τ) ↦{fullShare} f)
    ∗ locals0 c
    ∗ bigSep Finset.univ fun k : Fin 32 => iprop(semVal (sendCell c k) 0 ∗ semVal (recvCell c k) 0))

theorem cfg0_N : cfg0.N = 1 := by decide

def t₀ : Fin cfg0.N := ⟨0, by rw [cfg0_N]; decide⟩

theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.KernelIdeal.A2A

end
-- ==== Proof.A2A.Send.lean ====
import proofs.«900634_g7700000000000635_dist_a2a_v7x_xyz2x2x4_x_m4096_n1024_bf16_1_alg».proof.Proof.A2A.Data

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem payload_recv_peer (c : Dev nD) (k : Fin 32) (d : Unit) :
    (Rd (F := F) m).payload (recvCell (peer c) k) 0 d = slPts (peer c) c k (outC m (peer c)) := by
  rw [payload_recv]; unfold recvPay; rw [peer_peer]

/-- Chunk k's transfer: the departure pays the device's send cell with the half-slot read, the landing pays the partner's receive cell with the slab, which then holds the partner's final entries. -/
theorem wp_send_ch (c : Dev nD) (k : Fin 32) {κ₁ κ₂ : ℕ}
    {offS : Fin 4 → Nat} {hbS : ∀ a, offS a + S1x1x128x1024.size a ≤ S2x2x128x1024.size a}
    (offD : Fin 2 → Nat) (hbD : ∀ a, offD a + S128x1024.size a ≤ S8192x1024.size a)
    (hS : cvO c k = cvSl offS hbS)
    (hD : slPts (F := F) (peer c) c k (outC m (peer c))
      = ((oM.slice (Rect.unit (s := S8192x1024) offD S128x1024.size hbD) (fun _ => rfl)).view.loc (peer c : Thread nD τ) ↦[(oM.slice (Rect.unit (s := S8192x1024) offD S128x1024.size hbD) (fun _ => rfl)).view.set]{fullShare} outC m (peer c)))
    {hsc : ((oM.slice (Rect.unit (s := S8192x1024) offD S128x1024.size hbD) (fun _ => rfl)) : Memref sig (Dev.tc (peer c) : Thread nD τ).2.kind .hbm S128x1024 .bf16).view.ref.isScScratch = false}
    {hsrc : (cvSl offS hbS).view.WordExact} {hdst : (oM.slice (Rect.unit (s := S8192x1024) offD S128x1024.size hbD) (fun _ => rfl)).view.WordExact}
    {hsem : DmaTarget.Typed .vmem (.dma (recvS k)) (.remote (Dev.tc (peer c) : Thread nD τ) (oM.slice (Rect.unit (s := S8192x1024) offD S128x1024.size hbD) (fun _ => rfl)) (.dma (sendS k)) hsc)}
    {α : Type} {Q : α → sProp 𝕄} {kont : PUnit → Prog (TpuEff nD τ sig (Elt F) Λ₀ .tc) α}
    (fs : Buf (Elt F) (cvM.view.loc (c : Thread nD τ))) (fd : Buf (Elt F) (oM.view.loc (peer c : Thread nD τ)))
    (hval : ∀ i ∈ (oM.slice (Rect.unit (s := S8192x1024) offD S128x1024.size hbD) (fun _ => rfl)).view.set,
      (oM.slice (Rect.unit (s := S8192x1024) offD S128x1024.size hbD) (fun _ => rfl)).view.write (Elt F) fd ((cvSl offS hbS).view.read (Elt F) fs) Finset.univ i = outC m (peer c) i)
    {W : Waits sig Unit} {O : CellTallies nD τ sig Unit} :
    iprop(cellInv ER (Rd m) κ₁ (sendCell c k) ∗ cellInv ER (Rd m) κ₂ (recvCell (peer c) k)
        ∗ ((cvSl offS hbS).view.loc (c : Thread nD τ) ↦[(cvSl offS hbS).view.set]{fullShare} fs)
        ∗ ((oM.slice (Rect.unit (s := S8192x1024) offD S128x1024.size hbD) (fun _ => rfl)).view.loc (peer c : Thread nD τ) ↦[(oM.slice (Rect.unit (s := S8192x1024) offD S128x1024.size hbD) (fun _ => rfl)).view.set]{fullShare} fd)
        ∗ owes (c : Thread nD τ) (O + tallyAt (recvCell (peer c) k) () N) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (cvSl offS hbS) (.remote (Dev.tc (peer c) : Thread nD τ) (oM.slice (Rect.unit (s := S8192x1024) offD S128x1024.size hbD) (fun _ => rfl)) (.dma (sendS k)) hsc) (.dma (recvS k)) hsrc hdst hsem) kont) Q) :=
  Rounds.wp_send_pointsTo 𝒱₀ ER (Rd m) (c : Thread nD τ) none (κ₁ := κ₁) (κ₂ := κ₂)
    (src := cvSl offS hbS) (dst := (oM.slice (Rect.unit (s := S8192x1024) offD S128x1024.size hbD) (fun _ => rfl))) (c' := (Dev.tc (peer c) : Thread nD τ)) (q := fullShare) (fs := fs)
    (r₁ := 0) (r₂ := 0) (d₁ := ()) (d₂ := ()) (fd := fd)
    (by rw [duties_send]; exact Finset.mem_singleton_self _) (by rw [duties_recv]; exact Finset.mem_singleton_self _)
    () () N rfl (amount_send m c k ()) (amount_recv m (peer c) k ()) O rfl (W := W)
    (by rw [payload_send]; unfold sendPay cvPts; rw [hS]; iintro H; iexists fs; iexact H)
    (by rw [payload_recv_peer, hD]; exact Entails.of_eq (pointsTo_congr hval))

end Cert.KernelIdeal.A2A

end
-- ==== Proof.A2A.Cut.lean ====
import proofs.«900634_g7700000000000635_dist_a2a_v7x_xyz2x2x4_x_m4096_n1024_bf16_1_alg».proof.Proof.A2A.Proto

noncomputable section

namespace Cert.KernelIdeal.A2A
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem pointsTo_cover {ℓ : Loc nD τ sig} {T : Type} [Fintype T] (K : T → Finset (Idx ℓ)) (f : Buf (Elt F) ℓ)
    (hcov : ∀ i : Idx ℓ, ∃ t, i ∈ K t) (hdis : ∀ t t', t ≠ t' → Disjoint (K t) (K t')) :
    (ℓ ↦{fullShare} f : sProp 𝕄) = bigSep Finset.univ fun t => (ℓ ↦[K t]{fullShare} f) := by
  have hU : (Finset.univ : Finset (Idx ℓ)) = Finset.univ.biUnion K :=
    (Finset.eq_univ_iff_forall.mpr fun i =>
      Finset.mem_biUnion.mpr ((hcov i).imp fun t ht => ⟨Finset.mem_univ t, ht⟩)).symm
  rw [hU]
  exact pointsTo_biUnion Finset.univ K fun t _ t' _ h => hdis t t' h

theorem xinb (k : Fin 32) : ∀ a, (![128 * k.val, 0] : Fin 2 → Nat) a + S128x2048.size a ≤ S4096x2048.size a :=
  Rect.inb₂ (by show 128 * k.val + 128 ≤ 4096; have := k.isLt; omega) (by show 0 + 2048 ≤ 2048; omega)

abbrev xSl (k : Fin 32) : Memref sig .tc .hbm S128x2048 .f32 :=
  xM.slice (Rect.unit (s := S4096x2048) ![128 * k.val, 0] S128x2048.size (xinb k)) (fun _ => rfl)

theorem mem_xSl (k : Fin 32) (i : S4096x2048.Idx) :
    i ∈ (xSl k).view.set ↔ 128 * k.val ≤ (i 0).val ∧ (i 0).val < 128 * k.val + 128 := by
  have hs : (xSl k).view.set = (Rect.unit (s := S4096x2048) ![128 * k.val, 0] S128x2048.size (xinb k)).set :=
    View.set_slice_whole main_arg0 _
  rw [hs, Rect.mem_set_unit]
  exact ⟨fun h => h 0, fun h => Fin.forall_fin_two.mpr
    ⟨h, Nat.zero_le _, by show (i 1).val < 0 + 2048; have := ValueIdx.idx2_lt1 i; omega⟩⟩

theorem x_cut (c : Dev nD) (X : Buf (Elt F) (xM.view.loc (c : Thread nD τ))) :
    (xM.view.loc (c : Thread nD τ) ↦{fullShare} X : sProp 𝕄)
      ⊣⊢ bigSep Finset.univ fun k : Fin 32 => ((xSl k).view.loc (c : Thread nD τ) ↦[(xSl k).view.set]{fullShare} X) := by
  refine BiEntails.of_eq (pointsTo_cover (F := F) (ℓ := xM.view.loc (c : Thread nD τ)) (fun k : Fin 32 => (xSl k).view.set) X ?_ ?_)
  · intro (i : S4096x2048.Idx)
    have hi : (i 0).val < 4096 := ValueIdx.idx2_lt0 i
    have hk : (i 0).val / 128 < 32 := by omega
    refine ⟨⟨(i 0).val / 128, hk⟩, ?_⟩
    show i ∈ (xSl ⟨(i 0).val / 128, hk⟩).view.set
    refine (mem_xSl ⟨(i 0).val / 128, hk⟩ i).mpr ?_
    show 128 * ((i 0).val / 128) ≤ (i 0).val ∧ (i 0).val < 128 * ((i 0).val / 128) + 128
    omega
  · intro k k' hne
    refine Finset.disjoint_left.mpr fun (i : S4096x2048.Idx) hi hi' => ?_
    have h1 := (mem_xSl k i).mp hi
    have h2 := (mem_xSl k' i).mp hi'
    have : k.val ≠ k'.val := fun e => hne (Fin.ext e)
    omega

theorem stinb (s : Fin 2) : ∀ a, (![s.val, 0, 0] : Fin 3 → Nat) a + S1x128x2048.size a ≤ S2x128x2048.size a := by
  intro a
  have hs := s.isLt
  match a with
  | ⟨0, _⟩ => show s.val + 1 ≤ 2; omega
  | ⟨1, _⟩ => show 0 + 128 ≤ 128; omega
  | ⟨2, _⟩ => show 0 + 2048 ≤ 2048; omega

abbrev stSl (s : Fin 2) : Memref sig .tc .vmem S128x2048 .f32 :=
  (stM.slice (Rect.unit (s := S2x128x2048) ![s.val, 0, 0] S1x128x2048.size (stinb s)) (fun _ => rfl)).squeeze S128x2048 squeezes_S1x128x2048_S128x2048

theorem mem_stSl (s : Fin 2) (i : S2x128x2048.Idx) : i ∈ (stSl s).view.set ↔ (i 0).val = s.val := by
  have hs : (stSl s).view.set = (Rect.unit (s := S2x128x2048) ![s.val, 0, 0] S1x128x2048.size (stinb s)).set :=
    (View.set_reshape _ _).trans (View.set_slice_whole cc0_scratch0 _)
  rw [hs, Rect.mem_set_unit]
  constructor
  · intro H
    have H0 : s.val ≤ (i 0).val ∧ (i 0).val < s.val + 1 := H 0
    omega
  · intro H a
    have h1 : (i 1).val < 128 := (i 1).isLt
    have h2 : (i 2).val < 2048 := (i 2).isLt
    match a with
    | ⟨0, _⟩ => show s.val ≤ (i 0).val ∧ (i 0).val < s.val + 1; omega
    | ⟨1, _⟩ => show 0 ≤ (i 1).val ∧ (i 1).val < 0 + 128; omega
    | ⟨2, _⟩ => show 0 ≤ (i 2).val ∧ (i 2).val < 0 + 2048; omega

theorem st_cut (c : Dev nD) (f : Buf (Elt F) (stM.view.loc (c : Thread nD τ))) :
    (stM.view.loc (c : Thread nD τ) ↦{fullShare} f : sProp 𝕄)
      ⊣⊢ iprop(((stSl 0).view.loc (c : Thread nD τ) ↦[(stSl 0).view.set]{fullShare} f) ∗ ((stSl 1).view.loc (c : Thread nD τ) ↦[(stSl 1).view.set]{fullShare} f)) := by
  refine BiEntails.of_eq ((pointsTo_cover (F := F) (ℓ := stM.view.loc (c : Thread nD τ))
    (fun s : Fin 2 => (stSl s).view.set) f ?_ ?_).trans (bigSep_univ_two _))
  · intro (i : S2x128x2048.Idx); exact ⟨i 0, (mem_stSl _ i).mpr rfl⟩
  · exact fun s s' hne => Finset.disjoint_left.mpr fun (i : S2x128x2048.Idx) hi hi' =>
      hne (Fin.ext (((mem_stSl s i).mp hi).symm.trans ((mem_stSl s' i).mp hi')))

theorem cvinb (s h : Fin 2) : ∀ a, (![s.val, h.val, 0, 0] : Fin 4 → Nat) a + S1x1x128x1024.size a ≤ S2x2x128x1024.size a := by
  intro a
  have hs := s.isLt
  have hh := h.isLt
  match a with
  | ⟨0, _⟩ => show s.val + 1 ≤ 2; omega
  | ⟨1, _⟩ => show h.val + 1 ≤ 2; omega
  | ⟨2, _⟩ => show 0 + 128 ≤ 128; omega
  | ⟨3, _⟩ => show 0 + 1024 ≤ 1024; omega

abbrev cvQ (s h : Fin 2) : Memref sig .tc .vmem S128x1024 .bf16 := cvSl ![s.val, h.val, 0, 0] (cvinb s h)

theorem mem_cvQ (s h : Fin 2) (i : S2x2x128x1024.Idx) :
    i ∈ (cvQ s h).view.set ↔ (i 0).val = s.val ∧ (i 1).val = h.val := by
  have hs : (cvQ s h).view.set
      = (Rect.unit (s := S2x2x128x1024) ![s.val, h.val, 0, 0] S1x1x128x1024.size (cvinb s h)).set :=
    (View.set_reshape _ _).trans (View.set_slice_whole cc0_scratch1 _)
  rw [hs, Rect.mem_set_unit]
  constructor
  · intro H
    have H0 : s.val ≤ (i 0).val ∧ (i 0).val < s.val + 1 := H 0
    have H1 : h.val ≤ (i 1).val ∧ (i 1).val < h.val + 1 := H 1
    omega
  · intro H a
    have h2 : (i 2).val < 128 := (i 2).isLt
    have h3 : (i 3).val < 1024 := (i 3).isLt
    match a with
    | ⟨0, _⟩ => show s.val ≤ (i 0).val ∧ (i 0).val < s.val + 1; omega
    | ⟨1, _⟩ => show h.val ≤ (i 1).val ∧ (i 1).val < h.val + 1; omega
    | ⟨2, _⟩ => show 0 ≤ (i 2).val ∧ (i 2).val < 0 + 128; omega
    | ⟨3, _⟩ => show 0 ≤ (i 3).val ∧ (i 3).val < 0 + 1024; omega

theorem cvQ_disjoint (c : Dev nD) (s h s' h' : Fin 2) (hne : s ≠ s' ∨ h ≠ h') :
    Disjoint (α := Finset (Idx (cvM.view.loc (c : Thread nD τ)))) (cvQ s h).view.set (cvQ s' h').view.set := by
  refine Finset.disjoint_left.mpr fun (i : S2x2x128x1024.Idx) hi hi' => ?_
  have h1 := (mem_cvQ s h i).mp hi
  have h2 := (mem_cvQ s' h' i).mp hi'
  rcases hne with hne | hne
  · exact hne (Fin.ext (by omega))
  · exact hne (Fin.ext (by omega))

theorem cv_cut (c : Dev nD) (f : Buf (Elt F) (cvM.view.loc (c : Thread nD τ))) :
    (cvM.view.loc (c : Thread nD τ) ↦{fullShare} f : sProp 𝕄)
      ⊣⊢ iprop(cvPts c (cvQ 0 0) f ∗ cvPts c (cvQ 0 1) f ∗ cvPts c (cvQ 1 0) f ∗ cvPts c (cvQ 1 1) f) := by
  refine BiEntails.of_eq ((pointsTo_cover (F := F) (ℓ := cvM.view.loc (c : Thread nD τ))
    (fun p : Fin 2 × Fin 2 => (cvQ p.1 p.2).view.set) f ?_ ?_).trans
    (bigSep_univ_eq_bigSepL [(0, 0), (0, 1), (1, 0), (1, 1)] (by decide) (by decide) _))
  · intro (i : S2x2x128x1024.Idx); exact ⟨(i 0, i 1), (mem_cvQ _ _ i).mpr ⟨rfl, rfl⟩⟩
  · exact fun p p' hne => cvQ_disjoint c _ _ _ _ (not_and_or.mp (mt Prod.ext_iff.mpr hne))

theorem mem_outSl (d : Dev nD) (k : Fin 32) (i : S8192x1024.Idx) :
    i ∈ (outSl d k).view.set
      ↔ 4096 * (d.val / 8) + 128 * k.val ≤ (i 0).val ∧ (i 0).val < 4096 * (d.val / 8) + 128 * k.val + 128 := by
  have hs : (outSl d k).view.set
      = (Rect.unit (s := S8192x1024) (k0_off1 d (BitVec.ofNat 32 (128 * k.val))) S128x1024.size (k0_off1_inb d k)).set :=
    View.set_slice_whole main_v1 _
  rw [hs, Rect.mem_set_unit, k0_off1_eq d k]
  exact ⟨fun h => h 0, fun h => Fin.forall_fin_two.mpr
    ⟨h, Nat.zero_le _, by show (i 1).val < 0 + 1024; have := ValueIdx.idx2_lt1 i; omega⟩⟩

theorem outSl_disjoint (c d d' : Dev nD) (k k' : Fin 32) (hne : d.val / 8 ≠ d'.val / 8 ∨ k ≠ k') :
    Disjoint (α := Finset (Idx (oM.view.loc (c : Thread nD τ)))) (outSl d k).view.set (outSl d' k').view.set := by
  refine Finset.disjoint_left.mpr fun (i : S8192x1024.Idx) hi hi' => ?_
  have h1 := (mem_outSl d k i).mp hi
  have h2 := (mem_outSl d' k' i).mp hi'
  have := k.isLt
  have := k'.isLt
  rcases hne with hne | hne
  · omega
  · exact hne (Fin.ext (by omega))

theorem out_cut (c : Dev nD) (f : Buf (Elt F) (oM.view.loc (c : Thread nD τ))) :
    (oM.view.loc (c : Thread nD τ) ↦{fullShare} f : sProp 𝕄)
      ⊣⊢ iprop((bigSep Finset.univ fun k : Fin 32 => slPts (F := F) c c k f) ∗ (bigSep Finset.univ fun k : Fin 32 => slPts (F := F) c (peer c) k f)) := by
  have hc : c.val < 16 := c.isLt
  have hp : (peer c).val = (c.val + 8) % 16 := rfl
  have hd : c.val / 8 ≠ (peer c).val / 8 := by omega
  refine BiEntails.of_eq ((pointsTo_cover (F := F) (ℓ := oM.view.loc (c : Thread nD τ))
    (Sum.elim (fun k : Fin 32 => (outSl c k).view.set) (fun k : Fin 32 => (outSl (peer c) k).view.set)) f ?_ ?_).trans
    (bigSep_univ_sum _))
  · intro (i : S8192x1024.Idx)
    have hi : (i 0).val < 8192 := ValueIdx.idx2_lt0 i
    have cov : ∀ d : Dev nD, (i 0).val / 4096 = d.val / 8 → ∃ k, i ∈ (outSl d k).view.set := fun d e =>
      ⟨⟨(i 0).val % 4096 / 128, by omega⟩, (mem_outSl d _ i).mpr (by dsimp only; omega)⟩
    by_cases hg : (i 0).val / 4096 = c.val / 8
    · obtain ⟨k, hk⟩ := cov c hg; exact ⟨.inl k, hk⟩
    · obtain ⟨k, hk⟩ := cov (peer c) (by omega); exact ⟨.inr k, hk⟩
  · rintro (k | k) (k' | k') hne
    · exact outSl_disjoint c _ _ k k' (.inr fun e => hne (congrArg Sum.inl e))
    · exact outSl_disjoint c _ _ k k' (.inl hd)
    · exact outSl_disjoint c _ _ k k' (.inl hd.symm)
    · exact outSl_disjoint c _ _ k k' (.inr fun e => hne (congrArg Sum.inr e))

end Cert.KernelIdeal.A2A

end
-- ==== Proof.A2A.Vals.lean ====
import proofs.«900634_g7700000000000635_dist_a2a_v7x_xyz2x2x4_x_m4096_n1024_bf16_1_alg».proof.Proof.A2A.Cut
import Idealize.ShloMosaic.Lib.Pipeline.Value
import Idealize.ShloMosaic.Lib.ValueIdx
import Idealize.ShloMosaic.Lib.Exec.Geometry

noncomputable section

namespace Cert.KernelIdeal.A2A

open Cert.KernelIdeal Cert.KernelIdeal.Gen
open Idealize.ShloMosaic
open Idealize.ShloMosaic.TcCoe
open Idealize.ShloMosaic.ValueIdx

variable {F : FTy → Type} [FloatOps F]

variable (m : (ℓ : Loc nD τ sig) → Buf (Elt F) ℓ)

theorem st_lt1 (y : S1x128x2048.Idx) : (y 1).val < 128 := (y 1).isLt
theorem st_lt2 (y : S1x128x2048.Idx) : (y 2).val < 2048 := (y 2).isLt
abbrev rc (y : S1x128x2048.Idx) : S128x2048.Idx := ix2 (n0 := 128) (n1 := 2048) ⟨(y 1).val, st_lt1 y⟩ ⟨(y 2).val, st_lt2 y⟩

def half (h : Fin 2) (v : Vec F S1x128x2048 .f32) : FVec F S1x1x128x1024 .bf16 :=
  if h.val = 0 then k0_pay1 v else k0_pay2 v

theorem cv_lt0 (j : S128x1024.Idx) : (j 0).val < 128 := ValueIdx.idx2_lt0 j
theorem cv_lt1 (j : S128x1024.Idx) : (j 1).val < 1024 := ValueIdx.idx2_lt1 j

abbrev blk (j : S128x1024.Idx) : S1x1x128x1024.Idx :=
  ix4 (n0 := 1) (n1 := 1) (n2 := 128) (n3 := 1024) 0 0 ⟨(j 0).val, cv_lt0 j⟩ ⟨(j 1).val, cv_lt1 j⟩

/-- Both halves are the same columns-`[o, o + 1024)` block narrowed, at `o = 0` and `o = 1024`. -/
theorem half_apply (h : Fin 2) (v : Vec F S1x128x2048 .f32) (j : S128x1024.Idx) :
    half h v (blk j)
      = FloatOps.truncf .bf16 bitsLt_bf16_f32 (v (ix3 (n0 := 1) (n1 := 128) (n2 := 2048) 0 ⟨(j 0).val, cv_lt0 j⟩
          ⟨1024 * h.val + (j 1).val, by have := cv_lt1 j; have := h.isLt; omega⟩)) := by
  have hj0 := cv_lt0 j
  have hj1 := cv_lt1 j
  have key (o : Nat) (ho : o + (j 1).val < 2048) (hs : S128x2048.Slices ![0, o] S128x1024) :
      shapeCast S1x1x128x1024 (truncf .bf16 (extractStridedSlice S128x1024 ![0, o]
          (shapeCast S128x2048 v shapeCasts_S1x128x2048_S128x2048) hs) bitsLt_bf16_f32) shapeCasts_S128x1024_S1x1x128x1024 (blk j)
        = FloatOps.truncf .bf16 bitsLt_bf16_f32 (v (ix3 (n0 := 1) (n1 := 128) (n2 := 2048) 0 ⟨(j 0).val, hj0⟩ ⟨o + (j 1).val, ho⟩)) := by
    refine (shapeCast_apply _ _ _ j ?_).trans ?_
    · rw [Shape.rowMajor_val_two, Shape.rowMajor_val_four]
      show (j 0).val * 1024 + (j 1).val = ((0 * 1 + 0) * 128 + (j 0).val) * 1024 + (j 1).val
      omega
    refine congrArg (FloatOps.truncf (F := F) .bf16 bitsLt_bf16_f32) ?_
    refine (extractStridedSlice_apply _ _ _ j (ix2 (n0 := 128) (n1 := 2048) ⟨(j 0).val, hj0⟩ ⟨o + (j 1).val, ho⟩) ?_).trans ?_
    · intro a
      match a with
      | ⟨0, _⟩ => show (j 0).val = 0 + (j 0).val; omega
      | ⟨1, _⟩ => rfl
    refine shapeCast_apply _ _ _ _ ?_
    rw [Shape.rowMajor_val_two, Shape.rowMajor_val_three]
    show (0 * 128 + (j 0).val) * 2048 + (o + (j 1).val) = (j 0).val * 2048 + (o + (j 1).val)
    omega
  match h with
  | ⟨0, _⟩ => exact key 0 (by omega) _
  | ⟨1, _⟩ => exact key 1024 (by omega) _

abbrev oSl (offD : Fin 2 → Nat) (hbD : ∀ a, offD a + S128x1024.size a ≤ S8192x1024.size a) : Memref sig .tc .hbm S128x1024 .bf16 :=
  oM.slice (Rect.unit (s := S8192x1024) offD S128x1024.size hbD) (fun _ => rfl)

def chunk (X : FVec F Cert.A2ASpec.SX .f32) (k : Fin 32) : Vec F S1x128x2048 .f32 :=
  fun y => X (ix2 (n0 := 4096) (n1 := 2048) ⟨128 * k.val + (y 1).val, by have := st_lt1 y; have := k.isLt; omega⟩ ⟨(y 2).val, st_lt2 y⟩)

/-- The partner's partner is the device, so both destinations read rows `[128 k, 128 k + 128)` of the row block of `c`. -/
theorem core (c d : Dev nD) (hd : d = c ∨ d = peer c) (k : Fin 32) (h : Fin 2) (hh : h.val = d.val / 8)
    (offD : Fin 2 → Nat) (hbD : ∀ a, offD a + S128x1024.size a ≤ S8192x1024.size a)
    (hD : offD = ![4096 * (c.val / 8) + 128 * k.val, 0]) (d0 : Buf (Elt F) (oM.view.loc (d : Thread nD τ))) :
    ∀ i ∈ (oSl offD hbD).view.set,
      (oSl offD hbD).view.write (Elt F) d0 (fun j : S128x1024.Idx => FloatOps.truncf .bf16 bitsLt_bf16_f32
        (chunk (Xc m c) k (ix3 (n0 := 1) (n1 := 128) (n2 := 2048) 0 ⟨(j 0).val, cv_lt0 j⟩
          ⟨1024 * h.val + (j 1).val, by have := cv_lt1 j; have := h.isLt; omega⟩))) Finset.univ i
        = outC m d i := by
  subst hD
  intro i hi
  obtain ⟨y, rfl⟩ := View.exists_emb_of_mem_set _ hi
  rw [View.write_emb_of_mem _ _ (Finset.mem_univ y)]
  refine (cast_eq _ _).trans ?_
  have hc : c.val < 16 := c.isLt
  have hy0 := cv_lt0 y
  have hy1 := cv_lt1 y
  have hk := k.isLt
  clear hi
  generalize hI : (oSl ![4096 * (c.val / 8) + 128 * k.val, 0] hbD).view.emb y = i
  have e0 : ((i : S8192x1024.Idx) 0).val = 4096 * (c.val / 8) + 128 * k.val + (y 0).val := by
    rw [← hI]; show 4096 * (c.val / 8) + 128 * k.val + 1 * (y 0).val = _; omega
  have e1 : ((i : S8192x1024.Idx) 1).val = (y 1).val := by
    rw [← hI]; show 0 + 1 * (y 1).val = _; omega
  clear hI
  have hx (j : Cert.A2ASpec.SX.Idx) :
      (if ((i : S8192x1024.Idx) 0).val / 4096 = d.val / 8 then Xc m d j else Xc m (peer d) j) = Xc m c j := by
    rcases hd with rfl | rfl
    · exact if_pos (by rw [e0]; omega)
    · rw [if_neg (by rw [e0]; show ¬ _ = (c.val + 8) % 16 / 8; omega), peer_peer]
  refine Eq.trans ?_ (congrArg (FloatOps.truncf (F := F) .bf16 _) (hx _).symm)
  refine congrArg _ ?_
  show Xc m c _ = Xc m c _
  refine congrArg (Xc m c) (funext fun a => Fin.ext ?_)
  match a with
  | ⟨0, _⟩ => show 128 * k.val + (y 0).val = ((i : S8192x1024.Idx) 0).val % 4096; rw [e0]; omega
  | ⟨1, _⟩ => show 1024 * h.val + (y 1).val = 1024 * (d.val / 8) + ((i : S8192x1024.Idx) 1).val; rw [e1, hh]

theorem load_chunk (c : Dev nD) (k : Fin 32) (offL offT : Fin 3 → Nat)
    (hbL : ∀ a, offL a + S1x128x2048.size a ≤ S2x128x2048.size a) (hbT : ∀ a, offT a + S1x128x2048.size a ≤ S2x128x2048.size a)
    (eLT : offL = offT) (offX : Fin 2 → Nat) (hbX : ∀ a, offX a + S128x2048.size a ≤ S4096x2048.size a) (hX : offX = ![128 * k.val, 0])
    (g : Buf (Elt F) (stM.view.loc (c : Thread nD τ))) (X : Buf (Elt F) (xM.view.loc (c : Thread nD τ)))
    (L : List (View.Piece (Elt F) S128x2048 .f32)) :
    View.readAt (Elt F) stM.view (Rect.unit (s := S2x128x2048) offL S1x128x2048.size hbL).toLoadRect
      (((stM.slice (Rect.unit (s := S2x128x2048) offT S1x128x2048.size hbT) (fun _ => rfl)).squeeze S128x2048 squeezes_S1x128x2048_S128x2048).view.writes (Elt F) g
        (⟨Rect.whole S128x2048, ReadAs.same.apply (View.read (Elt F) (xM.slice (Rect.unit (s := S4096x2048) offX S128x2048.size hbX) (fun _ => rfl)).view X)⟩ :: L))
      = chunk X k := by
  subst eLT hX
  rw [← View.write_univ_eq_writes_whole]
  show (stM.view.slice (Rect.unit (s := S2x128x2048) offL S1x128x2048.size hbL)).read (Elt F)
    (((stM.view.slice (Rect.unit (s := S2x128x2048) offL S1x128x2048.size hbL)).reshape S128x2048 squeezes_S1x128x2048_S128x2048.numel_eq).write (Elt F) _ _ Finset.univ) = _
  rw [View.write_reshape_univ, View.read_write_univ]
  funext y
  refine (congrArg _ (?_ : _ = rc y)).trans ?_
  · rw [Equiv.symm_apply_eq]
    refine (Shape.reshapeEquiv_eq_of_rowMajor _ ?_).symm
    have h0 : (y 0).val < 1 := (y 0).isLt
    refine (Shape.rowMajor_val_three (d := ![1, 128, 2048]) y).trans (Eq.trans ?_ (Shape.rowMajor_val_two (d := ![128, 2048]) (rc y)).symm)
    show ((y 0).val * 128 + (y 1).val) * 2048 + (y 2).val = (y 1).val * 2048 + (y 2).val
    omega
  show _root_.cast _ (X _) = _
  refine (cast_eq _ _).trans (congrArg X (funext fun a => Fin.ext ?_))
  match a with
  | ⟨0, _⟩ => show 128 * k.val + 1 * (y 1).val = 128 * k.val + (y 1).val; omega
  | ⟨1, _⟩ => show 0 + 1 * (y 2).val = (y 2).val; omega

theorem cv_half_read (c : Dev nD) (offS offW : Fin 4 → Nat) (hbS : ∀ a, offS a + S1x1x128x1024.size a ≤ S2x2x128x1024.size a)
    (hbW : ∀ a, offW a + S1x1x128x1024.size a ≤ S2x2x128x1024.size a) (e : offS = offW)
    (q : Buf (Elt F) (cvM.view.loc (c : Thread nD τ))) (h : Fin 2) (v : Vec F S1x128x2048 .f32) :
    (cvSl offS hbS).view.read (Elt F) (View.write (Elt F) (cvM.access (Rect.unit (s := S2x2x128x1024) offW S1x1x128x1024.size hbW)) q (half h v) Finset.univ)
      = fun (j : S128x1024.Idx) => FloatOps.truncf .bf16 bitsLt_bf16_f32 (v (ix3 (n0 := 1) (n1 := 128) (n2 := 2048) 0 ⟨(j 0).val, cv_lt0 j⟩
          ⟨1024 * h.val + (j 1).val, by have := cv_lt1 j; have := h.isLt; omega⟩)) := by
  subst e
  show (fun x => (cvM.view.slice (Rect.unit (s := S2x2x128x1024) offS S1x1x128x1024.size hbS)).read (Elt F)
    ((cvM.view.slice (Rect.unit (s := S2x2x128x1024) offS S1x1x128x1024.size hbS)).write (Elt F) q (half h v) Finset.univ)
      (Shape.reshapeEquiv squeezes_S1x1x128x1024_S128x1024.numel_eq x)) = _
  rw [View.read_write_univ]
  funext j
  refine (congrArg (half h v) (Shape.reshapeEquiv_eq_of_rowMajor _ ?_)).trans (half_apply h v j)
  refine (Shape.rowMajor_val_four (d := ![1, 1, 128, 1024]) (blk j)).trans (Eq.trans ?_ (Shape.rowMajor_val_two (d := ![128, 1024]) j).symm)
  show ((0 * 1 + 0) * 128 + (j 0).val) * 1024 + (j 1).val = (j 0).val * 1024 + (j 1).val
  omega

theorem send_val (c : Dev nD) (k : Fin 32) (h : Fin 2) (hh : h.val = 1 - c.val / 8)
    (offD : Fin 2 → Nat) (hbD : ∀ a, offD a + S128x1024.size a ≤ S8192x1024.size a) (hD : offD = ![4096 * (c.val / 8) + 128 * k.val, 0])
    (offS offW : Fin 4 → Nat) (hbS : ∀ a, offS a + S1x1x128x1024.size a ≤ S2x2x128x1024.size a)
    (hbW : ∀ a, offW a + S1x1x128x1024.size a ≤ S2x2x128x1024.size a) (eSW : offS = offW)
    (offL offT : Fin 3 → Nat) (hbL : ∀ a, offL a + S1x128x2048.size a ≤ S2x128x2048.size a)
    (hbT : ∀ a, offT a + S1x128x2048.size a ≤ S2x128x2048.size a) (eLT : offL = offT)
    (offX : Fin 2 → Nat) (hbX : ∀ a, offX a + S128x2048.size a ≤ S4096x2048.size a) (hX : offX = ![128 * k.val, 0])
    (d0 : Buf (Elt F) (oM.view.loc (peer c : Thread nD τ))) (q : Buf (Elt F) (cvM.view.loc (c : Thread nD τ)))
    (g : Buf (Elt F) (stM.view.loc (c : Thread nD τ))) (X : Buf (Elt F) (xM.view.loc (c : Thread nD τ)))
    (hXc : (X : FVec F Cert.A2ASpec.SX .f32) = Xc m c) (L : List (View.Piece (Elt F) S128x2048 .f32)) :
    ∀ i ∈ (oM.slice (Rect.unit (s := S8192x1024) offD S128x1024.size hbD) (fun _ => rfl)).view.set,
      (oM.slice (Rect.unit (s := S8192x1024) offD S128x1024.size hbD) (fun _ => rfl)).view.write (Elt F) d0
        ((cvSl offS hbS).view.read (Elt F)
          (View.write (Elt F) (cvM.access (Rect.unit (s := S2x2x128x1024) offW S1x1x128x1024.size hbW)) q
            (half h (View.readAt (Elt F) stM.view (Rect.unit (s := S2x128x2048) offL S1x128x2048.size hbL).toLoadRect
              (((stM.slice (Rect.unit (s := S2x128x2048) offT S1x128x2048.size hbT) (fun _ => rfl)).squeeze S128x2048 squeezes_S1x128x2048_S128x2048).view.writes (Elt F) g
                (⟨Rect.whole S128x2048, ReadAs.same.apply (View.read (Elt F) (xM.slice (Rect.unit (s := S4096x2048) offX S128x2048.size hbX) (fun _ => rfl)).view X)⟩ :: L))))
            Finset.univ)) Finset.univ i
        = outC m (peer c) i := by
  rw [load_chunk c k offL offT hbL hbT eLT offX hbX hX g X L, cv_half_read c offS offW hbS hbW eSW q h (chunk X k), hXc]
  exact core m c (peer c) (.inr rfl) k h (hh.trans (by show _ = (c.val + 8) % 16 / 8; have : c.val < 16 := c.isLt; omega)) offD hbD hD d0

theorem local_val_w (c : Dev nD) (k : Fin 32) (h : Fin 2) (hh : h.val = c.val / 8)
    (offD : Fin 2 → Nat) (hbD : ∀ a, offD a + S128x1024.size a ≤ S8192x1024.size a) (hD : offD = ![4096 * (c.val / 8) + 128 * k.val, 0])
    (offS offW : Fin 4 → Nat) (hbS : ∀ a, offS a + S1x1x128x1024.size a ≤ S2x2x128x1024.size a)
    (hbW : ∀ a, offW a + S1x1x128x1024.size a ≤ S2x2x128x1024.size a) (eSW : offS = offW)
    (offL offT : Fin 3 → Nat) (hbL : ∀ a, offL a + S1x128x2048.size a ≤ S2x128x2048.size a)
    (hbT : ∀ a, offT a + S1x128x2048.size a ≤ S2x128x2048.size a) (eLT : offL = offT)
    (offX : Fin 2 → Nat) (hbX : ∀ a, offX a + S128x2048.size a ≤ S4096x2048.size a) (hX : offX = ![128 * k.val, 0])
    (fo : Buf (Elt F) (oM.view.loc (c : Thread nD τ))) (q : Buf (Elt F) (cvM.view.loc (c : Thread nD τ)))
    (g : Buf (Elt F) (stM.view.loc (c : Thread nD τ))) (X : Buf (Elt F) (xM.view.loc (c : Thread nD τ)))
    (hXc : (X : FVec F Cert.A2ASpec.SX .f32) = Xc m c) (L : List (View.Piece (Elt F) S128x2048 .f32)) :
    ∀ i ∈ (oSl offD hbD).view.set,
      (oSl offD hbD).view.writes (Elt F) fo
        [⟨Rect.whole S128x1024, ReadAs.same.apply ((cvSl offS hbS).view.read (Elt F)
          (View.write (Elt F) (cvM.access (Rect.unit (s := S2x2x128x1024) offW S1x1x128x1024.size hbW)) q
            (half h (View.readAt (Elt F) stM.view (Rect.unit (s := S2x128x2048) offL S1x128x2048.size hbL).toLoadRect
              (((stM.slice (Rect.unit (s := S2x128x2048) offT S1x128x2048.size hbT) (fun _ => rfl)).squeeze S128x2048 squeezes_S1x128x2048_S128x2048).view.writes (Elt F) g
                (⟨Rect.whole S128x2048, ReadAs.same.apply (View.read (Elt F) (xM.slice (Rect.unit (s := S4096x2048) offX S128x2048.size hbX) (fun _ => rfl)).view X)⟩ :: L))))
            Finset.univ))⟩] i
        = outC m c i := by
  intro i hi
  rw [← View.write_univ_eq_writes_whole, load_chunk c k offL offT hbL hbT eLT offX hbX hX g X L,
    cv_half_read c offS offW hbS hbW eSW q h (chunk X k), hXc]
  exact core m c c (.inl rfl) k h hh offD hbD hD fo i hi

end Cert.KernelIdeal.A2A

end
-- ==== Proof.A2A.RunLib.lean ====
import proofs.«900634_g7700000000000635_dist_a2a_v7x_xyz2x2x4_x_m4096_n1024_bf16_1_alg».proof.Proof.A2A.Send
import proofs.«900634_g7700000000000635_dist_a2a_v7x_xyz2x2x4_x_m4096_n1024_bf16_1_alg».proof.Proof.A2A.Cut
import proofs.«900634_g7700000000000635_dist_a2a_v7x_xyz2x2x4_x_m4096_n1024_bf16_1_alg».proof.Proof.A2A.Vals

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev lcopyS0 : DmaSem sig := ((cc0_scratch2.slice (Rect.unit (s := S2) ![0] S1.size inb_S2_S1_0)).squeeze S_ squeezes_S1_S_).sem
abbrev lcopyS1 : DmaSem sig := ((cc0_scratch2.slice (Rect.unit (s := S2) ![1] S1.size inb_S2_S1_1)).squeeze S_ squeezes_S1_S_).sem
abbrev llocS0 : DmaSem sig := ((cc0_scratch3.slice (Rect.unit (s := S2) ![0] S1.size inb_S2_S1_0)).squeeze S_ squeezes_S1_S_).sem
abbrev llocS1 : DmaSem sig := ((cc0_scratch3.slice (Rect.unit (s := S2) ![1] S1.size inb_S2_S1_1)).squeeze S_ squeezes_S1_S_).sem

omit [FloatOps F] in
theorem bigSep_fin32r (Φ : Fin 32 → sProp 𝕄) : bigSep Finset.univ Φ = iprop(Φ 0 ∗ (Φ 1 ∗ (Φ 2 ∗ (Φ 3 ∗ (Φ 4 ∗ (Φ 5 ∗ (Φ 6 ∗ (Φ 7 ∗ (Φ 8 ∗ (Φ 9 ∗ (Φ 10 ∗ (Φ 11 ∗ (Φ 12 ∗ (Φ 13 ∗ (Φ 14 ∗ (Φ 15 ∗ (Φ 16 ∗ (Φ 17 ∗ (Φ 18 ∗ (Φ 19 ∗ (Φ 20 ∗ (Φ 21 ∗ (Φ 22 ∗ (Φ 23 ∗ (Φ 24 ∗ (Φ 25 ∗ (Φ 26 ∗ (Φ 27 ∗ (Φ 28 ∗ (Φ 29 ∗ (Φ 30 ∗ (Φ 31)))))))))))))))))))))))))))))))) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

theorem pts_name {ℓ : Loc nD τ sig} (S : Finset (Idx ℓ)) (f : Buf (Elt F) ℓ) :
    (ℓ ↦[S]{fullShare} f : sProp 𝕄) ⊢ iprop(∃ g : Buf (Elt F) ℓ, ⌜g = f⌝ ∗ (ℓ ↦[S]{fullShare} g)) := by
  iintro H; iexists f; isplitr; · (ipureintro; rfl)
  iexact H

theorem k0_off2_lo (c : Dev nD) (h : c.val / 8 = 0) : k0_off2 c = ![0, 1, 0, 0] := by rw [k0_off2_eq, h]
theorem k0_off3_lo (c : Dev nD) (h : c.val / 8 = 0) : k0_off3 c = ![0, 0, 0, 0] := by rw [k0_off3_eq, h]
theorem k0_off4_lo (c : Dev nD) (h : c.val / 8 = 0) : k0_off4 c = ![1, 1, 0, 0] := by rw [k0_off4_eq, h]
theorem k0_off5_lo (c : Dev nD) (h : c.val / 8 = 0) : k0_off5 c = ![1, 0, 0, 0] := by rw [k0_off5_eq, h]
theorem k0_off2_hi (c : Dev nD) (h : c.val / 8 = 1) : k0_off2 c = ![0, 0, 0, 0] := by rw [k0_off2_eq, h]
theorem k0_off3_hi (c : Dev nD) (h : c.val / 8 = 1) : k0_off3 c = ![0, 1, 0, 0] := by rw [k0_off3_eq, h]
theorem k0_off4_hi (c : Dev nD) (h : c.val / 8 = 1) : k0_off4 c = ![1, 0, 0, 0] := by rw [k0_off4_eq, h]
theorem k0_off5_hi (c : Dev nD) (h : c.val / 8 = 1) : k0_off5 c = ![1, 1, 0, 0] := by rw [k0_off5_eq, h]

/-- A half-slot's elements do not depend on how its offsets are written. -/
theorem cv_sym (c : Dev nD) {off lit : Fin 4 → Nat} (e : off = lit)
    (hb : ∀ a, off a + S1x1x128x1024.size a ≤ S2x2x128x1024.size a) {hl : ∀ a, lit a + S1x1x128x1024.size a ≤ S2x2x128x1024.size a}
    {f : Buf (Elt F) (cvM.view.loc (c : Thread nD τ))} :
    ((cvSl lit hl).view.loc (c : Thread nD τ) ↦[(cvSl lit hl).view.set]{fullShare} f : sProp 𝕄)
      ⊢ ((cvSl off hb).view.loc (c : Thread nD τ) ↦[(cvSl off hb).view.set]{fullShare} f) := by
  subst e; exact Entails.of_eq rfl

theorem cv_lit (c : Dev nD) {off lit : Fin 4 → Nat} (e : off = lit)
    {hb : ∀ a, off a + S1x1x128x1024.size a ≤ S2x2x128x1024.size a}
    {f : Buf (Elt F) (cvM.view.loc (c : Thread nD τ))} :
    ((cvSl off hb).view.loc (c : Thread nD τ) ↦[(cvSl off hb).view.set]{fullShare} f : sProp 𝕄)
      ⊢ ((cvSl lit (e ▸ hb)).view.loc (c : Thread nD τ) ↦[(cvSl lit (e ▸ hb)).view.set]{fullShare} f) := by
  subst e; exact Entails.of_eq rfl

theorem sendPay_lit (c : Dev nD) (k : Fin 32) {off lit : Fin 4 → Nat} (e : off = lit)
    {hb : ∀ a, off a + S1x1x128x1024.size a ≤ S2x2x128x1024.size a}
    (h : cvO c k = cvSl off hb) :
    (sendPay (F := F) c k : sProp 𝕄)
      ⊢ iprop(∃ f : Buf (Elt F) (cvM.view.loc (c : Thread nD τ)), (cvSl lit (e ▸ hb)).view.loc (c : Thread nD τ) ↦[(cvSl lit (e ▸ hb)).view.set]{fullShare} f) := by
  subst e; unfold sendPay cvPts; rw [h]

/-- A cell with no duty after its first round closes with its counter at zero. -/
theorem cell_done (κ : ℕ) (g : GSem nD τ sig) :
    iprop(cellInv ER (Rd (F := F) m) κ g ∗ atPos ER g (0 + 1) ∅ 0) ⊢ iprop(|={Set.univ}=> semVal g 0) :=
  Rounds.cell_close ER (Rd m) (Set.mem_univ κ) (fun h => h) (R := 0 + 1) (duties_later m g)

macro "a2a_disch" : tactic => `(tactic| first
  | exact Nat.le_refl _
  | exact Nat.zero_le _
  | ((repeat' (with_reducible (first | exact OnlyRecv.zero | exact OnlyRecv.tally _ _ _ | apply OnlyRecv.add))); done)
  | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq]; done)
  | assumption
  | decide)

end Cert.KernelIdeal.A2A

end
-- ==== Proof.A2A.RunDefs.lean ====
import proofs.«900634_g7700000000000635_dist_a2a_v7x_xyz2x2x4_x_m4096_n1024_bf16_1_alg».proof.Proof.A2A.RunLib

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def sendGrp (Ks Kr : Dev nD → Fin 32 → ℕ) (c : Dev nD) (fo : Buf (Elt F) (oM.view.loc (c : Thread nD τ))) (k : Fin 32) : sProp 𝕄 :=
  iprop(cellInv ER (Rd m) (Ks c k) (sendCell c k) ∗ cellInv ER (Rd m) (Kr (peer c) k) (recvCell (peer c) k) ∗ atPos ER (sendCell c k) 0 ∅ 0 ∗ reached ER (sendCell c k) 0 ∗ dutyTok ER (sendCell c k) 0 () ∗ dutyTok ER (recvCell (peer c) k) 0 () ∗ ((outSl c k).view.loc (c : Thread nD τ) ↦[(outSl c k).view.set]{fullShare} fo))

def recvGrp (Kr : Dev nD → Fin 32 → ℕ) (c : Dev nD) (k : Fin 32) : sProp 𝕄 :=
  iprop(cellInv ER (Rd m) (Kr c k) (recvCell c k) ∗ atPos ER (recvCell c k) 0 ∅ 0 ∗ cred (tallyAt (recvCell c k) () N))

def xPc (c : Dev nD) (k : Fin 32) : sProp 𝕄 :=
  (xSl k).view.loc (c : Thread nD τ) ↦[(xSl k).view.set]{fullShare} m ((c : Thread nD τ).loc main_arg0)

def runPre (c : Dev nD) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) : sProp 𝕄 :=
  iprop(cellInv ER (Rd m) (Kb c) (barCell c)
    ∗ cellInv ER (Rd m) (Kb (peer c)) (barCell (peer c))
    ∗ atPos ER (barCell c) 0 ∅ 0
    ∗ reached ER (barCell (peer c)) 0
    ∗ dutyTok ER (barCell (peer c)) 0 ()
    ∗ cred (tallyAt (barCell c) () 1)
    ∗ levAts L lv
    ∗ semVal ((c : Thread nD τ), .dma lcopyS0) 0
    ∗ semVal ((c : Thread nD τ), .dma lcopyS1) 0
    ∗ semVal ((c : Thread nD τ), .dma llocS0) 0
    ∗ semVal ((c : Thread nD τ), .dma llocS1) 0
    ∗ (((stM.slice (Rect.unit (s := S2x128x2048) ![0, 0, 0] S1x128x2048.size inb_S2x128x2048_S1x128x2048_0_0_0) (fun _ => rfl)).squeeze S128x2048 squeezes_S1x128x2048_S128x2048).view.loc (c : Thread nD τ) ↦[((stM.slice (Rect.unit (s := S2x128x2048) ![0, 0, 0] S1x128x2048.size inb_S2x128x2048_S1x128x2048_0_0_0) (fun _ => rfl)).squeeze S128x2048 squeezes_S1x128x2048_S128x2048).view.set]{fullShare} g)
    ∗ (((stM.slice (Rect.unit (s := S2x128x2048) ![1, 0, 0] S1x128x2048.size inb_S2x128x2048_S1x128x2048_1_0_0) (fun _ => rfl)).squeeze S128x2048 squeezes_S1x128x2048_S128x2048).view.loc (c : Thread nD τ) ↦[((stM.slice (Rect.unit (s := S2x128x2048) ![1, 0, 0] S1x128x2048.size inb_S2x128x2048_S1x128x2048_1_0_0) (fun _ => rfl)).squeeze S128x2048 squeezes_S1x128x2048_S128x2048).view.set]{fullShare} g)
    ∗ ((cvSl ![0, 0, 0, 0] inb_S2x2x128x1024_S1x1x128x1024_0_0_0_0).view.loc (c : Thread nD τ) ↦[(cvSl ![0, 0, 0, 0] inb_S2x2x128x1024_S1x1x128x1024_0_0_0_0).view.set]{fullShare} q)
    ∗ ((cvSl ![0, 1, 0, 0] inb_S2x2x128x1024_S1x1x128x1024_0_1_0_0).view.loc (c : Thread nD τ) ↦[(cvSl ![0, 1, 0, 0] inb_S2x2x128x1024_S1x1x128x1024_0_1_0_0).view.set]{fullShare} q)
    ∗ ((cvSl ![1, 0, 0, 0] inb_S2x2x128x1024_S1x1x128x1024_1_0_0_0).view.loc (c : Thread nD τ) ↦[(cvSl ![1, 0, 0, 0] inb_S2x2x128x1024_S1x1x128x1024_1_0_0_0).view.set]{fullShare} q)
    ∗ ((cvSl ![1, 1, 0, 0] inb_S2x2x128x1024_S1x1x128x1024_1_1_0_0).view.loc (c : Thread nD τ) ↦[(cvSl ![1, 1, 0, 0] inb_S2x2x128x1024_S1x1x128x1024_1_1_0_0).view.set]{fullShare} q)
    ∗ bigSep Finset.univ (xPc m c)
    ∗ bigSep Finset.univ (sendGrp m Ks Kr c fo)
    ∗ bigSep Finset.univ (recvGrp m Kr c)
    ∗ barPay (F := F) (peer c)
    ∗ owes (c : Thread nD τ) (0 + tallyAt (recvCell (peer c) 31) () N + tallyAt (recvCell (peer c) 30) () N + tallyAt (recvCell (peer c) 29) () N + tallyAt (recvCell (peer c) 28) () N + tallyAt (recvCell (peer c) 27) () N + tallyAt (recvCell (peer c) 26) () N + tallyAt (recvCell (peer c) 25) () N + tallyAt (recvCell (peer c) 24) () N + tallyAt (recvCell (peer c) 23) () N + tallyAt (recvCell (peer c) 22) () N + tallyAt (recvCell (peer c) 21) () N + tallyAt (recvCell (peer c) 20) () N + tallyAt (recvCell (peer c) 19) () N + tallyAt (recvCell (peer c) 18) () N + tallyAt (recvCell (peer c) 17) () N + tallyAt (recvCell (peer c) 16) () N + tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N + tallyAt (barCell (peer c)) () 1) W)

def runPost (c : Dev nD) : sProp 𝕄 :=
  iprop(bigSep Finset.univ (xPc m c)
    ∗ (∃ f : Buf (Elt F) (((stM.slice (Rect.unit (s := S2x128x2048) ![0, 0, 0] S1x128x2048.size inb_S2x128x2048_S1x128x2048_0_0_0) (fun _ => rfl)).squeeze S128x2048 squeezes_S1x128x2048_S128x2048).view.loc (c : Thread nD τ)), ((stM.slice (Rect.unit (s := S2x128x2048) ![0, 0, 0] S1x128x2048.size inb_S2x128x2048_S1x128x2048_0_0_0) (fun _ => rfl)).squeeze S128x2048 squeezes_S1x128x2048_S128x2048).view.loc (c : Thread nD τ) ↦[((stM.slice (Rect.unit (s := S2x128x2048) ![0, 0, 0] S1x128x2048.size inb_S2x128x2048_S1x128x2048_0_0_0) (fun _ => rfl)).squeeze S128x2048 squeezes_S1x128x2048_S128x2048).view.set]{fullShare} f)
    ∗ (∃ f : Buf (Elt F) (((stM.slice (Rect.unit (s := S2x128x2048) ![1, 0, 0] S1x128x2048.size inb_S2x128x2048_S1x128x2048_1_0_0) (fun _ => rfl)).squeeze S128x2048 squeezes_S1x128x2048_S128x2048).view.loc (c : Thread nD τ)), ((stM.slice (Rect.unit (s := S2x128x2048) ![1, 0, 0] S1x128x2048.size inb_S2x128x2048_S1x128x2048_1_0_0) (fun _ => rfl)).squeeze S128x2048 squeezes_S1x128x2048_S128x2048).view.loc (c : Thread nD τ) ↦[((stM.slice (Rect.unit (s := S2x128x2048) ![1, 0, 0] S1x128x2048.size inb_S2x128x2048_S1x128x2048_1_0_0) (fun _ => rfl)).squeeze S128x2048 squeezes_S1x128x2048_S128x2048).view.set]{fullShare} f)
    ∗ (∃ f : Buf (Elt F) ((cvSl ![0, 0, 0, 0] inb_S2x2x128x1024_S1x1x128x1024_0_0_0_0).view.loc (c : Thread nD τ)), (cvSl ![0, 0, 0, 0] inb_S2x2x128x1024_S1x1x128x1024_0_0_0_0).view.loc (c : Thread nD τ) ↦[(cvSl ![0, 0, 0, 0] inb_S2x2x128x1024_S1x1x128x1024_0_0_0_0).view.set]{fullShare} f)
    ∗ (∃ f : Buf (Elt F) ((cvSl ![0, 1, 0, 0] inb_S2x2x128x1024_S1x1x128x1024_0_1_0_0).view.loc (c : Thread nD τ)), (cvSl ![0, 1, 0, 0] inb_S2x2x128x1024_S1x1x128x1024_0_1_0_0).view.loc (c : Thread nD τ) ↦[(cvSl ![0, 1, 0, 0] inb_S2x2x128x1024_S1x1x128x1024_0_1_0_0).view.set]{fullShare} f)
    ∗ (∃ f : Buf (Elt F) ((cvSl ![1, 0, 0, 0] inb_S2x2x128x1024_S1x1x128x1024_1_0_0_0).view.loc (c : Thread nD τ)), (cvSl ![1, 0, 0, 0] inb_S2x2x128x1024_S1x1x128x1024_1_0_0_0).view.loc (c : Thread nD τ) ↦[(cvSl ![1, 0, 0, 0] inb_S2x2x128x1024_S1x1x128x1024_1_0_0_0).view.set]{fullShare} f)
    ∗ (∃ f : Buf (Elt F) ((cvSl ![1, 1, 0, 0] inb_S2x2x128x1024_S1x1x128x1024_1_1_0_0).view.loc (c : Thread nD τ)), (cvSl ![1, 1, 0, 0] inb_S2x2x128x1024_S1x1x128x1024_1_1_0_0).view.loc (c : Thread nD τ) ↦[(cvSl ![1, 1, 0, 0] inb_S2x2x128x1024_S1x1x128x1024_1_1_0_0).view.set]{fullShare} f)
    ∗ bigSep Finset.univ (fun k : Fin 32 => slPts (F := F) c c k (outC m c))
    ∗ bigSep Finset.univ (fun k : Fin 32 => recvPay m c k)
    ∗ bigSep Finset.univ (fun k : Fin 32 => iprop(semVal (sendCell c k) 0 ∗ semVal (recvCell c k) 0))
    ∗ semVal ((c : Thread nD τ), .dma lcopyS0) 0
    ∗ semVal ((c : Thread nD τ), .dma lcopyS1) 0
    ∗ semVal ((c : Thread nD τ), .dma llocS0) 0
    ∗ semVal ((c : Thread nD τ), .dma llocS1) 0
    ∗ (∃ W' : Waits sig Unit, owes (c : Thread nD τ) 0 W'))

end Cert.KernelIdeal.A2A

end
-- ==== Proof.A2A.RunLo.lean ====
import proofs.«900634_g7700000000000635_dist_a2a_v7x_xyz2x2x4_x_m4096_n1024_bf16_1_alg».proof.Proof.A2A.RunDefs

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar payload_send payload_recv payload_recv_peer
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq

set_option maxHeartbeats 8000000 in
theorem run_lo (c : Dev nD) (hmx : c.val / 8 = 0) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) (Kt : PUnit → sProp 𝕄) :
    iprop(runPre m c Kb Ks Kr W g q fo ∗ (runPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  unfold runPre
  iintro ⟨⟨#HIb, #HIbP, HatB, #HrBP, HtBP, HcB, #Hlev, Hc0, Hc1, Hl0, Hl1, Hst0, Hst1, Hq00, Hq01, Hq10, Hq11, HX, HGs, HVs, Hgive, HO⟩, Hk⟩
  ihave HX := (Entails.of_eq (bigSep_fin32r _)) $$ HX
  ihave HGs := (Entails.of_eq (bigSep_fin32r _)) $$ HGs
  ihave HVs := (Entails.of_eq (bigSep_fin32r _)) $$ HVs
  unfold xPc sendGrp recvGrp
  icases HX with ⟨HX0, HX1, HXs⟩
  have hmw : ∀ (sm : SemLoc sig) (O : CellTallies nD τ sig Unit), lv ((c : Thread nD τ), sm) () ≤ 1 → OnlyRecv O →
      ((levAts L lv : sProp 𝕄) ⊢ MayWait (c : Thread nD τ) sm () O) := fun sm O h1 h2 => mayWait_low c sm O h1 h2
  icases HXs with ⟨HX2, HXs⟩
  icases HGs with ⟨⟨#HIs0, #HIr0, HatS0, #Hrs0, Hts0, Htr0, Ho0⟩, HGs⟩
  sl_exec_parts (disch := a2a_disch)
  ihave Hp := (Entails.of_eq ((show barPay (F := F) c = _ from rfl).trans (bigSep_fin32r _))) $$ HatB_pay1
  unfold slPts
  icases Hp with ⟨⟨⟨%d0, Hd0⟩, #Hrr0⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w0, %hw0, Hq01⟩
  iapply (wp_send_ch m c 0 (k0_off1 c 0#32) (k0_off1_inb c 0) rfl rfl w0 d0 (by intro i hi; subst hw0; sl_unfold_words; exact send_val m c 0 1 (by omega) _ _ (k0_off1_eq c 0) _ _ _ _ (k0_off2_lo c hmx) _ _ _ _ rfl _ _ rfl d0 _ _ _ rfl _ i hi)) $$ [Hq01 Hd0 HO Hts0 Htr0]
  · iframe # ∗
  iintro ⟨HcS0, HO⟩
  iclear HIr0 Hrr0
  icases HXs with ⟨HX3, HXs⟩
  icases HGs with ⟨⟨#HIs1, #HIr1, HatS1, #Hrs1, Hts1, Htr1, Ho1⟩, HGs⟩
  sl_exec_parts (disch := a2a_disch)
  icases Hp with ⟨⟨⟨%d1, Hd1⟩, #Hrr1⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w1, %hw1, Hq11⟩
  iapply (wp_send_ch m c 1 (k0_off1 c 128#32) (k0_off1_inb c 1) rfl rfl w1 d1 (by intro i hi; subst hw1; sl_unfold_words; exact send_val m c 1 1 (by omega) _ _ (k0_off1_eq c 1) _ _ _ _ (k0_off4_lo c hmx) _ _ _ _ rfl _ _ rfl d1 _ _ _ rfl _ i hi)) $$ [Hq11 Hd1 HO Hts1 Htr1]
  · iframe # ∗
  iintro ⟨HcS1, HO⟩
  iclear HIr1 Hrr1
  icases HXs with ⟨HX4, HXs⟩
  icases HGs with ⟨⟨#HIs2, #HIr2, HatS2, #Hrs2, Hts2, Htr2, Ho2⟩, HGs⟩
  sl_exec_parts (disch := a2a_disch)
  ihave Hb := (sendPay_lit (F := F) c 0 (k0_off2_lo c hmx) rfl) $$ HatS0_pay1
  icases Hb with ⟨%r0, Hq01⟩
  ihave Hq00 := (cv_lit (F := F) c (k0_off3_lo c hmx)) $$ Hq00
  imod (cell_done m (Ks c 0) (sendCell c 0)) $$ [HatS0] with HzS0
  · iframe # ∗
  ihave Hn := (pts_name (F := F) _ _) $$ Ho0
  icases Hn with ⟨%u0, %hu0, Ho0⟩
  ihave Ho0 := (Entails.of_eq (pointsTo_congr (f := u0) (g := outC m c) (by intro i hi; subst hu0; sl_unfold_words; exact local_val_w m c 0 0 (by omega) _ _ (k0_off1_eq c 0) _ _ _ _ (k0_off3_lo c hmx) _ _ _ _ rfl _ _ rfl fo _ _ _ rfl _ i hi))) $$ Ho0
  iclear HIs0 Hrs0
  sl_exec_parts (disch := a2a_disch)
  icases Hp with ⟨⟨⟨%d2, Hd2⟩, #Hrr2⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w2, %hw2, Hq01⟩
  iapply (wp_send_ch m c 2 (k0_off1 c 256#32) (k0_off1_inb c 2) rfl rfl w2 d2 (by intro i hi; subst hw2; sl_unfold_words; exact send_val m c 2 1 (by omega) _ _ (k0_off1_eq c 2) _ _ _ _ (k0_off2_lo c hmx) _ _ _ _ rfl _ _ rfl d2 _ _ _ rfl _ i hi)) $$ [Hq01 Hd2 HO Hts2 Htr2]
  · iframe # ∗
  iintro ⟨HcS2, HO⟩
  iclear HIr2 Hrr2
  icases HXs with ⟨HX5, HXs⟩
  icases HGs with ⟨⟨#HIs3, #HIr3, HatS3, #Hrs3, Hts3, Htr3, Ho3⟩, HGs⟩
  sl_exec_parts (disch := a2a_disch)
  ihave Hb := (sendPay_lit (F := F) c 1 (k0_off4_lo c hmx) rfl) $$ HatS1_pay1
  icases Hb with ⟨%r1, Hq11⟩
  ihave Hq10 := (cv_lit (F := F) c (k0_off5_lo c hmx)) $$ Hq10
  imod (cell_done m (Ks c 1) (sendCell c 1)) $$ [HatS1] with HzS1
  · iframe # ∗
  ihave Hn := (pts_name (F := F) _ _) $$ Ho1
  icases Hn with ⟨%u1, %hu1, Ho1⟩
  ihave Ho1 := (Entails.of_eq (pointsTo_congr (f := u1) (g := outC m c) (by intro i hi; subst hu1; sl_unfold_words; exact local_val_w m c 1 0 (by omega) _ _ (k0_off1_eq c 1) _ _ _ _ (k0_off5_lo c hmx) _ _ _ _ rfl _ _ rfl fo _ _ _ rfl _ i hi))) $$ Ho1
  iclear HIs1 Hrs1
  sl_exec_parts (disch := a2a_disch)
  icases Hp with ⟨⟨⟨%d3, Hd3⟩, #Hrr3⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w3, %hw3, Hq11⟩
  iapply (wp_send_ch m c 3 (k0_off1 c 384#32) (k0_off1_inb c 3) rfl rfl w3 d3 (by intro i hi; subst hw3; sl_unfold_words; exact send_val m c 3 1 (by omega) _ _ (k0_off1_eq c 3) _ _ _ _ (k0_off4_lo c hmx) _ _ _ _ rfl _ _ rfl d3 _ _ _ rfl _ i hi)) $$ [Hq11 Hd3 HO Hts3 Htr3]
  · iframe # ∗
  iintro ⟨HcS3, HO⟩
  iclear HIr3 Hrr3
  icases HXs with ⟨HX6, HXs⟩
  icases HGs with ⟨⟨#HIs4, #HIr4, HatS4, #Hrs4, Hts4, Htr4, Ho4⟩, HGs⟩
  sl_exec_parts (disch := a2a_disch)
  ihave Hb := (sendPay_lit (F := F) c 2 (k0_off2_lo c hmx) rfl) $$ HatS2_pay1
  icases Hb with ⟨%r2, Hq01⟩
  ihave Hq00 := (cv_lit (F := F) c (k0_off3_lo c hmx)) $$ Hq00
  imod (cell_done m (Ks c 2) (sendCell c 2)) $$ [HatS2] with HzS2
  · iframe # ∗
  ihave Hn := (pts_name (F := F) _ _) $$ Ho2
  icases Hn with ⟨%u2, %hu2, Ho2⟩
  ihave Ho2 := (Entails.of_eq (pointsTo_congr (f := u2) (g := outC m c) (by intro i hi; subst hu2; sl_unfold_words; exact local_val_w m c 2 0 (by omega) _ _ (k0_off1_eq c 2) _ _ _ _ (k0_off3_lo c hmx) _ _ _ _ rfl _ _ rfl fo _ _ _ rfl _ i hi))) $$ Ho2
  iclear HIs2 Hrs2
  sl_exec_parts (disch := a2a_disch)
  icases Hp with ⟨⟨⟨%d4, Hd4⟩, #Hrr4⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w4, %hw4, Hq01⟩
  iapply (wp_send_ch m c 4 (k0_off1 c 512#32) (k0_off1_inb c 4) rfl rfl w4 d4 (by intro i hi; subst hw4; sl_unfold_words; exact send_val m c 4 1 (by omega) _ _ (k0_off1_eq c 4) _ _ _ _ (k0_off2_lo c hmx) _ _ _ _ rfl _ _ rfl d4 _ _ _ rfl _ i hi)) $$ [Hq01 Hd4 HO Hts4 Htr4]
  · iframe # ∗
  iintro ⟨HcS4, HO⟩
  iclear HIr4 Hrr4
  icases HXs with ⟨HX7, HXs⟩
  icases HGs with ⟨⟨#HIs5, #HIr5, HatS5, #Hrs5, Hts5, Htr5, Ho5⟩, HGs⟩
  sl_exec_parts (disch := a2a_disch)
  ihave Hb := (sendPay_lit (F := F) c 3 (k0_off4_lo c hmx) rfl) $$ HatS3_pay1
  icases Hb with ⟨%r3, Hq11⟩
  ihave Hq10 := (cv_lit (F := F) c (k0_off5_lo c hmx)) $$ Hq10
  imod (cell_done m (Ks c 3) (sendCell c 3)) $$ [HatS3] with HzS3
  · iframe # ∗
  ihave Hn := (pts_name (F := F) _ _) $$ Ho3
  icases Hn with ⟨%u3, %hu3, Ho3⟩
  ihave Ho3 := (Entails.of_eq (pointsTo_congr (f := u3) (g := outC m c) (by intro i hi; subst hu3; sl_unfold_words; exact local_val_w m c 3 0 (by omega) _ _ (k0_off1_eq c 3) _ _ _ _ (k0_off5_lo c hmx) _ _ _ _ rfl _ _ rfl fo _ _ _ rfl _ i hi))) $$ Ho3
  iclear HIs3 Hrs3
  sl_exec_parts (disch := a2a_disch)
  icases Hp with ⟨⟨⟨%d5, Hd5⟩, #Hrr5⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w5, %hw5, Hq11⟩
  iapply (wp_send_ch m c 5 (k0_off1 c 640#32) (k0_off1_inb c 5) rfl rfl w5 d5 (by intro i hi; subst hw5; sl_unfold_words; exact send_val m c 5 1 (by omega) _ _ (k0_off1_eq c 5) _ _ _ _ (k0_off4_lo c hmx) _ _ _ _ rfl _ _ rfl d5 _ _ _ rfl _ i hi)) $$ [Hq11 Hd5 HO Hts5 Htr5]
  · iframe # ∗
  iintro ⟨HcS5, HO⟩
  iclear HIr5 Hrr5
  icases HXs with ⟨HX8, HXs⟩
  icases HGs with ⟨⟨#HIs6, #HIr6, HatS6, #Hrs6, Hts6, Htr6, Ho6⟩, HGs⟩
  sl_exec_parts (disch := a2a_disch)
  ihave Hb := (sendPay_lit (F := F) c 4 (k0_off2_lo c hmx) rfl) $$ HatS4_pay1
  icases Hb with ⟨%r4, Hq01⟩
  ihave Hq00 := (cv_lit (F := F) c (k0_off3_lo c hmx)) $$ Hq00
  imod (cell_done m (Ks c 4) (sendCell c 4)) $$ [HatS4] with HzS4
  · iframe # ∗
  ihave Hn := (pts_name (F := F) _ _) $$ Ho4
  icases Hn with ⟨%u4, %hu4, Ho4⟩
  ihave Ho4 := (Entails.of_eq (pointsTo_congr (f := u4) (g := outC m c) (by intro i hi; subst hu4; sl_unfold_words; exact local_val_w m c 4 0 (by omega) _ _ (k0_off1_eq c 4) _ _ _ _ (k0_off3_lo c hmx) _ _ _ _ rfl _ _ rfl fo _ _ _ rfl _ i hi))) $$ Ho4
  iclear HIs4 Hrs4
  sl_exec_parts (disch := a2a_disch)
  icases Hp with ⟨⟨⟨%d6, Hd6⟩, #Hrr6⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w6, %hw6, Hq01⟩
  iapply (wp_send_ch m c 6 (k0_off1 c 768#32) (k0_off1_inb c 6) rfl rfl w6 d6 (by intro i hi; subst hw6; sl_unfold_words; exact send_val m c 6 1 (by omega) _ _ (k0_off1_eq c 6) _ _ _ _ (k0_off2_lo c hmx) _ _ _ _ rfl _ _ rfl d6 _ _ _ rfl _ i hi)) $$ [Hq01 Hd6 HO Hts6 Htr6]
  · iframe # ∗
  iintro ⟨HcS6, HO⟩
  iclear HIr6 Hrr6
  icases HXs with ⟨HX9, HXs⟩
  icases HGs with ⟨⟨#HIs7, #HIr7, HatS7, #Hrs7, Hts7, Htr7, Ho7⟩, HGs⟩
  sl_exec_parts (disch := a2a_disch)
  ihave Hb := (sendPay_lit (F := F) c 5 (k0_off4_lo c hmx) rfl) $$ HatS5_pay1
  icases Hb with ⟨%r5, Hq11⟩
  ihave Hq10 := (cv_lit (F := F) c (k0_off5_lo c hmx)) $$ Hq10
  imod (cell_done m (Ks c 5) (sendCell c 5)) $$ [HatS5] with HzS5
  · iframe # ∗
  ihave Hn := (pts_name (F := F) _ _) $$ Ho5
  icases Hn with ⟨%u5, %hu5, Ho5⟩
  ihave Ho5 := (Entails.of_eq (pointsTo_congr (f := u5) (g := outC m c) (by intro i hi; subst hu5; sl_unfold_words; exact local_val_w m c 5 0 (by omega) _ _ (k0_off1_eq c 5) _ _ _ _ (k0_off5_lo c hmx) _ _ _ _ rfl _ _ rfl fo _ _ _ rfl _ i hi))) $$ Ho5
  iclear HIs5 Hrs5
  sl_exec_parts (disch := a2a_disch)
  icases Hp with ⟨⟨⟨%d7, Hd7⟩, #Hrr7⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w7, %hw7, Hq11⟩
  iapply (wp_send_ch m c 7 (k0_off1 c 896#32) (k0_off1_inb c 7) rfl rfl w7 d7 (by intro i hi; subst hw7; sl_unfold_words; exact send_val m c 7 1 (by omega) _ _ (k0_off1_eq c 7) _ _ _ _ (k0_off4_lo c hmx) _ _ _ _ rfl _ _ rfl d7 _ _ _ rfl _ i hi)) $$ [Hq11 Hd7 HO Hts7 Htr7]
  · iframe # ∗
  iintro ⟨HcS7, HO⟩
  iclear HIr7 Hrr7
  icases HXs with ⟨HX10, HXs⟩
  icases HGs with ⟨⟨#HIs8, #HIr8, HatS8, #Hrs8, Hts8, Htr8, Ho8⟩, HGs⟩
  sl_exec_parts (disch := a2a_disch)
  ihave Hb := (sendPay_lit (F := F) c 6 (k0_off2_lo c hmx) rfl) $$ HatS6_pay1
  icases Hb with ⟨%r6, Hq01⟩
  ihave Hq00 := (cv_lit (F := F) c (k0_off3_lo c hmx)) $$ Hq00
  imod (cell_done m (Ks c 6) (sendCell c 6)) $$ [HatS6] with HzS6
  · iframe # ∗
  ihave Hn := (pts_name (F := F) _ _) $$ Ho6
  icases Hn with ⟨%u6, %hu6, Ho6⟩
  ihave Ho6 := (Entails.of_eq (pointsTo_congr (f := u6) (g := outC m c) (by intro i hi; subst hu6; sl_unfold_words; exact local_val_w m c 6 0 (by omega) _ _ (k0_off1_eq c 6) _ _ _ _ (k0_off3_lo c hmx) _ _ _ _ rfl _ _ rfl fo _ _ _ rfl _ i hi))) $$ Ho6
  iclear HIs6 Hrs6
  sl_exec_parts (disch := a2a_disch)
  icases Hp with ⟨⟨⟨%d8, Hd8⟩, #Hrr8⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w8, %hw8, Hq01⟩
  iapply (wp_send_ch m c 8 (k0_off1 c 1024#32) (k0_off1_inb c 8) rfl rfl w8 d8 (by intro i hi; subst hw8; sl_unfold_words; exact send_val m c 8 1 (by omega) _ _ (k0_off1_eq c 8) _ _ _ _ (k0_off2_lo c hmx) _ _ _ _ rfl _ _ rfl d8 _ _ _ rfl _ i hi)) $$ [Hq01 Hd8 HO Hts8 Htr8]
  · iframe # ∗
  iintro ⟨HcS8, HO⟩
  iclear HIr8 Hrr8
  icases HXs with ⟨HX11, HXs⟩
  icases HGs with ⟨⟨#HIs9, #HIr9, HatS9, #Hrs9, Hts9, Htr9, Ho9⟩, HGs⟩
  sl_exec_parts (disch := a2a_disch)
  ihave Hb := (sendPay_lit (F := F) c 7 (k0_off4_lo c hmx) rfl) $$ HatS7_pay1
  icases Hb with ⟨%r7, Hq11⟩
  ihave Hq10 := (cv_lit (F := F) c (k0_off5_lo c hmx)) $$ Hq10
  imod (cell_done m (Ks c 7) (sendCell c 7)) $$ [HatS7] with HzS7
  · iframe # ∗
  ihave Hn := (pts_name (F := F) _ _) $$ Ho7
  icases Hn with ⟨%u7, %hu7, Ho7⟩
  ihave Ho7 := (Entails.of_eq (pointsTo_congr (f := u7) (g := outC m c) (by intro i hi; subst hu7; sl_unfold_words; exact local_val_w m c 7 0 (by omega) _ _ (k0_off1_eq c 7) _ _ _ _ (k0_off5_lo c hmx) _ _ _ _ rfl _ _ rfl fo _ _ _ rfl _ i hi))) $$ Ho7
  iclear HIs7 Hrs7
  sl_exec_parts (disch := a2a_disch)
  icases Hp with ⟨⟨⟨%d9, Hd9⟩, #Hrr9⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w9, %hw9, Hq11⟩
  iapply (wp_send_ch m c 9 (k0_off1 c 1152#32) (k0_off1_inb c 9) rfl rfl w9 d9 (by intro i hi; subst hw9; sl_unfold_words; exact send_val m c 9 1 (by omega) _ _ (k0_off1_eq c 9) _ _ _ _ (k0_off4_lo c hmx) _ _ _ _ rfl _ _ rfl d9 _ _ _ rfl _ i hi)) $$ [Hq11 Hd9 HO Hts9 Htr9]
  · iframe # ∗
  iintro ⟨HcS9, HO⟩
  iclear HIr9 Hrr9
  icases HXs with ⟨HX12, HXs⟩
  icases HGs with ⟨⟨#HIs10, #HIr10, HatS10, #Hrs10, Hts10, Htr10, Ho10⟩, HGs⟩
  sl_exec_parts (disch := a2a_disch)
  ihave Hb := (sendPay_lit (F := F) c 8 (k0_off2_lo c hmx) rfl) $$ HatS8_pay1
  icases Hb with ⟨%r8, Hq01⟩
  ihave Hq00 := (cv_lit (F := F) c (k0_off3_lo c hmx)) $$ Hq00
  imod (cell_done m (Ks c 8) (sendCell c 8)) $$ [HatS8] with HzS8
  · iframe # ∗
  ihave Hn := (pts_name (F := F) _ _) $$ Ho8
  icases Hn with ⟨%u8, %hu8, Ho8⟩
  ihave Ho8 := (Entails.of_eq (pointsTo_congr (f := u8) (g := outC m c) (by intro i hi; subst hu8; sl_unfold_words; exact local_val_w m c 8 0 (by omega) _ _ (k0_off1_eq c 8) _ _ _ _ (k0_off3_lo c hmx) _ _ _ _ rfl _ _ rfl fo _ _ _ rfl _ i hi))) $$ Ho8
  iclear HIs8 Hrs8
  sl_exec_parts (disch := a2a_disch)
  icases Hp with ⟨⟨⟨%d10, Hd10⟩, #Hrr10⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w10, %hw10, Hq01⟩
  iapply (wp_send_ch m c 10 (k0_off1 c 1280#32) (k0_off1_inb c 10) rfl rfl w10 d10 (by intro i hi; subst hw10; sl_unfold_words; exact send_val m c 10 1 (by omega) _ _ (k0_off1_eq c 10) _ _ _ _ (k0_off2_lo c hmx) _ _ _ _ rfl _ _ rfl d10 _ _ _ rfl _ i hi)) $$ [Hq01 Hd10 HO Hts10 Htr10]
  · iframe # ∗
  iintro ⟨HcS10, HO⟩
  iclear HIr10 Hrr10
  icases HXs with ⟨HX13, HXs⟩
  icases HGs with ⟨⟨#HIs11, #HIr11, HatS11, #Hrs11, Hts11, Htr11, Ho11⟩, HGs⟩
  sl_exec_parts (disch := a2a_disch)
  ihave Hb := (sendPay_lit (F := F) c 9 (k0_off4_lo c hmx) rfl) $$ HatS9_pay1
  icases Hb with ⟨%r9, Hq11⟩
  ihave Hq10 := (cv_lit (F := F) c (k0_off5_lo c hmx)) $$ Hq10
  imod (cell_done m (Ks c 9) (sendCell c 9)) $$ [HatS9] with HzS9
  · iframe # ∗
  ihave Hn := (pts_name (F := F) _ _) $$ Ho9
  icases Hn with ⟨%u9, %hu9, Ho9⟩
  ihave Ho9 := (Entails.of_eq (pointsTo_congr (f := u9) (g := outC m c) (by intro i hi; subst hu9; sl_unfold_words; exact local_val_w m c 9 0 (by omega) _ _ (k0_off1_eq c 9) _ _ _ _ (k0_off5_lo c hmx) _ _ _ _ rfl _ _ rfl fo _ _ _ rfl _ i hi))) $$ Ho9
  iclear HIs9 Hrs9
  sl_exec_parts (disch := a2a_disch)
  icases Hp with ⟨⟨⟨%d11, Hd11⟩, #Hrr11⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w11, %hw11, Hq11⟩
  iapply (wp_send_ch m c 11 (k0_off1 c 1408#32) (k0_off1_inb c 11) rfl rfl w11 d11 (by intro i hi; subst hw11; sl_unfold_words; exact send_val m c 11 1 (by omega) _ _ (k0_off1_eq c 11) _ _ _ _ (k0_off4_lo c hmx) _ _ _ _ rfl _ _ rfl d11 _ _ _ rfl _ i hi)) $$ [Hq11 Hd11 HO Hts11 Htr11]
  · iframe # ∗
  iintro ⟨HcS11, HO⟩
  iclear HIr11 Hrr11
  icases HXs with ⟨HX14, HXs⟩
  icases HGs with ⟨⟨#HIs12, #HIr12, HatS12, #Hrs12, Hts12, Htr12, Ho12⟩, HGs⟩
  sl_exec_parts (disch := a2a_disch)
  ihave Hb := (sendPay_lit (F := F) c 10 (k0_off2_lo c hmx) rfl) $$ HatS10_pay1
  icases Hb with ⟨%r10, Hq01⟩
  ihave Hq00 := (cv_lit (F := F) c (k0_off3_lo c hmx)) $$ Hq00
  imod (cell_done m (Ks c 10) (sendCell c 10)) $$ [HatS10] with HzS10
  · iframe # ∗
  ihave Hn := (pts_name (F := F) _ _) $$ Ho10
  icases Hn with ⟨%u10, %hu10, Ho10⟩
  ihave Ho10 := (Entails.of_eq (pointsTo_congr (f := u10) (g := outC m c) (by intro i hi; subst hu10; sl_unfold_words; exact local_val_w m c 10 0 (by omega) _ _ (k0_off1_eq c 10) _ _ _ _ (k0_off3_lo c hmx) _ _ _ _ rfl _ _ rfl fo _ _ _ rfl _ i hi))) $$ Ho10
  iclear HIs10 Hrs10
  sl_exec_parts (disch := a2a_disch)
  icases Hp with ⟨⟨⟨%d12, Hd12⟩, #Hrr12⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w12, %hw12, Hq01⟩
  iapply (wp_send_ch m c 12 (k0_off1 c 1536#32) (k0_off1_inb c 12) rfl rfl w12 d12 (by intro i hi; subst hw12; sl_unfold_words; exact send_val m c 12 1 (by omega) _ _ (k0_off1_eq c 12) _ _ _ _ (k0_off2_lo c hmx) _ _ _ _ rfl _ _ rfl d12 _ _ _ rfl _ i hi)) $$ [Hq01 Hd12 HO Hts12 Htr12]
  · iframe # ∗
  iintro ⟨HcS12, HO⟩
  iclear HIr12 Hrr12
  icases HXs with ⟨HX15, HXs⟩
  icases HGs with ⟨⟨#HIs13, #HIr13, HatS13, #Hrs13, Hts13, Htr13, Ho13⟩, HGs⟩
  sl_exec_parts (disch := a2a_disch)
  ihave Hb := (sendPay_lit (F := F) c 11 (k0_off4_lo c hmx) rfl) $$ HatS11_pay1
  icases Hb with ⟨%r11, Hq11⟩
  ihave Hq10 := (cv_lit (F := F) c (k0_off5_lo c hmx)) $$ Hq10
  imod (cell_done m (Ks c 11) (sendCell c 11)) $$ [HatS11] with HzS11
  · iframe # ∗
  ihave Hn := (pts_name (F := F) _ _) $$ Ho11
  icases Hn with ⟨%u11, %hu11, Ho11⟩
  ihave Ho11 := (Entails.of_eq (pointsTo_congr (f := u11) (g := outC m c) (by intro i hi; subst hu11; sl_unfold_words; exact local_val_w m c 11 0 (by omega) _ _ (k0_off1_eq c 11) _ _ _ _ (k0_off5_lo c hmx) _ _ _ _ rfl _ _ rfl fo _ _ _ rfl _ i hi))) $$ Ho11
  iclear HIs11 Hrs11
  sl_exec_parts (disch := a2a_disch)
  icases Hp with ⟨⟨⟨%d13, Hd13⟩, #Hrr13⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w13, %hw13, Hq11⟩
  iapply (wp_send_ch m c 13 (k0_off1 c 1664#32) (k0_off1_inb c 13) rfl rfl w13 d13 (by intro i hi; subst hw13; sl_unfold_words; exact send_val m c 13 1 (by omega) _ _ (k0_off1_eq c 13) _ _ _ _ (k0_off4_lo c hmx) _ _ _ _ rfl _ _ rfl d13 _ _ _ rfl _ i hi)) $$ [Hq11 Hd13 HO Hts13 Htr13]
  · iframe # ∗
  iintro ⟨HcS13, HO⟩
  iclear HIr13 Hrr13
  icases HXs with ⟨HX16, HXs⟩
  icases HGs with ⟨⟨#HIs14, #HIr14, HatS14, #Hrs14, Hts14, Htr14, Ho14⟩, HGs⟩
  sl_exec_parts (disch := a2a_disch)
  ihave Hb := (sendPay_lit (F := F) c 12 (k0_off2_lo c hmx) rfl) $$ HatS12_pay1
  icases Hb with ⟨%r12, Hq01⟩
  ihave Hq00 := (cv_lit (F := F) c (k0_off3_lo c hmx)) $$ Hq00
  imod (cell_done m (Ks c 12) (sendCell c 12)) $$ [HatS12] with HzS12
  · iframe # ∗
  ihave Hn := (pts_name (F := F) _ _) $$ Ho12
  icases Hn with ⟨%u12, %hu12, Ho12⟩
  ihave Ho12 := (Entails.of_eq (pointsTo_congr (f := u12) (g := outC m c) (by intro i hi; subst hu12; sl_unfold_words; exact local_val_w m c 12 0 (by omega) _ _ (k0_off1_eq c 12) _ _ _ _ (k0_off3_lo c hmx) _ _ _ _ rfl _ _ rfl fo _ _ _ rfl _ i hi))) $$ Ho12
  iclear HIs12 Hrs12
  sl_exec_parts (disch := a2a_disch)
  icases Hp with ⟨⟨⟨%d14, Hd14⟩, #Hrr14⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w14, %hw14, Hq01⟩
  iapply (wp_send_ch m c 14 (k0_off1 c 1792#32) (k0_off1_inb c 14) rfl rfl w14 d14 (by intro i hi; subst hw14; sl_unfold_words; exact send_val m c 14 1 (by omega) _ _ (k0_off1_eq c 14) _ _ _ _ (k0_off2_lo c hmx) _ _ _ _ rfl _ _ rfl d14 _ _ _ rfl _ i hi)) $$ [Hq01 Hd14 HO Hts14 Htr14]
  · iframe # ∗
  iintro ⟨HcS14, HO⟩
  iclear HIr14 Hrr14
  icases HXs with ⟨HX17, HXs⟩
  icases HGs with ⟨⟨#HIs15, #HIr15, HatS15, #Hrs15, Hts15, Htr15, Ho15⟩, HGs⟩
  sl_exec_parts (disch := a2a_disch)
  ihave Hb := (sendPay_lit (F := F) c 13 (k0_off4_lo c hmx) rfl) $$ HatS13_pay1
  icases Hb with ⟨%r13, Hq11⟩
  ihave Hq10 := (cv_lit (F := F) c (k0_off5_lo c hmx)) $$ Hq10
  imod (cell_done m (Ks c 13) (sendCell c 13)) $$ [HatS13] with HzS13
  · iframe # ∗
  ihave Hn := (pts_name (F := F) _ _) $$ Ho13
  icases Hn with ⟨%u13, %hu13, Ho13⟩
  ihave Ho13 := (Entails.of_eq (pointsTo_congr (f := u13) (g := outC m c) (by intro i hi; subst hu13; sl_unfold_words; exact local_val_w m c 13 0 (by omega) _ _ (k0_off1_eq c 13) _ _ _ _ (k0_off5_lo c hmx) _ _ _ _ rfl _ _ rfl fo _ _ _ rfl _ i hi))) $$ Ho13
  iclear HIs13 Hrs13
  sl_exec_parts (disch := a2a_disch)
  icases Hp with ⟨⟨⟨%d15, Hd15⟩, #Hrr15⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w15, %hw15, Hq11⟩
  iapply (wp_send_ch m c 15 (k0_off1 c 1920#32) (k0_off1_inb c 15) rfl rfl w15 d15 (by intro i hi; subst hw15; sl_unfold_words; exact send_val m c 15 1 (by omega) _ _ (k0_off1_eq c 15) _ _ _ _ (k0_off4_lo c hmx) _ _ _ _ rfl _ _ rfl d15 _ _ _ rfl _ i hi)) $$ [Hq11 Hd15 HO Hts15 Htr15]
  · iframe # ∗
  iintro ⟨HcS15, HO⟩
  iclear HIr15 Hrr15
  icases HXs with ⟨HX18, HXs⟩
  icases HGs with ⟨⟨#HIs16, #HIr16, HatS16, #Hrs16, Hts16, Htr16, Ho16⟩, HGs⟩
  sl_exec_parts (disch := a2a_disch)
  ihave Hb := (sendPay_lit (F := F) c 14 (k0_off2_lo c hmx) rfl) $$ HatS14_pay1
  icases Hb with ⟨%r14, Hq01⟩
  ihave Hq00 := (cv_lit (F := F) c (k0_off3_lo c hmx)) $$ Hq00
  imod (cell_done m (Ks c 14) (sendCell c 14)) $$ [HatS14] with HzS14
  · iframe # ∗
  ihave Hn := (pts_name (F := F) _ _) $$ Ho14
  icases Hn with ⟨%u14, %hu14, Ho14⟩
  ihave Ho14 := (Entails.of_eq (pointsTo_congr (f := u14) (g := outC m c) (by intro i hi; subst hu14; sl_unfold_words; exact local_val_w m c 14 0 (by omega) _ _ (k0_off1_eq c 14) _ _ _ _ (k0_off3_lo c hmx) _ _ _ _ rfl _ _ rfl fo _ _ _ rfl _ i hi))) $$ Ho14
  iclear HIs14 Hrs14
  sl_exec_parts (disch := a2a_disch)
  icases Hp with ⟨⟨⟨%d16, Hd16⟩, #Hrr16⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w16, %hw16, Hq01⟩
  iapply (wp_send_ch m c 16 (k0_off1 c 2048#32) (k0_off1_inb c 16) rfl rfl w16 d16 (by intro i hi; subst hw16; sl_unfold_words; exact send_val m c 16 1 (by omega) _ _ (k0_off1_eq c 16) _ _ _ _ (k0_off2_lo c hmx) _ _ _ _ rfl _ _ rfl d16 _ _ _ rfl _ i hi)) $$ [Hq01 Hd16 HO Hts16 Htr16]
  · iframe # ∗
  iintro ⟨HcS16, HO⟩
  iclear HIr16 Hrr16
  icases HXs with ⟨HX19, HXs⟩
  icases HGs with ⟨⟨#HIs17, #HIr17, HatS17, #Hrs17, Hts17, Htr17, Ho17⟩, HGs⟩
  sl_exec_parts (disch := a2a_disch)
  ihave Hb := (sendPay_lit (F := F) c 15 (k0_off4_lo c hmx) rfl) $$ HatS15_pay1
  icases Hb with ⟨%r15, Hq11⟩
  ihave Hq10 := (cv_lit (F := F) c (k0_off5_lo c hmx)) $$ Hq10
  imod (cell_done m (Ks c 15) (sendCell c 15)) $$ [HatS15] with HzS15
  · iframe # ∗
  ihave Hn := (pts_name (F := F) _ _) $$ Ho15
  icases Hn with ⟨%u15, %hu15, Ho15⟩
  ihave Ho15 := (Entails.of_eq (pointsTo_congr (f := u15) (g := outC m c) (by intro i hi; subst hu15; sl_unfold_words; exact local_val_w m c 15 0 (by omega) _ _ (k0_off1_eq c 15) _ _ _ _ (k0_off5_lo c hmx) _ _ _ _ rfl _ _ rfl fo _ _ _ rfl _ i hi))) $$ Ho15
  iclear HIs15 Hrs15
  sl_exec_parts (disch := a2a_disch)
  icases Hp with ⟨⟨⟨%d17, Hd17⟩, #Hrr17⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w17, %hw17, Hq11⟩
  iapply (wp_send_ch m c 17 (k0_off1 c 2176#32) (k0_off1_inb c 17) rfl rfl w17 d17 (by intro i hi; subst hw17; sl_unfold_words; exact send_val m c 17 1 (by omega) _ _ (k0_off1_eq c 17) _ _ _ _ (k0_off4_lo c hmx) _ _ _ _ rfl _ _ rfl d17 _ _ _ rfl _ i hi)) $$ [Hq11 Hd17 HO Hts17 Htr17]
  · iframe # ∗
  iintro ⟨HcS17, HO⟩
  iclear HIr17 Hrr17
  icases HXs with ⟨HX20, HXs⟩
  icases HGs with ⟨⟨#HIs18, #HIr18, HatS18, #Hrs18, Hts18, Htr18, Ho18⟩, HGs⟩
  sl_exec_parts (disch := a2a_disch)
  ihave Hb := (sendPay_lit (F := F) c 16 (k0_off2_lo c hmx) rfl) $$ HatS16_pay1
  icases Hb with ⟨%r16, Hq01⟩
  ihave Hq00 := (cv_lit (F := F) c (k0_off3_lo c hmx)) $$ Hq00
  imod (cell_done m (Ks c 16) (sendCell c 16)) $$ [HatS16] with HzS16
  · iframe # ∗
  ihave Hn := (pts_name (F := F) _ _) $$ Ho16
  icases Hn with ⟨%u16, %hu16, Ho16⟩
  ihave Ho16 := (Entails.of_eq (pointsTo_congr (f := u16) (g := outC m c) (by intro i hi; subst hu16; sl_unfold_words; exact local_val_w m c 16 0 (by omega) _ _ (k0_off1_eq c 16) _ _ _ _ (k0_off3_lo c hmx) _ _ _ _ rfl _ _ rfl fo _ _ _ rfl _ i hi))) $$ Ho16
  iclear HIs16 Hrs16
  sl_exec_parts (disch := a2a_disch)
  icases Hp with ⟨⟨⟨%d18, Hd18⟩, #Hrr18⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w18, %hw18, Hq01⟩
  iapply (wp_send_ch m c 18 (k0_off1 c 2304#32) (k0_off1_inb c 18) rfl rfl w18 d18 (by intro i hi; subst hw18; sl_unfold_words; exact send_val m c 18 1 (by omega) _ _ (k0_off1_eq c 18) _ _ _ _ (k0_off2_lo c hmx) _ _ _ _ rfl _ _ rfl d18 _ _ _ rfl _ i hi)) $$ [Hq01 Hd18 HO Hts18 Htr18]
  · iframe # ∗
  iintro ⟨HcS18, HO⟩
  iclear HIr18 Hrr18
  icases HXs with ⟨HX21, HXs⟩
  icases HGs with ⟨⟨#HIs19, #HIr19, HatS19, #Hrs19, Hts19, Htr19, Ho19⟩, HGs⟩
  sl_exec_parts (disch := a2a_disch)
  ihave Hb := (sendPay_lit (F := F) c 17 (k0_off4_lo c hmx) rfl) $$ HatS17_pay1
  icases Hb with ⟨%r17, Hq11⟩
  ihave Hq10 := (cv_lit (F := F) c (k0_off5_lo c hmx)) $$ Hq10
  imod (cell_done m (Ks c 17) (sendCell c 17)) $$ [HatS17] with HzS17
  · iframe # ∗
  ihave Hn := (pts_name (F := F) _ _) $$ Ho17
  icases Hn with ⟨%u17, %hu17, Ho17⟩
  ihave Ho17 := (Entails.of_eq (pointsTo_congr (f := u17) (g := outC m c) (by intro i hi; subst hu17; sl_unfold_words; exact local_val_w m c 17 0 (by omega) _ _ (k0_off1_eq c 17) _ _ _ _ (k0_off5_lo c hmx) _ _ _ _ rfl _ _ rfl fo _ _ _ rfl _ i hi))) $$ Ho17
  iclear HIs17 Hrs17
  sl_exec_parts (disch := a2a_disch)
  icases Hp with ⟨⟨⟨%d19, Hd19⟩, #Hrr19⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w19, %hw19, Hq11⟩
  iapply (wp_send_ch m c 19 (k0_off1 c 2432#32) (k0_off1_inb c 19) rfl rfl w19 d19 (by intro i hi; subst hw19; sl_unfold_words; exact send_val m c 19 1 (by omega) _ _ (k0_off1_eq c 19) _ _ _ _ (k0_off4_lo c hmx) _ _ _ _ rfl _ _ rfl d19 _ _ _ rfl _ i hi)) $$ [Hq11 Hd19 HO Hts19 Htr19]
  · iframe # ∗
  iintro ⟨HcS19, HO⟩
  iclear HIr19 Hrr19
  icases HXs with ⟨HX22, HXs⟩
  icases HGs with ⟨⟨#HIs20, #HIr20, HatS20, #Hrs20, Hts20, Htr20, Ho20⟩, HGs⟩
  sl_exec_parts (disch := a2a_disch)
  ihave Hb := (sendPay_lit (F := F) c 18 (k0_off2_lo c hmx) rfl) $$ HatS18_pay1
  icases Hb with ⟨%r18, Hq01⟩
  ihave Hq00 := (cv_lit (F := F) c (k0_off3_lo c hmx)) $$ Hq00
  imod (cell_done m (Ks c 18) (sendCell c 18)) $$ [HatS18] with HzS18
  · iframe # ∗
  ihave Hn := (pts_name (F := F) _ _) $$ Ho18
  icases Hn with ⟨%u18, %hu18, Ho18⟩
  ihave Ho18 := (Entails.of_eq (pointsTo_congr (f := u18) (g := outC m c) (by intro i hi; subst hu18; sl_unfold_words; exact local_val_w m c 18 0 (by omega) _ _ (k0_off1_eq c 18) _ _ _ _ (k0_off3_lo c hmx) _ _ _ _ rfl _ _ rfl fo _ _ _ rfl _ i hi))) $$ Ho18
  iclear HIs18 Hrs18
  sl_exec_parts (disch := a2a_disch)
  icases Hp with ⟨⟨⟨%d20, Hd20⟩, #Hrr20⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w20, %hw20, Hq01⟩
  iapply (wp_send_ch m c 20 (k0_off1 c 2560#32) (k0_off1_inb c 20) rfl rfl w20 d20 (by intro i hi; subst hw20; sl_unfold_words; exact send_val m c 20 1 (by omega) _ _ (k0_off1_eq c 20) _ _ _ _ (k0_off2_lo c hmx) _ _ _ _ rfl _ _ rfl d20 _ _ _ rfl _ i hi)) $$ [Hq01 Hd20 HO Hts20 Htr20]
  · iframe # ∗
  iintro ⟨HcS20, HO⟩
  iclear HIr20 Hrr20
  icases HXs with ⟨HX23, HXs⟩
  icases HGs with ⟨⟨#HIs21, #HIr21, HatS21, #Hrs21, Hts21, Htr21, Ho21⟩, HGs⟩
  sl_exec_parts (disch := a2a_disch)
  ihave Hb := (sendPay_lit (F := F) c 19 (k0_off4_lo c hmx) rfl) $$ HatS19_pay1
  icases Hb with ⟨%r19, Hq11⟩
  ihave Hq10 := (cv_lit (F := F) c (k0_off5_lo c hmx)) $$ Hq10
  imod (cell_done m (Ks c 19) (sendCell c 19)) $$ [HatS19] with HzS19
  · iframe # ∗
  ihave Hn := (pts_name (F := F) _ _) $$ Ho19
  icases Hn with ⟨%u19, %hu19, Ho19⟩
  ihave Ho19 := (Entails.of_eq (pointsTo_congr (f := u19) (g := outC m c) (by intro i hi; subst hu19; sl_unfold_words; exact local_val_w m c 19 0 (by omega) _ _ (k0_off1_eq c 19) _ _ _ _ (k0_off5_lo c hmx) _ _ _ _ rfl _ _ rfl fo _ _ _ rfl _ i hi))) $$ Ho19
  iclear HIs19 Hrs19
  sl_exec_parts (disch := a2a_disch)
  icases Hp with ⟨⟨⟨%d21, Hd21⟩, #Hrr21⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w21, %hw21, Hq11⟩
  iapply (wp_send_ch m c 21 (k0_off1 c 2688#32) (k0_off1_inb c 21) rfl rfl w21 d21 (by intro i hi; subst hw21; sl_unfold_words; exact send_val m c 21 1 (by omega) _ _ (k0_off1_eq c 21) _ _ _ _ (k0_off4_lo c hmx) _ _ _ _ rfl _ _ rfl d21 _ _ _ rfl _ i hi)) $$ [Hq11 Hd21 HO Hts21 Htr21]
  · iframe # ∗
  iintro ⟨HcS21, HO⟩
  iclear HIr21 Hrr21
  icases HXs with ⟨HX24, HXs⟩
  icases HGs with ⟨⟨#HIs22, #HIr22, HatS22, #Hrs22, Hts22, Htr22, Ho22⟩, HGs⟩
  sl_exec_parts (disch := a2a_disch)
  ihave Hb := (sendPay_lit (F := F) c 20 (k0_off2_lo c hmx) rfl) $$ HatS20_pay1
  icases Hb with ⟨%r20, Hq01⟩
  ihave Hq00 := (cv_lit (F := F) c (k0_off3_lo c hmx)) $$ Hq00
  imod (cell_done m (Ks c 20) (sendCell c 20)) $$ [HatS20] with HzS20
  · iframe # ∗
  ihave Hn := (pts_name (F := F) _ _) $$ Ho20
  icases Hn with ⟨%u20, %hu20, Ho20⟩
  ihave Ho20 := (Entails.of_eq (pointsTo_congr (f := u20) (g := outC m c) (by intro i hi; subst hu20; sl_unfold_words; exact local_val_w m c 20 0 (by omega) _ _ (k0_off1_eq c 20) _ _ _ _ (k0_off3_lo c hmx) _ _ _ _ rfl _ _ rfl fo _ _ _ rfl _ i hi))) $$ Ho20
  iclear HIs20 Hrs20
  sl_exec_parts (disch := a2a_disch)
  icases Hp with ⟨⟨⟨%d22, Hd22⟩, #Hrr22⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w22, %hw22, Hq01⟩
  iapply (wp_send_ch m c 22 (k0_off1 c 2816#32) (k0_off1_inb c 22) rfl rfl w22 d22 (by intro i hi; subst hw22; sl_unfold_words; exact send_val m c 22 1 (by omega) _ _ (k0_off1_eq c 22) _ _ _ _ (k0_off2_lo c hmx) _ _ _ _ rfl _ _ rfl d22 _ _ _ rfl _ i hi)) $$ [Hq01 Hd22 HO Hts22 Htr22]
  · iframe # ∗
  iintro ⟨HcS22, HO⟩
  iclear HIr22 Hrr22
  icases HXs with ⟨HX25, HXs⟩
  icases HGs with ⟨⟨#HIs23, #HIr23, HatS23, #Hrs23, Hts23, Htr23, Ho23⟩, HGs⟩
  sl_exec_parts (disch := a2a_disch)
  ihave Hb := (sendPay_lit (F := F) c 21 (k0_off4_lo c hmx) rfl) $$ HatS21_pay1
  icases Hb with ⟨%r21, Hq11⟩
  ihave Hq10 := (cv_lit (F := F) c (k0_off5_lo c hmx)) $$ Hq10
  imod (cell_done m (Ks c 21) (sendCell c 21)) $$ [HatS21] with HzS21
  · iframe # ∗
  ihave Hn := (pts_name (F := F) _ _) $$ Ho21
  icases Hn with ⟨%u21, %hu21, Ho21⟩
  ihave Ho21 := (Entails.of_eq (pointsTo_congr (f := u21) (g := outC m c) (by intro i hi; subst hu21; sl_unfold_words; exact local_val_w m c 21 0 (by omega) _ _ (k0_off1_eq c 21) _ _ _ _ (k0_off5_lo c hmx) _ _ _ _ rfl _ _ rfl fo _ _ _ rfl _ i hi))) $$ Ho21
  iclear HIs21 Hrs21
  sl_exec_parts (disch := a2a_disch)
  icases Hp with ⟨⟨⟨%d23, Hd23⟩, #Hrr23⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w23, %hw23, Hq11⟩
  iapply (wp_send_ch m c 23 (k0_off1 c 2944#32) (k0_off1_inb c 23) rfl rfl w23 d23 (by intro i hi; subst hw23; sl_unfold_words; exact send_val m c 23 1 (by omega) _ _ (k0_off1_eq c 23) _ _ _ _ (k0_off4_lo c hmx) _ _ _ _ rfl _ _ rfl d23 _ _ _ rfl _ i hi)) $$ [Hq11 Hd23 HO Hts23 Htr23]
  · iframe # ∗
  iintro ⟨HcS23, HO⟩
  iclear HIr23 Hrr23
  icases HXs with ⟨HX26, HXs⟩
  icases HGs with ⟨⟨#HIs24, #HIr24, HatS24, #Hrs24, Hts24, Htr24, Ho24⟩, HGs⟩
  sl_exec_parts (disch := a2a_disch)
  ihave Hb := (sendPay_lit (F := F) c 22 (k0_off2_lo c hmx) rfl) $$ HatS22_pay1
  icases Hb with ⟨%r22, Hq01⟩
  ihave Hq00 := (cv_lit (F := F) c (k0_off3_lo c hmx)) $$ Hq00
  imod (cell_done m (Ks c 22) (sendCell c 22)) $$ [HatS22] with HzS22
  · iframe # ∗
  ihave Hn := (pts_name (F := F) _ _) $$ Ho22
  icases Hn with ⟨%u22, %hu22, Ho22⟩
  ihave Ho22 := (Entails.of_eq (pointsTo_congr (f := u22) (g := outC m c) (by intro i hi; subst hu22; sl_unfold_words; exact local_val_w m c 22 0 (by omega) _ _ (k0_off1_eq c 22) _ _ _ _ (k0_off3_lo c hmx) _ _ _ _ rfl _ _ rfl fo _ _ _ rfl _ i hi))) $$ Ho22
  iclear HIs22 Hrs22
  sl_exec_parts (disch := a2a_disch)
  icases Hp with ⟨⟨⟨%d24, Hd24⟩, #Hrr24⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w24, %hw24, Hq01⟩
  iapply (wp_send_ch m c 24 (k0_off1 c 3072#32) (k0_off1_inb c 24) rfl rfl w24 d24 (by intro i hi; subst hw24; sl_unfold_words; exact send_val m c 24 1 (by omega) _ _ (k0_off1_eq c 24) _ _ _ _ (k0_off2_lo c hmx) _ _ _ _ rfl _ _ rfl d24 _ _ _ rfl _ i hi)) $$ [Hq01 Hd24 HO Hts24 Htr24]
  · iframe # ∗
  iintro ⟨HcS24, HO⟩
  iclear HIr24 Hrr24
  icases HXs with ⟨HX27, HXs⟩
  icases HGs with ⟨⟨#HIs25, #HIr25, HatS25, #Hrs25, Hts25, Htr25, Ho25⟩, HGs⟩
  sl_exec_parts (disch := a2a_disch)
  ihave Hb := (sendPay_lit (F := F) c 23 (k0_off4_lo c hmx) rfl) $$ HatS23_pay1
  icases Hb with ⟨%r23, Hq11⟩
  ihave Hq10 := (cv_lit (F := F) c (k0_off5_lo c hmx)) $$ Hq10
  imod (cell_done m (Ks c 23) (sendCell c 23)) $$ [HatS23] with HzS23
  · iframe # ∗
  ihave Hn := (pts_name (F := F) _ _) $$ Ho23
  icases Hn with ⟨%u23, %hu23, Ho23⟩
  ihave Ho23 := (Entails.of_eq (pointsTo_congr (f := u23) (g := outC m c) (by intro i hi; subst hu23; sl_unfold_words; exact local_val_w m c 23 0 (by omega) _ _ (k0_off1_eq c 23) _ _ _ _ (k0_off5_lo c hmx) _ _ _ _ rfl _ _ rfl fo _ _ _ rfl _ i hi))) $$ Ho23
  iclear HIs23 Hrs23
  sl_exec_parts (disch := a2a_disch)
  icases Hp with ⟨⟨⟨%d25, Hd25⟩, #Hrr25⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w25, %hw25, Hq11⟩
  iapply (wp_send_ch m c 25 (k0_off1 c 3200#32) (k0_off1_inb c 25) rfl rfl w25 d25 (by intro i hi; subst hw25; sl_unfold_words; exact send_val m c 25 1 (by omega) _ _ (k0_off1_eq c 25) _ _ _ _ (k0_off4_lo c hmx) _ _ _ _ rfl _ _ rfl d25 _ _ _ rfl _ i hi)) $$ [Hq11 Hd25 HO Hts25 Htr25]
  · iframe # ∗
  iintro ⟨HcS25, HO⟩
  iclear HIr25 Hrr25
  icases HXs with ⟨HX28, HXs⟩
  icases HGs with ⟨⟨#HIs26, #HIr26, HatS26, #Hrs26, Hts26, Htr26, Ho26⟩, HGs⟩
  sl_exec_parts (disch := a2a_disch)
  ihave Hb := (sendPay_lit (F := F) c 24 (k0_off2_lo c hmx) rfl) $$ HatS24_pay1
  icases Hb with ⟨%r24, Hq01⟩
  ihave Hq00 := (cv_lit (F := F) c (k0_off3_lo c hmx)) $$ Hq00
  imod (cell_done m (Ks c 24) (sendCell c 24)) $$ [HatS24] with HzS24
  · iframe # ∗
  ihave Hn := (pts_name (F := F) _ _) $$ Ho24
  icases Hn with ⟨%u24, %hu24, Ho24⟩
  ihave Ho24 := (Entails.of_eq (pointsTo_congr (f := u24) (g := outC m c) (by intro i hi; subst hu24; sl_unfold_words; exact local_val_w m c 24 0 (by omega) _ _ (k0_off1_eq c 24) _ _ _ _ (k0_off3_lo c hmx) _ _ _ _ rfl _ _ rfl fo _ _ _ rfl _ i hi))) $$ Ho24
  iclear HIs24 Hrs24
  sl_exec_parts (disch := a2a_disch)
  icases Hp with ⟨⟨⟨%d26, Hd26⟩, #Hrr26⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w26, %hw26, Hq01⟩
  iapply (wp_send_ch m c 26 (k0_off1 c 3328#32) (k0_off1_inb c 26) rfl rfl w26 d26 (by intro i hi; subst hw26; sl_unfold_words; exact send_val m c 26 1 (by omega) _ _ (k0_off1_eq c 26) _ _ _ _ (k0_off2_lo c hmx) _ _ _ _ rfl _ _ rfl d26 _ _ _ rfl _ i hi)) $$ [Hq01 Hd26 HO Hts26 Htr26]
  · iframe # ∗
  iintro ⟨HcS26, HO⟩
  iclear HIr26 Hrr26
  icases HXs with ⟨HX29, HXs⟩
  icases HGs with ⟨⟨#HIs27, #HIr27, HatS27, #Hrs27, Hts27, Htr27, Ho27⟩, HGs⟩
  sl_exec_parts (disch := a2a_disch)
  ihave Hb := (sendPay_lit (F := F) c 25 (k0_off4_lo c hmx) rfl) $$ HatS25_pay1
  icases Hb with ⟨%r25, Hq11⟩
  ihave Hq10 := (cv_lit (F := F) c (k0_off5_lo c hmx)) $$ Hq10
  imod (cell_done m (Ks c 25) (sendCell c 25)) $$ [HatS25] with HzS25
  · iframe # ∗
  ihave Hn := (pts_name (F := F) _ _) $$ Ho25
  icases Hn with ⟨%u25, %hu25, Ho25⟩
  ihave Ho25 := (Entails.of_eq (pointsTo_congr (f := u25) (g := outC m c) (by intro i hi; subst hu25; sl_unfold_words; exact local_val_w m c 25 0 (by omega) _ _ (k0_off1_eq c 25) _ _ _ _ (k0_off5_lo c hmx) _ _ _ _ rfl _ _ rfl fo _ _ _ rfl _ i hi))) $$ Ho25
  iclear HIs25 Hrs25
  sl_exec_parts (disch := a2a_disch)
  icases Hp with ⟨⟨⟨%d27, Hd27⟩, #Hrr27⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w27, %hw27, Hq11⟩
  iapply (wp_send_ch m c 27 (k0_off1 c 3456#32) (k0_off1_inb c 27) rfl rfl w27 d27 (by intro i hi; subst hw27; sl_unfold_words; exact send_val m c 27 1 (by omega) _ _ (k0_off1_eq c 27) _ _ _ _ (k0_off4_lo c hmx) _ _ _ _ rfl _ _ rfl d27 _ _ _ rfl _ i hi)) $$ [Hq11 Hd27 HO Hts27 Htr27]
  · iframe # ∗
  iintro ⟨HcS27, HO⟩
  iclear HIr27 Hrr27
  icases HXs with ⟨HX30, HXs⟩
  icases HGs with ⟨⟨#HIs28, #HIr28, HatS28, #Hrs28, Hts28, Htr28, Ho28⟩, HGs⟩
  sl_exec_parts (disch := a2a_disch)
  ihave Hb := (sendPay_lit (F := F) c 26 (k0_off2_lo c hmx) rfl) $$ HatS26_pay1
  icases Hb with ⟨%r26, Hq01⟩
  ihave Hq00 := (cv_lit (F := F) c (k0_off3_lo c hmx)) $$ Hq00
  imod (cell_done m (Ks c 26) (sendCell c 26)) $$ [HatS26] with HzS26
  · iframe # ∗
  ihave Hn := (pts_name (F := F) _ _) $$ Ho26
  icases Hn with ⟨%u26, %hu26, Ho26⟩
  ihave Ho26 := (Entails.of_eq (pointsTo_congr (f := u26) (g := outC m c) (by intro i hi; subst hu26; sl_unfold_words; exact local_val_w m c 26 0 (by omega) _ _ (k0_off1_eq c 26) _ _ _ _ (k0_off3_lo c hmx) _ _ _ _ rfl _ _ rfl fo _ _ _ rfl _ i hi))) $$ Ho26
  iclear HIs26 Hrs26
  sl_exec_parts (disch := a2a_disch)
  icases Hp with ⟨⟨⟨%d28, Hd28⟩, #Hrr28⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w28, %hw28, Hq01⟩
  iapply (wp_send_ch m c 28 (k0_off1 c 3584#32) (k0_off1_inb c 28) rfl rfl w28 d28 (by intro i hi; subst hw28; sl_unfold_words; exact send_val m c 28 1 (by omega) _ _ (k0_off1_eq c 28) _ _ _ _ (k0_off2_lo c hmx) _ _ _ _ rfl _ _ rfl d28 _ _ _ rfl _ i hi)) $$ [Hq01 Hd28 HO Hts28 Htr28]
  · iframe # ∗
  iintro ⟨HcS28, HO⟩
  iclear HIr28 Hrr28
  icases HXs with HX31
  icases HGs with ⟨⟨#HIs29, #HIr29, HatS29, #Hrs29, Hts29, Htr29, Ho29⟩, HGs⟩
  sl_exec_parts (disch := a2a_disch)
  ihave Hb := (sendPay_lit (F := F) c 27 (k0_off4_lo c hmx) rfl) $$ HatS27_pay1
  icases Hb with ⟨%r27, Hq11⟩
  ihave Hq10 := (cv_lit (F := F) c (k0_off5_lo c hmx)) $$ Hq10
  imod (cell_done m (Ks c 27) (sendCell c 27)) $$ [HatS27] with HzS27
  · iframe # ∗
  ihave Hn := (pts_name (F := F) _ _) $$ Ho27
  icases Hn with ⟨%u27, %hu27, Ho27⟩
  ihave Ho27 := (Entails.of_eq (pointsTo_congr (f := u27) (g := outC m c) (by intro i hi; subst hu27; sl_unfold_words; exact local_val_w m c 27 0 (by omega) _ _ (k0_off1_eq c 27) _ _ _ _ (k0_off5_lo c hmx) _ _ _ _ rfl _ _ rfl fo _ _ _ rfl _ i hi))) $$ Ho27
  iclear HIs27 Hrs27
  sl_exec_parts (disch := a2a_disch)
  icases Hp with ⟨⟨⟨%d29, Hd29⟩, #Hrr29⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w29, %hw29, Hq11⟩
  iapply (wp_send_ch m c 29 (k0_off1 c 3712#32) (k0_off1_inb c 29) rfl rfl w29 d29 (by intro i hi; subst hw29; sl_unfold_words; exact send_val m c 29 1 (by omega) _ _ (k0_off1_eq c 29) _ _ _ _ (k0_off4_lo c hmx) _ _ _ _ rfl _ _ rfl d29 _ _ _ rfl _ i hi)) $$ [Hq11 Hd29 HO Hts29 Htr29]
  · iframe # ∗
  iintro ⟨HcS29, HO⟩
  iclear HIr29 Hrr29
  icases HGs with ⟨⟨#HIs30, #HIr30, HatS30, #Hrs30, Hts30, Htr30, Ho30⟩, HGs⟩
  sl_exec_parts (disch := a2a_disch)
  ihave Hb := (sendPay_lit (F := F) c 28 (k0_off2_lo c hmx) rfl) $$ HatS28_pay1
  icases Hb with ⟨%r28, Hq01⟩
  ihave Hq00 := (cv_lit (F := F) c (k0_off3_lo c hmx)) $$ Hq00
  imod (cell_done m (Ks c 28) (sendCell c 28)) $$ [HatS28] with HzS28
  · iframe # ∗
  ihave Hn := (pts_name (F := F) _ _) $$ Ho28
  icases Hn with ⟨%u28, %hu28, Ho28⟩
  ihave Ho28 := (Entails.of_eq (pointsTo_congr (f := u28) (g := outC m c) (by intro i hi; subst hu28; sl_unfold_words; exact local_val_w m c 28 0 (by omega) _ _ (k0_off1_eq c 28) _ _ _ _ (k0_off3_lo c hmx) _ _ _ _ rfl _ _ rfl fo _ _ _ rfl _ i hi))) $$ Ho28
  iclear HIs28 Hrs28
  sl_exec_parts (disch := a2a_disch)
  icases Hp with ⟨⟨⟨%d30, Hd30⟩, #Hrr30⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w30, %hw30, Hq01⟩
  iapply (wp_send_ch m c 30 (k0_off1 c 3840#32) (k0_off1_inb c 30) rfl rfl w30 d30 (by intro i hi; subst hw30; sl_unfold_words; exact send_val m c 30 1 (by omega) _ _ (k0_off1_eq c 30) _ _ _ _ (k0_off2_lo c hmx) _ _ _ _ rfl _ _ rfl d30 _ _ _ rfl _ i hi)) $$ [Hq01 Hd30 HO Hts30 Htr30]
  · iframe # ∗
  iintro ⟨HcS30, HO⟩
  iclear HIr30 Hrr30
  icases HGs with ⟨#HIs31, #HIr31, HatS31, #Hrs31, Hts31, Htr31, Ho31⟩
  sl_exec_parts (disch := a2a_disch)
  ihave Hb := (sendPay_lit (F := F) c 29 (k0_off4_lo c hmx) rfl) $$ HatS29_pay1
  icases Hb with ⟨%r29, Hq11⟩
  ihave Hq10 := (cv_lit (F := F) c (k0_off5_lo c hmx)) $$ Hq10
  imod (cell_done m (Ks c 29) (sendCell c 29)) $$ [HatS29] with HzS29
  · iframe # ∗
  ihave Hn := (pts_name (F := F) _ _) $$ Ho29
  icases Hn with ⟨%u29, %hu29, Ho29⟩
  ihave Ho29 := (Entails.of_eq (pointsTo_congr (f := u29) (g := outC m c) (by intro i hi; subst hu29; sl_unfold_words; exact local_val_w m c 29 0 (by omega) _ _ (k0_off1_eq c 29) _ _ _ _ (k0_off5_lo c hmx) _ _ _ _ rfl _ _ rfl fo _ _ _ rfl _ i hi))) $$ Ho29
  iclear HIs29 Hrs29
  sl_exec_parts (disch := a2a_disch)
  icases Hp with ⟨⟨%d31, Hd31⟩, #Hrr31⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w31, %hw31, Hq11⟩
  iapply (wp_send_ch m c 31 (k0_off1 c 3968#32) (k0_off1_inb c 31) rfl rfl w31 d31 (by intro i hi; subst hw31; sl_unfold_words; exact send_val m c 31 1 (by omega) _ _ (k0_off1_eq c 31) _ _ _ _ (k0_off4_lo c hmx) _ _ _ _ rfl _ _ rfl d31 _ _ _ rfl _ i hi)) $$ [Hq11 Hd31 HO Hts31 Htr31]
  · iframe # ∗
  iintro ⟨HcS31, HO⟩
  iclear HIr31 Hrr31
  icases HVs with ⟨⟨#HIv0, HatV0, HcV0⟩, ⟨#HIv1, HatV1, HcV1⟩, ⟨#HIv2, HatV2, HcV2⟩, ⟨#HIv3, HatV3, HcV3⟩, ⟨#HIv4, HatV4, HcV4⟩, ⟨#HIv5, HatV5, HcV5⟩, ⟨#HIv6, HatV6, HcV6⟩, ⟨#HIv7, HatV7, HcV7⟩, ⟨#HIv8, HatV8, HcV8⟩, ⟨#HIv9, HatV9, HcV9⟩, ⟨#HIv10, HatV10, HcV10⟩, ⟨#HIv11, HatV11, HcV11⟩, ⟨#HIv12, HatV12, HcV12⟩, ⟨#HIv13, HatV13, HcV13⟩, ⟨#HIv14, HatV14, HcV14⟩, ⟨#HIv15, HatV15, HcV15⟩, ⟨#HIv16, HatV16, HcV16⟩, ⟨#HIv17, HatV17, HcV17⟩, ⟨#HIv18, HatV18, HcV18⟩, ⟨#HIv19, HatV19, HcV19⟩, ⟨#HIv20, HatV20, HcV20⟩, ⟨#HIv21, HatV21, HcV21⟩, ⟨#HIv22, HatV22, HcV22⟩, ⟨#HIv23, HatV23, HcV23⟩, ⟨#HIv24, HatV24, HcV24⟩, ⟨#HIv25, HatV25, HcV25⟩, ⟨#HIv26, HatV26, HcV26⟩, ⟨#HIv27, HatV27, HcV27⟩, ⟨#HIv28, HatV28, HcV28⟩, ⟨#HIv29, HatV29, HcV29⟩, ⟨#HIv30, HatV30, HcV30⟩, ⟨#HIv31, HatV31, HcV31⟩⟩
  sl_exec_parts (disch := a2a_disch)
  ihave Hb := (sendPay_lit (F := F) c 30 (k0_off2_lo c hmx) rfl) $$ HatS30_pay1
  icases Hb with ⟨%r30, Hq01⟩
  ihave Hq00 := (cv_lit (F := F) c (k0_off3_lo c hmx)) $$ Hq00
  imod (cell_done m (Ks c 30) (sendCell c 30)) $$ [HatS30] with HzS30
  · iframe # ∗
  ihave Hn := (pts_name (F := F) _ _) $$ Ho30
  icases Hn with ⟨%u30, %hu30, Ho30⟩
  ihave Ho30 := (Entails.of_eq (pointsTo_congr (f := u30) (g := outC m c) (by intro i hi; subst hu30; sl_unfold_words; exact local_val_w m c 30 0 (by omega) _ _ (k0_off1_eq c 30) _ _ _ _ (k0_off3_lo c hmx) _ _ _ _ rfl _ _ rfl fo _ _ _ rfl _ i hi))) $$ Ho30
  iclear HIs30 Hrs30
  ihave Hb := (sendPay_lit (F := F) c 31 (k0_off4_lo c hmx) rfl) $$ HatS31_pay1
  icases Hb with ⟨%r31, Hq11⟩
  ihave Hq10 := (cv_lit (F := F) c (k0_off5_lo c hmx)) $$ Hq10
  imod (cell_done m (Ks c 31) (sendCell c 31)) $$ [HatS31] with HzS31
  · iframe # ∗
  ihave Hn := (pts_name (F := F) _ _) $$ Ho31
  icases Hn with ⟨%u31, %hu31, Ho31⟩
  ihave Ho31 := (Entails.of_eq (pointsTo_congr (f := u31) (g := outC m c) (by intro i hi; subst hu31; sl_unfold_words; exact local_val_w m c 31 0 (by omega) _ _ (k0_off1_eq c 31) _ _ _ _ (k0_off5_lo c hmx) _ _ _ _ rfl _ _ rfl fo _ _ _ rfl _ i hi))) $$ Ho31
  iclear HIs31 Hrs31
  imod (cell_done m (Kr c 0) (recvCell c 0)) $$ [HatV0] with HzV0
  · iframe # ∗
  imod (cell_done m (Kr c 1) (recvCell c 1)) $$ [HatV1] with HzV1
  · iframe # ∗
  imod (cell_done m (Kr c 2) (recvCell c 2)) $$ [HatV2] with HzV2
  · iframe # ∗
  imod (cell_done m (Kr c 3) (recvCell c 3)) $$ [HatV3] with HzV3
  · iframe # ∗
  imod (cell_done m (Kr c 4) (recvCell c 4)) $$ [HatV4] with HzV4
  · iframe # ∗
  imod (cell_done m (Kr c 5) (recvCell c 5)) $$ [HatV5] with HzV5
  · iframe # ∗
  imod (cell_done m (Kr c 6) (recvCell c 6)) $$ [HatV6] with HzV6
  · iframe # ∗
  imod (cell_done m (Kr c 7) (recvCell c 7)) $$ [HatV7] with HzV7
  · iframe # ∗
  imod (cell_done m (Kr c 8) (recvCell c 8)) $$ [HatV8] with HzV8
  · iframe # ∗
  imod (cell_done m (Kr c 9) (recvCell c 9)) $$ [HatV9] with HzV9
  · iframe # ∗
  imod (cell_done m (Kr c 10) (recvCell c 10)) $$ [HatV10] with HzV10
  · iframe # ∗
  imod (cell_done m (Kr c 11) (recvCell c 11)) $$ [HatV11] with HzV11
  · iframe # ∗
  imod (cell_done m (Kr c 12) (recvCell c 12)) $$ [HatV12] with HzV12
  · iframe # ∗
  imod (cell_done m (Kr c 13) (recvCell c 13)) $$ [HatV13] with HzV13
  · iframe # ∗
  imod (cell_done m (Kr c 14) (recvCell c 14)) $$ [HatV14] with HzV14
  · iframe # ∗
  imod (cell_done m (Kr c 15) (recvCell c 15)) $$ [HatV15] with HzV15
  · iframe # ∗
  imod (cell_done m (Kr c 16) (recvCell c 16)) $$ [HatV16] with HzV16
  · iframe # ∗
  imod (cell_done m (Kr c 17) (recvCell c 17)) $$ [HatV17] with HzV17
  · iframe # ∗
  imod (cell_done m (Kr c 18) (recvCell c 18)) $$ [HatV18] with HzV18
  · iframe # ∗
  imod (cell_done m (Kr c 19) (recvCell c 19)) $$ [HatV19] with HzV19
  · iframe # ∗
  imod (cell_done m (Kr c 20) (recvCell c 20)) $$ [HatV20] with HzV20
  · iframe # ∗
  imod (cell_done m (Kr c 21) (recvCell c 21)) $$ [HatV21] with HzV21
  · iframe # ∗
  imod (cell_done m (Kr c 22) (recvCell c 22)) $$ [HatV22] with HzV22
  · iframe # ∗
  imod (cell_done m (Kr c 23) (recvCell c 23)) $$ [HatV23] with HzV23
  · iframe # ∗
  imod (cell_done m (Kr c 24) (recvCell c 24)) $$ [HatV24] with HzV24
  · iframe # ∗
  imod (cell_done m (Kr c 25) (recvCell c 25)) $$ [HatV25] with HzV25
  · iframe # ∗
  imod (cell_done m (Kr c 26) (recvCell c 26)) $$ [HatV26] with HzV26
  · iframe # ∗
  imod (cell_done m (Kr c 27) (recvCell c 27)) $$ [HatV27] with HzV27
  · iframe # ∗
  imod (cell_done m (Kr c 28) (recvCell c 28)) $$ [HatV28] with HzV28
  · iframe # ∗
  imod (cell_done m (Kr c 29) (recvCell c 29)) $$ [HatV29] with HzV29
  · iframe # ∗
  imod (cell_done m (Kr c 30) (recvCell c 30)) $$ [HatV30] with HzV30
  · iframe # ∗
  imod (cell_done m (Kr c 31) (recvCell c 31)) $$ [HatV31] with HzV31
  · iframe # ∗
  sl_step
  iapply Hk
  unfold runPost
  simp only [bigSep_fin32r]
  unfold xPc slPts
  isplitl [HX0 HX1 HX2 HX3 HX4 HX5 HX6 HX7 HX8 HX9 HX10 HX11 HX12 HX13 HX14 HX15 HX16 HX17 HX18 HX19 HX20 HX21 HX22 HX23 HX24 HX25 HX26 HX27 HX28 HX29 HX30 HX31]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    iexact HX31
  isplitl [Hst0]; · iexists _; iexact Hst0
  isplitl [Hst1]; · iexists _; iexact Hst1
  isplitl [Hq00]; · iexists _; iexact Hq00
  isplitl [Hq01]; · iexists _; iexact Hq01
  isplitl [Hq10]; · iexists _; iexact Hq10
  isplitl [Hq11]; · iexists _; iexact Hq11
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    iexact Ho31
  isplitl [HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 HatV15_pay1 HatV16_pay1 HatV17_pay1 HatV18_pay1 HatV19_pay1 HatV20_pay1 HatV21_pay1 HatV22_pay1 HatV23_pay1 HatV24_pay1 HatV25_pay1 HatV26_pay1 HatV27_pay1 HatV28_pay1 HatV29_pay1 HatV30_pay1 HatV31_pay1]
  · isplitl [HatV0_pay1]; · iexact HatV0_pay1
    isplitl [HatV1_pay1]; · iexact HatV1_pay1
    isplitl [HatV2_pay1]; · iexact HatV2_pay1
    isplitl [HatV3_pay1]; · iexact HatV3_pay1
    isplitl [HatV4_pay1]; · iexact HatV4_pay1
    isplitl [HatV5_pay1]; · iexact HatV5_pay1
    isplitl [HatV6_pay1]; · iexact HatV6_pay1
    isplitl [HatV7_pay1]; · iexact HatV7_pay1
    isplitl [HatV8_pay1]; · iexact HatV8_pay1
    isplitl [HatV9_pay1]; · iexact HatV9_pay1
    isplitl [HatV10_pay1]; · iexact HatV10_pay1
    isplitl [HatV11_pay1]; · iexact HatV11_pay1
    isplitl [HatV12_pay1]; · iexact HatV12_pay1
    isplitl [HatV13_pay1]; · iexact HatV13_pay1
    isplitl [HatV14_pay1]; · iexact HatV14_pay1
    isplitl [HatV15_pay1]; · iexact HatV15_pay1
    isplitl [HatV16_pay1]; · iexact HatV16_pay1
    isplitl [HatV17_pay1]; · iexact HatV17_pay1
    isplitl [HatV18_pay1]; · iexact HatV18_pay1
    isplitl [HatV19_pay1]; · iexact HatV19_pay1
    isplitl [HatV20_pay1]; · iexact HatV20_pay1
    isplitl [HatV21_pay1]; · iexact HatV21_pay1
    isplitl [HatV22_pay1]; · iexact HatV22_pay1
    isplitl [HatV23_pay1]; · iexact HatV23_pay1
    isplitl [HatV24_pay1]; · iexact HatV24_pay1
    isplitl [HatV25_pay1]; · iexact HatV25_pay1
    isplitl [HatV26_pay1]; · iexact HatV26_pay1
    isplitl [HatV27_pay1]; · iexact HatV27_pay1
    isplitl [HatV28_pay1]; · iexact HatV28_pay1
    isplitl [HatV29_pay1]; · iexact HatV29_pay1
    isplitl [HatV30_pay1]; · iexact HatV30_pay1
    iexact HatV31_pay1
  isplitl [HzS0 HzV0 HzS1 HzV1 HzS2 HzV2 HzS3 HzV3 HzS4 HzV4 HzS5 HzV5 HzS6 HzV6 HzS7 HzV7 HzS8 HzV8 HzS9 HzV9 HzS10 HzV10 HzS11 HzV11 HzS12 HzV12 HzS13 HzV13 HzS14 HzV14 HzS15 HzV15 HzS16 HzV16 HzS17 HzV17 HzS18 HzV18 HzS19 HzV19 HzS20 HzV20 HzS21 HzV21 HzS22 HzV22 HzS23 HzV23 HzS24 HzV24 HzS25 HzV25 HzS26 HzV26 HzS27 HzV27 HzS28 HzV28 HzS29 HzV29 HzS30 HzV30 HzS31 HzV31]
  · isplitl [HzS0 HzV0]; · (isplitl [HzS0]; · iexact HzS0); iexact HzV0
    isplitl [HzS1 HzV1]; · (isplitl [HzS1]; · iexact HzS1); iexact HzV1
    isplitl [HzS2 HzV2]; · (isplitl [HzS2]; · iexact HzS2); iexact HzV2
    isplitl [HzS3 HzV3]; · (isplitl [HzS3]; · iexact HzS3); iexact HzV3
    isplitl [HzS4 HzV4]; · (isplitl [HzS4]; · iexact HzS4); iexact HzV4
    isplitl [HzS5 HzV5]; · (isplitl [HzS5]; · iexact HzS5); iexact HzV5
    isplitl [HzS6 HzV6]; · (isplitl [HzS6]; · iexact HzS6); iexact HzV6
    isplitl [HzS7 HzV7]; · (isplitl [HzS7]; · iexact HzS7); iexact HzV7
    isplitl [HzS8 HzV8]; · (isplitl [HzS8]; · iexact HzS8); iexact HzV8
    isplitl [HzS9 HzV9]; · (isplitl [HzS9]; · iexact HzS9); iexact HzV9
    isplitl [HzS10 HzV10]; · (isplitl [HzS10]; · iexact HzS10); iexact HzV10
    isplitl [HzS11 HzV11]; · (isplitl [HzS11]; · iexact HzS11); iexact HzV11
    isplitl [HzS12 HzV12]; · (isplitl [HzS12]; · iexact HzS12); iexact HzV12
    isplitl [HzS13 HzV13]; · (isplitl [HzS13]; · iexact HzS13); iexact HzV13
    isplitl [HzS14 HzV14]; · (isplitl [HzS14]; · iexact HzS14); iexact HzV14
    isplitl [HzS15 HzV15]; · (isplitl [HzS15]; · iexact HzS15); iexact HzV15
    isplitl [HzS16 HzV16]; · (isplitl [HzS16]; · iexact HzS16); iexact HzV16
    isplitl [HzS17 HzV17]; · (isplitl [HzS17]; · iexact HzS17); iexact HzV17
    isplitl [HzS18 HzV18]; · (isplitl [HzS18]; · iexact HzS18); iexact HzV18
    isplitl [HzS19 HzV19]; · (isplitl [HzS19]; · iexact HzS19); iexact HzV19
    isplitl [HzS20 HzV20]; · (isplitl [HzS20]; · iexact HzS20); iexact HzV20
    isplitl [HzS21 HzV21]; · (isplitl [HzS21]; · iexact HzS21); iexact HzV21
    isplitl [HzS22 HzV22]; · (isplitl [HzS22]; · iexact HzS22); iexact HzV22
    isplitl [HzS23 HzV23]; · (isplitl [HzS23]; · iexact HzS23); iexact HzV23
    isplitl [HzS24 HzV24]; · (isplitl [HzS24]; · iexact HzS24); iexact HzV24
    isplitl [HzS25 HzV25]; · (isplitl [HzS25]; · iexact HzS25); iexact HzV25
    isplitl [HzS26 HzV26]; · (isplitl [HzS26]; · iexact HzS26); iexact HzV26
    isplitl [HzS27 HzV27]; · (isplitl [HzS27]; · iexact HzS27); iexact HzV27
    isplitl [HzS28 HzV28]; · (isplitl [HzS28]; · iexact HzS28); iexact HzV28
    isplitl [HzS29 HzV29]; · (isplitl [HzS29]; · iexact HzS29); iexact HzV29
    isplitl [HzS30 HzV30]; · (isplitl [HzS30]; · iexact HzS30); iexact HzV30
    (isplitl [HzS31]; · iexact HzS31); iexact HzV31
  isplitl [Hc0]; · iexact Hc0
  isplitl [Hc1]; · iexact Hc1
  isplitl [Hl0]; · iexact Hl0
  isplitl [Hl1]; · iexact Hl1
  iexists _; iexact HO

end Cert.KernelIdeal.A2A

end
-- ==== Proof.A2A.RunHi.lean ====
import proofs.«900634_g7700000000000635_dist_a2a_v7x_xyz2x2x4_x_m4096_n1024_bf16_1_alg».proof.Proof.A2A.RunDefs

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar payload_send payload_recv payload_recv_peer
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq

set_option maxHeartbeats 8000000 in
theorem run_hi (c : Dev nD) (hmx : c.val / 8 = 1) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) (Kt : PUnit → sProp 𝕄) :
    iprop(runPre m c Kb Ks Kr W g q fo ∗ (runPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  unfold runPre
  iintro ⟨⟨#HIb, #HIbP, HatB, #HrBP, HtBP, HcB, #Hlev, Hc0, Hc1, Hl0, Hl1, Hst0, Hst1, Hq00, Hq01, Hq10, Hq11, HX, HGs, HVs, Hgive, HO⟩, Hk⟩
  ihave HX := (Entails.of_eq (bigSep_fin32r _)) $$ HX
  ihave HGs := (Entails.of_eq (bigSep_fin32r _)) $$ HGs
  ihave HVs := (Entails.of_eq (bigSep_fin32r _)) $$ HVs
  unfold xPc sendGrp recvGrp
  icases HX with ⟨HX0, HX1, HXs⟩
  have hmw : ∀ (sm : SemLoc sig) (O : CellTallies nD τ sig Unit), lv ((c : Thread nD τ), sm) () ≤ 1 → OnlyRecv O →
      ((levAts L lv : sProp 𝕄) ⊢ MayWait (c : Thread nD τ) sm () O) := fun sm O h1 h2 => mayWait_low c sm O h1 h2
  icases HXs with ⟨HX2, HXs⟩
  icases HGs with ⟨⟨#HIs0, #HIr0, HatS0, #Hrs0, Hts0, Htr0, Ho0⟩, HGs⟩
  sl_exec_parts (disch := a2a_disch)
  ihave Hp := (Entails.of_eq ((show barPay (F := F) c = _ from rfl).trans (bigSep_fin32r _))) $$ HatB_pay1
  unfold slPts
  icases Hp with ⟨⟨⟨%d0, Hd0⟩, #Hrr0⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w0, %hw0, Hq00⟩
  iapply (wp_send_ch m c 0 (k0_off1 c 0#32) (k0_off1_inb c 0) rfl rfl w0 d0 (by intro i hi; subst hw0; sl_unfold_words; exact send_val m c 0 0 (by omega) _ _ (k0_off1_eq c 0) _ _ _ _ (k0_off2_hi c hmx) _ _ _ _ rfl _ _ rfl d0 _ _ _ rfl _ i hi)) $$ [Hq00 Hd0 HO Hts0 Htr0]
  · iframe # ∗
  iintro ⟨HcS0, HO⟩
  iclear HIr0 Hrr0
  icases HXs with ⟨HX3, HXs⟩
  icases HGs with ⟨⟨#HIs1, #HIr1, HatS1, #Hrs1, Hts1, Htr1, Ho1⟩, HGs⟩
  sl_exec_parts (disch := a2a_disch)
  icases Hp with ⟨⟨⟨%d1, Hd1⟩, #Hrr1⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w1, %hw1, Hq10⟩
  iapply (wp_send_ch m c 1 (k0_off1 c 128#32) (k0_off1_inb c 1) rfl rfl w1 d1 (by intro i hi; subst hw1; sl_unfold_words; exact send_val m c 1 0 (by omega) _ _ (k0_off1_eq c 1) _ _ _ _ (k0_off4_hi c hmx) _ _ _ _ rfl _ _ rfl d1 _ _ _ rfl _ i hi)) $$ [Hq10 Hd1 HO Hts1 Htr1]
  · iframe # ∗
  iintro ⟨HcS1, HO⟩
  iclear HIr1 Hrr1
  icases HXs with ⟨HX4, HXs⟩
  icases HGs with ⟨⟨#HIs2, #HIr2, HatS2, #Hrs2, Hts2, Htr2, Ho2⟩, HGs⟩
  sl_exec_parts (disch := a2a_disch)
  ihave Hb := (sendPay_lit (F := F) c 0 (k0_off2_hi c hmx) rfl) $$ HatS0_pay1
  icases Hb with ⟨%r0, Hq00⟩
  ihave Hq01 := (cv_lit (F := F) c (k0_off3_hi c hmx)) $$ Hq01
  imod (cell_done m (Ks c 0) (sendCell c 0)) $$ [HatS0] with HzS0
  · iframe # ∗
  ihave Hn := (pts_name (F := F) _ _) $$ Ho0
  icases Hn with ⟨%u0, %hu0, Ho0⟩
  ihave Ho0 := (Entails.of_eq (pointsTo_congr (f := u0) (g := outC m c) (by intro i hi; subst hu0; sl_unfold_words; exact local_val_w m c 0 1 (by omega) _ _ (k0_off1_eq c 0) _ _ _ _ (k0_off3_hi c hmx) _ _ _ _ rfl _ _ rfl fo _ _ _ rfl _ i hi))) $$ Ho0
  iclear HIs0 Hrs0
  sl_exec_parts (disch := a2a_disch)
  icases Hp with ⟨⟨⟨%d2, Hd2⟩, #Hrr2⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w2, %hw2, Hq00⟩
  iapply (wp_send_ch m c 2 (k0_off1 c 256#32) (k0_off1_inb c 2) rfl rfl w2 d2 (by intro i hi; subst hw2; sl_unfold_words; exact send_val m c 2 0 (by omega) _ _ (k0_off1_eq c 2) _ _ _ _ (k0_off2_hi c hmx) _ _ _ _ rfl _ _ rfl d2 _ _ _ rfl _ i hi)) $$ [Hq00 Hd2 HO Hts2 Htr2]
  · iframe # ∗
  iintro ⟨HcS2, HO⟩
  iclear HIr2 Hrr2
  icases HXs with ⟨HX5, HXs⟩
  icases HGs with ⟨⟨#HIs3, #HIr3, HatS3, #Hrs3, Hts3, Htr3, Ho3⟩, HGs⟩
  sl_exec_parts (disch := a2a_disch)
  ihave Hb := (sendPay_lit (F := F) c 1 (k0_off4_hi c hmx) rfl) $$ HatS1_pay1
  icases Hb with ⟨%r1, Hq10⟩
  ihave Hq11 := (cv_lit (F := F) c (k0_off5_hi c hmx)) $$ Hq11
  imod (cell_done m (Ks c 1) (sendCell c 1)) $$ [HatS1] with HzS1
  · iframe # ∗
  ihave Hn := (pts_name (F := F) _ _) $$ Ho1
  icases Hn with ⟨%u1, %hu1, Ho1⟩
  ihave Ho1 := (Entails.of_eq (pointsTo_congr (f := u1) (g := outC m c) (by intro i hi; subst hu1; sl_unfold_words; exact local_val_w m c 1 1 (by omega) _ _ (k0_off1_eq c 1) _ _ _ _ (k0_off5_hi c hmx) _ _ _ _ rfl _ _ rfl fo _ _ _ rfl _ i hi))) $$ Ho1
  iclear HIs1 Hrs1
  sl_exec_parts (disch := a2a_disch)
  icases Hp with ⟨⟨⟨%d3, Hd3⟩, #Hrr3⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w3, %hw3, Hq10⟩
  iapply (wp_send_ch m c 3 (k0_off1 c 384#32) (k0_off1_inb c 3) rfl rfl w3 d3 (by intro i hi; subst hw3; sl_unfold_words; exact send_val m c 3 0 (by omega) _ _ (k0_off1_eq c 3) _ _ _ _ (k0_off4_hi c hmx) _ _ _ _ rfl _ _ rfl d3 _ _ _ rfl _ i hi)) $$ [Hq10 Hd3 HO Hts3 Htr3]
  · iframe # ∗
  iintro ⟨HcS3, HO⟩
  iclear HIr3 Hrr3
  icases HXs with ⟨HX6, HXs⟩
  icases HGs with ⟨⟨#HIs4, #HIr4, HatS4, #Hrs4, Hts4, Htr4, Ho4⟩, HGs⟩
  sl_exec_parts (disch := a2a_disch)
  ihave Hb := (sendPay_lit (F := F) c 2 (k0_off2_hi c hmx) rfl) $$ HatS2_pay1
  icases Hb with ⟨%r2, Hq00⟩
  ihave Hq01 := (cv_lit (F := F) c (k0_off3_hi c hmx)) $$ Hq01
  imod (cell_done m (Ks c 2) (sendCell c 2)) $$ [HatS2] with HzS2
  · iframe # ∗
  ihave Hn := (pts_name (F := F) _ _) $$ Ho2
  icases Hn with ⟨%u2, %hu2, Ho2⟩
  ihave Ho2 := (Entails.of_eq (pointsTo_congr (f := u2) (g := outC m c) (by intro i hi; subst hu2; sl_unfold_words; exact local_val_w m c 2 1 (by omega) _ _ (k0_off1_eq c 2) _ _ _ _ (k0_off3_hi c hmx) _ _ _ _ rfl _ _ rfl fo _ _ _ rfl _ i hi))) $$ Ho2
  iclear HIs2 Hrs2
  sl_exec_parts (disch := a2a_disch)
  icases Hp with ⟨⟨⟨%d4, Hd4⟩, #Hrr4⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w4, %hw4, Hq00⟩
  iapply (wp_send_ch m c 4 (k0_off1 c 512#32) (k0_off1_inb c 4) rfl rfl w4 d4 (by intro i hi; subst hw4; sl_unfold_words; exact send_val m c 4 0 (by omega) _ _ (k0_off1_eq c 4) _ _ _ _ (k0_off2_hi c hmx) _ _ _ _ rfl _ _ rfl d4 _ _ _ rfl _ i hi)) $$ [Hq00 Hd4 HO Hts4 Htr4]
  · iframe # ∗
  iintro ⟨HcS4, HO⟩
  iclear HIr4 Hrr4
  icases HXs with ⟨HX7, HXs⟩
  icases HGs with ⟨⟨#HIs5, #HIr5, HatS5, #Hrs5, Hts5, Htr5, Ho5⟩, HGs⟩
  sl_exec_parts (disch := a2a_disch)
  ihave Hb := (sendPay_lit (F := F) c 3 (k0_off4_hi c hmx) rfl) $$ HatS3_pay1
  icases Hb with ⟨%r3, Hq10⟩
  ihave Hq11 := (cv_lit (F := F) c (k0_off5_hi c hmx)) $$ Hq11
  imod (cell_done m (Ks c 3) (sendCell c 3)) $$ [HatS3] with HzS3
  · iframe # ∗
  ihave Hn := (pts_name (F := F) _ _) $$ Ho3
  icases Hn with ⟨%u3, %hu3, Ho3⟩
  ihave Ho3 := (Entails.of_eq (pointsTo_congr (f := u3) (g := outC m c) (by intro i hi; subst hu3; sl_unfold_words; exact local_val_w m c 3 1 (by omega) _ _ (k0_off1_eq c 3) _ _ _ _ (k0_off5_hi c hmx) _ _ _ _ rfl _ _ rfl fo _ _ _ rfl _ i hi))) $$ Ho3
  iclear HIs3 Hrs3
  sl_exec_parts (disch := a2a_disch)
  icases Hp with ⟨⟨⟨%d5, Hd5⟩, #Hrr5⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w5, %hw5, Hq10⟩
  iapply (wp_send_ch m c 5 (k0_off1 c 640#32) (k0_off1_inb c 5) rfl rfl w5 d5 (by intro i hi; subst hw5; sl_unfold_words; exact send_val m c 5 0 (by omega) _ _ (k0_off1_eq c 5) _ _ _ _ (k0_off4_hi c hmx) _ _ _ _ rfl _ _ rfl d5 _ _ _ rfl _ i hi)) $$ [Hq10 Hd5 HO Hts5 Htr5]
  · iframe # ∗
  iintro ⟨HcS5, HO⟩
  iclear HIr5 Hrr5
  icases HXs with ⟨HX8, HXs⟩
  icases HGs with ⟨⟨#HIs6, #HIr6, HatS6, #Hrs6, Hts6, Htr6, Ho6⟩, HGs⟩
  sl_exec_parts (disch := a2a_disch)
  ihave Hb := (sendPay_lit (F := F) c 4 (k0_off2_hi c hmx) rfl) $$ HatS4_pay1
  icases Hb with ⟨%r4, Hq00⟩
  ihave Hq01 := (cv_lit (F := F) c (k0_off3_hi c hmx)) $$ Hq01
  imod (cell_done m (Ks c 4) (sendCell c 4)) $$ [HatS4] with HzS4
  · iframe # ∗
  ihave Hn := (pts_name (F := F) _ _) $$ Ho4
  icases Hn with ⟨%u4, %hu4, Ho4⟩
  ihave Ho4 := (Entails.of_eq (pointsTo_congr (f := u4) (g := outC m c) (by intro i hi; subst hu4; sl_unfold_words; exact local_val_w m c 4 1 (by omega) _ _ (k0_off1_eq c 4) _ _ _ _ (k0_off3_hi c hmx) _ _ _ _ rfl _ _ rfl fo _ _ _ rfl _ i hi))) $$ Ho4
  iclear HIs4 Hrs4
  sl_exec_parts (disch := a2a_disch)
  icases Hp with ⟨⟨⟨%d6, Hd6⟩, #Hrr6⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w6, %hw6, Hq00⟩
  iapply (wp_send_ch m c 6 (k0_off1 c 768#32) (k0_off1_inb c 6) rfl rfl w6 d6 (by intro i hi; subst hw6; sl_unfold_words; exact send_val m c 6 0 (by omega) _ _ (k0_off1_eq c 6) _ _ _ _ (k0_off2_hi c hmx) _ _ _ _ rfl _ _ rfl d6 _ _ _ rfl _ i hi)) $$ [Hq00 Hd6 HO Hts6 Htr6]
  · iframe # ∗
  iintro ⟨HcS6, HO⟩
  iclear HIr6 Hrr6
  icases HXs with ⟨HX9, HXs⟩
  icases HGs with ⟨⟨#HIs7, #HIr7, HatS7, #Hrs7, Hts7, Htr7, Ho7⟩, HGs⟩
  sl_exec_parts (disch := a2a_disch)
  ihave Hb := (sendPay_lit (F := F) c 5 (k0_off4_hi c hmx) rfl) $$ HatS5_pay1
  icases Hb with ⟨%r5, Hq10⟩
  ihave Hq11 := (cv_lit (F := F) c (k0_off5_hi c hmx)) $$ Hq11
  imod (cell_done m (Ks c 5) (sendCell c 5)) $$ [HatS5] with HzS5
  · iframe # ∗
  ihave Hn := (pts_name (F := F) _ _) $$ Ho5
  icases Hn with ⟨%u5, %hu5, Ho5⟩
  ihave Ho5 := (Entails.of_eq (pointsTo_congr (f := u5) (g := outC m c) (by intro i hi; subst hu5; sl_unfold_words; exact local_val_w m c 5 1 (by omega) _ _ (k0_off1_eq c 5) _ _ _ _ (k0_off5_hi c hmx) _ _ _ _ rfl _ _ rfl fo _ _ _ rfl _ i hi))) $$ Ho5
  iclear HIs5 Hrs5
  sl_exec_parts (disch := a2a_disch)
  icases Hp with ⟨⟨⟨%d7, Hd7⟩, #Hrr7⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w7, %hw7, Hq10⟩
  iapply (wp_send_ch m c 7 (k0_off1 c 896#32) (k0_off1_inb c 7) rfl rfl w7 d7 (by intro i hi; subst hw7; sl_unfold_words; exact send_val m c 7 0 (by omega) _ _ (k0_off1_eq c 7) _ _ _ _ (k0_off4_hi c hmx) _ _ _ _ rfl _ _ rfl d7 _ _ _ rfl _ i hi)) $$ [Hq10 Hd7 HO Hts7 Htr7]
  · iframe # ∗
  iintro ⟨HcS7, HO⟩
  iclear HIr7 Hrr7
  icases HXs with ⟨HX10, HXs⟩
  icases HGs with ⟨⟨#HIs8, #HIr8, HatS8, #Hrs8, Hts8, Htr8, Ho8⟩, HGs⟩
  sl_exec_parts (disch := a2a_disch)
  ihave Hb := (sendPay_lit (F := F) c 6 (k0_off2_hi c hmx) rfl) $$ HatS6_pay1
  icases Hb with ⟨%r6, Hq00⟩
  ihave Hq01 := (cv_lit (F := F) c (k0_off3_hi c hmx)) $$ Hq01
  imod (cell_done m (Ks c 6) (sendCell c 6)) $$ [HatS6] with HzS6
  · iframe # ∗
  ihave Hn := (pts_name (F := F) _ _) $$ Ho6
  icases Hn with ⟨%u6, %hu6, Ho6⟩
  ihave Ho6 := (Entails.of_eq (pointsTo_congr (f := u6) (g := outC m c) (by intro i hi; subst hu6; sl_unfold_words; exact local_val_w m c 6 1 (by omega) _ _ (k0_off1_eq c 6) _ _ _ _ (k0_off3_hi c hmx) _ _ _ _ rfl _ _ rfl fo _ _ _ rfl _ i hi))) $$ Ho6
  iclear HIs6 Hrs6
  sl_exec_parts (disch := a2a_disch)
  icases Hp with ⟨⟨⟨%d8, Hd8⟩, #Hrr8⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w8, %hw8, Hq00⟩
  iapply (wp_send_ch m c 8 (k0_off1 c 1024#32) (k0_off1_inb c 8) rfl rfl w8 d8 (by intro i hi; subst hw8; sl_unfold_words; exact send_val m c 8 0 (by omega) _ _ (k0_off1_eq c 8) _ _ _ _ (k0_off2_hi c hmx) _ _ _ _ rfl _ _ rfl d8 _ _ _ rfl _ i hi)) $$ [Hq00 Hd8 HO Hts8 Htr8]
  · iframe # ∗
  iintro ⟨HcS8, HO⟩
  iclear HIr8 Hrr8
  icases HXs with ⟨HX11, HXs⟩
  icases HGs with ⟨⟨#HIs9, #HIr9, HatS9, #Hrs9, Hts9, Htr9, Ho9⟩, HGs⟩
  sl_exec_parts (disch := a2a_disch)
  ihave Hb := (sendPay_lit (F := F) c 7 (k0_off4_hi c hmx) rfl) $$ HatS7_pay1
  icases Hb with ⟨%r7, Hq10⟩
  ihave Hq11 := (cv_lit (F := F) c (k0_off5_hi c hmx)) $$ Hq11
  imod (cell_done m (Ks c 7) (sendCell c 7)) $$ [HatS7] with HzS7
  · iframe # ∗
  ihave Hn := (pts_name (F := F) _ _) $$ Ho7
  icases Hn with ⟨%u7, %hu7, Ho7⟩
  ihave Ho7 := (Entails.of_eq (pointsTo_congr (f := u7) (g := outC m c) (by intro i hi; subst hu7; sl_unfold_words; exact local_val_w m c 7 1 (by omega) _ _ (k0_off1_eq c 7) _ _ _ _ (k0_off5_hi c hmx) _ _ _ _ rfl _ _ rfl fo _ _ _ rfl _ i hi))) $$ Ho7
  iclear HIs7 Hrs7
  sl_exec_parts (disch := a2a_disch)
  icases Hp with ⟨⟨⟨%d9, Hd9⟩, #Hrr9⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w9, %hw9, Hq10⟩
  iapply (wp_send_ch m c 9 (k0_off1 c 1152#32) (k0_off1_inb c 9) rfl rfl w9 d9 (by intro i hi; subst hw9; sl_unfold_words; exact send_val m c 9 0 (by omega) _ _ (k0_off1_eq c 9) _ _ _ _ (k0_off4_hi c hmx) _ _ _ _ rfl _ _ rfl d9 _ _ _ rfl _ i hi)) $$ [Hq10 Hd9 HO Hts9 Htr9]
  · iframe # ∗
  iintro ⟨HcS9, HO⟩
  iclear HIr9 Hrr9
  icases HXs with ⟨HX12, HXs⟩
  icases HGs with ⟨⟨#HIs10, #HIr10, HatS10, #Hrs10, Hts10, Htr10, Ho10⟩, HGs⟩
  sl_exec_parts (disch := a2a_disch)
  ihave Hb := (sendPay_lit (F := F) c 8 (k0_off2_hi c hmx) rfl) $$ HatS8_pay1
  icases Hb with ⟨%r8, Hq00⟩
  ihave Hq01 := (cv_lit (F := F) c (k0_off3_hi c hmx)) $$ Hq01
  imod (cell_done m (Ks c 8) (sendCell c 8)) $$ [HatS8] with HzS8
  · iframe # ∗
  ihave Hn := (pts_name (F := F) _ _) $$ Ho8
  icases Hn with ⟨%u8, %hu8, Ho8⟩
  ihave Ho8 := (Entails.of_eq (pointsTo_congr (f := u8) (g := outC m c) (by intro i hi; subst hu8; sl_unfold_words; exact local_val_w m c 8 1 (by omega) _ _ (k0_off1_eq c 8) _ _ _ _ (k0_off3_hi c hmx) _ _ _ _ rfl _ _ rfl fo _ _ _ rfl _ i hi))) $$ Ho8
  iclear HIs8 Hrs8
  sl_exec_parts (disch := a2a_disch)
  icases Hp with ⟨⟨⟨%d10, Hd10⟩, #Hrr10⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w10, %hw10, Hq00⟩
  iapply (wp_send_ch m c 10 (k0_off1 c 1280#32) (k0_off1_inb c 10) rfl rfl w10 d10 (by intro i hi; subst hw10; sl_unfold_words; exact send_val m c 10 0 (by omega) _ _ (k0_off1_eq c 10) _ _ _ _ (k0_off2_hi c hmx) _ _ _ _ rfl _ _ rfl d10 _ _ _ rfl _ i hi)) $$ [Hq00 Hd10 HO Hts10 Htr10]
  · iframe # ∗
  iintro ⟨HcS10, HO⟩
  iclear HIr10 Hrr10
  icases HXs with ⟨HX13, HXs⟩
  icases HGs with ⟨⟨#HIs11, #HIr11, HatS11, #Hrs11, Hts11, Htr11, Ho11⟩, HGs⟩
  sl_exec_parts (disch := a2a_disch)
  ihave Hb := (sendPay_lit (F := F) c 9 (k0_off4_hi c hmx) rfl) $$ HatS9_pay1
  icases Hb with ⟨%r9, Hq10⟩
  ihave Hq11 := (cv_lit (F := F) c (k0_off5_hi c hmx)) $$ Hq11
  imod (cell_done m (Ks c 9) (sendCell c 9)) $$ [HatS9] with HzS9
  · iframe # ∗
  ihave Hn := (pts_name (F := F) _ _) $$ Ho9
  icases Hn with ⟨%u9, %hu9, Ho9⟩
  ihave Ho9 := (Entails.of_eq (pointsTo_congr (f := u9) (g := outC m c) (by intro i hi; subst hu9; sl_unfold_words; exact local_val_w m c 9 1 (by omega) _ _ (k0_off1_eq c 9) _ _ _ _ (k0_off5_hi c hmx) _ _ _ _ rfl _ _ rfl fo _ _ _ rfl _ i hi))) $$ Ho9
  iclear HIs9 Hrs9
  sl_exec_parts (disch := a2a_disch)
  icases Hp with ⟨⟨⟨%d11, Hd11⟩, #Hrr11⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w11, %hw11, Hq10⟩
  iapply (wp_send_ch m c 11 (k0_off1 c 1408#32) (k0_off1_inb c 11) rfl rfl w11 d11 (by intro i hi; subst hw11; sl_unfold_words; exact send_val m c 11 0 (by omega) _ _ (k0_off1_eq c 11) _ _ _ _ (k0_off4_hi c hmx) _ _ _ _ rfl _ _ rfl d11 _ _ _ rfl _ i hi)) $$ [Hq10 Hd11 HO Hts11 Htr11]
  · iframe # ∗
  iintro ⟨HcS11, HO⟩
  iclear HIr11 Hrr11
  icases HXs with ⟨HX14, HXs⟩
  icases HGs with ⟨⟨#HIs12, #HIr12, HatS12, #Hrs12, Hts12, Htr12, Ho12⟩, HGs⟩
  sl_exec_parts (disch := a2a_disch)
  ihave Hb := (sendPay_lit (F := F) c 10 (k0_off2_hi c hmx) rfl) $$ HatS10_pay1
  icases Hb with ⟨%r10, Hq00⟩
  ihave Hq01 := (cv_lit (F := F) c (k0_off3_hi c hmx)) $$ Hq01
  imod (cell_done m (Ks c 10) (sendCell c 10)) $$ [HatS10] with HzS10
  · iframe # ∗
  ihave Hn := (pts_name (F := F) _ _) $$ Ho10
  icases Hn with ⟨%u10, %hu10, Ho10⟩
  ihave Ho10 := (Entails.of_eq (pointsTo_congr (f := u10) (g := outC m c) (by intro i hi; subst hu10; sl_unfold_words; exact local_val_w m c 10 1 (by omega) _ _ (k0_off1_eq c 10) _ _ _ _ (k0_off3_hi c hmx) _ _ _ _ rfl _ _ rfl fo _ _ _ rfl _ i hi))) $$ Ho10
  iclear HIs10 Hrs10
  sl_exec_parts (disch := a2a_disch)
  icases Hp with ⟨⟨⟨%d12, Hd12⟩, #Hrr12⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w12, %hw12, Hq00⟩
  iapply (wp_send_ch m c 12 (k0_off1 c 1536#32) (k0_off1_inb c 12) rfl rfl w12 d12 (by intro i hi; subst hw12; sl_unfold_words; exact send_val m c 12 0 (by omega) _ _ (k0_off1_eq c 12) _ _ _ _ (k0_off2_hi c hmx) _ _ _ _ rfl _ _ rfl d12 _ _ _ rfl _ i hi)) $$ [Hq00 Hd12 HO Hts12 Htr12]
  · iframe # ∗
  iintro ⟨HcS12, HO⟩
  iclear HIr12 Hrr12
  icases HXs with ⟨HX15, HXs⟩
  icases HGs with ⟨⟨#HIs13, #HIr13, HatS13, #Hrs13, Hts13, Htr13, Ho13⟩, HGs⟩
  sl_exec_parts (disch := a2a_disch)
  ihave Hb := (sendPay_lit (F := F) c 11 (k0_off4_hi c hmx) rfl) $$ HatS11_pay1
  icases Hb with ⟨%r11, Hq10⟩
  ihave Hq11 := (cv_lit (F := F) c (k0_off5_hi c hmx)) $$ Hq11
  imod (cell_done m (Ks c 11) (sendCell c 11)) $$ [HatS11] with HzS11
  · iframe # ∗
  ihave Hn := (pts_name (F := F) _ _) $$ Ho11
  icases Hn with ⟨%u11, %hu11, Ho11⟩
  ihave Ho11 := (Entails.of_eq (pointsTo_congr (f := u11) (g := outC m c) (by intro i hi; subst hu11; sl_unfold_words; exact local_val_w m c 11 1 (by omega) _ _ (k0_off1_eq c 11) _ _ _ _ (k0_off5_hi c hmx) _ _ _ _ rfl _ _ rfl fo _ _ _ rfl _ i hi))) $$ Ho11
  iclear HIs11 Hrs11
  sl_exec_parts (disch := a2a_disch)
  icases Hp with ⟨⟨⟨%d13, Hd13⟩, #Hrr13⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w13, %hw13, Hq10⟩
  iapply (wp_send_ch m c 13 (k0_off1 c 1664#32) (k0_off1_inb c 13) rfl rfl w13 d13 (by intro i hi; subst hw13; sl_unfold_words; exact send_val m c 13 0 (by omega) _ _ (k0_off1_eq c 13) _ _ _ _ (k0_off4_hi c hmx) _ _ _ _ rfl _ _ rfl d13 _ _ _ rfl _ i hi)) $$ [Hq10 Hd13 HO Hts13 Htr13]
  · iframe # ∗
  iintro ⟨HcS13, HO⟩
  iclear HIr13 Hrr13
  icases HXs with ⟨HX16, HXs⟩
  icases HGs with ⟨⟨#HIs14, #HIr14, HatS14, #Hrs14, Hts14, Htr14, Ho14⟩, HGs⟩
  sl_exec_parts (disch := a2a_disch)
  ihave Hb := (sendPay_lit (F := F) c 12 (k0_off2_hi c hmx) rfl) $$ HatS12_pay1
  icases Hb with ⟨%r12, Hq00⟩
  ihave Hq01 := (cv_lit (F := F) c (k0_off3_hi c hmx)) $$ Hq01
  imod (cell_done m (Ks c 12) (sendCell c 12)) $$ [HatS12] with HzS12
  · iframe # ∗
  ihave Hn := (pts_name (F := F) _ _) $$ Ho12
  icases Hn with ⟨%u12, %hu12, Ho12⟩
  ihave Ho12 := (Entails.of_eq (pointsTo_congr (f := u12) (g := outC m c) (by intro i hi; subst hu12; sl_unfold_words; exact local_val_w m c 12 1 (by omega) _ _ (k0_off1_eq c 12) _ _ _ _ (k0_off3_hi c hmx) _ _ _ _ rfl _ _ rfl fo _ _ _ rfl _ i hi))) $$ Ho12
  iclear HIs12 Hrs12
  sl_exec_parts (disch := a2a_disch)
  icases Hp with ⟨⟨⟨%d14, Hd14⟩, #Hrr14⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w14, %hw14, Hq00⟩
  iapply (wp_send_ch m c 14 (k0_off1 c 1792#32) (k0_off1_inb c 14) rfl rfl w14 d14 (by intro i hi; subst hw14; sl_unfold_words; exact send_val m c 14 0 (by omega) _ _ (k0_off1_eq c 14) _ _ _ _ (k0_off2_hi c hmx) _ _ _ _ rfl _ _ rfl d14 _ _ _ rfl _ i hi)) $$ [Hq00 Hd14 HO Hts14 Htr14]
  · iframe # ∗
  iintro ⟨HcS14, HO⟩
  iclear HIr14 Hrr14
  icases HXs with ⟨HX17, HXs⟩
  icases HGs with ⟨⟨#HIs15, #HIr15, HatS15, #Hrs15, Hts15, Htr15, Ho15⟩, HGs⟩
  sl_exec_parts (disch := a2a_disch)
  ihave Hb := (sendPay_lit (F := F) c 13 (k0_off4_hi c hmx) rfl) $$ HatS13_pay1
  icases Hb with ⟨%r13, Hq10⟩
  ihave Hq11 := (cv_lit (F := F) c (k0_off5_hi c hmx)) $$ Hq11
  imod (cell_done m (Ks c 13) (sendCell c 13)) $$ [HatS13] with HzS13
  · iframe # ∗
  ihave Hn := (pts_name (F := F) _ _) $$ Ho13
  icases Hn with ⟨%u13, %hu13, Ho13⟩
  ihave Ho13 := (Entails.of_eq (pointsTo_congr (f := u13) (g := outC m c) (by intro i hi; subst hu13; sl_unfold_words; exact local_val_w m c 13 1 (by omega) _ _ (k0_off1_eq c 13) _ _ _ _ (k0_off5_hi c hmx) _ _ _ _ rfl _ _ rfl fo _ _ _ rfl _ i hi))) $$ Ho13
  iclear HIs13 Hrs13
  sl_exec_parts (disch := a2a_disch)
  icases Hp with ⟨⟨⟨%d15, Hd15⟩, #Hrr15⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w15, %hw15, Hq10⟩
  iapply (wp_send_ch m c 15 (k0_off1 c 1920#32) (k0_off1_inb c 15) rfl rfl w15 d15 (by intro i hi; subst hw15; sl_unfold_words; exact send_val m c 15 0 (by omega) _ _ (k0_off1_eq c 15) _ _ _ _ (k0_off4_hi c hmx) _ _ _ _ rfl _ _ rfl d15 _ _ _ rfl _ i hi)) $$ [Hq10 Hd15 HO Hts15 Htr15]
  · iframe # ∗
  iintro ⟨HcS15, HO⟩
  iclear HIr15 Hrr15
  icases HXs with ⟨HX18, HXs⟩
  icases HGs with ⟨⟨#HIs16, #HIr16, HatS16, #Hrs16, Hts16, Htr16, Ho16⟩, HGs⟩
  sl_exec_parts (disch := a2a_disch)
  ihave Hb := (sendPay_lit (F := F) c 14 (k0_off2_hi c hmx) rfl) $$ HatS14_pay1
  icases Hb with ⟨%r14, Hq00⟩
  ihave Hq01 := (cv_lit (F := F) c (k0_off3_hi c hmx)) $$ Hq01
  imod (cell_done m (Ks c 14) (sendCell c 14)) $$ [HatS14] with HzS14
  · iframe # ∗
  ihave Hn := (pts_name (F := F) _ _) $$ Ho14
  icases Hn with ⟨%u14, %hu14, Ho14⟩
  ihave Ho14 := (Entails.of_eq (pointsTo_congr (f := u14) (g := outC m c) (by intro i hi; subst hu14; sl_unfold_words; exact local_val_w m c 14 1 (by omega) _ _ (k0_off1_eq c 14) _ _ _ _ (k0_off3_hi c hmx) _ _ _ _ rfl _ _ rfl fo _ _ _ rfl _ i hi))) $$ Ho14
  iclear HIs14 Hrs14
  sl_exec_parts (disch := a2a_disch)
  icases Hp with ⟨⟨⟨%d16, Hd16⟩, #Hrr16⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w16, %hw16, Hq00⟩
  iapply (wp_send_ch m c 16 (k0_off1 c 2048#32) (k0_off1_inb c 16) rfl rfl w16 d16 (by intro i hi; subst hw16; sl_unfold_words; exact send_val m c 16 0 (by omega) _ _ (k0_off1_eq c 16) _ _ _ _ (k0_off2_hi c hmx) _ _ _ _ rfl _ _ rfl d16 _ _ _ rfl _ i hi)) $$ [Hq00 Hd16 HO Hts16 Htr16]
  · iframe # ∗
  iintro ⟨HcS16, HO⟩
  iclear HIr16 Hrr16
  icases HXs with ⟨HX19, HXs⟩
  icases HGs with ⟨⟨#HIs17, #HIr17, HatS17, #Hrs17, Hts17, Htr17, Ho17⟩, HGs⟩
  sl_exec_parts (disch := a2a_disch)
  ihave Hb := (sendPay_lit (F := F) c 15 (k0_off4_hi c hmx) rfl) $$ HatS15_pay1
  icases Hb with ⟨%r15, Hq10⟩
  ihave Hq11 := (cv_lit (F := F) c (k0_off5_hi c hmx)) $$ Hq11
  imod (cell_done m (Ks c 15) (sendCell c 15)) $$ [HatS15] with HzS15
  · iframe # ∗
  ihave Hn := (pts_name (F := F) _ _) $$ Ho15
  icases Hn with ⟨%u15, %hu15, Ho15⟩
  ihave Ho15 := (Entails.of_eq (pointsTo_congr (f := u15) (g := outC m c) (by intro i hi; subst hu15; sl_unfold_words; exact local_val_w m c 15 1 (by omega) _ _ (k0_off1_eq c 15) _ _ _ _ (k0_off5_hi c hmx) _ _ _ _ rfl _ _ rfl fo _ _ _ rfl _ i hi))) $$ Ho15
  iclear HIs15 Hrs15
  sl_exec_parts (disch := a2a_disch)
  icases Hp with ⟨⟨⟨%d17, Hd17⟩, #Hrr17⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w17, %hw17, Hq10⟩
  iapply (wp_send_ch m c 17 (k0_off1 c 2176#32) (k0_off1_inb c 17) rfl rfl w17 d17 (by intro i hi; subst hw17; sl_unfold_words; exact send_val m c 17 0 (by omega) _ _ (k0_off1_eq c 17) _ _ _ _ (k0_off4_hi c hmx) _ _ _ _ rfl _ _ rfl d17 _ _ _ rfl _ i hi)) $$ [Hq10 Hd17 HO Hts17 Htr17]
  · iframe # ∗
  iintro ⟨HcS17, HO⟩
  iclear HIr17 Hrr17
  icases HXs with ⟨HX20, HXs⟩
  icases HGs with ⟨⟨#HIs18, #HIr18, HatS18, #Hrs18, Hts18, Htr18, Ho18⟩, HGs⟩
  sl_exec_parts (disch := a2a_disch)
  ihave Hb := (sendPay_lit (F := F) c 16 (k0_off2_hi c hmx) rfl) $$ HatS16_pay1
  icases Hb with ⟨%r16, Hq00⟩
  ihave Hq01 := (cv_lit (F := F) c (k0_off3_hi c hmx)) $$ Hq01
  imod (cell_done m (Ks c 16) (sendCell c 16)) $$ [HatS16] with HzS16
  · iframe # ∗
  ihave Hn := (pts_name (F := F) _ _) $$ Ho16
  icases Hn with ⟨%u16, %hu16, Ho16⟩
  ihave Ho16 := (Entails.of_eq (pointsTo_congr (f := u16) (g := outC m c) (by intro i hi; subst hu16; sl_unfold_words; exact local_val_w m c 16 1 (by omega) _ _ (k0_off1_eq c 16) _ _ _ _ (k0_off3_hi c hmx) _ _ _ _ rfl _ _ rfl fo _ _ _ rfl _ i hi))) $$ Ho16
  iclear HIs16 Hrs16
  sl_exec_parts (disch := a2a_disch)
  icases Hp with ⟨⟨⟨%d18, Hd18⟩, #Hrr18⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w18, %hw18, Hq00⟩
  iapply (wp_send_ch m c 18 (k0_off1 c 2304#32) (k0_off1_inb c 18) rfl rfl w18 d18 (by intro i hi; subst hw18; sl_unfold_words; exact send_val m c 18 0 (by omega) _ _ (k0_off1_eq c 18) _ _ _ _ (k0_off2_hi c hmx) _ _ _ _ rfl _ _ rfl d18 _ _ _ rfl _ i hi)) $$ [Hq00 Hd18 HO Hts18 Htr18]
  · iframe # ∗
  iintro ⟨HcS18, HO⟩
  iclear HIr18 Hrr18
  icases HXs with ⟨HX21, HXs⟩
  icases HGs with ⟨⟨#HIs19, #HIr19, HatS19, #Hrs19, Hts19, Htr19, Ho19⟩, HGs⟩
  sl_exec_parts (disch := a2a_disch)
  ihave Hb := (sendPay_lit (F := F) c 17 (k0_off4_hi c hmx) rfl) $$ HatS17_pay1
  icases Hb with ⟨%r17, Hq10⟩
  ihave Hq11 := (cv_lit (F := F) c (k0_off5_hi c hmx)) $$ Hq11
  imod (cell_done m (Ks c 17) (sendCell c 17)) $$ [HatS17] with HzS17
  · iframe # ∗
  ihave Hn := (pts_name (F := F) _ _) $$ Ho17
  icases Hn with ⟨%u17, %hu17, Ho17⟩
  ihave Ho17 := (Entails.of_eq (pointsTo_congr (f := u17) (g := outC m c) (by intro i hi; subst hu17; sl_unfold_words; exact local_val_w m c 17 1 (by omega) _ _ (k0_off1_eq c 17) _ _ _ _ (k0_off5_hi c hmx) _ _ _ _ rfl _ _ rfl fo _ _ _ rfl _ i hi))) $$ Ho17
  iclear HIs17 Hrs17
  sl_exec_parts (disch := a2a_disch)
  icases Hp with ⟨⟨⟨%d19, Hd19⟩, #Hrr19⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w19, %hw19, Hq10⟩
  iapply (wp_send_ch m c 19 (k0_off1 c 2432#32) (k0_off1_inb c 19) rfl rfl w19 d19 (by intro i hi; subst hw19; sl_unfold_words; exact send_val m c 19 0 (by omega) _ _ (k0_off1_eq c 19) _ _ _ _ (k0_off4_hi c hmx) _ _ _ _ rfl _ _ rfl d19 _ _ _ rfl _ i hi)) $$ [Hq10 Hd19 HO Hts19 Htr19]
  · iframe # ∗
  iintro ⟨HcS19, HO⟩
  iclear HIr19 Hrr19
  icases HXs with ⟨HX22, HXs⟩
  icases HGs with ⟨⟨#HIs20, #HIr20, HatS20, #Hrs20, Hts20, Htr20, Ho20⟩, HGs⟩
  sl_exec_parts (disch := a2a_disch)
  ihave Hb := (sendPay_lit (F := F) c 18 (k0_off2_hi c hmx) rfl) $$ HatS18_pay1
  icases Hb with ⟨%r18, Hq00⟩
  ihave Hq01 := (cv_lit (F := F) c (k0_off3_hi c hmx)) $$ Hq01
  imod (cell_done m (Ks c 18) (sendCell c 18)) $$ [HatS18] with HzS18
  · iframe # ∗
  ihave Hn := (pts_name (F := F) _ _) $$ Ho18
  icases Hn with ⟨%u18, %hu18, Ho18⟩
  ihave Ho18 := (Entails.of_eq (pointsTo_congr (f := u18) (g := outC m c) (by intro i hi; subst hu18; sl_unfold_words; exact local_val_w m c 18 1 (by omega) _ _ (k0_off1_eq c 18) _ _ _ _ (k0_off3_hi c hmx) _ _ _ _ rfl _ _ rfl fo _ _ _ rfl _ i hi))) $$ Ho18
  iclear HIs18 Hrs18
  sl_exec_parts (disch := a2a_disch)
  icases Hp with ⟨⟨⟨%d20, Hd20⟩, #Hrr20⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w20, %hw20, Hq00⟩
  iapply (wp_send_ch m c 20 (k0_off1 c 2560#32) (k0_off1_inb c 20) rfl rfl w20 d20 (by intro i hi; subst hw20; sl_unfold_words; exact send_val m c 20 0 (by omega) _ _ (k0_off1_eq c 20) _ _ _ _ (k0_off2_hi c hmx) _ _ _ _ rfl _ _ rfl d20 _ _ _ rfl _ i hi)) $$ [Hq00 Hd20 HO Hts20 Htr20]
  · iframe # ∗
  iintro ⟨HcS20, HO⟩
  iclear HIr20 Hrr20
  icases HXs with ⟨HX23, HXs⟩
  icases HGs with ⟨⟨#HIs21, #HIr21, HatS21, #Hrs21, Hts21, Htr21, Ho21⟩, HGs⟩
  sl_exec_parts (disch := a2a_disch)
  ihave Hb := (sendPay_lit (F := F) c 19 (k0_off4_hi c hmx) rfl) $$ HatS19_pay1
  icases Hb with ⟨%r19, Hq10⟩
  ihave Hq11 := (cv_lit (F := F) c (k0_off5_hi c hmx)) $$ Hq11
  imod (cell_done m (Ks c 19) (sendCell c 19)) $$ [HatS19] with HzS19
  · iframe # ∗
  ihave Hn := (pts_name (F := F) _ _) $$ Ho19
  icases Hn with ⟨%u19, %hu19, Ho19⟩
  ihave Ho19 := (Entails.of_eq (pointsTo_congr (f := u19) (g := outC m c) (by intro i hi; subst hu19; sl_unfold_words; exact local_val_w m c 19 1 (by omega) _ _ (k0_off1_eq c 19) _ _ _ _ (k0_off5_hi c hmx) _ _ _ _ rfl _ _ rfl fo _ _ _ rfl _ i hi))) $$ Ho19
  iclear HIs19 Hrs19
  sl_exec_parts (disch := a2a_disch)
  icases Hp with ⟨⟨⟨%d21, Hd21⟩, #Hrr21⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w21, %hw21, Hq10⟩
  iapply (wp_send_ch m c 21 (k0_off1 c 2688#32) (k0_off1_inb c 21) rfl rfl w21 d21 (by intro i hi; subst hw21; sl_unfold_words; exact send_val m c 21 0 (by omega) _ _ (k0_off1_eq c 21) _ _ _ _ (k0_off4_hi c hmx) _ _ _ _ rfl _ _ rfl d21 _ _ _ rfl _ i hi)) $$ [Hq10 Hd21 HO Hts21 Htr21]
  · iframe # ∗
  iintro ⟨HcS21, HO⟩
  iclear HIr21 Hrr21
  icases HXs with ⟨HX24, HXs⟩
  icases HGs with ⟨⟨#HIs22, #HIr22, HatS22, #Hrs22, Hts22, Htr22, Ho22⟩, HGs⟩
  sl_exec_parts (disch := a2a_disch)
  ihave Hb := (sendPay_lit (F := F) c 20 (k0_off2_hi c hmx) rfl) $$ HatS20_pay1
  icases Hb with ⟨%r20, Hq00⟩
  ihave Hq01 := (cv_lit (F := F) c (k0_off3_hi c hmx)) $$ Hq01
  imod (cell_done m (Ks c 20) (sendCell c 20)) $$ [HatS20] with HzS20
  · iframe # ∗
  ihave Hn := (pts_name (F := F) _ _) $$ Ho20
  icases Hn with ⟨%u20, %hu20, Ho20⟩
  ihave Ho20 := (Entails.of_eq (pointsTo_congr (f := u20) (g := outC m c) (by intro i hi; subst hu20; sl_unfold_words; exact local_val_w m c 20 1 (by omega) _ _ (k0_off1_eq c 20) _ _ _ _ (k0_off3_hi c hmx) _ _ _ _ rfl _ _ rfl fo _ _ _ rfl _ i hi))) $$ Ho20
  iclear HIs20 Hrs20
  sl_exec_parts (disch := a2a_disch)
  icases Hp with ⟨⟨⟨%d22, Hd22⟩, #Hrr22⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w22, %hw22, Hq00⟩
  iapply (wp_send_ch m c 22 (k0_off1 c 2816#32) (k0_off1_inb c 22) rfl rfl w22 d22 (by intro i hi; subst hw22; sl_unfold_words; exact send_val m c 22 0 (by omega) _ _ (k0_off1_eq c 22) _ _ _ _ (k0_off2_hi c hmx) _ _ _ _ rfl _ _ rfl d22 _ _ _ rfl _ i hi)) $$ [Hq00 Hd22 HO Hts22 Htr22]
  · iframe # ∗
  iintro ⟨HcS22, HO⟩
  iclear HIr22 Hrr22
  icases HXs with ⟨HX25, HXs⟩
  icases HGs with ⟨⟨#HIs23, #HIr23, HatS23, #Hrs23, Hts23, Htr23, Ho23⟩, HGs⟩
  sl_exec_parts (disch := a2a_disch)
  ihave Hb := (sendPay_lit (F := F) c 21 (k0_off4_hi c hmx) rfl) $$ HatS21_pay1
  icases Hb with ⟨%r21, Hq10⟩
  ihave Hq11 := (cv_lit (F := F) c (k0_off5_hi c hmx)) $$ Hq11
  imod (cell_done m (Ks c 21) (sendCell c 21)) $$ [HatS21] with HzS21
  · iframe # ∗
  ihave Hn := (pts_name (F := F) _ _) $$ Ho21
  icases Hn with ⟨%u21, %hu21, Ho21⟩
  ihave Ho21 := (Entails.of_eq (pointsTo_congr (f := u21) (g := outC m c) (by intro i hi; subst hu21; sl_unfold_words; exact local_val_w m c 21 1 (by omega) _ _ (k0_off1_eq c 21) _ _ _ _ (k0_off5_hi c hmx) _ _ _ _ rfl _ _ rfl fo _ _ _ rfl _ i hi))) $$ Ho21
  iclear HIs21 Hrs21
  sl_exec_parts (disch := a2a_disch)
  icases Hp with ⟨⟨⟨%d23, Hd23⟩, #Hrr23⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w23, %hw23, Hq10⟩
  iapply (wp_send_ch m c 23 (k0_off1 c 2944#32) (k0_off1_inb c 23) rfl rfl w23 d23 (by intro i hi; subst hw23; sl_unfold_words; exact send_val m c 23 0 (by omega) _ _ (k0_off1_eq c 23) _ _ _ _ (k0_off4_hi c hmx) _ _ _ _ rfl _ _ rfl d23 _ _ _ rfl _ i hi)) $$ [Hq10 Hd23 HO Hts23 Htr23]
  · iframe # ∗
  iintro ⟨HcS23, HO⟩
  iclear HIr23 Hrr23
  icases HXs with ⟨HX26, HXs⟩
  icases HGs with ⟨⟨#HIs24, #HIr24, HatS24, #Hrs24, Hts24, Htr24, Ho24⟩, HGs⟩
  sl_exec_parts (disch := a2a_disch)
  ihave Hb := (sendPay_lit (F := F) c 22 (k0_off2_hi c hmx) rfl) $$ HatS22_pay1
  icases Hb with ⟨%r22, Hq00⟩
  ihave Hq01 := (cv_lit (F := F) c (k0_off3_hi c hmx)) $$ Hq01
  imod (cell_done m (Ks c 22) (sendCell c 22)) $$ [HatS22] with HzS22
  · iframe # ∗
  ihave Hn := (pts_name (F := F) _ _) $$ Ho22
  icases Hn with ⟨%u22, %hu22, Ho22⟩
  ihave Ho22 := (Entails.of_eq (pointsTo_congr (f := u22) (g := outC m c) (by intro i hi; subst hu22; sl_unfold_words; exact local_val_w m c 22 1 (by omega) _ _ (k0_off1_eq c 22) _ _ _ _ (k0_off3_hi c hmx) _ _ _ _ rfl _ _ rfl fo _ _ _ rfl _ i hi))) $$ Ho22
  iclear HIs22 Hrs22
  sl_exec_parts (disch := a2a_disch)
  icases Hp with ⟨⟨⟨%d24, Hd24⟩, #Hrr24⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w24, %hw24, Hq00⟩
  iapply (wp_send_ch m c 24 (k0_off1 c 3072#32) (k0_off1_inb c 24) rfl rfl w24 d24 (by intro i hi; subst hw24; sl_unfold_words; exact send_val m c 24 0 (by omega) _ _ (k0_off1_eq c 24) _ _ _ _ (k0_off2_hi c hmx) _ _ _ _ rfl _ _ rfl d24 _ _ _ rfl _ i hi)) $$ [Hq00 Hd24 HO Hts24 Htr24]
  · iframe # ∗
  iintro ⟨HcS24, HO⟩
  iclear HIr24 Hrr24
  icases HXs with ⟨HX27, HXs⟩
  icases HGs with ⟨⟨#HIs25, #HIr25, HatS25, #Hrs25, Hts25, Htr25, Ho25⟩, HGs⟩
  sl_exec_parts (disch := a2a_disch)
  ihave Hb := (sendPay_lit (F := F) c 23 (k0_off4_hi c hmx) rfl) $$ HatS23_pay1
  icases Hb with ⟨%r23, Hq10⟩
  ihave Hq11 := (cv_lit (F := F) c (k0_off5_hi c hmx)) $$ Hq11
  imod (cell_done m (Ks c 23) (sendCell c 23)) $$ [HatS23] with HzS23
  · iframe # ∗
  ihave Hn := (pts_name (F := F) _ _) $$ Ho23
  icases Hn with ⟨%u23, %hu23, Ho23⟩
  ihave Ho23 := (Entails.of_eq (pointsTo_congr (f := u23) (g := outC m c) (by intro i hi; subst hu23; sl_unfold_words; exact local_val_w m c 23 1 (by omega) _ _ (k0_off1_eq c 23) _ _ _ _ (k0_off5_hi c hmx) _ _ _ _ rfl _ _ rfl fo _ _ _ rfl _ i hi))) $$ Ho23
  iclear HIs23 Hrs23
  sl_exec_parts (disch := a2a_disch)
  icases Hp with ⟨⟨⟨%d25, Hd25⟩, #Hrr25⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w25, %hw25, Hq10⟩
  iapply (wp_send_ch m c 25 (k0_off1 c 3200#32) (k0_off1_inb c 25) rfl rfl w25 d25 (by intro i hi; subst hw25; sl_unfold_words; exact send_val m c 25 0 (by omega) _ _ (k0_off1_eq c 25) _ _ _ _ (k0_off4_hi c hmx) _ _ _ _ rfl _ _ rfl d25 _ _ _ rfl _ i hi)) $$ [Hq10 Hd25 HO Hts25 Htr25]
  · iframe # ∗
  iintro ⟨HcS25, HO⟩
  iclear HIr25 Hrr25
  icases HXs with ⟨HX28, HXs⟩
  icases HGs with ⟨⟨#HIs26, #HIr26, HatS26, #Hrs26, Hts26, Htr26, Ho26⟩, HGs⟩
  sl_exec_parts (disch := a2a_disch)
  ihave Hb := (sendPay_lit (F := F) c 24 (k0_off2_hi c hmx) rfl) $$ HatS24_pay1
  icases Hb with ⟨%r24, Hq00⟩
  ihave Hq01 := (cv_lit (F := F) c (k0_off3_hi c hmx)) $$ Hq01
  imod (cell_done m (Ks c 24) (sendCell c 24)) $$ [HatS24] with HzS24
  · iframe # ∗
  ihave Hn := (pts_name (F := F) _ _) $$ Ho24
  icases Hn with ⟨%u24, %hu24, Ho24⟩
  ihave Ho24 := (Entails.of_eq (pointsTo_congr (f := u24) (g := outC m c) (by intro i hi; subst hu24; sl_unfold_words; exact local_val_w m c 24 1 (by omega) _ _ (k0_off1_eq c 24) _ _ _ _ (k0_off3_hi c hmx) _ _ _ _ rfl _ _ rfl fo _ _ _ rfl _ i hi))) $$ Ho24
  iclear HIs24 Hrs24
  sl_exec_parts (disch := a2a_disch)
  icases Hp with ⟨⟨⟨%d26, Hd26⟩, #Hrr26⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w26, %hw26, Hq00⟩
  iapply (wp_send_ch m c 26 (k0_off1 c 3328#32) (k0_off1_inb c 26) rfl rfl w26 d26 (by intro i hi; subst hw26; sl_unfold_words; exact send_val m c 26 0 (by omega) _ _ (k0_off1_eq c 26) _ _ _ _ (k0_off2_hi c hmx) _ _ _ _ rfl _ _ rfl d26 _ _ _ rfl _ i hi)) $$ [Hq00 Hd26 HO Hts26 Htr26]
  · iframe # ∗
  iintro ⟨HcS26, HO⟩
  iclear HIr26 Hrr26
  icases HXs with ⟨HX29, HXs⟩
  icases HGs with ⟨⟨#HIs27, #HIr27, HatS27, #Hrs27, Hts27, Htr27, Ho27⟩, HGs⟩
  sl_exec_parts (disch := a2a_disch)
  ihave Hb := (sendPay_lit (F := F) c 25 (k0_off4_hi c hmx) rfl) $$ HatS25_pay1
  icases Hb with ⟨%r25, Hq10⟩
  ihave Hq11 := (cv_lit (F := F) c (k0_off5_hi c hmx)) $$ Hq11
  imod (cell_done m (Ks c 25) (sendCell c 25)) $$ [HatS25] with HzS25
  · iframe # ∗
  ihave Hn := (pts_name (F := F) _ _) $$ Ho25
  icases Hn with ⟨%u25, %hu25, Ho25⟩
  ihave Ho25 := (Entails.of_eq (pointsTo_congr (f := u25) (g := outC m c) (by intro i hi; subst hu25; sl_unfold_words; exact local_val_w m c 25 1 (by omega) _ _ (k0_off1_eq c 25) _ _ _ _ (k0_off5_hi c hmx) _ _ _ _ rfl _ _ rfl fo _ _ _ rfl _ i hi))) $$ Ho25
  iclear HIs25 Hrs25
  sl_exec_parts (disch := a2a_disch)
  icases Hp with ⟨⟨⟨%d27, Hd27⟩, #Hrr27⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w27, %hw27, Hq10⟩
  iapply (wp_send_ch m c 27 (k0_off1 c 3456#32) (k0_off1_inb c 27) rfl rfl w27 d27 (by intro i hi; subst hw27; sl_unfold_words; exact send_val m c 27 0 (by omega) _ _ (k0_off1_eq c 27) _ _ _ _ (k0_off4_hi c hmx) _ _ _ _ rfl _ _ rfl d27 _ _ _ rfl _ i hi)) $$ [Hq10 Hd27 HO Hts27 Htr27]
  · iframe # ∗
  iintro ⟨HcS27, HO⟩
  iclear HIr27 Hrr27
  icases HXs with ⟨HX30, HXs⟩
  icases HGs with ⟨⟨#HIs28, #HIr28, HatS28, #Hrs28, Hts28, Htr28, Ho28⟩, HGs⟩
  sl_exec_parts (disch := a2a_disch)
  ihave Hb := (sendPay_lit (F := F) c 26 (k0_off2_hi c hmx) rfl) $$ HatS26_pay1
  icases Hb with ⟨%r26, Hq00⟩
  ihave Hq01 := (cv_lit (F := F) c (k0_off3_hi c hmx)) $$ Hq01
  imod (cell_done m (Ks c 26) (sendCell c 26)) $$ [HatS26] with HzS26
  · iframe # ∗
  ihave Hn := (pts_name (F := F) _ _) $$ Ho26
  icases Hn with ⟨%u26, %hu26, Ho26⟩
  ihave Ho26 := (Entails.of_eq (pointsTo_congr (f := u26) (g := outC m c) (by intro i hi; subst hu26; sl_unfold_words; exact local_val_w m c 26 1 (by omega) _ _ (k0_off1_eq c 26) _ _ _ _ (k0_off3_hi c hmx) _ _ _ _ rfl _ _ rfl fo _ _ _ rfl _ i hi))) $$ Ho26
  iclear HIs26 Hrs26
  sl_exec_parts (disch := a2a_disch)
  icases Hp with ⟨⟨⟨%d28, Hd28⟩, #Hrr28⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w28, %hw28, Hq00⟩
  iapply (wp_send_ch m c 28 (k0_off1 c 3584#32) (k0_off1_inb c 28) rfl rfl w28 d28 (by intro i hi; subst hw28; sl_unfold_words; exact send_val m c 28 0 (by omega) _ _ (k0_off1_eq c 28) _ _ _ _ (k0_off2_hi c hmx) _ _ _ _ rfl _ _ rfl d28 _ _ _ rfl _ i hi)) $$ [Hq00 Hd28 HO Hts28 Htr28]
  · iframe # ∗
  iintro ⟨HcS28, HO⟩
  iclear HIr28 Hrr28
  icases HXs with HX31
  icases HGs with ⟨⟨#HIs29, #HIr29, HatS29, #Hrs29, Hts29, Htr29, Ho29⟩, HGs⟩
  sl_exec_parts (disch := a2a_disch)
  ihave Hb := (sendPay_lit (F := F) c 27 (k0_off4_hi c hmx) rfl) $$ HatS27_pay1
  icases Hb with ⟨%r27, Hq10⟩
  ihave Hq11 := (cv_lit (F := F) c (k0_off5_hi c hmx)) $$ Hq11
  imod (cell_done m (Ks c 27) (sendCell c 27)) $$ [HatS27] with HzS27
  · iframe # ∗
  ihave Hn := (pts_name (F := F) _ _) $$ Ho27
  icases Hn with ⟨%u27, %hu27, Ho27⟩
  ihave Ho27 := (Entails.of_eq (pointsTo_congr (f := u27) (g := outC m c) (by intro i hi; subst hu27; sl_unfold_words; exact local_val_w m c 27 1 (by omega) _ _ (k0_off1_eq c 27) _ _ _ _ (k0_off5_hi c hmx) _ _ _ _ rfl _ _ rfl fo _ _ _ rfl _ i hi))) $$ Ho27
  iclear HIs27 Hrs27
  sl_exec_parts (disch := a2a_disch)
  icases Hp with ⟨⟨⟨%d29, Hd29⟩, #Hrr29⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w29, %hw29, Hq10⟩
  iapply (wp_send_ch m c 29 (k0_off1 c 3712#32) (k0_off1_inb c 29) rfl rfl w29 d29 (by intro i hi; subst hw29; sl_unfold_words; exact send_val m c 29 0 (by omega) _ _ (k0_off1_eq c 29) _ _ _ _ (k0_off4_hi c hmx) _ _ _ _ rfl _ _ rfl d29 _ _ _ rfl _ i hi)) $$ [Hq10 Hd29 HO Hts29 Htr29]
  · iframe # ∗
  iintro ⟨HcS29, HO⟩
  iclear HIr29 Hrr29
  icases HGs with ⟨⟨#HIs30, #HIr30, HatS30, #Hrs30, Hts30, Htr30, Ho30⟩, HGs⟩
  sl_exec_parts (disch := a2a_disch)
  ihave Hb := (sendPay_lit (F := F) c 28 (k0_off2_hi c hmx) rfl) $$ HatS28_pay1
  icases Hb with ⟨%r28, Hq00⟩
  ihave Hq01 := (cv_lit (F := F) c (k0_off3_hi c hmx)) $$ Hq01
  imod (cell_done m (Ks c 28) (sendCell c 28)) $$ [HatS28] with HzS28
  · iframe # ∗
  ihave Hn := (pts_name (F := F) _ _) $$ Ho28
  icases Hn with ⟨%u28, %hu28, Ho28⟩
  ihave Ho28 := (Entails.of_eq (pointsTo_congr (f := u28) (g := outC m c) (by intro i hi; subst hu28; sl_unfold_words; exact local_val_w m c 28 1 (by omega) _ _ (k0_off1_eq c 28) _ _ _ _ (k0_off3_hi c hmx) _ _ _ _ rfl _ _ rfl fo _ _ _ rfl _ i hi))) $$ Ho28
  iclear HIs28 Hrs28
  sl_exec_parts (disch := a2a_disch)
  icases Hp with ⟨⟨⟨%d30, Hd30⟩, #Hrr30⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w30, %hw30, Hq00⟩
  iapply (wp_send_ch m c 30 (k0_off1 c 3840#32) (k0_off1_inb c 30) rfl rfl w30 d30 (by intro i hi; subst hw30; sl_unfold_words; exact send_val m c 30 0 (by omega) _ _ (k0_off1_eq c 30) _ _ _ _ (k0_off2_hi c hmx) _ _ _ _ rfl _ _ rfl d30 _ _ _ rfl _ i hi)) $$ [Hq00 Hd30 HO Hts30 Htr30]
  · iframe # ∗
  iintro ⟨HcS30, HO⟩
  iclear HIr30 Hrr30
  icases HGs with ⟨#HIs31, #HIr31, HatS31, #Hrs31, Hts31, Htr31, Ho31⟩
  sl_exec_parts (disch := a2a_disch)
  ihave Hb := (sendPay_lit (F := F) c 29 (k0_off4_hi c hmx) rfl) $$ HatS29_pay1
  icases Hb with ⟨%r29, Hq10⟩
  ihave Hq11 := (cv_lit (F := F) c (k0_off5_hi c hmx)) $$ Hq11
  imod (cell_done m (Ks c 29) (sendCell c 29)) $$ [HatS29] with HzS29
  · iframe # ∗
  ihave Hn := (pts_name (F := F) _ _) $$ Ho29
  icases Hn with ⟨%u29, %hu29, Ho29⟩
  ihave Ho29 := (Entails.of_eq (pointsTo_congr (f := u29) (g := outC m c) (by intro i hi; subst hu29; sl_unfold_words; exact local_val_w m c 29 1 (by omega) _ _ (k0_off1_eq c 29) _ _ _ _ (k0_off5_hi c hmx) _ _ _ _ rfl _ _ rfl fo _ _ _ rfl _ i hi))) $$ Ho29
  iclear HIs29 Hrs29
  sl_exec_parts (disch := a2a_disch)
  icases Hp with ⟨⟨%d31, Hd31⟩, #Hrr31⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w31, %hw31, Hq10⟩
  iapply (wp_send_ch m c 31 (k0_off1 c 3968#32) (k0_off1_inb c 31) rfl rfl w31 d31 (by intro i hi; subst hw31; sl_unfold_words; exact send_val m c 31 0 (by omega) _ _ (k0_off1_eq c 31) _ _ _ _ (k0_off4_hi c hmx) _ _ _ _ rfl _ _ rfl d31 _ _ _ rfl _ i hi)) $$ [Hq10 Hd31 HO Hts31 Htr31]
  · iframe # ∗
  iintro ⟨HcS31, HO⟩
  iclear HIr31 Hrr31
  icases HVs with ⟨⟨#HIv0, HatV0, HcV0⟩, ⟨#HIv1, HatV1, HcV1⟩, ⟨#HIv2, HatV2, HcV2⟩, ⟨#HIv3, HatV3, HcV3⟩, ⟨#HIv4, HatV4, HcV4⟩, ⟨#HIv5, HatV5, HcV5⟩, ⟨#HIv6, HatV6, HcV6⟩, ⟨#HIv7, HatV7, HcV7⟩, ⟨#HIv8, HatV8, HcV8⟩, ⟨#HIv9, HatV9, HcV9⟩, ⟨#HIv10, HatV10, HcV10⟩, ⟨#HIv11, HatV11, HcV11⟩, ⟨#HIv12, HatV12, HcV12⟩, ⟨#HIv13, HatV13, HcV13⟩, ⟨#HIv14, HatV14, HcV14⟩, ⟨#HIv15, HatV15, HcV15⟩, ⟨#HIv16, HatV16, HcV16⟩, ⟨#HIv17, HatV17, HcV17⟩, ⟨#HIv18, HatV18, HcV18⟩, ⟨#HIv19, HatV19, HcV19⟩, ⟨#HIv20, HatV20, HcV20⟩, ⟨#HIv21, HatV21, HcV21⟩, ⟨#HIv22, HatV22, HcV22⟩, ⟨#HIv23, HatV23, HcV23⟩, ⟨#HIv24, HatV24, HcV24⟩, ⟨#HIv25, HatV25, HcV25⟩, ⟨#HIv26, HatV26, HcV26⟩, ⟨#HIv27, HatV27, HcV27⟩, ⟨#HIv28, HatV28, HcV28⟩, ⟨#HIv29, HatV29, HcV29⟩, ⟨#HIv30, HatV30, HcV30⟩, ⟨#HIv31, HatV31, HcV31⟩⟩
  sl_exec_parts (disch := a2a_disch)
  ihave Hb := (sendPay_lit (F := F) c 30 (k0_off2_hi c hmx) rfl) $$ HatS30_pay1
  icases Hb with ⟨%r30, Hq00⟩
  ihave Hq01 := (cv_lit (F := F) c (k0_off3_hi c hmx)) $$ Hq01
  imod (cell_done m (Ks c 30) (sendCell c 30)) $$ [HatS30] with HzS30
  · iframe # ∗
  ihave Hn := (pts_name (F := F) _ _) $$ Ho30
  icases Hn with ⟨%u30, %hu30, Ho30⟩
  ihave Ho30 := (Entails.of_eq (pointsTo_congr (f := u30) (g := outC m c) (by intro i hi; subst hu30; sl_unfold_words; exact local_val_w m c 30 1 (by omega) _ _ (k0_off1_eq c 30) _ _ _ _ (k0_off3_hi c hmx) _ _ _ _ rfl _ _ rfl fo _ _ _ rfl _ i hi))) $$ Ho30
  iclear HIs30 Hrs30
  ihave Hb := (sendPay_lit (F := F) c 31 (k0_off4_hi c hmx) rfl) $$ HatS31_pay1
  icases Hb with ⟨%r31, Hq10⟩
  ihave Hq11 := (cv_lit (F := F) c (k0_off5_hi c hmx)) $$ Hq11
  imod (cell_done m (Ks c 31) (sendCell c 31)) $$ [HatS31] with HzS31
  · iframe # ∗
  ihave Hn := (pts_name (F := F) _ _) $$ Ho31
  icases Hn with ⟨%u31, %hu31, Ho31⟩
  ihave Ho31 := (Entails.of_eq (pointsTo_congr (f := u31) (g := outC m c) (by intro i hi; subst hu31; sl_unfold_words; exact local_val_w m c 31 1 (by omega) _ _ (k0_off1_eq c 31) _ _ _ _ (k0_off5_hi c hmx) _ _ _ _ rfl _ _ rfl fo _ _ _ rfl _ i hi))) $$ Ho31
  iclear HIs31 Hrs31
  imod (cell_done m (Kr c 0) (recvCell c 0)) $$ [HatV0] with HzV0
  · iframe # ∗
  imod (cell_done m (Kr c 1) (recvCell c 1)) $$ [HatV1] with HzV1
  · iframe # ∗
  imod (cell_done m (Kr c 2) (recvCell c 2)) $$ [HatV2] with HzV2
  · iframe # ∗
  imod (cell_done m (Kr c 3) (recvCell c 3)) $$ [HatV3] with HzV3
  · iframe # ∗
  imod (cell_done m (Kr c 4) (recvCell c 4)) $$ [HatV4] with HzV4
  · iframe # ∗
  imod (cell_done m (Kr c 5) (recvCell c 5)) $$ [HatV5] with HzV5
  · iframe # ∗
  imod (cell_done m (Kr c 6) (recvCell c 6)) $$ [HatV6] with HzV6
  · iframe # ∗
  imod (cell_done m (Kr c 7) (recvCell c 7)) $$ [HatV7] with HzV7
  · iframe # ∗
  imod (cell_done m (Kr c 8) (recvCell c 8)) $$ [HatV8] with HzV8
  · iframe # ∗
  imod (cell_done m (Kr c 9) (recvCell c 9)) $$ [HatV9] with HzV9
  · iframe # ∗
  imod (cell_done m (Kr c 10) (recvCell c 10)) $$ [HatV10] with HzV10
  · iframe # ∗
  imod (cell_done m (Kr c 11) (recvCell c 11)) $$ [HatV11] with HzV11
  · iframe # ∗
  imod (cell_done m (Kr c 12) (recvCell c 12)) $$ [HatV12] with HzV12
  · iframe # ∗
  imod (cell_done m (Kr c 13) (recvCell c 13)) $$ [HatV13] with HzV13
  · iframe # ∗
  imod (cell_done m (Kr c 14) (recvCell c 14)) $$ [HatV14] with HzV14
  · iframe # ∗
  imod (cell_done m (Kr c 15) (recvCell c 15)) $$ [HatV15] with HzV15
  · iframe # ∗
  imod (cell_done m (Kr c 16) (recvCell c 16)) $$ [HatV16] with HzV16
  · iframe # ∗
  imod (cell_done m (Kr c 17) (recvCell c 17)) $$ [HatV17] with HzV17
  · iframe # ∗
  imod (cell_done m (Kr c 18) (recvCell c 18)) $$ [HatV18] with HzV18
  · iframe # ∗
  imod (cell_done m (Kr c 19) (recvCell c 19)) $$ [HatV19] with HzV19
  · iframe # ∗
  imod (cell_done m (Kr c 20) (recvCell c 20)) $$ [HatV20] with HzV20
  · iframe # ∗
  imod (cell_done m (Kr c 21) (recvCell c 21)) $$ [HatV21] with HzV21
  · iframe # ∗
  imod (cell_done m (Kr c 22) (recvCell c 22)) $$ [HatV22] with HzV22
  · iframe # ∗
  imod (cell_done m (Kr c 23) (recvCell c 23)) $$ [HatV23] with HzV23
  · iframe # ∗
  imod (cell_done m (Kr c 24) (recvCell c 24)) $$ [HatV24] with HzV24
  · iframe # ∗
  imod (cell_done m (Kr c 25) (recvCell c 25)) $$ [HatV25] with HzV25
  · iframe # ∗
  imod (cell_done m (Kr c 26) (recvCell c 26)) $$ [HatV26] with HzV26
  · iframe # ∗
  imod (cell_done m (Kr c 27) (recvCell c 27)) $$ [HatV27] with HzV27
  · iframe # ∗
  imod (cell_done m (Kr c 28) (recvCell c 28)) $$ [HatV28] with HzV28
  · iframe # ∗
  imod (cell_done m (Kr c 29) (recvCell c 29)) $$ [HatV29] with HzV29
  · iframe # ∗
  imod (cell_done m (Kr c 30) (recvCell c 30)) $$ [HatV30] with HzV30
  · iframe # ∗
  imod (cell_done m (Kr c 31) (recvCell c 31)) $$ [HatV31] with HzV31
  · iframe # ∗
  sl_step
  iapply Hk
  unfold runPost
  simp only [bigSep_fin32r]
  unfold xPc slPts
  isplitl [HX0 HX1 HX2 HX3 HX4 HX5 HX6 HX7 HX8 HX9 HX10 HX11 HX12 HX13 HX14 HX15 HX16 HX17 HX18 HX19 HX20 HX21 HX22 HX23 HX24 HX25 HX26 HX27 HX28 HX29 HX30 HX31]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    iexact HX31
  isplitl [Hst0]; · iexists _; iexact Hst0
  isplitl [Hst1]; · iexists _; iexact Hst1
  isplitl [Hq00]; · iexists _; iexact Hq00
  isplitl [Hq01]; · iexists _; iexact Hq01
  isplitl [Hq10]; · iexists _; iexact Hq10
  isplitl [Hq11]; · iexists _; iexact Hq11
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    iexact Ho31
  isplitl [HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 HatV15_pay1 HatV16_pay1 HatV17_pay1 HatV18_pay1 HatV19_pay1 HatV20_pay1 HatV21_pay1 HatV22_pay1 HatV23_pay1 HatV24_pay1 HatV25_pay1 HatV26_pay1 HatV27_pay1 HatV28_pay1 HatV29_pay1 HatV30_pay1 HatV31_pay1]
  · isplitl [HatV0_pay1]; · iexact HatV0_pay1
    isplitl [HatV1_pay1]; · iexact HatV1_pay1
    isplitl [HatV2_pay1]; · iexact HatV2_pay1
    isplitl [HatV3_pay1]; · iexact HatV3_pay1
    isplitl [HatV4_pay1]; · iexact HatV4_pay1
    isplitl [HatV5_pay1]; · iexact HatV5_pay1
    isplitl [HatV6_pay1]; · iexact HatV6_pay1
    isplitl [HatV7_pay1]; · iexact HatV7_pay1
    isplitl [HatV8_pay1]; · iexact HatV8_pay1
    isplitl [HatV9_pay1]; · iexact HatV9_pay1
    isplitl [HatV10_pay1]; · iexact HatV10_pay1
    isplitl [HatV11_pay1]; · iexact HatV11_pay1
    isplitl [HatV12_pay1]; · iexact HatV12_pay1
    isplitl [HatV13_pay1]; · iexact HatV13_pay1
    isplitl [HatV14_pay1]; · iexact HatV14_pay1
    isplitl [HatV15_pay1]; · iexact HatV15_pay1
    isplitl [HatV16_pay1]; · iexact HatV16_pay1
    isplitl [HatV17_pay1]; · iexact HatV17_pay1
    isplitl [HatV18_pay1]; · iexact HatV18_pay1
    isplitl [HatV19_pay1]; · iexact HatV19_pay1
    isplitl [HatV20_pay1]; · iexact HatV20_pay1
    isplitl [HatV21_pay1]; · iexact HatV21_pay1
    isplitl [HatV22_pay1]; · iexact HatV22_pay1
    isplitl [HatV23_pay1]; · iexact HatV23_pay1
    isplitl [HatV24_pay1]; · iexact HatV24_pay1
    isplitl [HatV25_pay1]; · iexact HatV25_pay1
    isplitl [HatV26_pay1]; · iexact HatV26_pay1
    isplitl [HatV27_pay1]; · iexact HatV27_pay1
    isplitl [HatV28_pay1]; · iexact HatV28_pay1
    isplitl [HatV29_pay1]; · iexact HatV29_pay1
    isplitl [HatV30_pay1]; · iexact HatV30_pay1
    iexact HatV31_pay1
  isplitl [HzS0 HzV0 HzS1 HzV1 HzS2 HzV2 HzS3 HzV3 HzS4 HzV4 HzS5 HzV5 HzS6 HzV6 HzS7 HzV7 HzS8 HzV8 HzS9 HzV9 HzS10 HzV10 HzS11 HzV11 HzS12 HzV12 HzS13 HzV13 HzS14 HzV14 HzS15 HzV15 HzS16 HzV16 HzS17 HzV17 HzS18 HzV18 HzS19 HzV19 HzS20 HzV20 HzS21 HzV21 HzS22 HzV22 HzS23 HzV23 HzS24 HzV24 HzS25 HzV25 HzS26 HzV26 HzS27 HzV27 HzS28 HzV28 HzS29 HzV29 HzS30 HzV30 HzS31 HzV31]
  · isplitl [HzS0 HzV0]; · (isplitl [HzS0]; · iexact HzS0); iexact HzV0
    isplitl [HzS1 HzV1]; · (isplitl [HzS1]; · iexact HzS1); iexact HzV1
    isplitl [HzS2 HzV2]; · (isplitl [HzS2]; · iexact HzS2); iexact HzV2
    isplitl [HzS3 HzV3]; · (isplitl [HzS3]; · iexact HzS3); iexact HzV3
    isplitl [HzS4 HzV4]; · (isplitl [HzS4]; · iexact HzS4); iexact HzV4
    isplitl [HzS5 HzV5]; · (isplitl [HzS5]; · iexact HzS5); iexact HzV5
    isplitl [HzS6 HzV6]; · (isplitl [HzS6]; · iexact HzS6); iexact HzV6
    isplitl [HzS7 HzV7]; · (isplitl [HzS7]; · iexact HzS7); iexact HzV7
    isplitl [HzS8 HzV8]; · (isplitl [HzS8]; · iexact HzS8); iexact HzV8
    isplitl [HzS9 HzV9]; · (isplitl [HzS9]; · iexact HzS9); iexact HzV9
    isplitl [HzS10 HzV10]; · (isplitl [HzS10]; · iexact HzS10); iexact HzV10
    isplitl [HzS11 HzV11]; · (isplitl [HzS11]; · iexact HzS11); iexact HzV11
    isplitl [HzS12 HzV12]; · (isplitl [HzS12]; · iexact HzS12); iexact HzV12
    isplitl [HzS13 HzV13]; · (isplitl [HzS13]; · iexact HzS13); iexact HzV13
    isplitl [HzS14 HzV14]; · (isplitl [HzS14]; · iexact HzS14); iexact HzV14
    isplitl [HzS15 HzV15]; · (isplitl [HzS15]; · iexact HzS15); iexact HzV15
    isplitl [HzS16 HzV16]; · (isplitl [HzS16]; · iexact HzS16); iexact HzV16
    isplitl [HzS17 HzV17]; · (isplitl [HzS17]; · iexact HzS17); iexact HzV17
    isplitl [HzS18 HzV18]; · (isplitl [HzS18]; · iexact HzS18); iexact HzV18
    isplitl [HzS19 HzV19]; · (isplitl [HzS19]; · iexact HzS19); iexact HzV19
    isplitl [HzS20 HzV20]; · (isplitl [HzS20]; · iexact HzS20); iexact HzV20
    isplitl [HzS21 HzV21]; · (isplitl [HzS21]; · iexact HzS21); iexact HzV21
    isplitl [HzS22 HzV22]; · (isplitl [HzS22]; · iexact HzS22); iexact HzV22
    isplitl [HzS23 HzV23]; · (isplitl [HzS23]; · iexact HzS23); iexact HzV23
    isplitl [HzS24 HzV24]; · (isplitl [HzS24]; · iexact HzS24); iexact HzV24
    isplitl [HzS25 HzV25]; · (isplitl [HzS25]; · iexact HzS25); iexact HzV25
    isplitl [HzS26 HzV26]; · (isplitl [HzS26]; · iexact HzS26); iexact HzV26
    isplitl [HzS27 HzV27]; · (isplitl [HzS27]; · iexact HzS27); iexact HzV27
    isplitl [HzS28 HzV28]; · (isplitl [HzS28]; · iexact HzS28); iexact HzV28
    isplitl [HzS29 HzV29]; · (isplitl [HzS29]; · iexact HzS29); iexact HzV29
    isplitl [HzS30 HzV30]; · (isplitl [HzS30]; · iexact HzS30); iexact HzV30
    (isplitl [HzS31]; · iexact HzS31); iexact HzV31
  isplitl [Hc0]; · iexact Hc0
  isplitl [Hc1]; · iexact Hc1
  isplitl [Hl0]; · iexact Hl0
  isplitl [Hl1]; · iexact Hl1
  iexists _; iexact HO

end Cert.KernelIdeal.A2A

end
-- ==== Proof.A2A.Body.lean ====
import proofs.«900634_g7700000000000635_dist_a2a_v7x_xyz2x2x4_x_m4096_n1024_bf16_1_alg».proof.Proof.A2A.RunLo
import proofs.«900634_g7700000000000635_dist_a2a_v7x_xyz2x2x4_x_m4096_n1024_bf16_1_alg».proof.Proof.A2A.RunHi

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sum_fin32_desc {M : Type} [AddCommMonoid M] (f : Fin 32 → M) :
    ∑ k : Fin 32, f k = 0 + f 31 + f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  rw [Fin.sum_univ_def, show List.finRange 32 = ([0, 1, 2, 3, 4, 5, 6, 7, 8, 9, 10, 11, 12, 13, 14, 15, 16, 17, 18, 19, 20, 21, 22, 23, 24, 25, 26, 27, 28, 29, 30, 31] : List (Fin 32)) from by decide]
  simp only [List.map_cons, List.map_nil, List.sum_cons, List.sum_nil]
  ac_rfl

def barPc (c : Dev nD) (k : Fin 32) : sProp 𝕄 :=
  iprop((∃ f, slPts (F := F) c (peer c) k f) ∗ reached ER (recvCell c k) 0)

theorem barPay_peer (c : Dev nD) : barPay (F := F) (peer c) = bigSep Finset.univ (barPc (F := F) c) := by
  unfold barPay barPc; rw [peer_peer]

theorem regroup32 (Ks Kr : Dev nD → Fin 32 → ℕ) (c : Dev nD) (fo : Buf (Elt F) (oM.view.loc (c : Thread nD τ))) :
    iprop((bigSep Finset.univ fun k : Fin 32 => iprop(cellInv ER (Rd m) (Ks c k) (sendCell c k) ∗ cellInv ER (Rd m) (Kr c k) (recvCell c k) ∗ cellInv ER (Rd m) (Kr (peer c) k) (recvCell (peer c) k)))
        ∗ (bigSep Finset.univ fun k : Fin 32 => iprop(atPos ER (sendCell c k) 0 ∅ 0 ∗ atPos ER (recvCell c k) 0 ∅ 0 ∗ reached ER (sendCell c k) 0 ∗ reached ER (recvCell c k) 0 ∗ dutyTok ER (sendCell c k) 0 () ∗ dutyTok ER (recvCell (peer c) k) 0 ()))
        ∗ (bigSep Finset.univ fun k : Fin 32 => cred (tallyAt (recvCell c k) () N))
        ∗ (bigSep Finset.univ fun k : Fin 32 => slPts (F := F) c c k fo)
        ∗ (bigSep Finset.univ fun k : Fin 32 => slPts (F := F) c (peer c) k fo)
        ∗ (bigSep Finset.univ (xPc m c)))
      ⊢ iprop(bigSep Finset.univ (sendGrp m Ks Kr c fo) ∗ bigSep Finset.univ (recvGrp m Kr c) ∗ bigSep Finset.univ (xPc m c)
          ∗ bigSep Finset.univ (barPc (F := F) c)) := by
  have hex : (bigSep Finset.univ fun k : Fin 32 => slPts (F := F) c (peer c) k fo)
      ⊢ (bigSep Finset.univ fun k : Fin 32 => iprop(∃ f, slPts (F := F) c (peer c) k f) : sProp 𝕄) :=
    bigSep_mono fun k _ => (show (slPts (F := F) c (peer c) k fo : sProp 𝕄) ⊢ iprop(∃ f, slPts (F := F) c (peer c) k f) from by
      iintro H; iexists fo; iexact H)
  unfold sendGrp recvGrp barPc slPts at *
  simp only [bigSep_sep']
  iintro ⟨⟨Hi1, Hi2, Hi3⟩, ⟨Ha1, Ha2, Hr1, Hr2, Ht1, Ht2⟩, Hc, Ho1, Ho2, Hx⟩
  ihave Ho2' := hex $$ Ho2
  iframe

theorem pre_to_run (c : Dev nD) :
    bodyPre m c ⊢ iprop(∃ Kb Ks Kr W g q fo, runPre m c Kb Ks Kr W g q fo) := by
  unfold bodyPre Φ₀ start ghost invs locals0 Dat.owesAt Pipeline.owesWithin
  rw [show (dats m 0 c).owed t₀.castSucc = _ from (show O₀ c = _ from by unfold O₀ owedRecv; rw [sum_fin32_desc])]
  iintro ⟨⟨⟨⟨%Kb, %Ks, %Kr, ⟨Hib, Hibp, Hinv⟩, Hab, Hrbp, Htbp, Hgh⟩, Hcb, Hcr, Hlev, Hc0, Hc1, Hl0, Hl1⟩, Hx, ⟨%fo, Ho⟩, ⟨%g, Hst⟩, ⟨%q, Hcv⟩⟩, ⟨%W, %hW, HO⟩⟩
  iexists Kb; iexists Ks; iexists Kr; iexists W; iexists g; iexists q; iexists fo
  ihave Hx' := (x_cut (F := F) c _).1 $$ Hx
  ihave Hst' := (st_cut (F := F) c g).1 $$ Hst
  icases Hst' with ⟨Hs0, Hs1⟩
  ihave Hcv' := (cv_cut (F := F) c q).1 $$ Hcv
  icases Hcv' with ⟨Hq00, Hq01, Hq10, Hq11⟩
  ihave Ho' := (out_cut (F := F) c fo).1 $$ Ho
  icases Ho' with ⟨Ho1, Ho2⟩
  ihave R := (regroup32 m Ks Kr c fo) $$ [Hinv Hgh Hcr Ho1 Ho2 Hx']
  · unfold xPc; iframe
  icases R with ⟨Rs, Rr, Rx, Rb⟩
  ihave Rb' := (Entails.of_eq (barPay_peer (F := F) c).symm) $$ Rb
  unfold runPre cvPts
  iframe
  isplitl [Hc0]; · iexact Hc0
  isplitl [Hc1]; · iexact Hc1
  isplitl [Hl0]; · iexact Hl0
  isplitl [Hl1]; · iexact Hl1
  isplitl [Hs0]; · iexact Hs0
  isplitl [Hs1]; · iexact Hs1
  isplitl [Hq00]; · iexact Hq00
  isplitl [Hq01]; · iexact Hq01
  isplitl [Hq10]; · iexact Hq10
  iexact Hq11

theorem st_join (c : Dev nD) (f0 f1 : Buf (Elt F) (stM.view.loc (c : Thread nD τ))) :
    iprop(((stSl 0).view.loc (c : Thread nD τ) ↦[(stSl 0).view.set]{fullShare} f0) ∗ ((stSl 1).view.loc (c : Thread nD τ) ↦[(stSl 1).view.set]{fullShare} f1))
      ⊢ (iprop(∃ f, stM.view.loc (c : Thread nD τ) ↦{fullShare} f) : sProp 𝕄) := by
  have e0 : ((0 : Fin 2).val) = 0 := rfl
  have e1 : ((1 : Fin 2).val) = 1 := rfl
  obtain ⟨P, hP⟩ : ∃ P, P = (stSl 1).view.set.piecewise f1 f0 := ⟨_, rfl⟩
  have h0 : ((stSl 0).view.loc (c : Thread nD τ) ↦[(stSl 0).view.set]{fullShare} f0 : sProp 𝕄)
      = ((stSl 0).view.loc (c : Thread nD τ) ↦[(stSl 0).view.set]{fullShare} P) :=
    pointsTo_congr fun (i : S2x128x2048.Idx) hi => by
      have a := (mem_stSl 0 i).mp hi
      rw [hP, Finset.piecewise_eq_of_notMem _ _ _ (fun h1 => by have b := (mem_stSl 1 i).mp h1; omega)]
  have h1 : ((stSl 1).view.loc (c : Thread nD τ) ↦[(stSl 1).view.set]{fullShare} f1 : sProp 𝕄)
      = ((stSl 1).view.loc (c : Thread nD τ) ↦[(stSl 1).view.set]{fullShare} P) :=
    pointsTo_congr fun (i : S2x128x2048.Idx) hi => by rw [hP, Finset.piecewise_eq_of_mem _ _ _ hi]
  rw [h0, h1]
  iintro H
  iexists P
  iapply (st_cut (F := F) c _).2
  iexact H

theorem cv_join (c : Dev nD) (f00 f01 f10 f11 : Buf (Elt F) (cvM.view.loc (c : Thread nD τ))) :
    iprop(cvPts c (cvQ 0 0) f00 ∗ cvPts c (cvQ 0 1) f01 ∗ cvPts c (cvQ 1 0) f10 ∗ cvPts c (cvQ 1 1) f11)
      ⊢ (iprop(∃ f, cvM.view.loc (c : Thread nD τ) ↦{fullShare} f) : sProp 𝕄) := by
  have d01 := cvQ_disjoint c 0 0 0 1 (.inr (by decide))
  have d02 := cvQ_disjoint c 0 0 1 0 (.inl (by decide))
  have d03 := cvQ_disjoint c 0 0 1 1 (.inl (by decide))
  have d12 := cvQ_disjoint c 0 1 1 0 (.inl (by decide))
  have d13 := cvQ_disjoint c 0 1 1 1 (.inl (by decide))
  have d23 := cvQ_disjoint c 1 0 1 1 (.inr (by decide))
  obtain ⟨P, hP⟩ : ∃ P, P = (cvQ 0 0).view.set.piecewise f00 ((cvQ 0 1).view.set.piecewise f01 ((cvQ 1 0).view.set.piecewise f10 f11)) := ⟨_, rfl⟩
  have h00 : (cvPts c (cvQ 0 0) f00 : sProp 𝕄) = cvPts c (cvQ 0 0) P := by
    unfold cvPts
    exact pointsTo_congr fun i hi => by rw [hP, Finset.piecewise_eq_of_mem _ _ _ hi]
  have h01 : (cvPts c (cvQ 0 1) f01 : sProp 𝕄) = cvPts c (cvQ 0 1) P := by
    unfold cvPts
    exact pointsTo_congr fun i hi => by
      rw [hP, Finset.piecewise_eq_of_notMem _ _ _ (Finset.disjoint_right.mp d01 hi), Finset.piecewise_eq_of_mem _ _ _ hi]
  have h10 : (cvPts c (cvQ 1 0) f10 : sProp 𝕄) = cvPts c (cvQ 1 0) P := by
    unfold cvPts
    exact pointsTo_congr fun i hi => by
      rw [hP, Finset.piecewise_eq_of_notMem _ _ _ (Finset.disjoint_right.mp d02 hi), Finset.piecewise_eq_of_notMem _ _ _ (Finset.disjoint_right.mp d12 hi),
        Finset.piecewise_eq_of_mem _ _ _ hi]
  have h11 : (cvPts c (cvQ 1 1) f11 : sProp 𝕄) = cvPts c (cvQ 1 1) P := by
    unfold cvPts
    exact pointsTo_congr fun i hi => by
      rw [hP, Finset.piecewise_eq_of_notMem _ _ _ (Finset.disjoint_right.mp d03 hi), Finset.piecewise_eq_of_notMem _ _ _ (Finset.disjoint_right.mp d13 hi),
        Finset.piecewise_eq_of_notMem _ _ _ (Finset.disjoint_right.mp d23 hi)]
  rw [h00, h01, h10, h11]
  iintro H
  iexists P
  iapply (cv_cut (F := F) c _).2
  iexact H

theorem run_to_post (c : Dev nD) : runPost m c ⊢ bodyPost m c := by
  unfold runPost bodyPost Φ₁ locals0 Dat.owesAt Pipeline.owesWithin
  rw [show (dats m 0 c).owed t₀.succ = 0 from rfl]
  iintro ⟨Hx, ⟨%f0, Hs0⟩, ⟨%f1, Hs1⟩, ⟨%q00, Hq00⟩, ⟨%q01, Hq01⟩, ⟨%q10, Hq10⟩, ⟨%q11, Hq11⟩, Hown, Hrecv, Hsv, Hc0, Hc1, Hl0, Hl1, ⟨%W', HO⟩⟩
  isplitr [HO]
  · isplitl [Hx]
    · iapply (x_cut (F := F) c _).2
      unfold xPc; iexact Hx
    isplitl [Hown Hrecv]
    · iapply (out_cut (F := F) c (outC m c)).2
      isplitl [Hown]; · iexact Hown
      unfold recvPay; iexact Hrecv
    isplitl [Hs0 Hs1]
    · iapply (st_join (F := F) c _ _)
      isplitl [Hs0]; · iexact Hs0
      iexact Hs1
    isplitl [Hq00 Hq01 Hq10 Hq11]
    · iapply (cv_join (F := F) c _ _ _ _)
      unfold cvPts
      isplitl [Hq00]; · iexact Hq00
      isplitl [Hq01]; · iexact Hq01
      isplitl [Hq10]; · iexact Hq10
      iexact Hq11
    isplitl [Hc0 Hc1 Hl0 Hl1]
    · isplitl [Hc0]; · iexact Hc0
      isplitl [Hc1]; · iexact Hc1
      isplitl [Hl0]; · iexact Hl0
      iexact Hl1
    iexact Hsv
  · iexists W'
    isplitr
    · ipureintro; exact fun _ _ => Or.inl trivial
    iexact HO

theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  iintro ⟨Hpre, Hk⟩
  ihave H := (pre_to_run m c) $$ Hpre
  icases H with ⟨%Kb, %Ks, %Kr, %W, %g, %q, %fo, Hrun⟩
  rcases (show c.val / 8 = 0 ∨ c.val / 8 = 1 from by have : c.val < 16 := c.isLt; omega) with hmx | hmx
  · iapply (run_lo m c hmx Kb Ks Kr W g q fo Kt)
    isplitl [Hrun]; · iexact Hrun
    iintro Hpost
    iapply Hk
    iapply (run_to_post m c)
    iexact Hpost
  · iapply (run_hi m c hmx Kb Ks Kr W g q fo Kt)
    isplitl [Hrun]; · iexact Hrun
    iintro Hpost
    iapply Hk
    iapply (run_to_post m c)
    iexact Hpost

end Cert.KernelIdeal.A2A

end
-- ==== Proof.A2A.Launch.lean ====
import proofs.«900634_g7700000000000635_dist_a2a_v7x_xyz2x2x4_x_m4096_n1024_bf16_1_alg».proof.Proof.A2A.Body
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : DmaSem sig → SemLoc sig := SemLoc.dma

theorem ownSemFacts : Pipeline.OwnSemFacts cfg0.spec osem :=
  ⟨by decide, fun a b h => by cases h; rfl, fun k w => w.elim0⟩

private theorem cellZero : ((Shape.reshapeEquiv (squeezes_S1_S_).numel_eq (fun i : Fin 0 => i.elim0) : S1.Idx) 0).val < 1 :=
  ((Shape.reshapeEquiv (squeezes_S1_S_).numel_eq (fun i : Fin 0 => i.elim0) : S1.Idx) 0).isLt

theorem copyS_val (s : Fin 2) : (copyS s).val = s.val := by
  simp only [copyS, SemArray.sem, SemArray.ix_squeeze, SemArray.ix_slice, cc0_scratch2, SemArray.consecutive]
  rw [Shape.rowMajor_val_one, Rect.emb_apply]
  have h := cellZero
  simp only [Rect.off_unit, Rect.stride_unit, Matrix.cons_val_zero, Nat.one_mul]
  omega
theorem locS_val (s : Fin 2) : (locS s).val = 2 + s.val := by
  simp only [locS, SemArray.sem, SemArray.ix_squeeze, SemArray.ix_slice, cc0_scratch3, SemArray.consecutive]
  rw [Shape.rowMajor_val_one, Rect.emb_apply]
  have h := cellZero
  simp only [Rect.off_unit, Rect.stride_unit, Matrix.cons_val_zero, Nat.one_mul]
  omega

abbrev JJ : Type := (Fin 2 ⊕ Fin 2) ⊕ (Fin 32 ⊕ Fin 32)

def semOf : JJ → DmaSem sig
  | .inl (.inl s) => copyS s
  | .inl (.inr s) => locS s
  | .inr (.inl k) => sendS k
  | .inr (.inr k) => recvS k

theorem semOf_val (j : JJ) : (semOf j).val = match j with
    | .inl (.inl s) => s.val | .inl (.inr s) => 2 + s.val | .inr (.inl k) => 4 + k.val | .inr (.inr k) => 36 + k.val := by
  rcases j with (s | s) | (k | k)
  · exact copyS_val s
  · exact locS_val s
  · exact sendS_val k
  · exact recvS_val k

theorem semOf_bijective : Function.Bijective semOf := by
  constructor
  · intro a b h
    have hv := congrArg Fin.val h
    rw [semOf_val, semOf_val] at hv
    rcases a with (s | s) | (k | k) <;> rcases b with (s' | s') | (k' | k') <;> simp only at hv <;>
      first
        | (have e : s = s' := Fin.ext (by omega); subst e; rfl)
        | (have e : k = k' := Fin.ext (by omega); subst e; rfl)
        | (exfalso; omega)
  · intro q
    have hq : q.val < 68 := q.isLt
    by_cases h1 : q.val < 2
    · exact ⟨.inl (.inl ⟨q.val, h1⟩), Fin.ext (by rw [semOf_val])⟩
    by_cases h2 : q.val < 4
    · exact ⟨.inl (.inr ⟨q.val - 2, by omega⟩), Fin.ext (by rw [semOf_val]; show 2 + (q.val - 2) = q.val; omega)⟩
    by_cases h3 : q.val < 36
    · exact ⟨.inr (.inl ⟨q.val - 4, by omega⟩), Fin.ext (by rw [semOf_val]; show 4 + (q.val - 4) = q.val; omega)⟩
    · exact ⟨.inr (.inr ⟨q.val - 36, by omega⟩), Fin.ext (by rw [semOf_val]; show 36 + (q.val - 36) = q.val; omega)⟩

def semEquiv : JJ ≃ DmaSem sig := Equiv.ofBijective semOf semOf_bijective

theorem ownSems0_eq (c : Dev nD) : (Pipeline.ownSems0 (Ix := Unit) (Name := ℕ) (U := UU) (Lvl := ℕ) (Val := Elt F) (τ := τ) osem c : sProp 𝕄)
    = iprop(((semVal ((c : Thread nD τ), .dma (copyS 0)) 0 ∗ semVal ((c : Thread nD τ), .dma (copyS 1)) 0)
        ∗ (semVal ((c : Thread nD τ), .dma (locS 0)) 0 ∗ semVal ((c : Thread nD τ), .dma (locS 1)) 0))
      ∗ ((bigSep Finset.univ fun k : Fin 32 => semVal (sendCell c k) 0) ∗ bigSep Finset.univ fun k : Fin 32 => semVal (recvCell c k) 0)) := by
  unfold Pipeline.ownSems0
  rw [bigSep_univ_equiv semEquiv, bigSep_univ_sum, bigSep_univ_sum, bigSep_univ_sum, bigSep_univ_two, bigSep_univ_two]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

abbrev J : Type := Unit ⊕ (Fin 32 ⊕ Fin 32)

def jsem : J → SemLoc sig
  | .inl _ => .reg barS
  | .inr (.inl k) => .dma (sendS k)
  | .inr (.inr k) => .dma (recvS k)

abbrev kcell (ck : Dev nD × J) : GSem nD τ sig := ((ck.1 : Thread nD τ), jsem ck.2)

theorem jsem_injective : Function.Injective jsem := by
  intro a b h
  rcases a with u | k | k <;> rcases b with u' | k' | k' <;>
    first
      | rfl
      | cases h
      | (have hv := congrArg Fin.val (SemLoc.dma.inj h)
         simp only [sendS_val, recvS_val] at hv
         first
           | (have e : k = k' := Fin.ext (by omega); subst e; rfl)
           | (exfalso; omega))

theorem kcell_injective : Function.Injective (kcell : Dev nD × J → GSem nD τ sig) := by
  rintro ⟨c, j⟩ ⟨c', j'⟩ h
  have h1 : c = c' := congrArg (fun g : GSem nD τ sig => g.1.1) h
  subst h1
  have h2 : jsem j = jsem j' := congrArg Prod.snd h
  rw [jsem_injective h2]

theorem bigSep_J (Φ : J → sProp 𝕄) : bigSep Finset.univ Φ
    = iprop(Φ (.inl ()) ∗ (bigSep Finset.univ fun k : Fin 32 => Φ (.inr (.inl k))) ∗ bigSep Finset.univ fun k : Fin 32 => Φ (.inr (.inr k))) := by
  rw [bigSep_univ_sum, bigSep_univ_sum, bigSep_univ_of_subsingleton ()]
  rfl

def ringCells : Finset (GSem nD τ sig) := Finset.univ.map ⟨kcell, kcell_injective⟩
def ringToks : Finset (GSem nD τ sig × ℕ × Unit) :=
  Finset.univ.map ⟨fun ck : Dev nD × J => (kcell ck, 0, ()), fun _ _ h => kcell_injective (congrArg Prod.fst h)⟩

def u₀ : UU :=
  (initOf (Pipeline.cells cfgs cellOf_inj) (Pipeline.launchToks cfgs cellOf_inj), (initOf ringCells ringToks, 1))

def G (c : Dev nD) : sProp 𝕄 :=
  iprop((bigSep Finset.univ fun j : J => roundState ER (Rd m) (kcell (c, j)) 0)
    ∗ (bigSep Finset.univ fun j : J => iprop(atPos ER (kcell (c, j)) 0 ∅ 0 ∗ reached ER (kcell (c, j)) 0))
    ∗ (bigSep Finset.univ fun j : J => dutyTok ER (kcell (c, j)) 0 ()))

def G' (c : Dev nD) : sProp 𝕄 := iprop((∃ Kb Ks Kr, ghost m Kb Ks Kr c) ∗ locals0 c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : J => dutyTok ER (kcell (c, j)) 0 () := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem fund_ring' : BI.own (((Emb.inl : Emb (UR sig nD τ) UX).trans (embR : Emb UX 𝕄)) (initOf ringCells ringToks))
    ⊢ (|==> bigSep Finset.univ (G m) : sProp 𝕄) := fund_ring m

theorem hu₀_pf : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb UX 𝕄) _ _) $$ HX
  icases H2 with ⟨HR, -⟩
  imod (fund_ring' m) $$ HR with HG
  imodintro
  iframe

theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun j : J => semVal (kcell (c, j)) 0) ∗ locals0 c) := by
  rw [ownSems0_eq, unscopedSems0_eq, bigSep_J]
  unfold locals0
  iintro ⟨⟨⟨⟨Hc0, Hc1⟩, Hl0, Hl1⟩, Hs, Hr⟩, Hb⟩
  isplitl [Hb Hs Hr]
  · isplitl [Hb]; · iexact Hb
    isplitl [Hs]; · iexact Hs
    iexact Hr
  · isplitl [Hc0]; · iexact Hc0
    isplitl [Hc1]; · iexact Hc1
    isplitl [Hl0]; · iexact Hl0
    iexact Hl1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (Rd m) κ (kcell (c, j))))
          ∗ (bigSep Finset.univ fun j : J => iprop(atPos ER (kcell (c, j)) 0 ∅ 0 ∗ reached ER (kcell (c, j)) 0))
          ∗ (bigSep Finset.univ fun j : J => dutyTok ER (kcell (c, j)) 0 ()) ∗ locals0 c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun j : J => semVal (kcell (c, j)) 0) ∗ bigSep Finset.univ fun j : J => roundState ER (Rd m) (kcell (c, j)) 0)
      ⊢ (|={Set.univ}=> bigSep Finset.univ fun j : J => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  iframe

def records (K : Dev nD × J → ℕ) : sProp 𝕄 :=
  iprop((bigSep Finset.univ fun ck : Dev nD × J => cellInv ER (Rd m) (K ck) (kcell ck))
    ∗ bigSep Finset.univ fun ck : Dev nD × J => reached ER (kcell ck) 0)

instance records_persistent (K : Dev nD × J → ℕ) : BI.Persistent (records m K) := by unfold records; infer_instance

theorem inv_at (K : Dev nD × J → ℕ) (ck : Dev nD × J) :
    (bigSep Finset.univ fun ck : Dev nD × J => (cellInv ER (Rd m) (K ck) (kcell ck) : sProp 𝕄)) ⊢ cellInv ER (Rd m) (K ck) (kcell ck) :=
  bigSep_elim (Finset.mem_univ ck)
theorem reached_at (ck : Dev nD × J) :
    (bigSep Finset.univ fun ck : Dev nD × J => (reached ER (kcell ck) 0 : sProp 𝕄)) ⊢ reached ER (kcell ck) 0 :=
  bigSep_elim (Finset.mem_univ ck)

def payToks (c : Dev nD) : sProp 𝕄 :=
  iprop(dutyTok ER (barCell (peer c)) 0 () ∗ (bigSep Finset.univ fun k : Fin 32 => dutyTok ER (sendCell c k) 0 ())
    ∗ bigSep Finset.univ fun k : Fin 32 => dutyTok ER (recvCell (peer c) k) 0 ())
def linear (c : Dev nD) : sProp 𝕄 :=
  iprop((bigSep Finset.univ fun j : J => atPos ER (kcell (c, j)) 0 ∅ 0) ∗ payToks c ∗ locals0 c)

theorem ghost_intro (K : Dev nD × J → ℕ) (c : Dev nD) : iprop(records m K ∗ linear c) ⊢ G' m c := by
  unfold records linear payToks G' ghost invs
  rw [bigSep_J]
  simp only [bigSep_sep']
  iintro ⟨⟨#HI, #HR⟩, ⟨HaB, HaS, HaV⟩, ⟨HtB, HtS, HtV⟩, Hloc⟩
  isplitr [Hloc]
  · iexists (fun d => K (d, .inl ()))
    iexists (fun d k => K (d, .inr (.inl k)))
    iexists (fun d k => K (d, .inr (.inr k)))
    isplitr
    · isplitr; · iapply (inv_at m K (c, .inl ())); iexact HI
      isplitr; · iapply (inv_at m K (peer c, .inl ())); iexact HI
      isplitr; · iapply (bigSep_intro_persistent fun k _ => inv_at m K (c, .inr (.inl k))); iexact HI
      isplitr; · iapply (bigSep_intro_persistent fun k _ => inv_at m K (c, .inr (.inr k))); iexact HI
      iapply (bigSep_intro_persistent fun k _ => inv_at m K (peer c, .inr (.inr k))); iexact HI
    isplitl [HaB]; · iexact HaB
    isplitr; · iapply (reached_at (F := F) (peer c, .inl ())); iexact HR
    isplitl [HtB]; · iexact HtB
    isplitl [HaS]; · iexact HaS
    isplitl [HaV]; · iexact HaV
    isplitr; · iapply (bigSep_intro_persistent fun k _ => reached_at (F := F) (c, .inr (.inl k))); iexact HR
    isplitr; · iapply (bigSep_intro_persistent fun k _ => reached_at (F := F) (c, .inr (.inr k))); iexact HR
    isplitl [HtS]; · iexact HtS
    iexact HtV
  · iexact Hloc

theorem toks_around : (bigSep Finset.univ fun c : Dev nD => (bigSep Finset.univ fun j : J => dutyTok ER (kcell (c, j)) 0 () : sProp 𝕄))
    ⊢ bigSep Finset.univ fun c : Dev nD => payToks c := by
  unfold payToks
  rw [bigSep_congr (s := Finset.univ) (fun (c : Dev nD) _ => bigSep_J (fun j : J => (dutyTok ER (kcell (c, j)) 0 () : sProp 𝕄))),
    bigSep_sep', bigSep_sep', bigSep_sep', bigSep_sep',
    bigSep_univ_equiv swap (fun c : Dev nD => (dutyTok ER (kcell (c, .inl ())) 0 () : sProp 𝕄)),
    bigSep_univ_equiv swap (fun c : Dev nD => (bigSep Finset.univ fun k : Fin 32 => dutyTok ER (kcell (c, .inr (.inr k))) 0 () : sProp 𝕄))]
  exact .rfl

theorem linear_eq : (bigSep Finset.univ fun c : Dev nD => (linear c : sProp 𝕄))
    = iprop((bigSep Finset.univ fun c : Dev nD => bigSep Finset.univ fun j : J => atPos ER (kcell (c, j)) 0 ∅ 0)
        ∗ (bigSep Finset.univ fun c : Dev nD => payToks c) ∗ bigSep Finset.univ fun c : Dev nD => locals0 c) := by
  unfold linear
  rw [bigSep_sep', bigSep_sep']

theorem regroup :
    (bigSep Finset.univ fun c : Dev nD => iprop((bigSep Finset.univ fun j : J => iprop(∃ κ : ℕ, cellInv ER (Rd m) κ (kcell (c, j))))
          ∗ (bigSep Finset.univ fun j : J => iprop(atPos ER (kcell (c, j)) 0 ∅ 0 ∗ reached ER (kcell (c, j)) 0))
          ∗ (bigSep Finset.univ fun j : J => dutyTok ER (kcell (c, j)) 0 ()) ∗ locals0 c) : sProp 𝕄)
      ⊢ bigSep Finset.univ (G' m) := by
  rw [bigSep_sep', bigSep_sep', bigSep_sep', ← bigSep_univ_prod (fun ck : Dev nD × J => iprop(∃ κ : ℕ, cellInv ER (Rd m) κ (kcell ck))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun ck : Dev nD × J => (reached ER (kcell ck) 0 : sProp 𝕄))]
  iintro ⟨HI, ⟨Hat, #HR⟩, Htok, Hloc⟩
  ihave HK := (BI.bigSep_exists_pi Finset.univ (fun (ck : Dev nD × J) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [linear_eq]
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem creds (c : Dev nD) :
    (Pipeline.launchCred O₀ c : sProp 𝕄)
      ⊢ iprop(cred (tallyAt (barCell c) () 1) ∗ bigSep Finset.univ fun k : Fin 32 => cred (tallyAt (recvCell c k) () N)) := by
  refine (Entails.of_eq (Pipeline.launchCred_add (fun d : Dev nD => ∑ k : Fin 32, tallyAt (recvCell (peer d) k) () N)
    (fun d : Dev nD => tallyAt (barCell (peer d)) () 1) c)).trans ?_
  rw [Pipeline.launchCred_sum Finset.univ (fun (k : Fin 32) (d : Dev nD) => tallyAt (recvCell (peer d) k) () N) c]
  iintro ⟨Hr, Hb⟩
  isplitl [Hb]
  · iapply (Pipeline.launchCred_tallyAt (.reg barS) peer peer peer_peer peer_peer () 1 c); iexact Hb
  · iapply (show (_ : sProp 𝕄) ⊢ _ from bigSep_mono (s := Finset.univ) fun (k : Fin 32) _ => Pipeline.launchCred_tallyAt (.dma (recvS k)) peer peer peer_peer peer_peer () N c); iexact Hr

def X (c : Dev nD) : sProp 𝕄 :=
  iprop(start m c
    ∗ (xM.view.loc (c : Thread nD τ) ↦{fullShare} m ((c : Thread nD τ).loc main_arg0))
    ∗ (∃ f, oM.view.loc (c : Thread nD τ) ↦{fullShare} f))

def Y (c : Dev nD) : sProp 𝕄 :=
  iprop((xM.view.loc (c : Thread nD τ) ↦{fullShare} m ((c : Thread nD τ).loc main_arg0))
    ∗ (oM.view.loc (c : Thread nD τ) ↦{fullShare} outC m c))

def QY (c : Dev nD) (s : MemSt nD τ sig (Elt F)) : Prop :=
  s.mem ((c : Thread nD τ).loc main_v1) = outC m c ∧ s.mem ((c : Thread nD τ).loc main_arg0) = m ((c : Thread nD τ).loc main_arg0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X start G'
  icases HG with ⟨Hg, Hloc⟩
  isplitl
  · iframe Hg H1 HN Hlev Hloc Hx
    iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, ⟨Hst, Hcv⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y locals0
  rw [bigSep_sep']
  iintro ⟨Hx, Ho, Hst, Hcv, ⟨Hc0, Hc1, Hl0, Hl1⟩, Hs, Hr⟩
  iframe

theorem waits (c : Dev nD) : (levAts L lv : sProp 𝕄) ⊢ Pipeline.cellsWaits cfgs (dats m) () 0 c :=
  Pipeline.cellsWaits_intro cfgs (dats m) () 0 c fun w => w.elim0

theorem read_off (c : Dev nD) (s' : Phys nD τ sig (Elt F)) :
    iprop(Y m c ∗ emp ∗ SI s') ⊢ |={Set.univ}=> iprop(⌜QY m c s'.mem⌝ ∗ SI s') := by
  unfold Y
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

theorem bigSep_W (Φ : Fin cfg0.W → sProp 𝕄) : bigSep Finset.univ Φ = iprop(emp) := by
  rw [Finset.univ_eq_empty, BI.bigSep_empty]
  rfl

set_option maxRecDepth 16000 in
theorem body_obligation (c : Dev nD) : BodyObligation (dats (F := F) m 0 c) (defs₀ (F := F)) 𝒱₀ () Set.univ := fun t => by
  rw [fin_N t, bigSep_W, bigSep_W, show (dats m 0 c).Φ t₀.castSucc = Φ₀ m c from rfl, show (dats m 0 c).Φ t₀.succ = Φ₁ m c from rfl]
  iintro ⟨HΦ, Ho, -⟩
  iapply (sound_body m c _)
  isplitl [HΦ Ho]
  · unfold bodyPre
    isplitl [HΦ]; · iexact HΦ
    iexact Ho
  · unfold bodyPost
    iintro ⟨H1, H2⟩
    isplitl [H1]; · iexact H1
    isplitl [H2]; · iexact H2
    iempintro

set_option maxRecDepth 16000 in
theorem run_main :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage)
    (hshare := ?hshare) (hdistinct := ?hdistinct)
    (O₀ := O₀) (howed₀ := ?howed0) (howedN := ?howedN)
    (L := L) (lv := lv) (hL := ?hL) (hwaits := ?hwaits)
    (G := G m) (G' := G' m) (u₀ := u₀)
    (hu₀ := ?hu0)
    (hglob := ?hglob)
    (hA := ?hA) (hpf := ?hpf)
    (X := X m) (Y := Y m) (Z := fun _ => iprop(emp))
    (hX := ?hX) (hin := ?hin) (hout := ?hout)
    (QY := QY m)
    (hY := ?hY)
    (hQ := ?hQ)
  case hmain => exact fun _ => rfl
  case hbody => exact fun c => (body_obligation m c).loose
  case hne => exact block_pos0
  case harr => exact arr_whole0
  case hstage => exact stage_whole0
  case hshare => exact fun _ w => w.elim0
  case hdistinct => exact winFacts0.arr_inj
  case howed0 => exact fun _ => rfl
  case howedN => exact fun _ => rfl
  case hL => exact L_of_ne
  case hwaits => exact waits m
  case hu0 => exact hu₀_pf m
  case hglob => exact glob m
  case hA => exact fun _ w => w.elim0
  case hpf => exact fun _ k => k.elim0
  case hX => exact start_intro m ρ
  case hin => exact phi0_intro m
  case hout => exact phi1_exit m
  case hY => exact read_off m
  case hQ => exact fun s h c => (h c).2.2

end Cert.KernelIdeal.A2A

end
-- ==== Proof.A2A.Value.lean ====
import proofs.«900634_g7700000000000635_dist_a2a_v7x_xyz2x2x4_x_m4096_n1024_bf16_1_alg».proof.Defs
import proofs.«900634_g7700000000000635_dist_a2a_v7x_xyz2x2x4_x_m4096_n1024_bf16_1_alg».proof.Proof.Gen.ReferenceIdeal
import proofs.«900634_g7700000000000635_dist_a2a_v7x_xyz2x2x4_x_m4096_n1024_bf16_1_alg».proof.Proof.Gen.ReferenceIdeal.Run
import proofs.«900634_g7700000000000635_dist_a2a_v7x_xyz2x2x4_x_m4096_n1024_bf16_1_alg».proof.Proof.Gen.Pre_finite_inputs_ReferenceIdeal
import proofs.«900634_g7700000000000635_dist_a2a_v7x_xyz2x2x4_x_m4096_n1024_bf16_1_alg».proof.Proof.A2A.Spec
import Idealize.ShloMosaic.Lib.Layout
import Idealize.ShloMosaic.Lib.ValueIdx
import Idealize.ShloMosaic.PureOps.Ideal

noncomputable section

namespace Cert.A2AValue

open Idealize.ShloMosaic Idealize.ShloMosaic.TcCoe Idealize.SL.Sem
open Cert.A2ASpec

def refOut (X : FVec Ideal ⟨2, ![8192, 2048]⟩ .f32) : FVec Ideal ⟨2, ![8192, 2048]⟩ .bf16 :=
  fun i => FloatOps.truncf .bf16 (by decide) (X i)

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => ⟨(h 0).1, (h 0).2⟩)
    (Cert.ReferenceIdeal.Value.run (F := Ideal) m' g')

theorem idx2_ext {n0 n1 : Nat} {p q : (⟨2, ![n0, n1]⟩ : Shape).Idx}
    (h0 : (p 0).val = (q 0).val) (h1 : (p 1).val = (q 1).val) : p = q := by
  funext a
  match a with
  | ⟨0, _⟩ => exact Fin.ext h0
  | ⟨1, _⟩ => exact Fin.ext h1

/-- A row of the whole array lies in the row block of the first coordinate `g / 4096`, which is the device's or its partner's. -/
theorem value_eq (X : FVec Ideal ⟨2, ![8192, 2048]⟩ .f32) (c : Fin 16) :
    outFn (F := Ideal) (mxOf c)
        (Layout.blockN ⟨2, ![4096, 2048]⟩ ⟨2, ![8192, 2048]⟩ (Layout.meshBlock [2, 2, 4] ![[0], []] c) X)
        (Layout.blockN ⟨2, ![4096, 2048]⟩ ⟨2, ![8192, 2048]⟩ (Layout.meshBlock [2, 2, 4] ![[0], []] (peer c)) X)
      = Layout.blockN ⟨2, ![8192, 1024]⟩ ⟨2, ![8192, 2048]⟩ (Layout.meshBlock [2, 2, 4] ![[], [0]] c) (refOut X) := by
  funext i
  have h0 : (i 0).val < 8192 := ValueIdx.idx2_lt0 i
  have hc : c.val < 16 := c.isLt
  simp only [outFn, refOut, Layout.blockN_apply]
  congr 1
  split
  · next h =>
    have h' : (i 0).val / 4096 = c.val / 8 := h
    congr 1
    apply idx2_ext
    · show (c.val / 8 % 2 * 1 + 0) * 4096 + (i 0).val % 4096 = 0 * 8192 + (i 0).val
      omega
    · show 0 * 2048 + (1024 * (c.val / 8) + (i 1).val) = (c.val / 8 % 2 * 1 + 0) * 1024 + (i 1).val
      omega
  · next h =>
    have h' : ¬ (i 0).val / 4096 = c.val / 8 := h
    congr 1
    apply idx2_ext
    · show ((c.val + 8) % 16 / 8 % 2 * 1 + 0) * 4096 + (i 0).val % 4096 = 0 * 8192 + (i 0).val
      omega
    · show 0 * 2048 + (1024 * (c.val / 8) + (i 1).val) = (c.val / 8 % 2 * 1 + 0) * 1024 + (i 1).val
      omega

end Cert.A2AValue

end
-- ==== Proof.KA2A.Proto.lean ====
import proofs.«900634_g7700000000000635_dist_a2a_v7x_xyz2x2x4_x_m4096_n1024_bf16_1_alg».proof.Proof.Gen.Kernel
import proofs.«900634_g7700000000000635_dist_a2a_v7x_xyz2x2x4_x_m4096_n1024_bf16_1_alg».proof.Proof.Gen.Kernel.Skeleton
import proofs.«900634_g7700000000000635_dist_a2a_v7x_xyz2x2x4_x_m4096_n1024_bf16_1_alg».proof.Proof.Gen.Kernel.Launch
import proofs.«900634_g7700000000000635_dist_a2a_v7x_xyz2x2x4_x_m4096_n1024_bf16_1_alg».proof.Proof.Gen.Kernel.Points
import proofs.«900634_g7700000000000635_dist_a2a_v7x_xyz2x2x4_x_m4096_n1024_bf16_1_alg».proof.Proof.A2A.Spec
import Idealize.ShloMosaic.Lib.Pipeline.Launch
import Idealize.ShloMosaic.Lib.Pipeline.Kit
import Idealize.ShloMosaic.Lib.Tactic

noncomputable section

namespace Cert.Kernel.A2A
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UX : Type := UR sig nD τ × Counters
abbrev UU : Type := UR sig nD τ × UX

local notation "𝕄" => MT nD τ sig Unit (Elt F) ℕ UU ℕ

abbrev EP : Emb (UR sig nD τ) (MT nD τ sig Unit (Elt F) ℕ UU ℕ) := embL

def ER : Emb (UR sig nD τ) (MT nD τ sig Unit (Elt F) ℕ UU ℕ) :=
  (Emb.inl : Emb (UR sig nD τ) UX).trans (embR : Emb UX (MT nD τ sig Unit (Elt F) ℕ UU ℕ))

instance ER_landsIn : (ER : Emb (UR sig nD τ) (MT nD τ sig Unit (Elt F) ℕ UU ℕ)).LandsIn (upEmb : UEmb _ (MT nD τ sig Unit (Elt F) ℕ UU ℕ)) := by
  unfold ER; infer_instance

variable (m : (ℓ : Loc nD τ sig) → Buf (Elt F) ℓ) (ρ : Dev nD → PrngReg)

abbrev peer (c : Dev nD) : Dev nD := Cert.A2ASpec.peer c
abbrev mxOf (c : Dev nD) : Fin 2 := Cert.A2ASpec.mxOf c

theorem peer_peer (c : Dev nD) : peer (peer c) = c := Cert.A2ASpec.peer_peer c

def swap : Dev nD ≃ Dev nD := ⟨peer, peer, peer_peer, peer_peer⟩

theorem dev_closed (c : Dev nD) : (4 * ((c.val / 4) % 2) + (c.val % 4) + 8) - 8 * (c.val / 8) = (peer c).val := by
  revert c; decide

open Lean Elab Command in
elab "peer_equations" : command => do
  for i in [1:34] do
    let thm := mkIdent (Name.mkSimple s!"dev{i}_eq")
    let dv := mkIdent (Name.mkSimple s!"k0_dev{i}")
    let lt := mkIdent (Name.mkSimple s!"k0_dev{i}_lt")
    let eq := mkIdent (Name.mkSimple s!"k0_dev{i}_eq")
    elabCommand (← `(theorem $thm (c : Dev nD) : (⟨$dv c, $lt c⟩ : Dev nD) = peer c := Fin.ext (($eq c).trans (dev_closed c))))

peer_equations

abbrev xM : Memref sig .tc .hbm S4096x2048 .f32 := Memref.whole main_arg0
abbrev oM : Memref sig .tc .hbm S8192x1024 .bf16 := Memref.whole main_v1
abbrev stM : Memref sig .tc .vmem S2x128x2048 .f32 := Memref.whole cc0_scratch0
abbrev cvM : Memref sig .tc .vmem S2x2x128x1024 .bf16 := Memref.whole cc0_scratch1
abbrev rowWord (k : Fin 32) : BitVec 32 := BitVec.ofNat 32 (128 * k.val)
abbrev outSl (d : Dev nD) (k : Fin 32) : Memref sig .tc .hbm S128x1024 .bf16 :=
  oM.slice (Rect.unit (s := S8192x1024) (k0_off1 d (rowWord k)) S128x1024.size (k0_off1_inb d k)) (fun _ => rfl)

abbrev cvSl (off : Fin 4 → Nat) (h : ∀ a, off a + S1x1x128x1024.size a ≤ S2x2x128x1024.size a) : Memref sig .tc .vmem S128x1024 .bf16 :=
  (cvM.slice (Rect.unit (s := S2x2x128x1024) off S1x1x128x1024.size h) (fun _ => rfl)).squeeze S128x1024 squeezes_S1x1x128x1024_S128x1024

abbrev cvO0 (d : Dev nD) : Memref sig .tc .vmem S128x1024 .bf16 := cvSl (k0_off2 d) (k0_off2_inb d)
abbrev cvO1 (d : Dev nD) : Memref sig .tc .vmem S128x1024 .bf16 := cvSl (k0_off4 d) (k0_off4_inb d)

def cvO (d : Dev nD) (k : Fin 32) : Memref sig .tc .vmem S128x1024 .bf16 := if k.val % 2 = 0 then cvO0 d else cvO1 d

theorem inb32 (k : Fin 32) : ∀ a, (![k.val] : Fin 1 → Nat) a + S1.size a ≤ S32.size a :=
  Rect.inb₁ k.isLt

abbrev barS : Sem sig := (SemArray.scalar (sig.barrier 0 rfl) : Sems sig S_).sem
abbrev sendS (k : Fin 32) : DmaSem sig := ((cc0_scratch4.slice (Rect.unit (s := S32) ![k.val] S1.size (inb32 k))).squeeze S_ squeezes_S1_S_).sem
abbrev recvS (k : Fin 32) : DmaSem sig := ((cc0_scratch5.slice (Rect.unit (s := S32) ![k.val] S1.size (inb32 k))).squeeze S_ squeezes_S1_S_).sem

private theorem cell0 : ((Shape.reshapeEquiv (squeezes_S1_S_).numel_eq (fun i : Fin 0 => i.elim0) : S1.Idx) 0).val < 1 :=
  ((Shape.reshapeEquiv (squeezes_S1_S_).numel_eq (fun i : Fin 0 => i.elim0) : S1.Idx) 0).isLt

private theorem cell_val (b : ℕ) (hb : b + S32.numel ≤ 68) (k : Fin 32) :
    (((SemArray.consecutive b S32 hb : DmaSems sig S32).slice (Rect.unit (s := S32) ![k.val] S1.size (inb32 k))).squeeze S_ squeezes_S1_S_).sem.val = b + k.val := by
  simp only [SemArray.sem, SemArray.ix_squeeze, SemArray.ix_slice, SemArray.consecutive]
  rw [Shape.rowMajor_val_one, Rect.emb_apply]
  have h := cell0
  simp only [Rect.off_unit, Rect.stride_unit, Matrix.cons_val_zero, Nat.one_mul]
  omega

theorem sendS_val (k : Fin 32) : (sendS k).val = 4 + k.val := cell_val 4 _ k
theorem recvS_val (k : Fin 32) : (recvS k).val = 36 + k.val := cell_val 36 _ k

abbrev barCell (c : Dev nD) : GSem nD τ sig := ((c : Thread nD τ), .reg barS)
abbrev sendCell (c : Dev nD) (k : Fin 32) : GSem nD τ sig := ((c : Thread nD τ), .dma (sendS k))
abbrev recvCell (c : Dev nD) (k : Fin 32) : GSem nD τ sig := ((c : Thread nD τ), .dma (recvS k))
abbrev N : ℕ := (outSl (0 : Dev nD) (0 : Fin 32)).view.amount (.dma (recvS 0))

theorem N_pos : 0 < N := View.dmaCredit_pos _ (by decide)
theorem amount_outSl (d : Dev nD) (k : Fin 32) (q : DmaSem sig) : (outSl d k).view.amount (.dma q) = N := rfl

def Xc (c : Dev nD) : FVec F Cert.A2ASpec.SX .f32 := m ((c : Thread nD τ).loc main_arg0)
def outC (c : Dev nD) : Buf (Elt F) ((c : Thread nD τ).loc main_v1) :=
  Cert.A2ASpec.outFn (F := F) (mxOf c) (Xc m c) (Xc m (peer c))

def slPts (t d : Dev nD) (k : Fin 32) (f : Buf (Elt F) ((outSl d k).view.loc (t : Thread nD τ))) : sProp 𝕄 :=
  (outSl d k).view.loc (t : Thread nD τ) ↦[(outSl d k).view.set]{fullShare} f

def cvPts (c : Dev nD) (M : Memref sig .tc .vmem S128x1024 .bf16) (f : Buf (Elt F) (M.view.loc (c : Thread nD τ))) : sProp 𝕄 :=
  M.view.loc (c : Thread nD τ) ↦[M.view.set]{fullShare} f

def barPay (c : Dev nD) : sProp 𝕄 :=
  bigSep Finset.univ fun k : Fin 32 => iprop((∃ f, slPts (F := F) (peer c) c k f) ∗ reached ER (recvCell (peer c) k) 0)

def recvPay (c : Dev nD) (k : Fin 32) : sProp 𝕄 := slPts c (peer c) k (outC m c)
def sendPay (c : Dev nD) (k : Fin 32) : sProp 𝕄 := iprop(∃ f, cvPts (F := F) c (cvO c k) f)

abbrev IsCell (g : GSem nD τ sig) : Prop := g.1.2 = .tc ∧ (g.2 = .reg barS ∨ ∃ q : DmaSem sig, g.2 = .dma q ∧ 4 ≤ q.val)

instance (g : GSem nD τ sig) : Decidable (IsCell g) := by unfold IsCell; infer_instance

def Rd : Rounds.Schedule (GSem nD τ sig) Unit 𝕄 where
  duties g r := if r = 0 ∧ IsCell g then {()} else ∅
  unitless _ := False
  amount g _ _ := if g.2 = .reg barS then 1 else N
  payload g _ _ := match g.2 with
    | .reg _ => barPay g.1.1
    | .dma q =>
      if h : 36 ≤ q.val then recvPay m g.1.1 ⟨q.val - 36, by have : q.val < 68 := q.isLt; omega⟩
      else if h4 : 4 ≤ q.val then sendPay g.1.1 ⟨q.val - 4, by omega⟩
      else iprop(emp)
  amount_pos g _ _ _ := by
    by_cases h : g.2 = .reg barS
    · rw [if_pos h]; exact Nat.one_pos
    · rw [if_neg h]; exact N_pos

instance Rd_payload_storable (g : GSem nD τ sig) (r : ℕ) (d : Unit) : BI.Storable (upEmb : UEmb _ 𝕄) ((Rd (F := F) m).payload g r d) := by
  dsimp only [Rd]
  unfold barPay recvPay sendPay slPts cvPts
  (repeat' split) <;> infer_instance

section Sched

variable (c : Dev nD) (k : Fin 32)

private theorem send_idx (h : (sendS k).val - 4 < 32) : (⟨(sendS k).val - 4, h⟩ : Fin 32) = k :=
  Fin.ext (by show (sendS k).val - 4 = k.val; rw [sendS_val]; omega)

private theorem recv_idx (h : (recvS k).val - 36 < 32) : (⟨(recvS k).val - 36, h⟩ : Fin 32) = k :=
  Fin.ext (by show (recvS k).val - 36 = k.val; rw [recvS_val]; omega)

theorem duties_bar : (Rd (F := F) m).duties (barCell c) 0 = {()} := by
  dsimp only [Rd]; exact if_pos ⟨rfl, rfl, .inl rfl⟩
theorem duties_send : (Rd (F := F) m).duties (sendCell c k) 0 = {()} :=
  if_pos ⟨rfl, rfl, .inr ⟨_, rfl, by rw [sendS_val]; omega⟩⟩

theorem duties_recv : (Rd (F := F) m).duties (recvCell c k) 0 = {()} :=
  if_pos ⟨rfl, rfl, .inr ⟨_, rfl, by rw [recvS_val]; omega⟩⟩

theorem duties_later (g : GSem nD τ sig) : ∀ r, 1 ≤ r → (Rd (F := F) m).duties g r = ∅ :=
  fun r hr => if_neg fun h => by omega

theorem amount_bar (d : Unit) : (Rd (F := F) m).amount (barCell c) 0 d = 1 := by
  dsimp only [Rd]; exact if_pos rfl
theorem amount_send (d : Unit) : (Rd (F := F) m).amount (sendCell c k) 0 d = N := by
  dsimp only [Rd]; exact if_neg (fun h => by cases h)
theorem amount_recv (d : Unit) : (Rd (F := F) m).amount (recvCell c k) 0 d = N := by
  dsimp only [Rd]; exact if_neg (fun h => by cases h)
theorem expect_bar : (Rd (F := F) m).expect (barCell c) 0 = 1 := by
  unfold Schedule.expect Schedule.amountOf; rw [duties_bar, Finset.sum_singleton, amount_bar]

theorem expect_send : (Rd (F := F) m).expect (sendCell c k) 0 = N := by
  unfold Schedule.expect Schedule.amountOf; rw [duties_send, Finset.sum_singleton, amount_send]

theorem expect_recv : (Rd (F := F) m).expect (recvCell c k) 0 = N := by
  unfold Schedule.expect Schedule.amountOf; rw [duties_recv, Finset.sum_singleton, amount_recv]

theorem payload_bar (d : Unit) : (Rd (F := F) m).payload (barCell c) 0 d = barPay c := rfl
theorem payload_send (d : Unit) : (Rd (F := F) m).payload (sendCell c k) 0 d = sendPay c k := by
  dsimp only [Rd]
  have h36 : ¬ 36 ≤ (sendS k).val := by rw [sendS_val]; omega
  have h4 : 4 ≤ (sendS k).val := by rw [sendS_val]; omega
  rw [dif_neg h36, dif_pos h4, send_idx]

theorem payload_recv (d : Unit) : (Rd (F := F) m).payload (recvCell c k) 0 d = recvPay m c k := by
  dsimp only [Rd]
  have h36 : 36 ≤ (recvS k).val := by rw [recvS_val]; omega
  rw [dif_pos h36, recv_idx]

end Sched

def owedRecv (c : Dev nD) : CellTallies nD τ sig Unit := ∑ k : Fin 32, tallyAt (recvCell (peer c) k) () N
def O₀ (c : Dev nD) : CellTallies nD τ sig Unit := owedRecv c + tallyAt (barCell (peer c)) () 1
def L (g : GSem nD τ sig) : Finset Unit := if g.1.2 = .tc then {()} else ∅
def lv (g : GSem nD τ sig) (_ : Unit) : ℕ :=
  match g.2 with
  | .reg _ => 1
  | .dma q => if 36 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.A2A

end
-- ==== Proof.KA2A.Data.lean ====
import proofs.«900634_g7700000000000635_dist_a2a_v7x_xyz2x2x4_x_m4096_n1024_bf16_1_alg».proof.Proof.KA2A.Proto

noncomputable section

namespace Cert.Kernel.A2A
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem inb2 (s : Fin 2) : ∀ a, (![s.val] : Fin 1 → Nat) a + S1.size a ≤ S2.size a :=
  Rect.inb₁ s.isLt

abbrev copyS (s : Fin 2) : DmaSem sig := ((cc0_scratch2.slice (Rect.unit (s := S2) ![s.val] S1.size (inb2 s))).squeeze S_ squeezes_S1_S_).sem
abbrev locS (s : Fin 2) : DmaSem sig := ((cc0_scratch3.slice (Rect.unit (s := S2) ![s.val] S1.size (inb2 s))).squeeze S_ squeezes_S1_S_).sem

def locals0 (c : Dev nD) : sProp 𝕄 :=
  iprop(semVal ((c : Thread nD τ), .dma (copyS 0)) 0 ∗ semVal ((c : Thread nD τ), .dma (copyS 1)) 0
    ∗ semVal ((c : Thread nD τ), .dma (locS 0)) 0 ∗ semVal ((c : Thread nD τ), .dma (locS 1)) 0)

def OnlyRecv (O : CellTallies nD τ sig Unit) : Prop :=
  ∀ g u, 0 < O g u → g.1.2 = .tc ∧ ∃ q : DmaSem sig, g.2 = .dma q ∧ 36 ≤ q.val

theorem OnlyRecv.zero : OnlyRecv (0 : CellTallies nD τ sig Unit) :=
  fun _ _ h => absurd h (Nat.lt_irrefl 0)

theorem OnlyRecv.tally (d : Dev nD) (k : Fin 32) (n : ℕ) : OnlyRecv (tallyAt (recvCell d k) () n) := by
  intro g u h
  rw [tallyAt_apply] at h
  by_cases hg : g = recvCell d k ∧ u = ()
  · rw [hg.1]; exact ⟨rfl, recvS k, rfl, by rw [recvS_val]; omega⟩
  · rw [if_neg hg] at h; exact absurd h (Nat.lt_irrefl 0)

theorem OnlyRecv.add {A B : CellTallies nD τ sig Unit} (hA : OnlyRecv A) (hB : OnlyRecv B) : OnlyRecv (A + B) := by
  intro g u h
  rw [Pi.add_apply, Finsupp.add_apply] at h
  exact (Nat.eq_zero_or_pos (A g u)).elim (fun h0 => hB g u (by omega)) (hA g u)

theorem mayWait_low (c : Dev nD) (sm : SemLoc sig) (O : CellTallies nD τ sig Unit)
    (hsm : lv ((c : Thread nD τ), sm) () ≤ 1) (hO : OnlyRecv O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => by
      obtain ⟨_, q, hq, h36⟩ := hO g u hg
      rcases g with ⟨t, s⟩
      dsimp only at hq
      subst hq
      show 1 < (if 36 ≤ q.val then 2 else 0)
      rw [if_pos h36]; decide)

def invs (Kb : Dev nD → ℕ) (Ks Kr : Dev nD → Fin 32 → ℕ) (c : Dev nD) : sProp 𝕄 :=
  iprop(cellInv ER (Rd m) (Kb c) (barCell c) ∗ cellInv ER (Rd m) (Kb (peer c)) (barCell (peer c))
    ∗ bigSep Finset.univ fun k : Fin 32 =>
        iprop(cellInv ER (Rd m) (Ks c k) (sendCell c k) ∗ cellInv ER (Rd m) (Kr c k) (recvCell c k)
          ∗ cellInv ER (Rd m) (Kr (peer c) k) (recvCell (peer c) k)))

instance invs_persistent (Kb : Dev nD → ℕ) (Ks Kr : Dev nD → Fin 32 → ℕ) (c : Dev nD) : BI.Persistent (invs m Kb Ks Kr c) := by
  unfold invs; infer_instance

def ghost (Kb : Dev nD → ℕ) (Ks Kr : Dev nD → Fin 32 → ℕ) (c : Dev nD) : sProp 𝕄 :=
  iprop(invs m Kb Ks Kr c
    ∗ atPos ER (barCell c) 0 ∅ 0 ∗ reached ER (barCell (peer c)) 0 ∗ dutyTok ER (barCell (peer c)) 0 ()
    ∗ bigSep Finset.univ fun k : Fin 32 =>
        iprop(atPos ER (sendCell c k) 0 ∅ 0 ∗ atPos ER (recvCell c k) 0 ∅ 0
          ∗ reached ER (sendCell c k) 0 ∗ reached ER (recvCell c k) 0
          ∗ dutyTok ER (sendCell c k) 0 () ∗ dutyTok ER (recvCell (peer c) k) 0 ()))

def start (c : Dev nD) : sProp 𝕄 :=
  iprop((∃ Kb Ks Kr, ghost m Kb Ks Kr c) ∗ cred (tallyAt (barCell c) () 1)
    ∗ (bigSep Finset.univ fun k : Fin 32 => cred (tallyAt (recvCell c k) () N)) ∗ levAts L lv ∗ locals0 c)

def Φ₀ (c : Dev nD) : sProp 𝕄 :=
  iprop(start m c
    ∗ (xM.view.loc (c : Thread nD τ) ↦{fullShare} m ((c : Thread nD τ).loc main_arg0))
    ∗ (∃ f, oM.view.loc (c : Thread nD τ) ↦{fullShare} f)
    ∗ (∃ f, stM.view.loc (c : Thread nD τ) ↦{fullShare} f) ∗ (∃ f, cvM.view.loc (c : Thread nD τ) ↦{fullShare} f))

def Φ₁ (c : Dev nD) : sProp 𝕄 :=
  iprop((xM.view.loc (c : Thread nD τ) ↦{fullShare} m ((c : Thread nD τ).loc main_arg0))
    ∗ (oM.view.loc (c : Thread nD τ) ↦{fullShare} outC m c)
    ∗ (∃ f, stM.view.loc (c : Thread nD τ) ↦{fullShare} f) ∗ (∃ f, cvM.view.loc (c : Thread nD τ) ↦{fullShare} f)
    ∗ locals0 c
    ∗ bigSep Finset.univ fun k : Fin 32 => iprop(semVal (sendCell c k) 0 ∗ semVal (recvCell c k) 0))

theorem cfg0_N : cfg0.N = 1 := by decide

def t₀ : Fin cfg0.N := ⟨0, by rw [cfg0_N]; decide⟩

theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.Kernel.A2A

end
-- ==== Proof.KA2A.Send.lean ====
import proofs.«900634_g7700000000000635_dist_a2a_v7x_xyz2x2x4_x_m4096_n1024_bf16_1_alg».proof.Proof.KA2A.Data

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem payload_recv_peer (c : Dev nD) (k : Fin 32) (d : Unit) :
    (Rd (F := F) m).payload (recvCell (peer c) k) 0 d = slPts (peer c) c k (outC m (peer c)) := by
  rw [payload_recv]; unfold recvPay; rw [peer_peer]

/-- Chunk k's transfer: the departure pays the device's send cell with the half-slot read, the landing pays the partner's receive cell with the slab, which then holds the partner's final entries. -/
theorem wp_send_ch (c : Dev nD) (k : Fin 32) {κ₁ κ₂ : ℕ}
    {offS : Fin 4 → Nat} {hbS : ∀ a, offS a + S1x1x128x1024.size a ≤ S2x2x128x1024.size a}
    (offD : Fin 2 → Nat) (hbD : ∀ a, offD a + S128x1024.size a ≤ S8192x1024.size a)
    (hS : cvO c k = cvSl offS hbS)
    (hD : slPts (F := F) (peer c) c k (outC m (peer c))
      = ((oM.slice (Rect.unit (s := S8192x1024) offD S128x1024.size hbD) (fun _ => rfl)).view.loc (peer c : Thread nD τ) ↦[(oM.slice (Rect.unit (s := S8192x1024) offD S128x1024.size hbD) (fun _ => rfl)).view.set]{fullShare} outC m (peer c)))
    {hsc : ((oM.slice (Rect.unit (s := S8192x1024) offD S128x1024.size hbD) (fun _ => rfl)) : Memref sig (Dev.tc (peer c) : Thread nD τ).2.kind .hbm S128x1024 .bf16).view.ref.isScScratch = false}
    {hsrc : (cvSl offS hbS).view.WordExact} {hdst : (oM.slice (Rect.unit (s := S8192x1024) offD S128x1024.size hbD) (fun _ => rfl)).view.WordExact}
    {hsem : DmaTarget.Typed .vmem (.dma (recvS k)) (.remote (Dev.tc (peer c) : Thread nD τ) (oM.slice (Rect.unit (s := S8192x1024) offD S128x1024.size hbD) (fun _ => rfl)) (.dma (sendS k)) hsc)}
    {α : Type} {Q : α → sProp 𝕄} {kont : PUnit → Prog (TpuEff nD τ sig (Elt F) Λ₀ .tc) α}
    (fs : Buf (Elt F) (cvM.view.loc (c : Thread nD τ))) (fd : Buf (Elt F) (oM.view.loc (peer c : Thread nD τ)))
    (hval : ∀ i ∈ (oM.slice (Rect.unit (s := S8192x1024) offD S128x1024.size hbD) (fun _ => rfl)).view.set,
      (oM.slice (Rect.unit (s := S8192x1024) offD S128x1024.size hbD) (fun _ => rfl)).view.write (Elt F) fd ((cvSl offS hbS).view.read (Elt F) fs) Finset.univ i = outC m (peer c) i)
    {W : Waits sig Unit} {O : CellTallies nD τ sig Unit} :
    iprop(cellInv ER (Rd m) κ₁ (sendCell c k) ∗ cellInv ER (Rd m) κ₂ (recvCell (peer c) k)
        ∗ ((cvSl offS hbS).view.loc (c : Thread nD τ) ↦[(cvSl offS hbS).view.set]{fullShare} fs)
        ∗ ((oM.slice (Rect.unit (s := S8192x1024) offD S128x1024.size hbD) (fun _ => rfl)).view.loc (peer c : Thread nD τ) ↦[(oM.slice (Rect.unit (s := S8192x1024) offD S128x1024.size hbD) (fun _ => rfl)).view.set]{fullShare} fd)
        ∗ owes (c : Thread nD τ) (O + tallyAt (recvCell (peer c) k) () N) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (cvSl offS hbS) (.remote (Dev.tc (peer c) : Thread nD τ) (oM.slice (Rect.unit (s := S8192x1024) offD S128x1024.size hbD) (fun _ => rfl)) (.dma (sendS k)) hsc) (.dma (recvS k)) hsrc hdst hsem) kont) Q) :=
  Rounds.wp_send_pointsTo 𝒱₀ ER (Rd m) (c : Thread nD τ) none (κ₁ := κ₁) (κ₂ := κ₂)
    (src := cvSl offS hbS) (dst := (oM.slice (Rect.unit (s := S8192x1024) offD S128x1024.size hbD) (fun _ => rfl))) (c' := (Dev.tc (peer c) : Thread nD τ)) (q := fullShare) (fs := fs)
    (r₁ := 0) (r₂ := 0) (d₁ := ()) (d₂ := ()) (fd := fd)
    (by rw [duties_send]; exact Finset.mem_singleton_self _) (by rw [duties_recv]; exact Finset.mem_singleton_self _)
    () () N rfl (amount_send m c k ()) (amount_recv m (peer c) k ()) O rfl (W := W)
    (by rw [payload_send]; unfold sendPay cvPts; rw [hS]; iintro H; iexists fs; iexact H)
    (by rw [payload_recv_peer, hD]; exact Entails.of_eq (pointsTo_congr hval))

end Cert.Kernel.A2A

end
-- ==== Proof.KA2A.Cut.lean ====
import proofs.«900634_g7700000000000635_dist_a2a_v7x_xyz2x2x4_x_m4096_n1024_bf16_1_alg».proof.Proof.KA2A.Proto

noncomputable section

namespace Cert.Kernel.A2A
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem pointsTo_cover {ℓ : Loc nD τ sig} {T : Type} [Fintype T] (K : T → Finset (Idx ℓ)) (f : Buf (Elt F) ℓ)
    (hcov : ∀ i : Idx ℓ, ∃ t, i ∈ K t) (hdis : ∀ t t', t ≠ t' → Disjoint (K t) (K t')) :
    (ℓ ↦{fullShare} f : sProp 𝕄) = bigSep Finset.univ fun t => (ℓ ↦[K t]{fullShare} f) := by
  have hU : (Finset.univ : Finset (Idx ℓ)) = Finset.univ.biUnion K :=
    (Finset.eq_univ_iff_forall.mpr fun i =>
      Finset.mem_biUnion.mpr ((hcov i).imp fun t ht => ⟨Finset.mem_univ t, ht⟩)).symm
  rw [hU]
  exact pointsTo_biUnion Finset.univ K fun t _ t' _ h => hdis t t' h

theorem xinb (k : Fin 32) : ∀ a, (![128 * k.val, 0] : Fin 2 → Nat) a + S128x2048.size a ≤ S4096x2048.size a :=
  Rect.inb₂ (by show 128 * k.val + 128 ≤ 4096; have := k.isLt; omega) (by show 0 + 2048 ≤ 2048; omega)

abbrev xSl (k : Fin 32) : Memref sig .tc .hbm S128x2048 .f32 :=
  xM.slice (Rect.unit (s := S4096x2048) ![128 * k.val, 0] S128x2048.size (xinb k)) (fun _ => rfl)

theorem mem_xSl (k : Fin 32) (i : S4096x2048.Idx) :
    i ∈ (xSl k).view.set ↔ 128 * k.val ≤ (i 0).val ∧ (i 0).val < 128 * k.val + 128 := by
  have hs : (xSl k).view.set = (Rect.unit (s := S4096x2048) ![128 * k.val, 0] S128x2048.size (xinb k)).set :=
    View.set_slice_whole main_arg0 _
  rw [hs, Rect.mem_set_unit]
  exact ⟨fun h => h 0, fun h => Fin.forall_fin_two.mpr
    ⟨h, Nat.zero_le _, by show (i 1).val < 0 + 2048; have := ValueIdx.idx2_lt1 i; omega⟩⟩

theorem x_cut (c : Dev nD) (X : Buf (Elt F) (xM.view.loc (c : Thread nD τ))) :
    (xM.view.loc (c : Thread nD τ) ↦{fullShare} X : sProp 𝕄)
      ⊣⊢ bigSep Finset.univ fun k : Fin 32 => ((xSl k).view.loc (c : Thread nD τ) ↦[(xSl k).view.set]{fullShare} X) := by
  refine BiEntails.of_eq (pointsTo_cover (F := F) (ℓ := xM.view.loc (c : Thread nD τ)) (fun k : Fin 32 => (xSl k).view.set) X ?_ ?_)
  · intro (i : S4096x2048.Idx)
    have hi : (i 0).val < 4096 := ValueIdx.idx2_lt0 i
    have hk : (i 0).val / 128 < 32 := by omega
    refine ⟨⟨(i 0).val / 128, hk⟩, ?_⟩
    show i ∈ (xSl ⟨(i 0).val / 128, hk⟩).view.set
    refine (mem_xSl ⟨(i 0).val / 128, hk⟩ i).mpr ?_
    show 128 * ((i 0).val / 128) ≤ (i 0).val ∧ (i 0).val < 128 * ((i 0).val / 128) + 128
    omega
  · intro k k' hne
    refine Finset.disjoint_left.mpr fun (i : S4096x2048.Idx) hi hi' => ?_
    have h1 := (mem_xSl k i).mp hi
    have h2 := (mem_xSl k' i).mp hi'
    have : k.val ≠ k'.val := fun e => hne (Fin.ext e)
    omega

theorem stinb (s : Fin 2) : ∀ a, (![s.val, 0, 0] : Fin 3 → Nat) a + S1x128x2048.size a ≤ S2x128x2048.size a := by
  intro a
  have hs := s.isLt
  match a with
  | ⟨0, _⟩ => show s.val + 1 ≤ 2; omega
  | ⟨1, _⟩ => show 0 + 128 ≤ 128; omega
  | ⟨2, _⟩ => show 0 + 2048 ≤ 2048; omega

abbrev stSl (s : Fin 2) : Memref sig .tc .vmem S128x2048 .f32 :=
  (stM.slice (Rect.unit (s := S2x128x2048) ![s.val, 0, 0] S1x128x2048.size (stinb s)) (fun _ => rfl)).squeeze S128x2048 squeezes_S1x128x2048_S128x2048

theorem mem_stSl (s : Fin 2) (i : S2x128x2048.Idx) : i ∈ (stSl s).view.set ↔ (i 0).val = s.val := by
  have hs : (stSl s).view.set = (Rect.unit (s := S2x128x2048) ![s.val, 0, 0] S1x128x2048.size (stinb s)).set :=
    (View.set_reshape _ _).trans (View.set_slice_whole cc0_scratch0 _)
  rw [hs, Rect.mem_set_unit]
  constructor
  · intro H
    have H0 : s.val ≤ (i 0).val ∧ (i 0).val < s.val + 1 := H 0
    omega
  · intro H a
    have h1 : (i 1).val < 128 := (i 1).isLt
    have h2 : (i 2).val < 2048 := (i 2).isLt
    match a with
    | ⟨0, _⟩ => show s.val ≤ (i 0).val ∧ (i 0).val < s.val + 1; omega
    | ⟨1, _⟩ => show 0 ≤ (i 1).val ∧ (i 1).val < 0 + 128; omega
    | ⟨2, _⟩ => show 0 ≤ (i 2).val ∧ (i 2).val < 0 + 2048; omega

theorem st_cut (c : Dev nD) (f : Buf (Elt F) (stM.view.loc (c : Thread nD τ))) :
    (stM.view.loc (c : Thread nD τ) ↦{fullShare} f : sProp 𝕄)
      ⊣⊢ iprop(((stSl 0).view.loc (c : Thread nD τ) ↦[(stSl 0).view.set]{fullShare} f) ∗ ((stSl 1).view.loc (c : Thread nD τ) ↦[(stSl 1).view.set]{fullShare} f)) := by
  refine BiEntails.of_eq ((pointsTo_cover (F := F) (ℓ := stM.view.loc (c : Thread nD τ))
    (fun s : Fin 2 => (stSl s).view.set) f ?_ ?_).trans (bigSep_univ_two _))
  · intro (i : S2x128x2048.Idx); exact ⟨i 0, (mem_stSl _ i).mpr rfl⟩
  · exact fun s s' hne => Finset.disjoint_left.mpr fun (i : S2x128x2048.Idx) hi hi' =>
      hne (Fin.ext (((mem_stSl s i).mp hi).symm.trans ((mem_stSl s' i).mp hi')))

theorem cvinb (s h : Fin 2) : ∀ a, (![s.val, h.val, 0, 0] : Fin 4 → Nat) a + S1x1x128x1024.size a ≤ S2x2x128x1024.size a := by
  intro a
  have hs := s.isLt
  have hh := h.isLt
  match a with
  | ⟨0, _⟩ => show s.val + 1 ≤ 2; omega
  | ⟨1, _⟩ => show h.val + 1 ≤ 2; omega
  | ⟨2, _⟩ => show 0 + 128 ≤ 128; omega
  | ⟨3, _⟩ => show 0 + 1024 ≤ 1024; omega

abbrev cvQ (s h : Fin 2) : Memref sig .tc .vmem S128x1024 .bf16 := cvSl ![s.val, h.val, 0, 0] (cvinb s h)

theorem mem_cvQ (s h : Fin 2) (i : S2x2x128x1024.Idx) :
    i ∈ (cvQ s h).view.set ↔ (i 0).val = s.val ∧ (i 1).val = h.val := by
  have hs : (cvQ s h).view.set
      = (Rect.unit (s := S2x2x128x1024) ![s.val, h.val, 0, 0] S1x1x128x1024.size (cvinb s h)).set :=
    (View.set_reshape _ _).trans (View.set_slice_whole cc0_scratch1 _)
  rw [hs, Rect.mem_set_unit]
  constructor
  · intro H
    have H0 : s.val ≤ (i 0).val ∧ (i 0).val < s.val + 1 := H 0
    have H1 : h.val ≤ (i 1).val ∧ (i 1).val < h.val + 1 := H 1
    omega
  · intro H a
    have h2 : (i 2).val < 128 := (i 2).isLt
    have h3 : (i 3).val < 1024 := (i 3).isLt
    match a with
    | ⟨0, _⟩ => show s.val ≤ (i 0).val ∧ (i 0).val < s.val + 1; omega
    | ⟨1, _⟩ => show h.val ≤ (i 1).val ∧ (i 1).val < h.val + 1; omega
    | ⟨2, _⟩ => show 0 ≤ (i 2).val ∧ (i 2).val < 0 + 128; omega
    | ⟨3, _⟩ => show 0 ≤ (i 3).val ∧ (i 3).val < 0 + 1024; omega

theorem cvQ_disjoint (c : Dev nD) (s h s' h' : Fin 2) (hne : s ≠ s' ∨ h ≠ h') :
    Disjoint (α := Finset (Idx (cvM.view.loc (c : Thread nD τ)))) (cvQ s h).view.set (cvQ s' h').view.set := by
  refine Finset.disjoint_left.mpr fun (i : S2x2x128x1024.Idx) hi hi' => ?_
  have h1 := (mem_cvQ s h i).mp hi
  have h2 := (mem_cvQ s' h' i).mp hi'
  rcases hne with hne | hne
  · exact hne (Fin.ext (by omega))
  · exact hne (Fin.ext (by omega))

theorem cv_cut (c : Dev nD) (f : Buf (Elt F) (cvM.view.loc (c : Thread nD τ))) :
    (cvM.view.loc (c : Thread nD τ) ↦{fullShare} f : sProp 𝕄)
      ⊣⊢ iprop(cvPts c (cvQ 0 0) f ∗ cvPts c (cvQ 0 1) f ∗ cvPts c (cvQ 1 0) f ∗ cvPts c (cvQ 1 1) f) := by
  refine BiEntails.of_eq ((pointsTo_cover (F := F) (ℓ := cvM.view.loc (c : Thread nD τ))
    (fun p : Fin 2 × Fin 2 => (cvQ p.1 p.2).view.set) f ?_ ?_).trans
    (bigSep_univ_eq_bigSepL [(0, 0), (0, 1), (1, 0), (1, 1)] (by decide) (by decide) _))
  · intro (i : S2x2x128x1024.Idx); exact ⟨(i 0, i 1), (mem_cvQ _ _ i).mpr ⟨rfl, rfl⟩⟩
  · exact fun p p' hne => cvQ_disjoint c _ _ _ _ (not_and_or.mp (mt Prod.ext_iff.mpr hne))

theorem mem_outSl (d : Dev nD) (k : Fin 32) (i : S8192x1024.Idx) :
    i ∈ (outSl d k).view.set
      ↔ 4096 * (d.val / 8) + 128 * k.val ≤ (i 0).val ∧ (i 0).val < 4096 * (d.val / 8) + 128 * k.val + 128 := by
  have hs : (outSl d k).view.set
      = (Rect.unit (s := S8192x1024) (k0_off1 d (BitVec.ofNat 32 (128 * k.val))) S128x1024.size (k0_off1_inb d k)).set :=
    View.set_slice_whole main_v1 _
  rw [hs, Rect.mem_set_unit, k0_off1_eq d k]
  exact ⟨fun h => h 0, fun h => Fin.forall_fin_two.mpr
    ⟨h, Nat.zero_le _, by show (i 1).val < 0 + 1024; have := ValueIdx.idx2_lt1 i; omega⟩⟩

theorem outSl_disjoint (c d d' : Dev nD) (k k' : Fin 32) (hne : d.val / 8 ≠ d'.val / 8 ∨ k ≠ k') :
    Disjoint (α := Finset (Idx (oM.view.loc (c : Thread nD τ)))) (outSl d k).view.set (outSl d' k').view.set := by
  refine Finset.disjoint_left.mpr fun (i : S8192x1024.Idx) hi hi' => ?_
  have h1 := (mem_outSl d k i).mp hi
  have h2 := (mem_outSl d' k' i).mp hi'
  have := k.isLt
  have := k'.isLt
  rcases hne with hne | hne
  · omega
  · exact hne (Fin.ext (by omega))

theorem out_cut (c : Dev nD) (f : Buf (Elt F) (oM.view.loc (c : Thread nD τ))) :
    (oM.view.loc (c : Thread nD τ) ↦{fullShare} f : sProp 𝕄)
      ⊣⊢ iprop((bigSep Finset.univ fun k : Fin 32 => slPts (F := F) c c k f) ∗ (bigSep Finset.univ fun k : Fin 32 => slPts (F := F) c (peer c) k f)) := by
  have hc : c.val < 16 := c.isLt
  have hp : (peer c).val = (c.val + 8) % 16 := rfl
  have hd : c.val / 8 ≠ (peer c).val / 8 := by omega
  refine BiEntails.of_eq ((pointsTo_cover (F := F) (ℓ := oM.view.loc (c : Thread nD τ))
    (Sum.elim (fun k : Fin 32 => (outSl c k).view.set) (fun k : Fin 32 => (outSl (peer c) k).view.set)) f ?_ ?_).trans
    (bigSep_univ_sum _))
  · intro (i : S8192x1024.Idx)
    have hi : (i 0).val < 8192 := ValueIdx.idx2_lt0 i
    have cov : ∀ d : Dev nD, (i 0).val / 4096 = d.val / 8 → ∃ k, i ∈ (outSl d k).view.set := fun d e =>
      ⟨⟨(i 0).val % 4096 / 128, by omega⟩, (mem_outSl d _ i).mpr (by dsimp only; omega)⟩
    by_cases hg : (i 0).val / 4096 = c.val / 8
    · obtain ⟨k, hk⟩ := cov c hg; exact ⟨.inl k, hk⟩
    · obtain ⟨k, hk⟩ := cov (peer c) (by omega); exact ⟨.inr k, hk⟩
  · rintro (k | k) (k' | k') hne
    · exact outSl_disjoint c _ _ k k' (.inr fun e => hne (congrArg Sum.inl e))
    · exact outSl_disjoint c _ _ k k' (.inl hd)
    · exact outSl_disjoint c _ _ k k' (.inl hd.symm)
    · exact outSl_disjoint c _ _ k k' (.inr fun e => hne (congrArg Sum.inr e))

end Cert.Kernel.A2A

end
-- ==== Proof.KA2A.Vals.lean ====
import proofs.«900634_g7700000000000635_dist_a2a_v7x_xyz2x2x4_x_m4096_n1024_bf16_1_alg».proof.Proof.KA2A.Cut
import Idealize.ShloMosaic.Lib.Pipeline.Value
import Idealize.ShloMosaic.Lib.ValueIdx
import Idealize.ShloMosaic.Lib.Exec.Geometry

noncomputable section

namespace Cert.Kernel.A2A

open Cert.Kernel Cert.Kernel.Gen
open Idealize.ShloMosaic
open Idealize.ShloMosaic.TcCoe
open Idealize.ShloMosaic.ValueIdx

variable {F : FTy → Type} [FloatOps F]

variable (m : (ℓ : Loc nD τ sig) → Buf (Elt F) ℓ)

theorem st_lt1 (y : S1x128x2048.Idx) : (y 1).val < 128 := (y 1).isLt
theorem st_lt2 (y : S1x128x2048.Idx) : (y 2).val < 2048 := (y 2).isLt
abbrev rc (y : S1x128x2048.Idx) : S128x2048.Idx := ix2 (n0 := 128) (n1 := 2048) ⟨(y 1).val, st_lt1 y⟩ ⟨(y 2).val, st_lt2 y⟩

def half (h : Fin 2) (v : Vec F S1x128x2048 .f32) : FVec F S1x1x128x1024 .bf16 :=
  if h.val = 0 then k0_pay1 v else k0_pay2 v

theorem cv_lt0 (j : S128x1024.Idx) : (j 0).val < 128 := ValueIdx.idx2_lt0 j
theorem cv_lt1 (j : S128x1024.Idx) : (j 1).val < 1024 := ValueIdx.idx2_lt1 j

abbrev blk (j : S128x1024.Idx) : S1x1x128x1024.Idx :=
  ix4 (n0 := 1) (n1 := 1) (n2 := 128) (n3 := 1024) 0 0 ⟨(j 0).val, cv_lt0 j⟩ ⟨(j 1).val, cv_lt1 j⟩

/-- Both halves are the same columns-`[o, o + 1024)` block narrowed, at `o = 0` and `o = 1024`. -/
theorem half_apply (h : Fin 2) (v : Vec F S1x128x2048 .f32) (j : S128x1024.Idx) :
    half h v (blk j)
      = FloatOps.truncf .bf16 bitsLt_bf16_f32 (v (ix3 (n0 := 1) (n1 := 128) (n2 := 2048) 0 ⟨(j 0).val, cv_lt0 j⟩
          ⟨1024 * h.val + (j 1).val, by have := cv_lt1 j; have := h.isLt; omega⟩)) := by
  have hj0 := cv_lt0 j
  have hj1 := cv_lt1 j
  have key (o : Nat) (ho : o + (j 1).val < 2048) (hs : S128x2048.Slices ![0, o] S128x1024) :
      shapeCast S1x1x128x1024 (truncf .bf16 (extractStridedSlice S128x1024 ![0, o]
          (shapeCast S128x2048 v shapeCasts_S1x128x2048_S128x2048) hs) bitsLt_bf16_f32) shapeCasts_S128x1024_S1x1x128x1024 (blk j)
        = FloatOps.truncf .bf16 bitsLt_bf16_f32 (v (ix3 (n0 := 1) (n1 := 128) (n2 := 2048) 0 ⟨(j 0).val, hj0⟩ ⟨o + (j 1).val, ho⟩)) := by
    refine (shapeCast_apply _ _ _ j ?_).trans ?_
    · rw [Shape.rowMajor_val_two, Shape.rowMajor_val_four]
      show (j 0).val * 1024 + (j 1).val = ((0 * 1 + 0) * 128 + (j 0).val) * 1024 + (j 1).val
      omega
    refine congrArg (FloatOps.truncf (F := F) .bf16 bitsLt_bf16_f32) ?_
    refine (extractStridedSlice_apply _ _ _ j (ix2 (n0 := 128) (n1 := 2048) ⟨(j 0).val, hj0⟩ ⟨o + (j 1).val, ho⟩) ?_).trans ?_
    · intro a
      match a with
      | ⟨0, _⟩ => show (j 0).val = 0 + (j 0).val; omega
      | ⟨1, _⟩ => rfl
    refine shapeCast_apply _ _ _ _ ?_
    rw [Shape.rowMajor_val_two, Shape.rowMajor_val_three]
    show (0 * 128 + (j 0).val) * 2048 + (o + (j 1).val) = (j 0).val * 2048 + (o + (j 1).val)
    omega
  match h with
  | ⟨0, _⟩ => exact key 0 (by omega) _
  | ⟨1, _⟩ => exact key 1024 (by omega) _

abbrev oSl (offD : Fin 2 → Nat) (hbD : ∀ a, offD a + S128x1024.size a ≤ S8192x1024.size a) : Memref sig .tc .hbm S128x1024 .bf16 :=
  oM.slice (Rect.unit (s := S8192x1024) offD S128x1024.size hbD) (fun _ => rfl)

def chunk (X : FVec F Cert.A2ASpec.SX .f32) (k : Fin 32) : Vec F S1x128x2048 .f32 :=
  fun y => X (ix2 (n0 := 4096) (n1 := 2048) ⟨128 * k.val + (y 1).val, by have := st_lt1 y; have := k.isLt; omega⟩ ⟨(y 2).val, st_lt2 y⟩)

/-- The partner's partner is the device, so both destinations read rows `[128 k, 128 k + 128)` of the row block of `c`. -/
theorem core (c d : Dev nD) (hd : d = c ∨ d = peer c) (k : Fin 32) (h : Fin 2) (hh : h.val = d.val / 8)
    (offD : Fin 2 → Nat) (hbD : ∀ a, offD a + S128x1024.size a ≤ S8192x1024.size a)
    (hD : offD = ![4096 * (c.val / 8) + 128 * k.val, 0]) (d0 : Buf (Elt F) (oM.view.loc (d : Thread nD τ))) :
    ∀ i ∈ (oSl offD hbD).view.set,
      (oSl offD hbD).view.write (Elt F) d0 (fun j : S128x1024.Idx => FloatOps.truncf .bf16 bitsLt_bf16_f32
        (chunk (Xc m c) k (ix3 (n0 := 1) (n1 := 128) (n2 := 2048) 0 ⟨(j 0).val, cv_lt0 j⟩
          ⟨1024 * h.val + (j 1).val, by have := cv_lt1 j; have := h.isLt; omega⟩))) Finset.univ i
        = outC m d i := by
  subst hD
  intro i hi
  obtain ⟨y, rfl⟩ := View.exists_emb_of_mem_set _ hi
  rw [View.write_emb_of_mem _ _ (Finset.mem_univ y)]
  refine (cast_eq _ _).trans ?_
  have hc : c.val < 16 := c.isLt
  have hy0 := cv_lt0 y
  have hy1 := cv_lt1 y
  have hk := k.isLt
  clear hi
  generalize hI : (oSl ![4096 * (c.val / 8) + 128 * k.val, 0] hbD).view.emb y = i
  have e0 : ((i : S8192x1024.Idx) 0).val = 4096 * (c.val / 8) + 128 * k.val + (y 0).val := by
    rw [← hI]; show 4096 * (c.val / 8) + 128 * k.val + 1 * (y 0).val = _; omega
  have e1 : ((i : S8192x1024.Idx) 1).val = (y 1).val := by
    rw [← hI]; show 0 + 1 * (y 1).val = _; omega
  clear hI
  have hx (j : Cert.A2ASpec.SX.Idx) :
      (if ((i : S8192x1024.Idx) 0).val / 4096 = d.val / 8 then Xc m d j else Xc m (peer d) j) = Xc m c j := by
    rcases hd with rfl | rfl
    · exact if_pos (by rw [e0]; omega)
    · rw [if_neg (by rw [e0]; show ¬ _ = (c.val + 8) % 16 / 8; omega), peer_peer]
  refine Eq.trans ?_ (congrArg (FloatOps.truncf (F := F) .bf16 _) (hx _).symm)
  refine congrArg _ ?_
  show Xc m c _ = Xc m c _
  refine congrArg (Xc m c) (funext fun a => Fin.ext ?_)
  match a with
  | ⟨0, _⟩ => show 128 * k.val + (y 0).val = ((i : S8192x1024.Idx) 0).val % 4096; rw [e0]; omega
  | ⟨1, _⟩ => show 1024 * h.val + (y 1).val = 1024 * (d.val / 8) + ((i : S8192x1024.Idx) 1).val; rw [e1, hh]

theorem load_chunk (c : Dev nD) (k : Fin 32) (offL offT : Fin 3 → Nat)
    (hbL : ∀ a, offL a + S1x128x2048.size a ≤ S2x128x2048.size a) (hbT : ∀ a, offT a + S1x128x2048.size a ≤ S2x128x2048.size a)
    (eLT : offL = offT) (offX : Fin 2 → Nat) (hbX : ∀ a, offX a + S128x2048.size a ≤ S4096x2048.size a) (hX : offX = ![128 * k.val, 0])
    (g : Buf (Elt F) (stM.view.loc (c : Thread nD τ))) (X : Buf (Elt F) (xM.view.loc (c : Thread nD τ)))
    (L : List (View.Piece (Elt F) S128x2048 .f32)) :
    View.readAt (Elt F) stM.view (Rect.unit (s := S2x128x2048) offL S1x128x2048.size hbL).toLoadRect
      (((stM.slice (Rect.unit (s := S2x128x2048) offT S1x128x2048.size hbT) (fun _ => rfl)).squeeze S128x2048 squeezes_S1x128x2048_S128x2048).view.writes (Elt F) g
        (⟨Rect.whole S128x2048, ReadAs.same.apply (View.read (Elt F) (xM.slice (Rect.unit (s := S4096x2048) offX S128x2048.size hbX) (fun _ => rfl)).view X)⟩ :: L))
      = chunk X k := by
  subst eLT hX
  rw [← View.write_univ_eq_writes_whole]
  show (stM.view.slice (Rect.unit (s := S2x128x2048) offL S1x128x2048.size hbL)).read (Elt F)
    (((stM.view.slice (Rect.unit (s := S2x128x2048) offL S1x128x2048.size hbL)).reshape S128x2048 squeezes_S1x128x2048_S128x2048.numel_eq).write (Elt F) _ _ Finset.univ) = _
  rw [View.write_reshape_univ, View.read_write_univ]
  funext y
  refine (congrArg _ (?_ : _ = rc y)).trans ?_
  · rw [Equiv.symm_apply_eq]
    refine (Shape.reshapeEquiv_eq_of_rowMajor _ ?_).symm
    have h0 : (y 0).val < 1 := (y 0).isLt
    refine (Shape.rowMajor_val_three (d := ![1, 128, 2048]) y).trans (Eq.trans ?_ (Shape.rowMajor_val_two (d := ![128, 2048]) (rc y)).symm)
    show ((y 0).val * 128 + (y 1).val) * 2048 + (y 2).val = (y 1).val * 2048 + (y 2).val
    omega
  show _root_.cast _ (X _) = _
  refine (cast_eq _ _).trans (congrArg X (funext fun a => Fin.ext ?_))
  match a with
  | ⟨0, _⟩ => show 128 * k.val + 1 * (y 1).val = 128 * k.val + (y 1).val; omega
  | ⟨1, _⟩ => show 0 + 1 * (y 2).val = (y 2).val; omega

theorem cv_half_read (c : Dev nD) (offS offW : Fin 4 → Nat) (hbS : ∀ a, offS a + S1x1x128x1024.size a ≤ S2x2x128x1024.size a)
    (hbW : ∀ a, offW a + S1x1x128x1024.size a ≤ S2x2x128x1024.size a) (e : offS = offW)
    (q : Buf (Elt F) (cvM.view.loc (c : Thread nD τ))) (h : Fin 2) (v : Vec F S1x128x2048 .f32) :
    (cvSl offS hbS).view.read (Elt F) (View.write (Elt F) (cvM.access (Rect.unit (s := S2x2x128x1024) offW S1x1x128x1024.size hbW)) q (half h v) Finset.univ)
      = fun (j : S128x1024.Idx) => FloatOps.truncf .bf16 bitsLt_bf16_f32 (v (ix3 (n0 := 1) (n1 := 128) (n2 := 2048) 0 ⟨(j 0).val, cv_lt0 j⟩
          ⟨1024 * h.val + (j 1).val, by have := cv_lt1 j; have := h.isLt; omega⟩)) := by
  subst e
  show (fun x => (cvM.view.slice (Rect.unit (s := S2x2x128x1024) offS S1x1x128x1024.size hbS)).read (Elt F)
    ((cvM.view.slice (Rect.unit (s := S2x2x128x1024) offS S1x1x128x1024.size hbS)).write (Elt F) q (half h v) Finset.univ)
      (Shape.reshapeEquiv squeezes_S1x1x128x1024_S128x1024.numel_eq x)) = _
  rw [View.read_write_univ]
  funext j
  refine (congrArg (half h v) (Shape.reshapeEquiv_eq_of_rowMajor _ ?_)).trans (half_apply h v j)
  refine (Shape.rowMajor_val_four (d := ![1, 1, 128, 1024]) (blk j)).trans (Eq.trans ?_ (Shape.rowMajor_val_two (d := ![128, 1024]) j).symm)
  show ((0 * 1 + 0) * 128 + (j 0).val) * 1024 + (j 1).val = (j 0).val * 1024 + (j 1).val
  omega

theorem send_val (c : Dev nD) (k : Fin 32) (h : Fin 2) (hh : h.val = 1 - c.val / 8)
    (offD : Fin 2 → Nat) (hbD : ∀ a, offD a + S128x1024.size a ≤ S8192x1024.size a) (hD : offD = ![4096 * (c.val / 8) + 128 * k.val, 0])
    (offS offW : Fin 4 → Nat) (hbS : ∀ a, offS a + S1x1x128x1024.size a ≤ S2x2x128x1024.size a)
    (hbW : ∀ a, offW a + S1x1x128x1024.size a ≤ S2x2x128x1024.size a) (eSW : offS = offW)
    (offL offT : Fin 3 → Nat) (hbL : ∀ a, offL a + S1x128x2048.size a ≤ S2x128x2048.size a)
    (hbT : ∀ a, offT a + S1x128x2048.size a ≤ S2x128x2048.size a) (eLT : offL = offT)
    (offX : Fin 2 → Nat) (hbX : ∀ a, offX a + S128x2048.size a ≤ S4096x2048.size a) (hX : offX = ![128 * k.val, 0])
    (d0 : Buf (Elt F) (oM.view.loc (peer c : Thread nD τ))) (q : Buf (Elt F) (cvM.view.loc (c : Thread nD τ)))
    (g : Buf (Elt F) (stM.view.loc (c : Thread nD τ))) (X : Buf (Elt F) (xM.view.loc (c : Thread nD τ)))
    (hXc : (X : FVec F Cert.A2ASpec.SX .f32) = Xc m c) (L : List (View.Piece (Elt F) S128x2048 .f32)) :
    ∀ i ∈ (oM.slice (Rect.unit (s := S8192x1024) offD S128x1024.size hbD) (fun _ => rfl)).view.set,
      (oM.slice (Rect.unit (s := S8192x1024) offD S128x1024.size hbD) (fun _ => rfl)).view.write (Elt F) d0
        ((cvSl offS hbS).view.read (Elt F)
          (View.write (Elt F) (cvM.access (Rect.unit (s := S2x2x128x1024) offW S1x1x128x1024.size hbW)) q
            (half h (View.readAt (Elt F) stM.view (Rect.unit (s := S2x128x2048) offL S1x128x2048.size hbL).toLoadRect
              (((stM.slice (Rect.unit (s := S2x128x2048) offT S1x128x2048.size hbT) (fun _ => rfl)).squeeze S128x2048 squeezes_S1x128x2048_S128x2048).view.writes (Elt F) g
                (⟨Rect.whole S128x2048, ReadAs.same.apply (View.read (Elt F) (xM.slice (Rect.unit (s := S4096x2048) offX S128x2048.size hbX) (fun _ => rfl)).view X)⟩ :: L))))
            Finset.univ)) Finset.univ i
        = outC m (peer c) i := by
  rw [load_chunk c k offL offT hbL hbT eLT offX hbX hX g X L, cv_half_read c offS offW hbS hbW eSW q h (chunk X k), hXc]
  exact core m c (peer c) (.inr rfl) k h (hh.trans (by show _ = (c.val + 8) % 16 / 8; have : c.val < 16 := c.isLt; omega)) offD hbD hD d0

theorem local_val_w (c : Dev nD) (k : Fin 32) (h : Fin 2) (hh : h.val = c.val / 8)
    (offD : Fin 2 → Nat) (hbD : ∀ a, offD a + S128x1024.size a ≤ S8192x1024.size a) (hD : offD = ![4096 * (c.val / 8) + 128 * k.val, 0])
    (offS offW : Fin 4 → Nat) (hbS : ∀ a, offS a + S1x1x128x1024.size a ≤ S2x2x128x1024.size a)
    (hbW : ∀ a, offW a + S1x1x128x1024.size a ≤ S2x2x128x1024.size a) (eSW : offS = offW)
    (offL offT : Fin 3 → Nat) (hbL : ∀ a, offL a + S1x128x2048.size a ≤ S2x128x2048.size a)
    (hbT : ∀ a, offT a + S1x128x2048.size a ≤ S2x128x2048.size a) (eLT : offL = offT)
    (offX : Fin 2 → Nat) (hbX : ∀ a, offX a + S128x2048.size a ≤ S4096x2048.size a) (hX : offX = ![128 * k.val, 0])
    (fo : Buf (Elt F) (oM.view.loc (c : Thread nD τ))) (q : Buf (Elt F) (cvM.view.loc (c : Thread nD τ)))
    (g : Buf (Elt F) (stM.view.loc (c : Thread nD τ))) (X : Buf (Elt F) (xM.view.loc (c : Thread nD τ)))
    (hXc : (X : FVec F Cert.A2ASpec.SX .f32) = Xc m c) (L : List (View.Piece (Elt F) S128x2048 .f32)) :
    ∀ i ∈ (oSl offD hbD).view.set,
      (oSl offD hbD).view.writes (Elt F) fo
        [⟨Rect.whole S128x1024, ReadAs.same.apply ((cvSl offS hbS).view.read (Elt F)
          (View.write (Elt F) (cvM.access (Rect.unit (s := S2x2x128x1024) offW S1x1x128x1024.size hbW)) q
            (half h (View.readAt (Elt F) stM.view (Rect.unit (s := S2x128x2048) offL S1x128x2048.size hbL).toLoadRect
              (((stM.slice (Rect.unit (s := S2x128x2048) offT S1x128x2048.size hbT) (fun _ => rfl)).squeeze S128x2048 squeezes_S1x128x2048_S128x2048).view.writes (Elt F) g
                (⟨Rect.whole S128x2048, ReadAs.same.apply (View.read (Elt F) (xM.slice (Rect.unit (s := S4096x2048) offX S128x2048.size hbX) (fun _ => rfl)).view X)⟩ :: L))))
            Finset.univ))⟩] i
        = outC m c i := by
  intro i hi
  rw [← View.write_univ_eq_writes_whole, load_chunk c k offL offT hbL hbT eLT offX hbX hX g X L,
    cv_half_read c offS offW hbS hbW eSW q h (chunk X k), hXc]
  exact core m c c (.inl rfl) k h hh offD hbD hD fo i hi

end Cert.Kernel.A2A

end
-- ==== Proof.KA2A.RunLib.lean ====
import proofs.«900634_g7700000000000635_dist_a2a_v7x_xyz2x2x4_x_m4096_n1024_bf16_1_alg».proof.Proof.KA2A.Send
import proofs.«900634_g7700000000000635_dist_a2a_v7x_xyz2x2x4_x_m4096_n1024_bf16_1_alg».proof.Proof.KA2A.Cut
import proofs.«900634_g7700000000000635_dist_a2a_v7x_xyz2x2x4_x_m4096_n1024_bf16_1_alg».proof.Proof.KA2A.Vals

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev lcopyS0 : DmaSem sig := ((cc0_scratch2.slice (Rect.unit (s := S2) ![0] S1.size inb_S2_S1_0)).squeeze S_ squeezes_S1_S_).sem
abbrev lcopyS1 : DmaSem sig := ((cc0_scratch2.slice (Rect.unit (s := S2) ![1] S1.size inb_S2_S1_1)).squeeze S_ squeezes_S1_S_).sem
abbrev llocS0 : DmaSem sig := ((cc0_scratch3.slice (Rect.unit (s := S2) ![0] S1.size inb_S2_S1_0)).squeeze S_ squeezes_S1_S_).sem
abbrev llocS1 : DmaSem sig := ((cc0_scratch3.slice (Rect.unit (s := S2) ![1] S1.size inb_S2_S1_1)).squeeze S_ squeezes_S1_S_).sem

omit [FloatOps F] in
theorem bigSep_fin32r (Φ : Fin 32 → sProp 𝕄) : bigSep Finset.univ Φ = iprop(Φ 0 ∗ (Φ 1 ∗ (Φ 2 ∗ (Φ 3 ∗ (Φ 4 ∗ (Φ 5 ∗ (Φ 6 ∗ (Φ 7 ∗ (Φ 8 ∗ (Φ 9 ∗ (Φ 10 ∗ (Φ 11 ∗ (Φ 12 ∗ (Φ 13 ∗ (Φ 14 ∗ (Φ 15 ∗ (Φ 16 ∗ (Φ 17 ∗ (Φ 18 ∗ (Φ 19 ∗ (Φ 20 ∗ (Φ 21 ∗ (Φ 22 ∗ (Φ 23 ∗ (Φ 24 ∗ (Φ 25 ∗ (Φ 26 ∗ (Φ 27 ∗ (Φ 28 ∗ (Φ 29 ∗ (Φ 30 ∗ (Φ 31)))))))))))))))))))))))))))))))) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

theorem pts_name {ℓ : Loc nD τ sig} (S : Finset (Idx ℓ)) (f : Buf (Elt F) ℓ) :
    (ℓ ↦[S]{fullShare} f : sProp 𝕄) ⊢ iprop(∃ g : Buf (Elt F) ℓ, ⌜g = f⌝ ∗ (ℓ ↦[S]{fullShare} g)) := by
  iintro H; iexists f; isplitr; · (ipureintro; rfl)
  iexact H

theorem k0_off2_lo (c : Dev nD) (h : c.val / 8 = 0) : k0_off2 c = ![0, 1, 0, 0] := by rw [k0_off2_eq, h]
theorem k0_off3_lo (c : Dev nD) (h : c.val / 8 = 0) : k0_off3 c = ![0, 0, 0, 0] := by rw [k0_off3_eq, h]
theorem k0_off4_lo (c : Dev nD) (h : c.val / 8 = 0) : k0_off4 c = ![1, 1, 0, 0] := by rw [k0_off4_eq, h]
theorem k0_off5_lo (c : Dev nD) (h : c.val / 8 = 0) : k0_off5 c = ![1, 0, 0, 0] := by rw [k0_off5_eq, h]
theorem k0_off2_hi (c : Dev nD) (h : c.val / 8 = 1) : k0_off2 c = ![0, 0, 0, 0] := by rw [k0_off2_eq, h]
theorem k0_off3_hi (c : Dev nD) (h : c.val / 8 = 1) : k0_off3 c = ![0, 1, 0, 0] := by rw [k0_off3_eq, h]
theorem k0_off4_hi (c : Dev nD) (h : c.val / 8 = 1) : k0_off4 c = ![1, 0, 0, 0] := by rw [k0_off4_eq, h]
theorem k0_off5_hi (c : Dev nD) (h : c.val / 8 = 1) : k0_off5 c = ![1, 1, 0, 0] := by rw [k0_off5_eq, h]

/-- A half-slot's elements do not depend on how its offsets are written. -/
theorem cv_sym (c : Dev nD) {off lit : Fin 4 → Nat} (e : off = lit)
    (hb : ∀ a, off a + S1x1x128x1024.size a ≤ S2x2x128x1024.size a) {hl : ∀ a, lit a + S1x1x128x1024.size a ≤ S2x2x128x1024.size a}
    {f : Buf (Elt F) (cvM.view.loc (c : Thread nD τ))} :
    ((cvSl lit hl).view.loc (c : Thread nD τ) ↦[(cvSl lit hl).view.set]{fullShare} f : sProp 𝕄)
      ⊢ ((cvSl off hb).view.loc (c : Thread nD τ) ↦[(cvSl off hb).view.set]{fullShare} f) := by
  subst e; exact Entails.of_eq rfl

theorem cv_lit (c : Dev nD) {off lit : Fin 4 → Nat} (e : off = lit)
    {hb : ∀ a, off a + S1x1x128x1024.size a ≤ S2x2x128x1024.size a}
    {f : Buf (Elt F) (cvM.view.loc (c : Thread nD τ))} :
    ((cvSl off hb).view.loc (c : Thread nD τ) ↦[(cvSl off hb).view.set]{fullShare} f : sProp 𝕄)
      ⊢ ((cvSl lit (e ▸ hb)).view.loc (c : Thread nD τ) ↦[(cvSl lit (e ▸ hb)).view.set]{fullShare} f) := by
  subst e; exact Entails.of_eq rfl

theorem sendPay_lit (c : Dev nD) (k : Fin 32) {off lit : Fin 4 → Nat} (e : off = lit)
    {hb : ∀ a, off a + S1x1x128x1024.size a ≤ S2x2x128x1024.size a}
    (h : cvO c k = cvSl off hb) :
    (sendPay (F := F) c k : sProp 𝕄)
      ⊢ iprop(∃ f : Buf (Elt F) (cvM.view.loc (c : Thread nD τ)), (cvSl lit (e ▸ hb)).view.loc (c : Thread nD τ) ↦[(cvSl lit (e ▸ hb)).view.set]{fullShare} f) := by
  subst e; unfold sendPay cvPts; rw [h]

/-- A cell with no duty after its first round closes with its counter at zero. -/
theorem cell_done (κ : ℕ) (g : GSem nD τ sig) :
    iprop(cellInv ER (Rd (F := F) m) κ g ∗ atPos ER g (0 + 1) ∅ 0) ⊢ iprop(|={Set.univ}=> semVal g 0) :=
  Rounds.cell_close ER (Rd m) (Set.mem_univ κ) (fun h => h) (R := 0 + 1) (duties_later m g)

macro "a2a_disch" : tactic => `(tactic| first
  | exact Nat.le_refl _
  | exact Nat.zero_le _
  | ((repeat' (with_reducible (first | exact OnlyRecv.zero | exact OnlyRecv.tally _ _ _ | apply OnlyRecv.add))); done)
  | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq]; done)
  | assumption
  | decide)

end Cert.Kernel.A2A

end
-- ==== Proof.KA2A.RunDefs.lean ====
import proofs.«900634_g7700000000000635_dist_a2a_v7x_xyz2x2x4_x_m4096_n1024_bf16_1_alg».proof.Proof.KA2A.RunLib

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def sendGrp (Ks Kr : Dev nD → Fin 32 → ℕ) (c : Dev nD) (fo : Buf (Elt F) (oM.view.loc (c : Thread nD τ))) (k : Fin 32) : sProp 𝕄 :=
  iprop(cellInv ER (Rd m) (Ks c k) (sendCell c k) ∗ cellInv ER (Rd m) (Kr (peer c) k) (recvCell (peer c) k) ∗ atPos ER (sendCell c k) 0 ∅ 0 ∗ reached ER (sendCell c k) 0 ∗ dutyTok ER (sendCell c k) 0 () ∗ dutyTok ER (recvCell (peer c) k) 0 () ∗ ((outSl c k).view.loc (c : Thread nD τ) ↦[(outSl c k).view.set]{fullShare} fo))

def recvGrp (Kr : Dev nD → Fin 32 → ℕ) (c : Dev nD) (k : Fin 32) : sProp 𝕄 :=
  iprop(cellInv ER (Rd m) (Kr c k) (recvCell c k) ∗ atPos ER (recvCell c k) 0 ∅ 0 ∗ cred (tallyAt (recvCell c k) () N))

def xPc (c : Dev nD) (k : Fin 32) : sProp 𝕄 :=
  (xSl k).view.loc (c : Thread nD τ) ↦[(xSl k).view.set]{fullShare} m ((c : Thread nD τ).loc main_arg0)

def runPre (c : Dev nD) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) : sProp 𝕄 :=
  iprop(cellInv ER (Rd m) (Kb c) (barCell c)
    ∗ cellInv ER (Rd m) (Kb (peer c)) (barCell (peer c))
    ∗ atPos ER (barCell c) 0 ∅ 0
    ∗ reached ER (barCell (peer c)) 0
    ∗ dutyTok ER (barCell (peer c)) 0 ()
    ∗ cred (tallyAt (barCell c) () 1)
    ∗ levAts L lv
    ∗ semVal ((c : Thread nD τ), .dma lcopyS0) 0
    ∗ semVal ((c : Thread nD τ), .dma lcopyS1) 0
    ∗ semVal ((c : Thread nD τ), .dma llocS0) 0
    ∗ semVal ((c : Thread nD τ), .dma llocS1) 0
    ∗ (((stM.slice (Rect.unit (s := S2x128x2048) ![0, 0, 0] S1x128x2048.size inb_S2x128x2048_S1x128x2048_0_0_0) (fun _ => rfl)).squeeze S128x2048 squeezes_S1x128x2048_S128x2048).view.loc (c : Thread nD τ) ↦[((stM.slice (Rect.unit (s := S2x128x2048) ![0, 0, 0] S1x128x2048.size inb_S2x128x2048_S1x128x2048_0_0_0) (fun _ => rfl)).squeeze S128x2048 squeezes_S1x128x2048_S128x2048).view.set]{fullShare} g)
    ∗ (((stM.slice (Rect.unit (s := S2x128x2048) ![1, 0, 0] S1x128x2048.size inb_S2x128x2048_S1x128x2048_1_0_0) (fun _ => rfl)).squeeze S128x2048 squeezes_S1x128x2048_S128x2048).view.loc (c : Thread nD τ) ↦[((stM.slice (Rect.unit (s := S2x128x2048) ![1, 0, 0] S1x128x2048.size inb_S2x128x2048_S1x128x2048_1_0_0) (fun _ => rfl)).squeeze S128x2048 squeezes_S1x128x2048_S128x2048).view.set]{fullShare} g)
    ∗ ((cvSl ![0, 0, 0, 0] inb_S2x2x128x1024_S1x1x128x1024_0_0_0_0).view.loc (c : Thread nD τ) ↦[(cvSl ![0, 0, 0, 0] inb_S2x2x128x1024_S1x1x128x1024_0_0_0_0).view.set]{fullShare} q)
    ∗ ((cvSl ![0, 1, 0, 0] inb_S2x2x128x1024_S1x1x128x1024_0_1_0_0).view.loc (c : Thread nD τ) ↦[(cvSl ![0, 1, 0, 0] inb_S2x2x128x1024_S1x1x128x1024_0_1_0_0).view.set]{fullShare} q)
    ∗ ((cvSl ![1, 0, 0, 0] inb_S2x2x128x1024_S1x1x128x1024_1_0_0_0).view.loc (c : Thread nD τ) ↦[(cvSl ![1, 0, 0, 0] inb_S2x2x128x1024_S1x1x128x1024_1_0_0_0).view.set]{fullShare} q)
    ∗ ((cvSl ![1, 1, 0, 0] inb_S2x2x128x1024_S1x1x128x1024_1_1_0_0).view.loc (c : Thread nD τ) ↦[(cvSl ![1, 1, 0, 0] inb_S2x2x128x1024_S1x1x128x1024_1_1_0_0).view.set]{fullShare} q)
    ∗ bigSep Finset.univ (xPc m c)
    ∗ bigSep Finset.univ (sendGrp m Ks Kr c fo)
    ∗ bigSep Finset.univ (recvGrp m Kr c)
    ∗ barPay (F := F) (peer c)
    ∗ owes (c : Thread nD τ) (0 + tallyAt (recvCell (peer c) 31) () N + tallyAt (recvCell (peer c) 30) () N + tallyAt (recvCell (peer c) 29) () N + tallyAt (recvCell (peer c) 28) () N + tallyAt (recvCell (peer c) 27) () N + tallyAt (recvCell (peer c) 26) () N + tallyAt (recvCell (peer c) 25) () N + tallyAt (recvCell (peer c) 24) () N + tallyAt (recvCell (peer c) 23) () N + tallyAt (recvCell (peer c) 22) () N + tallyAt (recvCell (peer c) 21) () N + tallyAt (recvCell (peer c) 20) () N + tallyAt (recvCell (peer c) 19) () N + tallyAt (recvCell (peer c) 18) () N + tallyAt (recvCell (peer c) 17) () N + tallyAt (recvCell (peer c) 16) () N + tallyAt (recvCell (peer c) 15) () N + tallyAt (recvCell (peer c) 14) () N + tallyAt (recvCell (peer c) 13) () N + tallyAt (recvCell (peer c) 12) () N + tallyAt (recvCell (peer c) 11) () N + tallyAt (recvCell (peer c) 10) () N + tallyAt (recvCell (peer c) 9) () N + tallyAt (recvCell (peer c) 8) () N + tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N + tallyAt (barCell (peer c)) () 1) W)

def runPost (c : Dev nD) : sProp 𝕄 :=
  iprop(bigSep Finset.univ (xPc m c)
    ∗ (∃ f : Buf (Elt F) (((stM.slice (Rect.unit (s := S2x128x2048) ![0, 0, 0] S1x128x2048.size inb_S2x128x2048_S1x128x2048_0_0_0) (fun _ => rfl)).squeeze S128x2048 squeezes_S1x128x2048_S128x2048).view.loc (c : Thread nD τ)), ((stM.slice (Rect.unit (s := S2x128x2048) ![0, 0, 0] S1x128x2048.size inb_S2x128x2048_S1x128x2048_0_0_0) (fun _ => rfl)).squeeze S128x2048 squeezes_S1x128x2048_S128x2048).view.loc (c : Thread nD τ) ↦[((stM.slice (Rect.unit (s := S2x128x2048) ![0, 0, 0] S1x128x2048.size inb_S2x128x2048_S1x128x2048_0_0_0) (fun _ => rfl)).squeeze S128x2048 squeezes_S1x128x2048_S128x2048).view.set]{fullShare} f)
    ∗ (∃ f : Buf (Elt F) (((stM.slice (Rect.unit (s := S2x128x2048) ![1, 0, 0] S1x128x2048.size inb_S2x128x2048_S1x128x2048_1_0_0) (fun _ => rfl)).squeeze S128x2048 squeezes_S1x128x2048_S128x2048).view.loc (c : Thread nD τ)), ((stM.slice (Rect.unit (s := S2x128x2048) ![1, 0, 0] S1x128x2048.size inb_S2x128x2048_S1x128x2048_1_0_0) (fun _ => rfl)).squeeze S128x2048 squeezes_S1x128x2048_S128x2048).view.loc (c : Thread nD τ) ↦[((stM.slice (Rect.unit (s := S2x128x2048) ![1, 0, 0] S1x128x2048.size inb_S2x128x2048_S1x128x2048_1_0_0) (fun _ => rfl)).squeeze S128x2048 squeezes_S1x128x2048_S128x2048).view.set]{fullShare} f)
    ∗ (∃ f : Buf (Elt F) ((cvSl ![0, 0, 0, 0] inb_S2x2x128x1024_S1x1x128x1024_0_0_0_0).view.loc (c : Thread nD τ)), (cvSl ![0, 0, 0, 0] inb_S2x2x128x1024_S1x1x128x1024_0_0_0_0).view.loc (c : Thread nD τ) ↦[(cvSl ![0, 0, 0, 0] inb_S2x2x128x1024_S1x1x128x1024_0_0_0_0).view.set]{fullShare} f)
    ∗ (∃ f : Buf (Elt F) ((cvSl ![0, 1, 0, 0] inb_S2x2x128x1024_S1x1x128x1024_0_1_0_0).view.loc (c : Thread nD τ)), (cvSl ![0, 1, 0, 0] inb_S2x2x128x1024_S1x1x128x1024_0_1_0_0).view.loc (c : Thread nD τ) ↦[(cvSl ![0, 1, 0, 0] inb_S2x2x128x1024_S1x1x128x1024_0_1_0_0).view.set]{fullShare} f)
    ∗ (∃ f : Buf (Elt F) ((cvSl ![1, 0, 0, 0] inb_S2x2x128x1024_S1x1x128x1024_1_0_0_0).view.loc (c : Thread nD τ)), (cvSl ![1, 0, 0, 0] inb_S2x2x128x1024_S1x1x128x1024_1_0_0_0).view.loc (c : Thread nD τ) ↦[(cvSl ![1, 0, 0, 0] inb_S2x2x128x1024_S1x1x128x1024_1_0_0_0).view.set]{fullShare} f)
    ∗ (∃ f : Buf (Elt F) ((cvSl ![1, 1, 0, 0] inb_S2x2x128x1024_S1x1x128x1024_1_1_0_0).view.loc (c : Thread nD τ)), (cvSl ![1, 1, 0, 0] inb_S2x2x128x1024_S1x1x128x1024_1_1_0_0).view.loc (c : Thread nD τ) ↦[(cvSl ![1, 1, 0, 0] inb_S2x2x128x1024_S1x1x128x1024_1_1_0_0).view.set]{fullShare} f)
    ∗ bigSep Finset.univ (fun k : Fin 32 => slPts (F := F) c c k (outC m c))
    ∗ bigSep Finset.univ (fun k : Fin 32 => recvPay m c k)
    ∗ bigSep Finset.univ (fun k : Fin 32 => iprop(semVal (sendCell c k) 0 ∗ semVal (recvCell c k) 0))
    ∗ semVal ((c : Thread nD τ), .dma lcopyS0) 0
    ∗ semVal ((c : Thread nD τ), .dma lcopyS1) 0
    ∗ semVal ((c : Thread nD τ), .dma llocS0) 0
    ∗ semVal ((c : Thread nD τ), .dma llocS1) 0
    ∗ (∃ W' : Waits sig Unit, owes (c : Thread nD τ) 0 W'))

end Cert.Kernel.A2A

end
-- ==== Proof.KA2A.RunLo.lean ====
import proofs.«900634_g7700000000000635_dist_a2a_v7x_xyz2x2x4_x_m4096_n1024_bf16_1_alg».proof.Proof.KA2A.RunDefs

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar payload_send payload_recv payload_recv_peer
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq

set_option maxHeartbeats 8000000 in
theorem run_lo (c : Dev nD) (hmx : c.val / 8 = 0) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) (Kt : PUnit → sProp 𝕄) :
    iprop(runPre m c Kb Ks Kr W g q fo ∗ (runPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  unfold runPre
  iintro ⟨⟨#HIb, #HIbP, HatB, #HrBP, HtBP, HcB, #Hlev, Hc0, Hc1, Hl0, Hl1, Hst0, Hst1, Hq00, Hq01, Hq10, Hq11, HX, HGs, HVs, Hgive, HO⟩, Hk⟩
  ihave HX := (Entails.of_eq (bigSep_fin32r _)) $$ HX
  ihave HGs := (Entails.of_eq (bigSep_fin32r _)) $$ HGs
  ihave HVs := (Entails.of_eq (bigSep_fin32r _)) $$ HVs
  unfold xPc sendGrp recvGrp
  icases HX with ⟨HX0, HX1, HXs⟩
  have hmw : ∀ (sm : SemLoc sig) (O : CellTallies nD τ sig Unit), lv ((c : Thread nD τ), sm) () ≤ 1 → OnlyRecv O →
      ((levAts L lv : sProp 𝕄) ⊢ MayWait (c : Thread nD τ) sm () O) := fun sm O h1 h2 => mayWait_low c sm O h1 h2
  icases HXs with ⟨HX2, HXs⟩
  icases HGs with ⟨⟨#HIs0, #HIr0, HatS0, #Hrs0, Hts0, Htr0, Ho0⟩, HGs⟩
  sl_exec_parts (disch := a2a_disch)
  ihave Hp := (Entails.of_eq ((show barPay (F := F) c = _ from rfl).trans (bigSep_fin32r _))) $$ HatB_pay1
  unfold slPts
  icases Hp with ⟨⟨⟨%d0, Hd0⟩, #Hrr0⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w0, %hw0, Hq01⟩
  iapply (wp_send_ch m c 0 (k0_off1 c 0#32) (k0_off1_inb c 0) rfl rfl w0 d0 (by intro i hi; subst hw0; sl_unfold_words; exact send_val m c 0 1 (by omega) _ _ (k0_off1_eq c 0) _ _ _ _ (k0_off2_lo c hmx) _ _ _ _ rfl _ _ rfl d0 _ _ _ rfl _ i hi)) $$ [Hq01 Hd0 HO Hts0 Htr0]
  · iframe # ∗
  iintro ⟨HcS0, HO⟩
  iclear HIr0 Hrr0
  icases HXs with ⟨HX3, HXs⟩
  icases HGs with ⟨⟨#HIs1, #HIr1, HatS1, #Hrs1, Hts1, Htr1, Ho1⟩, HGs⟩
  sl_exec_parts (disch := a2a_disch)
  icases Hp with ⟨⟨⟨%d1, Hd1⟩, #Hrr1⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w1, %hw1, Hq11⟩
  iapply (wp_send_ch m c 1 (k0_off1 c 128#32) (k0_off1_inb c 1) rfl rfl w1 d1 (by intro i hi; subst hw1; sl_unfold_words; exact send_val m c 1 1 (by omega) _ _ (k0_off1_eq c 1) _ _ _ _ (k0_off4_lo c hmx) _ _ _ _ rfl _ _ rfl d1 _ _ _ rfl _ i hi)) $$ [Hq11 Hd1 HO Hts1 Htr1]
  · iframe # ∗
  iintro ⟨HcS1, HO⟩
  iclear HIr1 Hrr1
  icases HXs with ⟨HX4, HXs⟩
  icases HGs with ⟨⟨#HIs2, #HIr2, HatS2, #Hrs2, Hts2, Htr2, Ho2⟩, HGs⟩
  sl_exec_parts (disch := a2a_disch)
  ihave Hb := (sendPay_lit (F := F) c 0 (k0_off2_lo c hmx) rfl) $$ HatS0_pay1
  icases Hb with ⟨%r0, Hq01⟩
  ihave Hq00 := (cv_lit (F := F) c (k0_off3_lo c hmx)) $$ Hq00
  imod (cell_done m (Ks c 0) (sendCell c 0)) $$ [HatS0] with HzS0
  · iframe # ∗
  ihave Hn := (pts_name (F := F) _ _) $$ Ho0
  icases Hn with ⟨%u0, %hu0, Ho0⟩
  ihave Ho0 := (Entails.of_eq (pointsTo_congr (f := u0) (g := outC m c) (by intro i hi; subst hu0; sl_unfold_words; exact local_val_w m c 0 0 (by omega) _ _ (k0_off1_eq c 0) _ _ _ _ (k0_off3_lo c hmx) _ _ _ _ rfl _ _ rfl fo _ _ _ rfl _ i hi))) $$ Ho0
  iclear HIs0 Hrs0
  sl_exec_parts (disch := a2a_disch)
  icases Hp with ⟨⟨⟨%d2, Hd2⟩, #Hrr2⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w2, %hw2, Hq01⟩
  iapply (wp_send_ch m c 2 (k0_off1 c 256#32) (k0_off1_inb c 2) rfl rfl w2 d2 (by intro i hi; subst hw2; sl_unfold_words; exact send_val m c 2 1 (by omega) _ _ (k0_off1_eq c 2) _ _ _ _ (k0_off2_lo c hmx) _ _ _ _ rfl _ _ rfl d2 _ _ _ rfl _ i hi)) $$ [Hq01 Hd2 HO Hts2 Htr2]
  · iframe # ∗
  iintro ⟨HcS2, HO⟩
  iclear HIr2 Hrr2
  icases HXs with ⟨HX5, HXs⟩
  icases HGs with ⟨⟨#HIs3, #HIr3, HatS3, #Hrs3, Hts3, Htr3, Ho3⟩, HGs⟩
  sl_exec_parts (disch := a2a_disch)
  ihave Hb := (sendPay_lit (F := F) c 1 (k0_off4_lo c hmx) rfl) $$ HatS1_pay1
  icases Hb with ⟨%r1, Hq11⟩
  ihave Hq10 := (cv_lit (F := F) c (k0_off5_lo c hmx)) $$ Hq10
  imod (cell_done m (Ks c 1) (sendCell c 1)) $$ [HatS1] with HzS1
  · iframe # ∗
  ihave Hn := (pts_name (F := F) _ _) $$ Ho1
  icases Hn with ⟨%u1, %hu1, Ho1⟩
  ihave Ho1 := (Entails.of_eq (pointsTo_congr (f := u1) (g := outC m c) (by intro i hi; subst hu1; sl_unfold_words; exact local_val_w m c 1 0 (by omega) _ _ (k0_off1_eq c 1) _ _ _ _ (k0_off5_lo c hmx) _ _ _ _ rfl _ _ rfl fo _ _ _ rfl _ i hi))) $$ Ho1
  iclear HIs1 Hrs1
  sl_exec_parts (disch := a2a_disch)
  icases Hp with ⟨⟨⟨%d3, Hd3⟩, #Hrr3⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w3, %hw3, Hq11⟩
  iapply (wp_send_ch m c 3 (k0_off1 c 384#32) (k0_off1_inb c 3) rfl rfl w3 d3 (by intro i hi; subst hw3; sl_unfold_words; exact send_val m c 3 1 (by omega) _ _ (k0_off1_eq c 3) _ _ _ _ (k0_off4_lo c hmx) _ _ _ _ rfl _ _ rfl d3 _ _ _ rfl _ i hi)) $$ [Hq11 Hd3 HO Hts3 Htr3]
  · iframe # ∗
  iintro ⟨HcS3, HO⟩
  iclear HIr3 Hrr3
  icases HXs with ⟨HX6, HXs⟩
  icases HGs with ⟨⟨#HIs4, #HIr4, HatS4, #Hrs4, Hts4, Htr4, Ho4⟩, HGs⟩
  sl_exec_parts (disch := a2a_disch)
  ihave Hb := (sendPay_lit (F := F) c 2 (k0_off2_lo c hmx) rfl) $$ HatS2_pay1
  icases Hb with ⟨%r2, Hq01⟩
  ihave Hq00 := (cv_lit (F := F) c (k0_off3_lo c hmx)) $$ Hq00
  imod (cell_done m (Ks c 2) (sendCell c 2)) $$ [HatS2] with HzS2
  · iframe # ∗
  ihave Hn := (pts_name (F := F) _ _) $$ Ho2
  icases Hn with ⟨%u2, %hu2, Ho2⟩
  ihave Ho2 := (Entails.of_eq (pointsTo_congr (f := u2) (g := outC m c) (by intro i hi; subst hu2; sl_unfold_words; exact local_val_w m c 2 0 (by omega) _ _ (k0_off1_eq c 2) _ _ _ _ (k0_off3_lo c hmx) _ _ _ _ rfl _ _ rfl fo _ _ _ rfl _ i hi))) $$ Ho2
  iclear HIs2 Hrs2
  sl_exec_parts (disch := a2a_disch)
  icases Hp with ⟨⟨⟨%d4, Hd4⟩, #Hrr4⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w4, %hw4, Hq01⟩
  iapply (wp_send_ch m c 4 (k0_off1 c 512#32) (k0_off1_inb c 4) rfl rfl w4 d4 (by intro i hi; subst hw4; sl_unfold_words; exact send_val m c 4 1 (by omega) _ _ (k0_off1_eq c 4) _ _ _ _ (k0_off2_lo c hmx) _ _ _ _ rfl _ _ rfl d4 _ _ _ rfl _ i hi)) $$ [Hq01 Hd4 HO Hts4 Htr4]
  · iframe # ∗
  iintro ⟨HcS4, HO⟩
  iclear HIr4 Hrr4
  icases HXs with ⟨HX7, HXs⟩
  icases HGs with ⟨⟨#HIs5, #HIr5, HatS5, #Hrs5, Hts5, Htr5, Ho5⟩, HGs⟩
  sl_exec_parts (disch := a2a_disch)
  ihave Hb := (sendPay_lit (F := F) c 3 (k0_off4_lo c hmx) rfl) $$ HatS3_pay1
  icases Hb with ⟨%r3, Hq11⟩
  ihave Hq10 := (cv_lit (F := F) c (k0_off5_lo c hmx)) $$ Hq10
  imod (cell_done m (Ks c 3) (sendCell c 3)) $$ [HatS3] with HzS3
  · iframe # ∗
  ihave Hn := (pts_name (F := F) _ _) $$ Ho3
  icases Hn with ⟨%u3, %hu3, Ho3⟩
  ihave Ho3 := (Entails.of_eq (pointsTo_congr (f := u3) (g := outC m c) (by intro i hi; subst hu3; sl_unfold_words; exact local_val_w m c 3 0 (by omega) _ _ (k0_off1_eq c 3) _ _ _ _ (k0_off5_lo c hmx) _ _ _ _ rfl _ _ rfl fo _ _ _ rfl _ i hi))) $$ Ho3
  iclear HIs3 Hrs3
  sl_exec_parts (disch := a2a_disch)
  icases Hp with ⟨⟨⟨%d5, Hd5⟩, #Hrr5⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w5, %hw5, Hq11⟩
  iapply (wp_send_ch m c 5 (k0_off1 c 640#32) (k0_off1_inb c 5) rfl rfl w5 d5 (by intro i hi; subst hw5; sl_unfold_words; exact send_val m c 5 1 (by omega) _ _ (k0_off1_eq c 5) _ _ _ _ (k0_off4_lo c hmx) _ _ _ _ rfl _ _ rfl d5 _ _ _ rfl _ i hi)) $$ [Hq11 Hd5 HO Hts5 Htr5]
  · iframe # ∗
  iintro ⟨HcS5, HO⟩
  iclear HIr5 Hrr5
  icases HXs with ⟨HX8, HXs⟩
  icases HGs with ⟨⟨#HIs6, #HIr6, HatS6, #Hrs6, Hts6, Htr6, Ho6⟩, HGs⟩
  sl_exec_parts (disch := a2a_disch)
  ihave Hb := (sendPay_lit (F := F) c 4 (k0_off2_lo c hmx) rfl) $$ HatS4_pay1
  icases Hb with ⟨%r4, Hq01⟩
  ihave Hq00 := (cv_lit (F := F) c (k0_off3_lo c hmx)) $$ Hq00
  imod (cell_done m (Ks c 4) (sendCell c 4)) $$ [HatS4] with HzS4
  · iframe # ∗
  ihave Hn := (pts_name (F := F) _ _) $$ Ho4
  icases Hn with ⟨%u4, %hu4, Ho4⟩
  ihave Ho4 := (Entails.of_eq (pointsTo_congr (f := u4) (g := outC m c) (by intro i hi; subst hu4; sl_unfold_words; exact local_val_w m c 4 0 (by omega) _ _ (k0_off1_eq c 4) _ _ _ _ (k0_off3_lo c hmx) _ _ _ _ rfl _ _ rfl fo _ _ _ rfl _ i hi))) $$ Ho4
  iclear HIs4 Hrs4
  sl_exec_parts (disch := a2a_disch)
  icases Hp with ⟨⟨⟨%d6, Hd6⟩, #Hrr6⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w6, %hw6, Hq01⟩
  iapply (wp_send_ch m c 6 (k0_off1 c 768#32) (k0_off1_inb c 6) rfl rfl w6 d6 (by intro i hi; subst hw6; sl_unfold_words; exact send_val m c 6 1 (by omega) _ _ (k0_off1_eq c 6) _ _ _ _ (k0_off2_lo c hmx) _ _ _ _ rfl _ _ rfl d6 _ _ _ rfl _ i hi)) $$ [Hq01 Hd6 HO Hts6 Htr6]
  · iframe # ∗
  iintro ⟨HcS6, HO⟩
  iclear HIr6 Hrr6
  icases HXs with ⟨HX9, HXs⟩
  icases HGs with ⟨⟨#HIs7, #HIr7, HatS7, #Hrs7, Hts7, Htr7, Ho7⟩, HGs⟩
  sl_exec_parts (disch := a2a_disch)
  ihave Hb := (sendPay_lit (F := F) c 5 (k0_off4_lo c hmx) rfl) $$ HatS5_pay1
  icases Hb with ⟨%r5, Hq11⟩
  ihave Hq10 := (cv_lit (F := F) c (k0_off5_lo c hmx)) $$ Hq10
  imod (cell_done m (Ks c 5) (sendCell c 5)) $$ [HatS5] with HzS5
  · iframe # ∗
  ihave Hn := (pts_name (F := F) _ _) $$ Ho5
  icases Hn with ⟨%u5, %hu5, Ho5⟩
  ihave Ho5 := (Entails.of_eq (pointsTo_congr (f := u5) (g := outC m c) (by intro i hi; subst hu5; sl_unfold_words; exact local_val_w m c 5 0 (by omega) _ _ (k0_off1_eq c 5) _ _ _ _ (k0_off5_lo c hmx) _ _ _ _ rfl _ _ rfl fo _ _ _ rfl _ i hi))) $$ Ho5
  iclear HIs5 Hrs5
  sl_exec_parts (disch := a2a_disch)
  icases Hp with ⟨⟨⟨%d7, Hd7⟩, #Hrr7⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w7, %hw7, Hq11⟩
  iapply (wp_send_ch m c 7 (k0_off1 c 896#32) (k0_off1_inb c 7) rfl rfl w7 d7 (by intro i hi; subst hw7; sl_unfold_words; exact send_val m c 7 1 (by omega) _ _ (k0_off1_eq c 7) _ _ _ _ (k0_off4_lo c hmx) _ _ _ _ rfl _ _ rfl d7 _ _ _ rfl _ i hi)) $$ [Hq11 Hd7 HO Hts7 Htr7]
  · iframe # ∗
  iintro ⟨HcS7, HO⟩
  iclear HIr7 Hrr7
  icases HXs with ⟨HX10, HXs⟩
  icases HGs with ⟨⟨#HIs8, #HIr8, HatS8, #Hrs8, Hts8, Htr8, Ho8⟩, HGs⟩
  sl_exec_parts (disch := a2a_disch)
  ihave Hb := (sendPay_lit (F := F) c 6 (k0_off2_lo c hmx) rfl) $$ HatS6_pay1
  icases Hb with ⟨%r6, Hq01⟩
  ihave Hq00 := (cv_lit (F := F) c (k0_off3_lo c hmx)) $$ Hq00
  imod (cell_done m (Ks c 6) (sendCell c 6)) $$ [HatS6] with HzS6
  · iframe # ∗
  ihave Hn := (pts_name (F := F) _ _) $$ Ho6
  icases Hn with ⟨%u6, %hu6, Ho6⟩
  ihave Ho6 := (Entails.of_eq (pointsTo_congr (f := u6) (g := outC m c) (by intro i hi; subst hu6; sl_unfold_words; exact local_val_w m c 6 0 (by omega) _ _ (k0_off1_eq c 6) _ _ _ _ (k0_off3_lo c hmx) _ _ _ _ rfl _ _ rfl fo _ _ _ rfl _ i hi))) $$ Ho6
  iclear HIs6 Hrs6
  sl_exec_parts (disch := a2a_disch)
  icases Hp with ⟨⟨⟨%d8, Hd8⟩, #Hrr8⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w8, %hw8, Hq01⟩
  iapply (wp_send_ch m c 8 (k0_off1 c 1024#32) (k0_off1_inb c 8) rfl rfl w8 d8 (by intro i hi; subst hw8; sl_unfold_words; exact send_val m c 8 1 (by omega) _ _ (k0_off1_eq c 8) _ _ _ _ (k0_off2_lo c hmx) _ _ _ _ rfl _ _ rfl d8 _ _ _ rfl _ i hi)) $$ [Hq01 Hd8 HO Hts8 Htr8]
  · iframe # ∗
  iintro ⟨HcS8, HO⟩
  iclear HIr8 Hrr8
  icases HXs with ⟨HX11, HXs⟩
  icases HGs with ⟨⟨#HIs9, #HIr9, HatS9, #Hrs9, Hts9, Htr9, Ho9⟩, HGs⟩
  sl_exec_parts (disch := a2a_disch)
  ihave Hb := (sendPay_lit (F := F) c 7 (k0_off4_lo c hmx) rfl) $$ HatS7_pay1
  icases Hb with ⟨%r7, Hq11⟩
  ihave Hq10 := (cv_lit (F := F) c (k0_off5_lo c hmx)) $$ Hq10
  imod (cell_done m (Ks c 7) (sendCell c 7)) $$ [HatS7] with HzS7
  · iframe # ∗
  ihave Hn := (pts_name (F := F) _ _) $$ Ho7
  icases Hn with ⟨%u7, %hu7, Ho7⟩
  ihave Ho7 := (Entails.of_eq (pointsTo_congr (f := u7) (g := outC m c) (by intro i hi; subst hu7; sl_unfold_words; exact local_val_w m c 7 0 (by omega) _ _ (k0_off1_eq c 7) _ _ _ _ (k0_off5_lo c hmx) _ _ _ _ rfl _ _ rfl fo _ _ _ rfl _ i hi))) $$ Ho7
  iclear HIs7 Hrs7
  sl_exec_parts (disch := a2a_disch)
  icases Hp with ⟨⟨⟨%d9, Hd9⟩, #Hrr9⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w9, %hw9, Hq11⟩
  iapply (wp_send_ch m c 9 (k0_off1 c 1152#32) (k0_off1_inb c 9) rfl rfl w9 d9 (by intro i hi; subst hw9; sl_unfold_words; exact send_val m c 9 1 (by omega) _ _ (k0_off1_eq c 9) _ _ _ _ (k0_off4_lo c hmx) _ _ _ _ rfl _ _ rfl d9 _ _ _ rfl _ i hi)) $$ [Hq11 Hd9 HO Hts9 Htr9]
  · iframe # ∗
  iintro ⟨HcS9, HO⟩
  iclear HIr9 Hrr9
  icases HXs with ⟨HX12, HXs⟩
  icases HGs with ⟨⟨#HIs10, #HIr10, HatS10, #Hrs10, Hts10, Htr10, Ho10⟩, HGs⟩
  sl_exec_parts (disch := a2a_disch)
  ihave Hb := (sendPay_lit (F := F) c 8 (k0_off2_lo c hmx) rfl) $$ HatS8_pay1
  icases Hb with ⟨%r8, Hq01⟩
  ihave Hq00 := (cv_lit (F := F) c (k0_off3_lo c hmx)) $$ Hq00
  imod (cell_done m (Ks c 8) (sendCell c 8)) $$ [HatS8] with HzS8
  · iframe # ∗
  ihave Hn := (pts_name (F := F) _ _) $$ Ho8
  icases Hn with ⟨%u8, %hu8, Ho8⟩
  ihave Ho8 := (Entails.of_eq (pointsTo_congr (f := u8) (g := outC m c) (by intro i hi; subst hu8; sl_unfold_words; exact local_val_w m c 8 0 (by omega) _ _ (k0_off1_eq c 8) _ _ _ _ (k0_off3_lo c hmx) _ _ _ _ rfl _ _ rfl fo _ _ _ rfl _ i hi))) $$ Ho8
  iclear HIs8 Hrs8
  sl_exec_parts (disch := a2a_disch)
  icases Hp with ⟨⟨⟨%d10, Hd10⟩, #Hrr10⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w10, %hw10, Hq01⟩
  iapply (wp_send_ch m c 10 (k0_off1 c 1280#32) (k0_off1_inb c 10) rfl rfl w10 d10 (by intro i hi; subst hw10; sl_unfold_words; exact send_val m c 10 1 (by omega) _ _ (k0_off1_eq c 10) _ _ _ _ (k0_off2_lo c hmx) _ _ _ _ rfl _ _ rfl d10 _ _ _ rfl _ i hi)) $$ [Hq01 Hd10 HO Hts10 Htr10]
  · iframe # ∗
  iintro ⟨HcS10, HO⟩
  iclear HIr10 Hrr10
  icases HXs with ⟨HX13, HXs⟩
  icases HGs with ⟨⟨#HIs11, #HIr11, HatS11, #Hrs11, Hts11, Htr11, Ho11⟩, HGs⟩
  sl_exec_parts (disch := a2a_disch)
  ihave Hb := (sendPay_lit (F := F) c 9 (k0_off4_lo c hmx) rfl) $$ HatS9_pay1
  icases Hb with ⟨%r9, Hq11⟩
  ihave Hq10 := (cv_lit (F := F) c (k0_off5_lo c hmx)) $$ Hq10
  imod (cell_done m (Ks c 9) (sendCell c 9)) $$ [HatS9] with HzS9
  · iframe # ∗
  ihave Hn := (pts_name (F := F) _ _) $$ Ho9
  icases Hn with ⟨%u9, %hu9, Ho9⟩
  ihave Ho9 := (Entails.of_eq (pointsTo_congr (f := u9) (g := outC m c) (by intro i hi; subst hu9; sl_unfold_words; exact local_val_w m c 9 0 (by omega) _ _ (k0_off1_eq c 9) _ _ _ _ (k0_off5_lo c hmx) _ _ _ _ rfl _ _ rfl fo _ _ _ rfl _ i hi))) $$ Ho9
  iclear HIs9 Hrs9
  sl_exec_parts (disch := a2a_disch)
  icases Hp with ⟨⟨⟨%d11, Hd11⟩, #Hrr11⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w11, %hw11, Hq11⟩
  iapply (wp_send_ch m c 11 (k0_off1 c 1408#32) (k0_off1_inb c 11) rfl rfl w11 d11 (by intro i hi; subst hw11; sl_unfold_words; exact send_val m c 11 1 (by omega) _ _ (k0_off1_eq c 11) _ _ _ _ (k0_off4_lo c hmx) _ _ _ _ rfl _ _ rfl d11 _ _ _ rfl _ i hi)) $$ [Hq11 Hd11 HO Hts11 Htr11]
  · iframe # ∗
  iintro ⟨HcS11, HO⟩
  iclear HIr11 Hrr11
  icases HXs with ⟨HX14, HXs⟩
  icases HGs with ⟨⟨#HIs12, #HIr12, HatS12, #Hrs12, Hts12, Htr12, Ho12⟩, HGs⟩
  sl_exec_parts (disch := a2a_disch)
  ihave Hb := (sendPay_lit (F := F) c 10 (k0_off2_lo c hmx) rfl) $$ HatS10_pay1
  icases Hb with ⟨%r10, Hq01⟩
  ihave Hq00 := (cv_lit (F := F) c (k0_off3_lo c hmx)) $$ Hq00
  imod (cell_done m (Ks c 10) (sendCell c 10)) $$ [HatS10] with HzS10
  · iframe # ∗
  ihave Hn := (pts_name (F := F) _ _) $$ Ho10
  icases Hn with ⟨%u10, %hu10, Ho10⟩
  ihave Ho10 := (Entails.of_eq (pointsTo_congr (f := u10) (g := outC m c) (by intro i hi; subst hu10; sl_unfold_words; exact local_val_w m c 10 0 (by omega) _ _ (k0_off1_eq c 10) _ _ _ _ (k0_off3_lo c hmx) _ _ _ _ rfl _ _ rfl fo _ _ _ rfl _ i hi))) $$ Ho10
  iclear HIs10 Hrs10
  sl_exec_parts (disch := a2a_disch)
  icases Hp with ⟨⟨⟨%d12, Hd12⟩, #Hrr12⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w12, %hw12, Hq01⟩
  iapply (wp_send_ch m c 12 (k0_off1 c 1536#32) (k0_off1_inb c 12) rfl rfl w12 d12 (by intro i hi; subst hw12; sl_unfold_words; exact send_val m c 12 1 (by omega) _ _ (k0_off1_eq c 12) _ _ _ _ (k0_off2_lo c hmx) _ _ _ _ rfl _ _ rfl d12 _ _ _ rfl _ i hi)) $$ [Hq01 Hd12 HO Hts12 Htr12]
  · iframe # ∗
  iintro ⟨HcS12, HO⟩
  iclear HIr12 Hrr12
  icases HXs with ⟨HX15, HXs⟩
  icases HGs with ⟨⟨#HIs13, #HIr13, HatS13, #Hrs13, Hts13, Htr13, Ho13⟩, HGs⟩
  sl_exec_parts (disch := a2a_disch)
  ihave Hb := (sendPay_lit (F := F) c 11 (k0_off4_lo c hmx) rfl) $$ HatS11_pay1
  icases Hb with ⟨%r11, Hq11⟩
  ihave Hq10 := (cv_lit (F := F) c (k0_off5_lo c hmx)) $$ Hq10
  imod (cell_done m (Ks c 11) (sendCell c 11)) $$ [HatS11] with HzS11
  · iframe # ∗
  ihave Hn := (pts_name (F := F) _ _) $$ Ho11
  icases Hn with ⟨%u11, %hu11, Ho11⟩
  ihave Ho11 := (Entails.of_eq (pointsTo_congr (f := u11) (g := outC m c) (by intro i hi; subst hu11; sl_unfold_words; exact local_val_w m c 11 0 (by omega) _ _ (k0_off1_eq c 11) _ _ _ _ (k0_off5_lo c hmx) _ _ _ _ rfl _ _ rfl fo _ _ _ rfl _ i hi))) $$ Ho11
  iclear HIs11 Hrs11
  sl_exec_parts (disch := a2a_disch)
  icases Hp with ⟨⟨⟨%d13, Hd13⟩, #Hrr13⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w13, %hw13, Hq11⟩
  iapply (wp_send_ch m c 13 (k0_off1 c 1664#32) (k0_off1_inb c 13) rfl rfl w13 d13 (by intro i hi; subst hw13; sl_unfold_words; exact send_val m c 13 1 (by omega) _ _ (k0_off1_eq c 13) _ _ _ _ (k0_off4_lo c hmx) _ _ _ _ rfl _ _ rfl d13 _ _ _ rfl _ i hi)) $$ [Hq11 Hd13 HO Hts13 Htr13]
  · iframe # ∗
  iintro ⟨HcS13, HO⟩
  iclear HIr13 Hrr13
  icases HXs with ⟨HX16, HXs⟩
  icases HGs with ⟨⟨#HIs14, #HIr14, HatS14, #Hrs14, Hts14, Htr14, Ho14⟩, HGs⟩
  sl_exec_parts (disch := a2a_disch)
  ihave Hb := (sendPay_lit (F := F) c 12 (k0_off2_lo c hmx) rfl) $$ HatS12_pay1
  icases Hb with ⟨%r12, Hq01⟩
  ihave Hq00 := (cv_lit (F := F) c (k0_off3_lo c hmx)) $$ Hq00
  imod (cell_done m (Ks c 12) (sendCell c 12)) $$ [HatS12] with HzS12
  · iframe # ∗
  ihave Hn := (pts_name (F := F) _ _) $$ Ho12
  icases Hn with ⟨%u12, %hu12, Ho12⟩
  ihave Ho12 := (Entails.of_eq (pointsTo_congr (f := u12) (g := outC m c) (by intro i hi; subst hu12; sl_unfold_words; exact local_val_w m c 12 0 (by omega) _ _ (k0_off1_eq c 12) _ _ _ _ (k0_off3_lo c hmx) _ _ _ _ rfl _ _ rfl fo _ _ _ rfl _ i hi))) $$ Ho12
  iclear HIs12 Hrs12
  sl_exec_parts (disch := a2a_disch)
  icases Hp with ⟨⟨⟨%d14, Hd14⟩, #Hrr14⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w14, %hw14, Hq01⟩
  iapply (wp_send_ch m c 14 (k0_off1 c 1792#32) (k0_off1_inb c 14) rfl rfl w14 d14 (by intro i hi; subst hw14; sl_unfold_words; exact send_val m c 14 1 (by omega) _ _ (k0_off1_eq c 14) _ _ _ _ (k0_off2_lo c hmx) _ _ _ _ rfl _ _ rfl d14 _ _ _ rfl _ i hi)) $$ [Hq01 Hd14 HO Hts14 Htr14]
  · iframe # ∗
  iintro ⟨HcS14, HO⟩
  iclear HIr14 Hrr14
  icases HXs with ⟨HX17, HXs⟩
  icases HGs with ⟨⟨#HIs15, #HIr15, HatS15, #Hrs15, Hts15, Htr15, Ho15⟩, HGs⟩
  sl_exec_parts (disch := a2a_disch)
  ihave Hb := (sendPay_lit (F := F) c 13 (k0_off4_lo c hmx) rfl) $$ HatS13_pay1
  icases Hb with ⟨%r13, Hq11⟩
  ihave Hq10 := (cv_lit (F := F) c (k0_off5_lo c hmx)) $$ Hq10
  imod (cell_done m (Ks c 13) (sendCell c 13)) $$ [HatS13] with HzS13
  · iframe # ∗
  ihave Hn := (pts_name (F := F) _ _) $$ Ho13
  icases Hn with ⟨%u13, %hu13, Ho13⟩
  ihave Ho13 := (Entails.of_eq (pointsTo_congr (f := u13) (g := outC m c) (by intro i hi; subst hu13; sl_unfold_words; exact local_val_w m c 13 0 (by omega) _ _ (k0_off1_eq c 13) _ _ _ _ (k0_off5_lo c hmx) _ _ _ _ rfl _ _ rfl fo _ _ _ rfl _ i hi))) $$ Ho13
  iclear HIs13 Hrs13
  sl_exec_parts (disch := a2a_disch)
  icases Hp with ⟨⟨⟨%d15, Hd15⟩, #Hrr15⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w15, %hw15, Hq11⟩
  iapply (wp_send_ch m c 15 (k0_off1 c 1920#32) (k0_off1_inb c 15) rfl rfl w15 d15 (by intro i hi; subst hw15; sl_unfold_words; exact send_val m c 15 1 (by omega) _ _ (k0_off1_eq c 15) _ _ _ _ (k0_off4_lo c hmx) _ _ _ _ rfl _ _ rfl d15 _ _ _ rfl _ i hi)) $$ [Hq11 Hd15 HO Hts15 Htr15]
  · iframe # ∗
  iintro ⟨HcS15, HO⟩
  iclear HIr15 Hrr15
  icases HXs with ⟨HX18, HXs⟩
  icases HGs with ⟨⟨#HIs16, #HIr16, HatS16, #Hrs16, Hts16, Htr16, Ho16⟩, HGs⟩
  sl_exec_parts (disch := a2a_disch)
  ihave Hb := (sendPay_lit (F := F) c 14 (k0_off2_lo c hmx) rfl) $$ HatS14_pay1
  icases Hb with ⟨%r14, Hq01⟩
  ihave Hq00 := (cv_lit (F := F) c (k0_off3_lo c hmx)) $$ Hq00
  imod (cell_done m (Ks c 14) (sendCell c 14)) $$ [HatS14] with HzS14
  · iframe # ∗
  ihave Hn := (pts_name (F := F) _ _) $$ Ho14
  icases Hn with ⟨%u14, %hu14, Ho14⟩
  ihave Ho14 := (Entails.of_eq (pointsTo_congr (f := u14) (g := outC m c) (by intro i hi; subst hu14; sl_unfold_words; exact local_val_w m c 14 0 (by omega) _ _ (k0_off1_eq c 14) _ _ _ _ (k0_off3_lo c hmx) _ _ _ _ rfl _ _ rfl fo _ _ _ rfl _ i hi))) $$ Ho14
  iclear HIs14 Hrs14
  sl_exec_parts (disch := a2a_disch)
  icases Hp with ⟨⟨⟨%d16, Hd16⟩, #Hrr16⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w16, %hw16, Hq01⟩
  iapply (wp_send_ch m c 16 (k0_off1 c 2048#32) (k0_off1_inb c 16) rfl rfl w16 d16 (by intro i hi; subst hw16; sl_unfold_words; exact send_val m c 16 1 (by omega) _ _ (k0_off1_eq c 16) _ _ _ _ (k0_off2_lo c hmx) _ _ _ _ rfl _ _ rfl d16 _ _ _ rfl _ i hi)) $$ [Hq01 Hd16 HO Hts16 Htr16]
  · iframe # ∗
  iintro ⟨HcS16, HO⟩
  iclear HIr16 Hrr16
  icases HXs with ⟨HX19, HXs⟩
  icases HGs with ⟨⟨#HIs17, #HIr17, HatS17, #Hrs17, Hts17, Htr17, Ho17⟩, HGs⟩
  sl_exec_parts (disch := a2a_disch)
  ihave Hb := (sendPay_lit (F := F) c 15 (k0_off4_lo c hmx) rfl) $$ HatS15_pay1
  icases Hb with ⟨%r15, Hq11⟩
  ihave Hq10 := (cv_lit (F := F) c (k0_off5_lo c hmx)) $$ Hq10
  imod (cell_done m (Ks c 15) (sendCell c 15)) $$ [HatS15] with HzS15
  · iframe # ∗
  ihave Hn := (pts_name (F := F) _ _) $$ Ho15
  icases Hn with ⟨%u15, %hu15, Ho15⟩
  ihave Ho15 := (Entails.of_eq (pointsTo_congr (f := u15) (g := outC m c) (by intro i hi; subst hu15; sl_unfold_words; exact local_val_w m c 15 0 (by omega) _ _ (k0_off1_eq c 15) _ _ _ _ (k0_off5_lo c hmx) _ _ _ _ rfl _ _ rfl fo _ _ _ rfl _ i hi))) $$ Ho15
  iclear HIs15 Hrs15
  sl_exec_parts (disch := a2a_disch)
  icases Hp with ⟨⟨⟨%d17, Hd17⟩, #Hrr17⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w17, %hw17, Hq11⟩
  iapply (wp_send_ch m c 17 (k0_off1 c 2176#32) (k0_off1_inb c 17) rfl rfl w17 d17 (by intro i hi; subst hw17; sl_unfold_words; exact send_val m c 17 1 (by omega) _ _ (k0_off1_eq c 17) _ _ _ _ (k0_off4_lo c hmx) _ _ _ _ rfl _ _ rfl d17 _ _ _ rfl _ i hi)) $$ [Hq11 Hd17 HO Hts17 Htr17]
  · iframe # ∗
  iintro ⟨HcS17, HO⟩
  iclear HIr17 Hrr17
  icases HXs with ⟨HX20, HXs⟩
  icases HGs with ⟨⟨#HIs18, #HIr18, HatS18, #Hrs18, Hts18, Htr18, Ho18⟩, HGs⟩
  sl_exec_parts (disch := a2a_disch)
  ihave Hb := (sendPay_lit (F := F) c 16 (k0_off2_lo c hmx) rfl) $$ HatS16_pay1
  icases Hb with ⟨%r16, Hq01⟩
  ihave Hq00 := (cv_lit (F := F) c (k0_off3_lo c hmx)) $$ Hq00
  imod (cell_done m (Ks c 16) (sendCell c 16)) $$ [HatS16] with HzS16
  · iframe # ∗
  ihave Hn := (pts_name (F := F) _ _) $$ Ho16
  icases Hn with ⟨%u16, %hu16, Ho16⟩
  ihave Ho16 := (Entails.of_eq (pointsTo_congr (f := u16) (g := outC m c) (by intro i hi; subst hu16; sl_unfold_words; exact local_val_w m c 16 0 (by omega) _ _ (k0_off1_eq c 16) _ _ _ _ (k0_off3_lo c hmx) _ _ _ _ rfl _ _ rfl fo _ _ _ rfl _ i hi))) $$ Ho16
  iclear HIs16 Hrs16
  sl_exec_parts (disch := a2a_disch)
  icases Hp with ⟨⟨⟨%d18, Hd18⟩, #Hrr18⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w18, %hw18, Hq01⟩
  iapply (wp_send_ch m c 18 (k0_off1 c 2304#32) (k0_off1_inb c 18) rfl rfl w18 d18 (by intro i hi; subst hw18; sl_unfold_words; exact send_val m c 18 1 (by omega) _ _ (k0_off1_eq c 18) _ _ _ _ (k0_off2_lo c hmx) _ _ _ _ rfl _ _ rfl d18 _ _ _ rfl _ i hi)) $$ [Hq01 Hd18 HO Hts18 Htr18]
  · iframe # ∗
  iintro ⟨HcS18, HO⟩
  iclear HIr18 Hrr18
  icases HXs with ⟨HX21, HXs⟩
  icases HGs with ⟨⟨#HIs19, #HIr19, HatS19, #Hrs19, Hts19, Htr19, Ho19⟩, HGs⟩
  sl_exec_parts (disch := a2a_disch)
  ihave Hb := (sendPay_lit (F := F) c 17 (k0_off4_lo c hmx) rfl) $$ HatS17_pay1
  icases Hb with ⟨%r17, Hq11⟩
  ihave Hq10 := (cv_lit (F := F) c (k0_off5_lo c hmx)) $$ Hq10
  imod (cell_done m (Ks c 17) (sendCell c 17)) $$ [HatS17] with HzS17
  · iframe # ∗
  ihave Hn := (pts_name (F := F) _ _) $$ Ho17
  icases Hn with ⟨%u17, %hu17, Ho17⟩
  ihave Ho17 := (Entails.of_eq (pointsTo_congr (f := u17) (g := outC m c) (by intro i hi; subst hu17; sl_unfold_words; exact local_val_w m c 17 0 (by omega) _ _ (k0_off1_eq c 17) _ _ _ _ (k0_off5_lo c hmx) _ _ _ _ rfl _ _ rfl fo _ _ _ rfl _ i hi))) $$ Ho17
  iclear HIs17 Hrs17
  sl_exec_parts (disch := a2a_disch)
  icases Hp with ⟨⟨⟨%d19, Hd19⟩, #Hrr19⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w19, %hw19, Hq11⟩
  iapply (wp_send_ch m c 19 (k0_off1 c 2432#32) (k0_off1_inb c 19) rfl rfl w19 d19 (by intro i hi; subst hw19; sl_unfold_words; exact send_val m c 19 1 (by omega) _ _ (k0_off1_eq c 19) _ _ _ _ (k0_off4_lo c hmx) _ _ _ _ rfl _ _ rfl d19 _ _ _ rfl _ i hi)) $$ [Hq11 Hd19 HO Hts19 Htr19]
  · iframe # ∗
  iintro ⟨HcS19, HO⟩
  iclear HIr19 Hrr19
  icases HXs with ⟨HX22, HXs⟩
  icases HGs with ⟨⟨#HIs20, #HIr20, HatS20, #Hrs20, Hts20, Htr20, Ho20⟩, HGs⟩
  sl_exec_parts (disch := a2a_disch)
  ihave Hb := (sendPay_lit (F := F) c 18 (k0_off2_lo c hmx) rfl) $$ HatS18_pay1
  icases Hb with ⟨%r18, Hq01⟩
  ihave Hq00 := (cv_lit (F := F) c (k0_off3_lo c hmx)) $$ Hq00
  imod (cell_done m (Ks c 18) (sendCell c 18)) $$ [HatS18] with HzS18
  · iframe # ∗
  ihave Hn := (pts_name (F := F) _ _) $$ Ho18
  icases Hn with ⟨%u18, %hu18, Ho18⟩
  ihave Ho18 := (Entails.of_eq (pointsTo_congr (f := u18) (g := outC m c) (by intro i hi; subst hu18; sl_unfold_words; exact local_val_w m c 18 0 (by omega) _ _ (k0_off1_eq c 18) _ _ _ _ (k0_off3_lo c hmx) _ _ _ _ rfl _ _ rfl fo _ _ _ rfl _ i hi))) $$ Ho18
  iclear HIs18 Hrs18
  sl_exec_parts (disch := a2a_disch)
  icases Hp with ⟨⟨⟨%d20, Hd20⟩, #Hrr20⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w20, %hw20, Hq01⟩
  iapply (wp_send_ch m c 20 (k0_off1 c 2560#32) (k0_off1_inb c 20) rfl rfl w20 d20 (by intro i hi; subst hw20; sl_unfold_words; exact send_val m c 20 1 (by omega) _ _ (k0_off1_eq c 20) _ _ _ _ (k0_off2_lo c hmx) _ _ _ _ rfl _ _ rfl d20 _ _ _ rfl _ i hi)) $$ [Hq01 Hd20 HO Hts20 Htr20]
  · iframe # ∗
  iintro ⟨HcS20, HO⟩
  iclear HIr20 Hrr20
  icases HXs with ⟨HX23, HXs⟩
  icases HGs with ⟨⟨#HIs21, #HIr21, HatS21, #Hrs21, Hts21, Htr21, Ho21⟩, HGs⟩
  sl_exec_parts (disch := a2a_disch)
  ihave Hb := (sendPay_lit (F := F) c 19 (k0_off4_lo c hmx) rfl) $$ HatS19_pay1
  icases Hb with ⟨%r19, Hq11⟩
  ihave Hq10 := (cv_lit (F := F) c (k0_off5_lo c hmx)) $$ Hq10
  imod (cell_done m (Ks c 19) (sendCell c 19)) $$ [HatS19] with HzS19
  · iframe # ∗
  ihave Hn := (pts_name (F := F) _ _) $$ Ho19
  icases Hn with ⟨%u19, %hu19, Ho19⟩
  ihave Ho19 := (Entails.of_eq (pointsTo_congr (f := u19) (g := outC m c) (by intro i hi; subst hu19; sl_unfold_words; exact local_val_w m c 19 0 (by omega) _ _ (k0_off1_eq c 19) _ _ _ _ (k0_off5_lo c hmx) _ _ _ _ rfl _ _ rfl fo _ _ _ rfl _ i hi))) $$ Ho19
  iclear HIs19 Hrs19
  sl_exec_parts (disch := a2a_disch)
  icases Hp with ⟨⟨⟨%d21, Hd21⟩, #Hrr21⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w21, %hw21, Hq11⟩
  iapply (wp_send_ch m c 21 (k0_off1 c 2688#32) (k0_off1_inb c 21) rfl rfl w21 d21 (by intro i hi; subst hw21; sl_unfold_words; exact send_val m c 21 1 (by omega) _ _ (k0_off1_eq c 21) _ _ _ _ (k0_off4_lo c hmx) _ _ _ _ rfl _ _ rfl d21 _ _ _ rfl _ i hi)) $$ [Hq11 Hd21 HO Hts21 Htr21]
  · iframe # ∗
  iintro ⟨HcS21, HO⟩
  iclear HIr21 Hrr21
  icases HXs with ⟨HX24, HXs⟩
  icases HGs with ⟨⟨#HIs22, #HIr22, HatS22, #Hrs22, Hts22, Htr22, Ho22⟩, HGs⟩
  sl_exec_parts (disch := a2a_disch)
  ihave Hb := (sendPay_lit (F := F) c 20 (k0_off2_lo c hmx) rfl) $$ HatS20_pay1
  icases Hb with ⟨%r20, Hq01⟩
  ihave Hq00 := (cv_lit (F := F) c (k0_off3_lo c hmx)) $$ Hq00
  imod (cell_done m (Ks c 20) (sendCell c 20)) $$ [HatS20] with HzS20
  · iframe # ∗
  ihave Hn := (pts_name (F := F) _ _) $$ Ho20
  icases Hn with ⟨%u20, %hu20, Ho20⟩
  ihave Ho20 := (Entails.of_eq (pointsTo_congr (f := u20) (g := outC m c) (by intro i hi; subst hu20; sl_unfold_words; exact local_val_w m c 20 0 (by omega) _ _ (k0_off1_eq c 20) _ _ _ _ (k0_off3_lo c hmx) _ _ _ _ rfl _ _ rfl fo _ _ _ rfl _ i hi))) $$ Ho20
  iclear HIs20 Hrs20
  sl_exec_parts (disch := a2a_disch)
  icases Hp with ⟨⟨⟨%d22, Hd22⟩, #Hrr22⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w22, %hw22, Hq01⟩
  iapply (wp_send_ch m c 22 (k0_off1 c 2816#32) (k0_off1_inb c 22) rfl rfl w22 d22 (by intro i hi; subst hw22; sl_unfold_words; exact send_val m c 22 1 (by omega) _ _ (k0_off1_eq c 22) _ _ _ _ (k0_off2_lo c hmx) _ _ _ _ rfl _ _ rfl d22 _ _ _ rfl _ i hi)) $$ [Hq01 Hd22 HO Hts22 Htr22]
  · iframe # ∗
  iintro ⟨HcS22, HO⟩
  iclear HIr22 Hrr22
  icases HXs with ⟨HX25, HXs⟩
  icases HGs with ⟨⟨#HIs23, #HIr23, HatS23, #Hrs23, Hts23, Htr23, Ho23⟩, HGs⟩
  sl_exec_parts (disch := a2a_disch)
  ihave Hb := (sendPay_lit (F := F) c 21 (k0_off4_lo c hmx) rfl) $$ HatS21_pay1
  icases Hb with ⟨%r21, Hq11⟩
  ihave Hq10 := (cv_lit (F := F) c (k0_off5_lo c hmx)) $$ Hq10
  imod (cell_done m (Ks c 21) (sendCell c 21)) $$ [HatS21] with HzS21
  · iframe # ∗
  ihave Hn := (pts_name (F := F) _ _) $$ Ho21
  icases Hn with ⟨%u21, %hu21, Ho21⟩
  ihave Ho21 := (Entails.of_eq (pointsTo_congr (f := u21) (g := outC m c) (by intro i hi; subst hu21; sl_unfold_words; exact local_val_w m c 21 0 (by omega) _ _ (k0_off1_eq c 21) _ _ _ _ (k0_off5_lo c hmx) _ _ _ _ rfl _ _ rfl fo _ _ _ rfl _ i hi))) $$ Ho21
  iclear HIs21 Hrs21
  sl_exec_parts (disch := a2a_disch)
  icases Hp with ⟨⟨⟨%d23, Hd23⟩, #Hrr23⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w23, %hw23, Hq11⟩
  iapply (wp_send_ch m c 23 (k0_off1 c 2944#32) (k0_off1_inb c 23) rfl rfl w23 d23 (by intro i hi; subst hw23; sl_unfold_words; exact send_val m c 23 1 (by omega) _ _ (k0_off1_eq c 23) _ _ _ _ (k0_off4_lo c hmx) _ _ _ _ rfl _ _ rfl d23 _ _ _ rfl _ i hi)) $$ [Hq11 Hd23 HO Hts23 Htr23]
  · iframe # ∗
  iintro ⟨HcS23, HO⟩
  iclear HIr23 Hrr23
  icases HXs with ⟨HX26, HXs⟩
  icases HGs with ⟨⟨#HIs24, #HIr24, HatS24, #Hrs24, Hts24, Htr24, Ho24⟩, HGs⟩
  sl_exec_parts (disch := a2a_disch)
  ihave Hb := (sendPay_lit (F := F) c 22 (k0_off2_lo c hmx) rfl) $$ HatS22_pay1
  icases Hb with ⟨%r22, Hq01⟩
  ihave Hq00 := (cv_lit (F := F) c (k0_off3_lo c hmx)) $$ Hq00
  imod (cell_done m (Ks c 22) (sendCell c 22)) $$ [HatS22] with HzS22
  · iframe # ∗
  ihave Hn := (pts_name (F := F) _ _) $$ Ho22
  icases Hn with ⟨%u22, %hu22, Ho22⟩
  ihave Ho22 := (Entails.of_eq (pointsTo_congr (f := u22) (g := outC m c) (by intro i hi; subst hu22; sl_unfold_words; exact local_val_w m c 22 0 (by omega) _ _ (k0_off1_eq c 22) _ _ _ _ (k0_off3_lo c hmx) _ _ _ _ rfl _ _ rfl fo _ _ _ rfl _ i hi))) $$ Ho22
  iclear HIs22 Hrs22
  sl_exec_parts (disch := a2a_disch)
  icases Hp with ⟨⟨⟨%d24, Hd24⟩, #Hrr24⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w24, %hw24, Hq01⟩
  iapply (wp_send_ch m c 24 (k0_off1 c 3072#32) (k0_off1_inb c 24) rfl rfl w24 d24 (by intro i hi; subst hw24; sl_unfold_words; exact send_val m c 24 1 (by omega) _ _ (k0_off1_eq c 24) _ _ _ _ (k0_off2_lo c hmx) _ _ _ _ rfl _ _ rfl d24 _ _ _ rfl _ i hi)) $$ [Hq01 Hd24 HO Hts24 Htr24]
  · iframe # ∗
  iintro ⟨HcS24, HO⟩
  iclear HIr24 Hrr24
  icases HXs with ⟨HX27, HXs⟩
  icases HGs with ⟨⟨#HIs25, #HIr25, HatS25, #Hrs25, Hts25, Htr25, Ho25⟩, HGs⟩
  sl_exec_parts (disch := a2a_disch)
  ihave Hb := (sendPay_lit (F := F) c 23 (k0_off4_lo c hmx) rfl) $$ HatS23_pay1
  icases Hb with ⟨%r23, Hq11⟩
  ihave Hq10 := (cv_lit (F := F) c (k0_off5_lo c hmx)) $$ Hq10
  imod (cell_done m (Ks c 23) (sendCell c 23)) $$ [HatS23] with HzS23
  · iframe # ∗
  ihave Hn := (pts_name (F := F) _ _) $$ Ho23
  icases Hn with ⟨%u23, %hu23, Ho23⟩
  ihave Ho23 := (Entails.of_eq (pointsTo_congr (f := u23) (g := outC m c) (by intro i hi; subst hu23; sl_unfold_words; exact local_val_w m c 23 0 (by omega) _ _ (k0_off1_eq c 23) _ _ _ _ (k0_off5_lo c hmx) _ _ _ _ rfl _ _ rfl fo _ _ _ rfl _ i hi))) $$ Ho23
  iclear HIs23 Hrs23
  sl_exec_parts (disch := a2a_disch)
  icases Hp with ⟨⟨⟨%d25, Hd25⟩, #Hrr25⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w25, %hw25, Hq11⟩
  iapply (wp_send_ch m c 25 (k0_off1 c 3200#32) (k0_off1_inb c 25) rfl rfl w25 d25 (by intro i hi; subst hw25; sl_unfold_words; exact send_val m c 25 1 (by omega) _ _ (k0_off1_eq c 25) _ _ _ _ (k0_off4_lo c hmx) _ _ _ _ rfl _ _ rfl d25 _ _ _ rfl _ i hi)) $$ [Hq11 Hd25 HO Hts25 Htr25]
  · iframe # ∗
  iintro ⟨HcS25, HO⟩
  iclear HIr25 Hrr25
  icases HXs with ⟨HX28, HXs⟩
  icases HGs with ⟨⟨#HIs26, #HIr26, HatS26, #Hrs26, Hts26, Htr26, Ho26⟩, HGs⟩
  sl_exec_parts (disch := a2a_disch)
  ihave Hb := (sendPay_lit (F := F) c 24 (k0_off2_lo c hmx) rfl) $$ HatS24_pay1
  icases Hb with ⟨%r24, Hq01⟩
  ihave Hq00 := (cv_lit (F := F) c (k0_off3_lo c hmx)) $$ Hq00
  imod (cell_done m (Ks c 24) (sendCell c 24)) $$ [HatS24] with HzS24
  · iframe # ∗
  ihave Hn := (pts_name (F := F) _ _) $$ Ho24
  icases Hn with ⟨%u24, %hu24, Ho24⟩
  ihave Ho24 := (Entails.of_eq (pointsTo_congr (f := u24) (g := outC m c) (by intro i hi; subst hu24; sl_unfold_words; exact local_val_w m c 24 0 (by omega) _ _ (k0_off1_eq c 24) _ _ _ _ (k0_off3_lo c hmx) _ _ _ _ rfl _ _ rfl fo _ _ _ rfl _ i hi))) $$ Ho24
  iclear HIs24 Hrs24
  sl_exec_parts (disch := a2a_disch)
  icases Hp with ⟨⟨⟨%d26, Hd26⟩, #Hrr26⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w26, %hw26, Hq01⟩
  iapply (wp_send_ch m c 26 (k0_off1 c 3328#32) (k0_off1_inb c 26) rfl rfl w26 d26 (by intro i hi; subst hw26; sl_unfold_words; exact send_val m c 26 1 (by omega) _ _ (k0_off1_eq c 26) _ _ _ _ (k0_off2_lo c hmx) _ _ _ _ rfl _ _ rfl d26 _ _ _ rfl _ i hi)) $$ [Hq01 Hd26 HO Hts26 Htr26]
  · iframe # ∗
  iintro ⟨HcS26, HO⟩
  iclear HIr26 Hrr26
  icases HXs with ⟨HX29, HXs⟩
  icases HGs with ⟨⟨#HIs27, #HIr27, HatS27, #Hrs27, Hts27, Htr27, Ho27⟩, HGs⟩
  sl_exec_parts (disch := a2a_disch)
  ihave Hb := (sendPay_lit (F := F) c 25 (k0_off4_lo c hmx) rfl) $$ HatS25_pay1
  icases Hb with ⟨%r25, Hq11⟩
  ihave Hq10 := (cv_lit (F := F) c (k0_off5_lo c hmx)) $$ Hq10
  imod (cell_done m (Ks c 25) (sendCell c 25)) $$ [HatS25] with HzS25
  · iframe # ∗
  ihave Hn := (pts_name (F := F) _ _) $$ Ho25
  icases Hn with ⟨%u25, %hu25, Ho25⟩
  ihave Ho25 := (Entails.of_eq (pointsTo_congr (f := u25) (g := outC m c) (by intro i hi; subst hu25; sl_unfold_words; exact local_val_w m c 25 0 (by omega) _ _ (k0_off1_eq c 25) _ _ _ _ (k0_off5_lo c hmx) _ _ _ _ rfl _ _ rfl fo _ _ _ rfl _ i hi))) $$ Ho25
  iclear HIs25 Hrs25
  sl_exec_parts (disch := a2a_disch)
  icases Hp with ⟨⟨⟨%d27, Hd27⟩, #Hrr27⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w27, %hw27, Hq11⟩
  iapply (wp_send_ch m c 27 (k0_off1 c 3456#32) (k0_off1_inb c 27) rfl rfl w27 d27 (by intro i hi; subst hw27; sl_unfold_words; exact send_val m c 27 1 (by omega) _ _ (k0_off1_eq c 27) _ _ _ _ (k0_off4_lo c hmx) _ _ _ _ rfl _ _ rfl d27 _ _ _ rfl _ i hi)) $$ [Hq11 Hd27 HO Hts27 Htr27]
  · iframe # ∗
  iintro ⟨HcS27, HO⟩
  iclear HIr27 Hrr27
  icases HXs with ⟨HX30, HXs⟩
  icases HGs with ⟨⟨#HIs28, #HIr28, HatS28, #Hrs28, Hts28, Htr28, Ho28⟩, HGs⟩
  sl_exec_parts (disch := a2a_disch)
  ihave Hb := (sendPay_lit (F := F) c 26 (k0_off2_lo c hmx) rfl) $$ HatS26_pay1
  icases Hb with ⟨%r26, Hq01⟩
  ihave Hq00 := (cv_lit (F := F) c (k0_off3_lo c hmx)) $$ Hq00
  imod (cell_done m (Ks c 26) (sendCell c 26)) $$ [HatS26] with HzS26
  · iframe # ∗
  ihave Hn := (pts_name (F := F) _ _) $$ Ho26
  icases Hn with ⟨%u26, %hu26, Ho26⟩
  ihave Ho26 := (Entails.of_eq (pointsTo_congr (f := u26) (g := outC m c) (by intro i hi; subst hu26; sl_unfold_words; exact local_val_w m c 26 0 (by omega) _ _ (k0_off1_eq c 26) _ _ _ _ (k0_off3_lo c hmx) _ _ _ _ rfl _ _ rfl fo _ _ _ rfl _ i hi))) $$ Ho26
  iclear HIs26 Hrs26
  sl_exec_parts (disch := a2a_disch)
  icases Hp with ⟨⟨⟨%d28, Hd28⟩, #Hrr28⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w28, %hw28, Hq01⟩
  iapply (wp_send_ch m c 28 (k0_off1 c 3584#32) (k0_off1_inb c 28) rfl rfl w28 d28 (by intro i hi; subst hw28; sl_unfold_words; exact send_val m c 28 1 (by omega) _ _ (k0_off1_eq c 28) _ _ _ _ (k0_off2_lo c hmx) _ _ _ _ rfl _ _ rfl d28 _ _ _ rfl _ i hi)) $$ [Hq01 Hd28 HO Hts28 Htr28]
  · iframe # ∗
  iintro ⟨HcS28, HO⟩
  iclear HIr28 Hrr28
  icases HXs with HX31
  icases HGs with ⟨⟨#HIs29, #HIr29, HatS29, #Hrs29, Hts29, Htr29, Ho29⟩, HGs⟩
  sl_exec_parts (disch := a2a_disch)
  ihave Hb := (sendPay_lit (F := F) c 27 (k0_off4_lo c hmx) rfl) $$ HatS27_pay1
  icases Hb with ⟨%r27, Hq11⟩
  ihave Hq10 := (cv_lit (F := F) c (k0_off5_lo c hmx)) $$ Hq10
  imod (cell_done m (Ks c 27) (sendCell c 27)) $$ [HatS27] with HzS27
  · iframe # ∗
  ihave Hn := (pts_name (F := F) _ _) $$ Ho27
  icases Hn with ⟨%u27, %hu27, Ho27⟩
  ihave Ho27 := (Entails.of_eq (pointsTo_congr (f := u27) (g := outC m c) (by intro i hi; subst hu27; sl_unfold_words; exact local_val_w m c 27 0 (by omega) _ _ (k0_off1_eq c 27) _ _ _ _ (k0_off5_lo c hmx) _ _ _ _ rfl _ _ rfl fo _ _ _ rfl _ i hi))) $$ Ho27
  iclear HIs27 Hrs27
  sl_exec_parts (disch := a2a_disch)
  icases Hp with ⟨⟨⟨%d29, Hd29⟩, #Hrr29⟩, Hp⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w29, %hw29, Hq11⟩
  iapply (wp_send_ch m c 29 (k0_off1 c 3712#32) (k0_off1_inb c 29) rfl rfl w29 d29 (by intro i hi; subst hw29; sl_unfold_words; exact send_val m c 29 1 (by omega) _ _ (k0_off1_eq c 29) _ _ _ _ (k0_off4_lo c hmx) _ _ _ _ rfl _ _ rfl d29 _ _ _ rfl _ i hi)) $$ [Hq11 Hd29 HO Hts29 Htr29]
  · iframe # ∗
  iintro ⟨HcS29, HO⟩
  iclear HIr29 Hrr29
  icases HGs with ⟨⟨#HIs30, #HIr30, HatS30, #Hrs30, Hts30, Htr30, Ho30⟩, HGs⟩
  sl_exec_parts (disch := a2a_disch)
  ihave Hb := (sendPay_lit (F := F) c 28 (k0_off2_lo c hmx) rfl) $$ HatS28_pay1
  icases Hb with ⟨%r28, Hq01⟩
  ihave Hq00 := (cv_lit (F := F) c (k0_off3_lo c hmx)) $$ Hq00
  imod (cell_done m (Ks c 28) (sendCell c 28)) $$ [HatS28] with HzS28
  · iframe # ∗
  ihave Hn := (pts_name (F := F) _ _) $$ Ho28
  icases Hn with ⟨%u28, %hu28, Ho28⟩
  ihave Ho28 := (Entails.of_eq (pointsTo_congr (f := u28) (g := outC m c) (by intro i hi; subst hu28; sl_unfold_words; exact local_val_w m c 28 0 (by omega) _ _ (k0_off1_eq c 28) _ _ _ _ (k0_off3_lo c hmx) _ _ _ _ rfl _ _ rfl fo _ _ _ rfl _ i hi))) $$ Ho28
  iclear HIs28 Hrs28
  sl_exec_parts (disch := a2a_disch)
  icases Hp with ⟨⟨⟨%d30, Hd30⟩, #Hrr30⟩, Hp⟩
  ihave Hq01 := (cv_sym (F := F) c (k0_off2_lo c hmx) (k0_off2_inb c)) $$ Hq01
  ihave Hq00 := (cv_sym (F := F) c (k0_off3_lo c hmx) (k0_off3_inb c)) $$ Hq00
  ihave Hn := (pts_name (F := F) _ _) $$ Hq01
  icases Hn with ⟨%w30, %hw30, Hq01⟩
  iapply (wp_send_ch m c 30 (k0_off1 c 3840#32) (k0_off1_inb c 30) rfl rfl w30 d30 (by intro i hi; subst hw30; sl_unfold_words; exact send_val m c 30 1 (by omega) _ _ (k0_off1_eq c 30) _ _ _ _ (k0_off2_lo c hmx) _ _ _ _ rfl _ _ rfl d30 _ _ _ rfl _ i hi)) $$ [Hq01 Hd30 HO Hts30 Htr30]
  · iframe # ∗
  iintro ⟨HcS30, HO⟩
  iclear HIr30 Hrr30
  icases HGs with ⟨#HIs31, #HIr31, HatS31, #Hrs31, Hts31, Htr31, Ho31⟩
  sl_exec_parts (disch := a2a_disch)
  ihave Hb := (sendPay_lit (F := F) c 29 (k0_off4_lo c hmx) rfl) $$ HatS29_pay1
  icases Hb with ⟨%r29, Hq11⟩
  ihave Hq10 := (cv_lit (F := F) c (k0_off5_lo c hmx)) $$ Hq10
  imod (cell_done m (Ks c 29) (sendCell c 29)) $$ [HatS29] with HzS29
  · iframe # ∗
  ihave Hn := (pts_name (F := F) _ _) $$ Ho29
  icases Hn with ⟨%u29, %hu29, Ho29⟩
  ihave Ho29 := (Entails.of_eq (pointsTo_congr (f := u29) (g := outC m c) (by intro i hi; subst hu29; sl_unfold_words; exact local_val_w m c 29 0 (by omega) _ _ (k0_off1_eq c 29) _ _ _ _ (k0_off5_lo c hmx) _ _ _ _ rfl _ _ rfl fo _ _ _ rfl _ i hi))) $$ Ho29
  iclear HIs29 Hrs29
  sl_exec_parts (disch := a2a_disch)
  icases Hp with ⟨⟨%d31, Hd31⟩, #Hrr31⟩
  ihave Hq11 := (cv_sym (F := F) c (k0_off4_lo c hmx) (k0_off4_inb c)) $$ Hq11
  ihave Hq10 := (cv_sym (F := F) c (k0_off5_lo c hmx) (k0_off5_inb c)) $$ Hq10
  ihave Hn := (pts_name (F := F) _ _) $$ Hq11
  icases Hn with ⟨%w31, %hw31, Hq11⟩
  iapply (wp_send_ch m c 31 (k0_off1 c 3968#32) (k0_off1_inb c 31) rfl rfl w31 d31 (by intro i hi; subst hw31; sl_unfold_words; exact send_val m c 31 1 (by omega) _ _ (k0_off1_eq c 31) _ _ _ _ (k0_off4_lo c hmx) _ _ _ _ rfl _ _ rfl d31 _ _ _ rfl _ i hi)) $$ [Hq11 Hd31 HO Hts31 Htr31]
  · iframe # ∗
  iintro ⟨HcS31, HO⟩
  iclear HIr31 Hrr31
  icases HVs with ⟨⟨#HIv0, HatV0, HcV0⟩, ⟨#HIv1, HatV1, HcV1⟩, ⟨#HIv2, HatV2, HcV2⟩, ⟨#HIv3, HatV3, HcV3⟩, ⟨#HIv4, HatV4, HcV4⟩, ⟨#HIv5, HatV5, HcV5⟩, ⟨#HIv6, HatV6, HcV6⟩, ⟨#HIv7, HatV7, HcV7⟩, ⟨#HIv8, HatV8, HcV8⟩, ⟨#HIv9, HatV9, HcV9⟩, ⟨#HIv10, HatV10, HcV10⟩, ⟨#HIv11, HatV11, HcV11⟩, ⟨#HIv12, HatV12, HcV12⟩, ⟨#HIv13, HatV13, HcV13⟩, ⟨#HIv14, HatV14, HcV14⟩, ⟨#HIv15, HatV15, HcV15⟩, ⟨#HIv16, HatV16, HcV16⟩, ⟨#HIv17, HatV17, HcV17⟩, ⟨#HIv18, HatV18, HcV18⟩, ⟨#HIv19, HatV19, HcV19⟩, ⟨#HIv20, HatV20, HcV20⟩, ⟨#HIv21, HatV21, HcV21⟩, ⟨#HIv22, HatV22, HcV22⟩, ⟨#HIv23, HatV23, HcV23⟩, ⟨#HIv24, HatV24, HcV24⟩, ⟨#HIv25, HatV25, HcV25⟩, ⟨#HIv26, HatV26, HcV26⟩, ⟨#HIv27, HatV27, HcV27⟩, ⟨#HIv28, HatV28, HcV28⟩, ⟨#HIv29, HatV29, HcV29⟩, ⟨#HIv30, HatV30, HcV30⟩, ⟨#HIv31, HatV31, HcV31⟩⟩
  sl_exec_parts (disch := a2a_disch)
  ihave Hb := (sendPay_lit (F := F) c 30 (k0_off2_lo c hmx) rfl) $$ HatS30_pay1
  icases Hb with ⟨%r30, Hq01⟩
  ihave Hq00 := (cv_lit (F := F) c (k0_off3_lo c hmx)) $$ Hq00
  imod (cell_done m (Ks c 30) (sendCell c 30)) $$ [HatS30] with HzS30
  · iframe # ∗
  ihave Hn := (pts_name (F := F) _ _) $$ Ho30
  icases Hn with ⟨%u30, %hu30, Ho30⟩
  ihave Ho30 := (Entails.of_eq (pointsTo_congr (f := u30) (g := outC m c) (by intro i hi; subst hu30; sl_unfold_words; exact local_val_w m c 30 0 (by omega) _ _ (k0_off1_eq c 30) _ _ _ _ (k0_off3_lo c hmx) _ _ _ _ rfl _ _ rfl fo _ _ _ rfl _ i hi))) $$ Ho30
  iclear HIs30 Hrs30
  ihave Hb := (sendPay_lit (F := F) c 31 (k0_off4_lo c hmx) rfl) $$ HatS31_pay1
  icases Hb with ⟨%r31, Hq11⟩
  ihave Hq10 := (cv_lit (F := F) c (k0_off5_lo c hmx)) $$ Hq10
  imod (cell_done m (Ks c 31) (sendCell c 31)) $$ [HatS31] with HzS31
  · iframe # ∗
  ihave Hn := (pts_name (F := F) _ _) $$ Ho31
  icases Hn with ⟨%u31, %hu31, Ho31⟩
  ihave Ho31 := (Entails.of_eq (pointsTo_congr (f := u31) (g := outC m c) (by intro i hi; subst hu31; sl_unfold_words; exact local_val_w m c 31 0 (by omega) _ _ (k0_off1_eq c 31) _ _ _ _ (k0_off5_lo c hmx) _ _ _ _ rfl _ _ rfl fo _ _ _ rfl _ i hi))) $$ Ho31
  iclear HIs31 Hrs31
  imod (cell_done m (Kr c 0) (recvCell c 0)) $$ [HatV0] with HzV0
  · iframe # ∗
  imod (cell_done m (Kr c 1) (recvCell c 1)) $$ [HatV1] with HzV1
  · iframe # ∗
  imod (cell_done m (Kr c 2) (recvCell c 2)) $$ [HatV2] with HzV2
  · iframe # ∗
  imod (cell_done m (Kr c 3) (recvCell c 3)) $$ [HatV3] with HzV3
  · iframe # ∗
  imod (cell_done m (Kr c 4) (recvCell c 4)) $$ [HatV4] with HzV4
  · iframe # ∗
  imod (cell_done m (Kr c 5) (recvCell c 5)) $$ [HatV5] with HzV5
  · iframe # ∗
  imod (cell_done m (Kr c 6) (recvCell c 6)) $$ [HatV6] with HzV6
  · iframe # ∗
  imod (cell_done m (Kr c 7) (recvCell c 7)) $$ [HatV7] with HzV7
  · iframe # ∗
  imod (cell_done m (Kr c 8) (recvCell c 8)) $$ [HatV8] with HzV8
  · iframe # ∗
  imod (cell_done m (Kr c 9) (recvCell c 9)) $$ [HatV9] with HzV9
  · iframe # ∗
  imod (cell_done m (Kr c 10) (recvCell c 10)) $$ [HatV10] with HzV10
  · iframe # ∗
  imod (cell_done m (Kr c 11) (recvCell c 11)) $$ [HatV11] with HzV11
  · iframe # ∗
  imod (cell_done m (Kr c 12) (recvCell c 12)) $$ [HatV12] with HzV12
  · iframe # ∗
  imod (cell_done m (Kr c 13) (recvCell c 13)) $$ [HatV13] with HzV13
  · iframe # ∗
  imod (cell_done m (Kr c 14) (recvCell c 14)) $$ [HatV14] with HzV14
  · iframe # ∗
  imod (cell_done m (Kr c 15) (recvCell c 15)) $$ [HatV15] with HzV15
  · iframe # ∗
  imod (cell_done m (Kr c 16) (recvCell c 16)) $$ [HatV16] with HzV16
  · iframe # ∗
  imod (cell_done m (Kr c 17) (recvCell c 17)) $$ [HatV17] with HzV17
  · iframe # ∗
  imod (cell_done m (Kr c 18) (recvCell c 18)) $$ [HatV18] with HzV18
  · iframe # ∗
  imod (cell_done m (Kr c 19) (recvCell c 19)) $$ [HatV19] with HzV19
  · iframe # ∗
  imod (cell_done m (Kr c 20) (recvCell c 20)) $$ [HatV20] with HzV20
  · iframe # ∗
  imod (cell_done m (Kr c 21) (recvCell c 21)) $$ [HatV21] with HzV21
  · iframe # ∗
  imod (cell_done m (Kr c 22) (recvCell c 22)) $$ [HatV22] with HzV22
  · iframe # ∗
  imod (cell_done m (Kr c 23) (recvCell c 23)) $$ [HatV23] with HzV23
  · iframe # ∗
  imod (cell_done m (Kr c 24) (recvCell c 24)) $$ [HatV24] with HzV24
  · iframe # ∗
  imod (cell_done m (Kr c 25) (recvCell c 25)) $$ [HatV25] with HzV25
  · iframe # ∗
  imod (cell_done m (Kr c 26) (recvCell c 26)) $$ [HatV26] with HzV26
  · iframe # ∗
  imod (cell_done m (Kr c 27) (recvCell c 27)) $$ [HatV27] with HzV27
  · iframe # ∗
  imod (cell_done m (Kr c 28) (recvCell c 28)) $$ [HatV28] with HzV28
  · iframe # ∗
  imod (cell_done m (Kr c 29) (recvCell c 29)) $$ [HatV29] with HzV29
  · iframe # ∗
  imod (cell_done m (Kr c 30) (recvCell c 30)) $$ [HatV30] with HzV30
  · iframe # ∗
  imod (cell_done m (Kr c 31) (recvCell c 31)) $$ [HatV31] with HzV31
  · iframe # ∗
  sl_step
  iapply Hk
  unfold runPost
  simp only [bigSep_fin32r]
  unfold xPc slPts
  isplitl [HX0 HX1 HX2 HX3 HX4 HX5 HX6 HX7 HX8 HX9 HX10 HX11 HX12 HX13 HX14 HX15 HX16 HX17 HX18 HX19 HX20 HX21 HX22 HX23 HX24 HX25 HX26 HX27 HX28 HX29 HX30 HX31]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    iexact HX31
  isplitl [Hst0]; · iexists _; iexact Hst0
  isplitl [Hst1]; · iexists _; iexact Hst1
  isplitl [Hq00]; · iexists _; iexact Hq00
  isplitl [Hq01]; · iexists _; iexact Hq01
  isplitl [Hq10]; · iexists _; iexact Hq10
  isplitl [Hq11]; · iexists _; iexact Hq11
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    iexact Ho31
  isplitl [HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 HatV15_pay1 HatV16_pay1 HatV17_pay1 HatV18_pay1 HatV19_pay1 HatV20_pay1 HatV21_pay1 HatV22_pay1 HatV23_pay1 HatV24_pay1 HatV25_pay1 HatV26_pay1 HatV27_pay1 HatV28_pay1 HatV29_pay1 HatV30_pay1 HatV31_pay1]
  · isplitl [HatV0_pay1]; · iexact HatV0_pay1
    isplitl [HatV1_pay1]; · iexact HatV1_pay1
    isplitl [HatV2_pay1]; · iexact HatV2_pay1
    isplitl [HatV3_pay1]; · iexact HatV3_pay1
    isplitl [HatV4_pay1]; · iexact HatV4_pay1
    isplitl [HatV5_pay1]; · iexact HatV5_pay1
    isplitl [HatV6_pay1]; · iexact HatV6_pay1
    isplitl [HatV7_pay1]; · iexact HatV7_pay1
    isplitl [HatV8_pay1]; · iexact HatV8_pay1
    isplitl [HatV9_pay1]; · iexact HatV9_pay1
    isplitl [HatV10_pay1]; · iexact HatV10_pay1
    isplitl [HatV11_pay1]; · iexact HatV11_pay1
    isplitl [HatV12_pay1]; · iexact HatV12_pay1
    isplitl [HatV13_pay1]; · iexact HatV13_pay1
    isplitl [HatV14_pay1]; · iexact HatV14_pay1
    isplitl [HatV15_pay1]; · iexact HatV15_pay1
    isplitl [HatV16_pay1]; · iexact HatV16_pay1
    isplitl [HatV17_pay1]; · iexact HatV17_pay1
    isplitl [HatV18_pay1]; · iexact HatV18_pay1
    isplitl [HatV19_pay1]; · iexact HatV19_pay1
    isplitl [HatV20_pay1]; · iexact HatV20_pay1
    isplitl [HatV21_pay1]; · iexact HatV21_pay1
    isplitl [HatV22_pay1]; · iexact HatV22_pay1
    isplitl [HatV23_pay1]; · iexact HatV23_pay1
    isplitl [HatV24_pay1]; · iexact HatV24_pay1
    isplitl [HatV25_pay1]; · iexact HatV25_pay1
    isplitl [HatV26_pay1]; · iexact HatV26_pay1
    isplitl [HatV27_pay1]; · iexact HatV27_pay1
    isplitl [HatV28_pay1]; · iexact HatV28_pay1
    isplitl [HatV29_pay1]; · iexact HatV29_pay1
    isplitl [HatV30_pay1]; · iexact HatV30_pay1
    iexact HatV31_pay1
  isplitl [HzS0 HzV0 HzS1 HzV1 HzS2 HzV2 HzS3 HzV3 HzS4 HzV4 HzS5 HzV5 HzS6 HzV6 HzS7 HzV7 HzS8 HzV8 HzS9 HzV9 HzS10 HzV10 HzS11 HzV11 HzS12 HzV12 HzS13 HzV13 HzS14 HzV14 HzS15 HzV15 HzS16 HzV16 HzS17 HzV17 HzS18 HzV18 HzS19 HzV19 HzS20 HzV20 HzS21 HzV21 HzS22 HzV22 HzS23 HzV23 HzS24 HzV24 HzS25 HzV25 HzS26 HzV26 HzS27 HzV27 HzS28 HzV28 HzS29 HzV29 HzS30 HzV30 HzS31 HzV31]
  · isplitl [HzS0 HzV0]; · (isplitl [HzS0]; · iexact HzS0); iexact HzV0
    isplitl [HzS1 HzV1]; · (isplitl [HzS1]; · iexact HzS1); iexact HzV1
    isplitl [HzS2 HzV2]; · (isplitl [HzS2]; · iexact HzS2); iexact HzV2
    isplitl [HzS3 HzV3]; · (isplitl [HzS3]; · iexact HzS3); iexact HzV3
    isplitl [HzS4 HzV4]; · (isplitl [HzS4]; · iexact HzS4); iexact HzV4
    isplitl [HzS5 HzV5]; · (isplitl [HzS5]; · iexact HzS5); iexact HzV5
    isplitl [HzS6 HzV6]; · (isplitl [HzS6]; · iexact HzS6); iexact HzV6
    isplitl [HzS7 HzV7]; · (isplitl [HzS7]; · iexact HzS7); iexact HzV7
    isplitl [HzS8 HzV8]; · (isplitl [HzS8]; · iexact HzS8); iexact HzV8
    isplitl [HzS9 HzV9]; · (isplitl [HzS9]; · iexact HzS9); iexact HzV9
    isplitl [HzS10 HzV10]; · (isplitl [HzS10]; · iexact HzS10); iexact HzV10
    isplitl [HzS11 HzV11]; · (isplitl [HzS11]; · iexact HzS11); iexact HzV11
    isplitl [HzS12 HzV12]; · (isplitl [HzS12]; · iexact HzS12); iexact HzV12
    isplitl [HzS13 HzV13]; · (isplitl [HzS13]; · iexact HzS13); iexact HzV13
    isplitl [HzS14 HzV14]; · (isplitl [HzS14]; · iexact HzS14); iexact HzV14
    isplitl [HzS15 HzV15]; · (isplitl [HzS15]; · iexact HzS15); iexact HzV15
    isplitl [HzS16 HzV16]; · (isplitl [HzS16]; · iexact HzS16); iexact HzV16
    isplitl [HzS17 HzV17]; · (isplitl [HzS17]; · iexact HzS17); iexact HzV17
    isplitl [HzS18 HzV18]; · (isplitl [HzS18]; · iexact HzS18); iexact HzV18
    isplitl [HzS19 HzV19]; · (isplitl [HzS19]; · iexact HzS19); iexact HzV19
    isplitl [HzS20 HzV20]; · (isplitl [HzS20]; · iexact HzS20); iexact HzV20
    isplitl [HzS21 HzV21]; · (isplitl [HzS21]; · iexact HzS21); iexact HzV21
    isplitl [HzS22 HzV22]; · (isplitl [HzS22]; · iexact HzS22); iexact HzV22
    isplitl [HzS23 HzV23]; · (isplitl [HzS23]; · iexact HzS23); iexact HzV23
    isplitl [HzS24 HzV24]; · (isplitl [HzS24]; · iexact HzS24); iexact HzV24
    isplitl [HzS25 HzV25]; · (isplitl [HzS25]; · iexact HzS25); iexact HzV25
    isplitl [HzS26 HzV26]; · (isplitl [HzS26]; · iexact HzS26); iexact HzV26
    isplitl [HzS27 HzV27]; · (isplitl [HzS27]; · iexact HzS27); iexact HzV27
    isplitl [HzS28 HzV28]; · (isplitl [HzS28]; · iexact HzS28); iexact HzV28
    isplitl [HzS29 HzV29]; · (isplitl [HzS29]; · iexact HzS29); iexact HzV29
    isplitl [HzS30 HzV30]; · (isplitl [HzS30]; · iexact HzS30); iexact HzV30
    (isplitl [HzS31]; · iexact HzS31); iexact HzV31
  isplitl [Hc0]; · iexact Hc0
  isplitl [Hc1]; · iexact Hc1
  isplitl [Hl0]; · iexact Hl0
  isplitl [Hl1]; · iexact Hl1
  iexists _; iexact HO

end Cert.Kernel.A2A

end
-- ==== Proof.KA2A.RunHi.lean ====
import proofs.«900634_g7700000000000635_dist_a2a_v7x_xyz2x2x4_x_m4096_n1024_bf16_1_alg».proof.Proof.KA2A.RunDefs

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar payload_send payload_recv payload_recv_peer
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq

set_option maxHeartbeats 8000000 in
theorem run_hi (c : Dev nD) (hmx : c.val / 8 = 1) (Kb : Dev nD → ℕ) (Ks Kr : Dev nD → Fin 32 → ℕ) (W : Waits sig Unit)
    (g : Buf (Elt F) (stM.view.loc (c : Thread nD τ))) (q : Buf (Elt F) (cvM.view.loc (c : Thread nD τ)))
    (fo : Buf (Elt F) (oM.view.loc (c : Thread nD τ))) (Kt : PUnit → sProp 𝕄) :
    iprop(runPre m c Kb Ks Kr W g q fo ∗ (runPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  unfold runPre
  iintro ⟨⟨#HIb, #HIbP, HatB, #HrBP, HtBP, HcB, #Hlev, Hc0, Hc1, Hl0, Hl1, Hst0, Hst1, Hq00, Hq01, Hq10, Hq11, HX, HGs, HVs, Hgive, HO⟩, Hk⟩
  ihave HX := (Entails.of_eq (bigSep_fin32r _)) $$ HX
  ihave HGs := (Entails.of_eq (bigSep_fin32r _)) $$ HGs
  ihave HVs := (Entails.of_eq (bigSep_fin32r _)) $$ HVs
  unfold xPc sendGrp recvGrp
  icases HX with ⟨HX0, HX1, HXs⟩
  have hmw : ∀ (sm : SemLoc sig) (O : CellTallies nD τ sig Unit), lv ((c : Thread nD τ), sm) () ≤ 1 → OnlyRecv O →
      ((levAts L lv : sProp 𝕄) ⊢ MayWait (c : Thread nD τ) sm () O) := fun sm O h1 h2 => mayWait_low c sm O h1 h2
  icases HXs with ⟨HX2, HXs⟩
  icases HGs with ⟨⟨#HIs0, #HIr0, HatS0, #Hrs0, Hts0, Htr0, Ho0⟩, HGs⟩
  sl_exec_parts (disch := a2a_disch)
  ihave Hp := (Entails.of_eq ((show barPay (F := F) c = _ from rfl).trans (bigSep_fin32r _))) $$ HatB_pay1
  unfold slPts
  icases Hp with ⟨⟨⟨%d0, Hd0⟩, #Hrr0⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w0, %hw0, Hq00⟩
  iapply (wp_send_ch m c 0 (k0_off1 c 0#32) (k0_off1_inb c 0) rfl rfl w0 d0 (by intro i hi; subst hw0; sl_unfold_words; exact send_val m c 0 0 (by omega) _ _ (k0_off1_eq c 0) _ _ _ _ (k0_off2_hi c hmx) _ _ _ _ rfl _ _ rfl d0 _ _ _ rfl _ i hi)) $$ [Hq00 Hd0 HO Hts0 Htr0]
  · iframe # ∗
  iintro ⟨HcS0, HO⟩
  iclear HIr0 Hrr0
  icases HXs with ⟨HX3, HXs⟩
  icases HGs with ⟨⟨#HIs1, #HIr1, HatS1, #Hrs1, Hts1, Htr1, Ho1⟩, HGs⟩
  sl_exec_parts (disch := a2a_disch)
  icases Hp with ⟨⟨⟨%d1, Hd1⟩, #Hrr1⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w1, %hw1, Hq10⟩
  iapply (wp_send_ch m c 1 (k0_off1 c 128#32) (k0_off1_inb c 1) rfl rfl w1 d1 (by intro i hi; subst hw1; sl_unfold_words; exact send_val m c 1 0 (by omega) _ _ (k0_off1_eq c 1) _ _ _ _ (k0_off4_hi c hmx) _ _ _ _ rfl _ _ rfl d1 _ _ _ rfl _ i hi)) $$ [Hq10 Hd1 HO Hts1 Htr1]
  · iframe # ∗
  iintro ⟨HcS1, HO⟩
  iclear HIr1 Hrr1
  icases HXs with ⟨HX4, HXs⟩
  icases HGs with ⟨⟨#HIs2, #HIr2, HatS2, #Hrs2, Hts2, Htr2, Ho2⟩, HGs⟩
  sl_exec_parts (disch := a2a_disch)
  ihave Hb := (sendPay_lit (F := F) c 0 (k0_off2_hi c hmx) rfl) $$ HatS0_pay1
  icases Hb with ⟨%r0, Hq00⟩
  ihave Hq01 := (cv_lit (F := F) c (k0_off3_hi c hmx)) $$ Hq01
  imod (cell_done m (Ks c 0) (sendCell c 0)) $$ [HatS0] with HzS0
  · iframe # ∗
  ihave Hn := (pts_name (F := F) _ _) $$ Ho0
  icases Hn with ⟨%u0, %hu0, Ho0⟩
  ihave Ho0 := (Entails.of_eq (pointsTo_congr (f := u0) (g := outC m c) (by intro i hi; subst hu0; sl_unfold_words; exact local_val_w m c 0 1 (by omega) _ _ (k0_off1_eq c 0) _ _ _ _ (k0_off3_hi c hmx) _ _ _ _ rfl _ _ rfl fo _ _ _ rfl _ i hi))) $$ Ho0
  iclear HIs0 Hrs0
  sl_exec_parts (disch := a2a_disch)
  icases Hp with ⟨⟨⟨%d2, Hd2⟩, #Hrr2⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w2, %hw2, Hq00⟩
  iapply (wp_send_ch m c 2 (k0_off1 c 256#32) (k0_off1_inb c 2) rfl rfl w2 d2 (by intro i hi; subst hw2; sl_unfold_words; exact send_val m c 2 0 (by omega) _ _ (k0_off1_eq c 2) _ _ _ _ (k0_off2_hi c hmx) _ _ _ _ rfl _ _ rfl d2 _ _ _ rfl _ i hi)) $$ [Hq00 Hd2 HO Hts2 Htr2]
  · iframe # ∗
  iintro ⟨HcS2, HO⟩
  iclear HIr2 Hrr2
  icases HXs with ⟨HX5, HXs⟩
  icases HGs with ⟨⟨#HIs3, #HIr3, HatS3, #Hrs3, Hts3, Htr3, Ho3⟩, HGs⟩
  sl_exec_parts (disch := a2a_disch)
  ihave Hb := (sendPay_lit (F := F) c 1 (k0_off4_hi c hmx) rfl) $$ HatS1_pay1
  icases Hb with ⟨%r1, Hq10⟩
  ihave Hq11 := (cv_lit (F := F) c (k0_off5_hi c hmx)) $$ Hq11
  imod (cell_done m (Ks c 1) (sendCell c 1)) $$ [HatS1] with HzS1
  · iframe # ∗
  ihave Hn := (pts_name (F := F) _ _) $$ Ho1
  icases Hn with ⟨%u1, %hu1, Ho1⟩
  ihave Ho1 := (Entails.of_eq (pointsTo_congr (f := u1) (g := outC m c) (by intro i hi; subst hu1; sl_unfold_words; exact local_val_w m c 1 1 (by omega) _ _ (k0_off1_eq c 1) _ _ _ _ (k0_off5_hi c hmx) _ _ _ _ rfl _ _ rfl fo _ _ _ rfl _ i hi))) $$ Ho1
  iclear HIs1 Hrs1
  sl_exec_parts (disch := a2a_disch)
  icases Hp with ⟨⟨⟨%d3, Hd3⟩, #Hrr3⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w3, %hw3, Hq10⟩
  iapply (wp_send_ch m c 3 (k0_off1 c 384#32) (k0_off1_inb c 3) rfl rfl w3 d3 (by intro i hi; subst hw3; sl_unfold_words; exact send_val m c 3 0 (by omega) _ _ (k0_off1_eq c 3) _ _ _ _ (k0_off4_hi c hmx) _ _ _ _ rfl _ _ rfl d3 _ _ _ rfl _ i hi)) $$ [Hq10 Hd3 HO Hts3 Htr3]
  · iframe # ∗
  iintro ⟨HcS3, HO⟩
  iclear HIr3 Hrr3
  icases HXs with ⟨HX6, HXs⟩
  icases HGs with ⟨⟨#HIs4, #HIr4, HatS4, #Hrs4, Hts4, Htr4, Ho4⟩, HGs⟩
  sl_exec_parts (disch := a2a_disch)
  ihave Hb := (sendPay_lit (F := F) c 2 (k0_off2_hi c hmx) rfl) $$ HatS2_pay1
  icases Hb with ⟨%r2, Hq00⟩
  ihave Hq01 := (cv_lit (F := F) c (k0_off3_hi c hmx)) $$ Hq01
  imod (cell_done m (Ks c 2) (sendCell c 2)) $$ [HatS2] with HzS2
  · iframe # ∗
  ihave Hn := (pts_name (F := F) _ _) $$ Ho2
  icases Hn with ⟨%u2, %hu2, Ho2⟩
  ihave Ho2 := (Entails.of_eq (pointsTo_congr (f := u2) (g := outC m c) (by intro i hi; subst hu2; sl_unfold_words; exact local_val_w m c 2 1 (by omega) _ _ (k0_off1_eq c 2) _ _ _ _ (k0_off3_hi c hmx) _ _ _ _ rfl _ _ rfl fo _ _ _ rfl _ i hi))) $$ Ho2
  iclear HIs2 Hrs2
  sl_exec_parts (disch := a2a_disch)
  icases Hp with ⟨⟨⟨%d4, Hd4⟩, #Hrr4⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w4, %hw4, Hq00⟩
  iapply (wp_send_ch m c 4 (k0_off1 c 512#32) (k0_off1_inb c 4) rfl rfl w4 d4 (by intro i hi; subst hw4; sl_unfold_words; exact send_val m c 4 0 (by omega) _ _ (k0_off1_eq c 4) _ _ _ _ (k0_off2_hi c hmx) _ _ _ _ rfl _ _ rfl d4 _ _ _ rfl _ i hi)) $$ [Hq00 Hd4 HO Hts4 Htr4]
  · iframe # ∗
  iintro ⟨HcS4, HO⟩
  iclear HIr4 Hrr4
  icases HXs with ⟨HX7, HXs⟩
  icases HGs with ⟨⟨#HIs5, #HIr5, HatS5, #Hrs5, Hts5, Htr5, Ho5⟩, HGs⟩
  sl_exec_parts (disch := a2a_disch)
  ihave Hb := (sendPay_lit (F := F) c 3 (k0_off4_hi c hmx) rfl) $$ HatS3_pay1
  icases Hb with ⟨%r3, Hq10⟩
  ihave Hq11 := (cv_lit (F := F) c (k0_off5_hi c hmx)) $$ Hq11
  imod (cell_done m (Ks c 3) (sendCell c 3)) $$ [HatS3] with HzS3
  · iframe # ∗
  ihave Hn := (pts_name (F := F) _ _) $$ Ho3
  icases Hn with ⟨%u3, %hu3, Ho3⟩
  ihave Ho3 := (Entails.of_eq (pointsTo_congr (f := u3) (g := outC m c) (by intro i hi; subst hu3; sl_unfold_words; exact local_val_w m c 3 1 (by omega) _ _ (k0_off1_eq c 3) _ _ _ _ (k0_off5_hi c hmx) _ _ _ _ rfl _ _ rfl fo _ _ _ rfl _ i hi))) $$ Ho3
  iclear HIs3 Hrs3
  sl_exec_parts (disch := a2a_disch)
  icases Hp with ⟨⟨⟨%d5, Hd5⟩, #Hrr5⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w5, %hw5, Hq10⟩
  iapply (wp_send_ch m c 5 (k0_off1 c 640#32) (k0_off1_inb c 5) rfl rfl w5 d5 (by intro i hi; subst hw5; sl_unfold_words; exact send_val m c 5 0 (by omega) _ _ (k0_off1_eq c 5) _ _ _ _ (k0_off4_hi c hmx) _ _ _ _ rfl _ _ rfl d5 _ _ _ rfl _ i hi)) $$ [Hq10 Hd5 HO Hts5 Htr5]
  · iframe # ∗
  iintro ⟨HcS5, HO⟩
  iclear HIr5 Hrr5
  icases HXs with ⟨HX8, HXs⟩
  icases HGs with ⟨⟨#HIs6, #HIr6, HatS6, #Hrs6, Hts6, Htr6, Ho6⟩, HGs⟩
  sl_exec_parts (disch := a2a_disch)
  ihave Hb := (sendPay_lit (F := F) c 4 (k0_off2_hi c hmx) rfl) $$ HatS4_pay1
  icases Hb with ⟨%r4, Hq00⟩
  ihave Hq01 := (cv_lit (F := F) c (k0_off3_hi c hmx)) $$ Hq01
  imod (cell_done m (Ks c 4) (sendCell c 4)) $$ [HatS4] with HzS4
  · iframe # ∗
  ihave Hn := (pts_name (F := F) _ _) $$ Ho4
  icases Hn with ⟨%u4, %hu4, Ho4⟩
  ihave Ho4 := (Entails.of_eq (pointsTo_congr (f := u4) (g := outC m c) (by intro i hi; subst hu4; sl_unfold_words; exact local_val_w m c 4 1 (by omega) _ _ (k0_off1_eq c 4) _ _ _ _ (k0_off3_hi c hmx) _ _ _ _ rfl _ _ rfl fo _ _ _ rfl _ i hi))) $$ Ho4
  iclear HIs4 Hrs4
  sl_exec_parts (disch := a2a_disch)
  icases Hp with ⟨⟨⟨%d6, Hd6⟩, #Hrr6⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w6, %hw6, Hq00⟩
  iapply (wp_send_ch m c 6 (k0_off1 c 768#32) (k0_off1_inb c 6) rfl rfl w6 d6 (by intro i hi; subst hw6; sl_unfold_words; exact send_val m c 6 0 (by omega) _ _ (k0_off1_eq c 6) _ _ _ _ (k0_off2_hi c hmx) _ _ _ _ rfl _ _ rfl d6 _ _ _ rfl _ i hi)) $$ [Hq00 Hd6 HO Hts6 Htr6]
  · iframe # ∗
  iintro ⟨HcS6, HO⟩
  iclear HIr6 Hrr6
  icases HXs with ⟨HX9, HXs⟩
  icases HGs with ⟨⟨#HIs7, #HIr7, HatS7, #Hrs7, Hts7, Htr7, Ho7⟩, HGs⟩
  sl_exec_parts (disch := a2a_disch)
  ihave Hb := (sendPay_lit (F := F) c 5 (k0_off4_hi c hmx) rfl) $$ HatS5_pay1
  icases Hb with ⟨%r5, Hq10⟩
  ihave Hq11 := (cv_lit (F := F) c (k0_off5_hi c hmx)) $$ Hq11
  imod (cell_done m (Ks c 5) (sendCell c 5)) $$ [HatS5] with HzS5
  · iframe # ∗
  ihave Hn := (pts_name (F := F) _ _) $$ Ho5
  icases Hn with ⟨%u5, %hu5, Ho5⟩
  ihave Ho5 := (Entails.of_eq (pointsTo_congr (f := u5) (g := outC m c) (by intro i hi; subst hu5; sl_unfold_words; exact local_val_w m c 5 1 (by omega) _ _ (k0_off1_eq c 5) _ _ _ _ (k0_off5_hi c hmx) _ _ _ _ rfl _ _ rfl fo _ _ _ rfl _ i hi))) $$ Ho5
  iclear HIs5 Hrs5
  sl_exec_parts (disch := a2a_disch)
  icases Hp with ⟨⟨⟨%d7, Hd7⟩, #Hrr7⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w7, %hw7, Hq10⟩
  iapply (wp_send_ch m c 7 (k0_off1 c 896#32) (k0_off1_inb c 7) rfl rfl w7 d7 (by intro i hi; subst hw7; sl_unfold_words; exact send_val m c 7 0 (by omega) _ _ (k0_off1_eq c 7) _ _ _ _ (k0_off4_hi c hmx) _ _ _ _ rfl _ _ rfl d7 _ _ _ rfl _ i hi)) $$ [Hq10 Hd7 HO Hts7 Htr7]
  · iframe # ∗
  iintro ⟨HcS7, HO⟩
  iclear HIr7 Hrr7
  icases HXs with ⟨HX10, HXs⟩
  icases HGs with ⟨⟨#HIs8, #HIr8, HatS8, #Hrs8, Hts8, Htr8, Ho8⟩, HGs⟩
  sl_exec_parts (disch := a2a_disch)
  ihave Hb := (sendPay_lit (F := F) c 6 (k0_off2_hi c hmx) rfl) $$ HatS6_pay1
  icases Hb with ⟨%r6, Hq00⟩
  ihave Hq01 := (cv_lit (F := F) c (k0_off3_hi c hmx)) $$ Hq01
  imod (cell_done m (Ks c 6) (sendCell c 6)) $$ [HatS6] with HzS6
  · iframe # ∗
  ihave Hn := (pts_name (F := F) _ _) $$ Ho6
  icases Hn with ⟨%u6, %hu6, Ho6⟩
  ihave Ho6 := (Entails.of_eq (pointsTo_congr (f := u6) (g := outC m c) (by intro i hi; subst hu6; sl_unfold_words; exact local_val_w m c 6 1 (by omega) _ _ (k0_off1_eq c 6) _ _ _ _ (k0_off3_hi c hmx) _ _ _ _ rfl _ _ rfl fo _ _ _ rfl _ i hi))) $$ Ho6
  iclear HIs6 Hrs6
  sl_exec_parts (disch := a2a_disch)
  icases Hp with ⟨⟨⟨%d8, Hd8⟩, #Hrr8⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w8, %hw8, Hq00⟩
  iapply (wp_send_ch m c 8 (k0_off1 c 1024#32) (k0_off1_inb c 8) rfl rfl w8 d8 (by intro i hi; subst hw8; sl_unfold_words; exact send_val m c 8 0 (by omega) _ _ (k0_off1_eq c 8) _ _ _ _ (k0_off2_hi c hmx) _ _ _ _ rfl _ _ rfl d8 _ _ _ rfl _ i hi)) $$ [Hq00 Hd8 HO Hts8 Htr8]
  · iframe # ∗
  iintro ⟨HcS8, HO⟩
  iclear HIr8 Hrr8
  icases HXs with ⟨HX11, HXs⟩
  icases HGs with ⟨⟨#HIs9, #HIr9, HatS9, #Hrs9, Hts9, Htr9, Ho9⟩, HGs⟩
  sl_exec_parts (disch := a2a_disch)
  ihave Hb := (sendPay_lit (F := F) c 7 (k0_off4_hi c hmx) rfl) $$ HatS7_pay1
  icases Hb with ⟨%r7, Hq10⟩
  ihave Hq11 := (cv_lit (F := F) c (k0_off5_hi c hmx)) $$ Hq11
  imod (cell_done m (Ks c 7) (sendCell c 7)) $$ [HatS7] with HzS7
  · iframe # ∗
  ihave Hn := (pts_name (F := F) _ _) $$ Ho7
  icases Hn with ⟨%u7, %hu7, Ho7⟩
  ihave Ho7 := (Entails.of_eq (pointsTo_congr (f := u7) (g := outC m c) (by intro i hi; subst hu7; sl_unfold_words; exact local_val_w m c 7 1 (by omega) _ _ (k0_off1_eq c 7) _ _ _ _ (k0_off5_hi c hmx) _ _ _ _ rfl _ _ rfl fo _ _ _ rfl _ i hi))) $$ Ho7
  iclear HIs7 Hrs7
  sl_exec_parts (disch := a2a_disch)
  icases Hp with ⟨⟨⟨%d9, Hd9⟩, #Hrr9⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w9, %hw9, Hq10⟩
  iapply (wp_send_ch m c 9 (k0_off1 c 1152#32) (k0_off1_inb c 9) rfl rfl w9 d9 (by intro i hi; subst hw9; sl_unfold_words; exact send_val m c 9 0 (by omega) _ _ (k0_off1_eq c 9) _ _ _ _ (k0_off4_hi c hmx) _ _ _ _ rfl _ _ rfl d9 _ _ _ rfl _ i hi)) $$ [Hq10 Hd9 HO Hts9 Htr9]
  · iframe # ∗
  iintro ⟨HcS9, HO⟩
  iclear HIr9 Hrr9
  icases HXs with ⟨HX12, HXs⟩
  icases HGs with ⟨⟨#HIs10, #HIr10, HatS10, #Hrs10, Hts10, Htr10, Ho10⟩, HGs⟩
  sl_exec_parts (disch := a2a_disch)
  ihave Hb := (sendPay_lit (F := F) c 8 (k0_off2_hi c hmx) rfl) $$ HatS8_pay1
  icases Hb with ⟨%r8, Hq00⟩
  ihave Hq01 := (cv_lit (F := F) c (k0_off3_hi c hmx)) $$ Hq01
  imod (cell_done m (Ks c 8) (sendCell c 8)) $$ [HatS8] with HzS8
  · iframe # ∗
  ihave Hn := (pts_name (F := F) _ _) $$ Ho8
  icases Hn with ⟨%u8, %hu8, Ho8⟩
  ihave Ho8 := (Entails.of_eq (pointsTo_congr (f := u8) (g := outC m c) (by intro i hi; subst hu8; sl_unfold_words; exact local_val_w m c 8 1 (by omega) _ _ (k0_off1_eq c 8) _ _ _ _ (k0_off3_hi c hmx) _ _ _ _ rfl _ _ rfl fo _ _ _ rfl _ i hi))) $$ Ho8
  iclear HIs8 Hrs8
  sl_exec_parts (disch := a2a_disch)
  icases Hp with ⟨⟨⟨%d10, Hd10⟩, #Hrr10⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w10, %hw10, Hq00⟩
  iapply (wp_send_ch m c 10 (k0_off1 c 1280#32) (k0_off1_inb c 10) rfl rfl w10 d10 (by intro i hi; subst hw10; sl_unfold_words; exact send_val m c 10 0 (by omega) _ _ (k0_off1_eq c 10) _ _ _ _ (k0_off2_hi c hmx) _ _ _ _ rfl _ _ rfl d10 _ _ _ rfl _ i hi)) $$ [Hq00 Hd10 HO Hts10 Htr10]
  · iframe # ∗
  iintro ⟨HcS10, HO⟩
  iclear HIr10 Hrr10
  icases HXs with ⟨HX13, HXs⟩
  icases HGs with ⟨⟨#HIs11, #HIr11, HatS11, #Hrs11, Hts11, Htr11, Ho11⟩, HGs⟩
  sl_exec_parts (disch := a2a_disch)
  ihave Hb := (sendPay_lit (F := F) c 9 (k0_off4_hi c hmx) rfl) $$ HatS9_pay1
  icases Hb with ⟨%r9, Hq10⟩
  ihave Hq11 := (cv_lit (F := F) c (k0_off5_hi c hmx)) $$ Hq11
  imod (cell_done m (Ks c 9) (sendCell c 9)) $$ [HatS9] with HzS9
  · iframe # ∗
  ihave Hn := (pts_name (F := F) _ _) $$ Ho9
  icases Hn with ⟨%u9, %hu9, Ho9⟩
  ihave Ho9 := (Entails.of_eq (pointsTo_congr (f := u9) (g := outC m c) (by intro i hi; subst hu9; sl_unfold_words; exact local_val_w m c 9 1 (by omega) _ _ (k0_off1_eq c 9) _ _ _ _ (k0_off5_hi c hmx) _ _ _ _ rfl _ _ rfl fo _ _ _ rfl _ i hi))) $$ Ho9
  iclear HIs9 Hrs9
  sl_exec_parts (disch := a2a_disch)
  icases Hp with ⟨⟨⟨%d11, Hd11⟩, #Hrr11⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w11, %hw11, Hq10⟩
  iapply (wp_send_ch m c 11 (k0_off1 c 1408#32) (k0_off1_inb c 11) rfl rfl w11 d11 (by intro i hi; subst hw11; sl_unfold_words; exact send_val m c 11 0 (by omega) _ _ (k0_off1_eq c 11) _ _ _ _ (k0_off4_hi c hmx) _ _ _ _ rfl _ _ rfl d11 _ _ _ rfl _ i hi)) $$ [Hq10 Hd11 HO Hts11 Htr11]
  · iframe # ∗
  iintro ⟨HcS11, HO⟩
  iclear HIr11 Hrr11
  icases HXs with ⟨HX14, HXs⟩
  icases HGs with ⟨⟨#HIs12, #HIr12, HatS12, #Hrs12, Hts12, Htr12, Ho12⟩, HGs⟩
  sl_exec_parts (disch := a2a_disch)
  ihave Hb := (sendPay_lit (F := F) c 10 (k0_off2_hi c hmx) rfl) $$ HatS10_pay1
  icases Hb with ⟨%r10, Hq00⟩
  ihave Hq01 := (cv_lit (F := F) c (k0_off3_hi c hmx)) $$ Hq01
  imod (cell_done m (Ks c 10) (sendCell c 10)) $$ [HatS10] with HzS10
  · iframe # ∗
  ihave Hn := (pts_name (F := F) _ _) $$ Ho10
  icases Hn with ⟨%u10, %hu10, Ho10⟩
  ihave Ho10 := (Entails.of_eq (pointsTo_congr (f := u10) (g := outC m c) (by intro i hi; subst hu10; sl_unfold_words; exact local_val_w m c 10 1 (by omega) _ _ (k0_off1_eq c 10) _ _ _ _ (k0_off3_hi c hmx) _ _ _ _ rfl _ _ rfl fo _ _ _ rfl _ i hi))) $$ Ho10
  iclear HIs10 Hrs10
  sl_exec_parts (disch := a2a_disch)
  icases Hp with ⟨⟨⟨%d12, Hd12⟩, #Hrr12⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w12, %hw12, Hq00⟩
  iapply (wp_send_ch m c 12 (k0_off1 c 1536#32) (k0_off1_inb c 12) rfl rfl w12 d12 (by intro i hi; subst hw12; sl_unfold_words; exact send_val m c 12 0 (by omega) _ _ (k0_off1_eq c 12) _ _ _ _ (k0_off2_hi c hmx) _ _ _ _ rfl _ _ rfl d12 _ _ _ rfl _ i hi)) $$ [Hq00 Hd12 HO Hts12 Htr12]
  · iframe # ∗
  iintro ⟨HcS12, HO⟩
  iclear HIr12 Hrr12
  icases HXs with ⟨HX15, HXs⟩
  icases HGs with ⟨⟨#HIs13, #HIr13, HatS13, #Hrs13, Hts13, Htr13, Ho13⟩, HGs⟩
  sl_exec_parts (disch := a2a_disch)
  ihave Hb := (sendPay_lit (F := F) c 11 (k0_off4_hi c hmx) rfl) $$ HatS11_pay1
  icases Hb with ⟨%r11, Hq10⟩
  ihave Hq11 := (cv_lit (F := F) c (k0_off5_hi c hmx)) $$ Hq11
  imod (cell_done m (Ks c 11) (sendCell c 11)) $$ [HatS11] with HzS11
  · iframe # ∗
  ihave Hn := (pts_name (F := F) _ _) $$ Ho11
  icases Hn with ⟨%u11, %hu11, Ho11⟩
  ihave Ho11 := (Entails.of_eq (pointsTo_congr (f := u11) (g := outC m c) (by intro i hi; subst hu11; sl_unfold_words; exact local_val_w m c 11 1 (by omega) _ _ (k0_off1_eq c 11) _ _ _ _ (k0_off5_hi c hmx) _ _ _ _ rfl _ _ rfl fo _ _ _ rfl _ i hi))) $$ Ho11
  iclear HIs11 Hrs11
  sl_exec_parts (disch := a2a_disch)
  icases Hp with ⟨⟨⟨%d13, Hd13⟩, #Hrr13⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w13, %hw13, Hq10⟩
  iapply (wp_send_ch m c 13 (k0_off1 c 1664#32) (k0_off1_inb c 13) rfl rfl w13 d13 (by intro i hi; subst hw13; sl_unfold_words; exact send_val m c 13 0 (by omega) _ _ (k0_off1_eq c 13) _ _ _ _ (k0_off4_hi c hmx) _ _ _ _ rfl _ _ rfl d13 _ _ _ rfl _ i hi)) $$ [Hq10 Hd13 HO Hts13 Htr13]
  · iframe # ∗
  iintro ⟨HcS13, HO⟩
  iclear HIr13 Hrr13
  icases HXs with ⟨HX16, HXs⟩
  icases HGs with ⟨⟨#HIs14, #HIr14, HatS14, #Hrs14, Hts14, Htr14, Ho14⟩, HGs⟩
  sl_exec_parts (disch := a2a_disch)
  ihave Hb := (sendPay_lit (F := F) c 12 (k0_off2_hi c hmx) rfl) $$ HatS12_pay1
  icases Hb with ⟨%r12, Hq00⟩
  ihave Hq01 := (cv_lit (F := F) c (k0_off3_hi c hmx)) $$ Hq01
  imod (cell_done m (Ks c 12) (sendCell c 12)) $$ [HatS12] with HzS12
  · iframe # ∗
  ihave Hn := (pts_name (F := F) _ _) $$ Ho12
  icases Hn with ⟨%u12, %hu12, Ho12⟩
  ihave Ho12 := (Entails.of_eq (pointsTo_congr (f := u12) (g := outC m c) (by intro i hi; subst hu12; sl_unfold_words; exact local_val_w m c 12 1 (by omega) _ _ (k0_off1_eq c 12) _ _ _ _ (k0_off3_hi c hmx) _ _ _ _ rfl _ _ rfl fo _ _ _ rfl _ i hi))) $$ Ho12
  iclear HIs12 Hrs12
  sl_exec_parts (disch := a2a_disch)
  icases Hp with ⟨⟨⟨%d14, Hd14⟩, #Hrr14⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w14, %hw14, Hq00⟩
  iapply (wp_send_ch m c 14 (k0_off1 c 1792#32) (k0_off1_inb c 14) rfl rfl w14 d14 (by intro i hi; subst hw14; sl_unfold_words; exact send_val m c 14 0 (by omega) _ _ (k0_off1_eq c 14) _ _ _ _ (k0_off2_hi c hmx) _ _ _ _ rfl _ _ rfl d14 _ _ _ rfl _ i hi)) $$ [Hq00 Hd14 HO Hts14 Htr14]
  · iframe # ∗
  iintro ⟨HcS14, HO⟩
  iclear HIr14 Hrr14
  icases HXs with ⟨HX17, HXs⟩
  icases HGs with ⟨⟨#HIs15, #HIr15, HatS15, #Hrs15, Hts15, Htr15, Ho15⟩, HGs⟩
  sl_exec_parts (disch := a2a_disch)
  ihave Hb := (sendPay_lit (F := F) c 13 (k0_off4_hi c hmx) rfl) $$ HatS13_pay1
  icases Hb with ⟨%r13, Hq10⟩
  ihave Hq11 := (cv_lit (F := F) c (k0_off5_hi c hmx)) $$ Hq11
  imod (cell_done m (Ks c 13) (sendCell c 13)) $$ [HatS13] with HzS13
  · iframe # ∗
  ihave Hn := (pts_name (F := F) _ _) $$ Ho13
  icases Hn with ⟨%u13, %hu13, Ho13⟩
  ihave Ho13 := (Entails.of_eq (pointsTo_congr (f := u13) (g := outC m c) (by intro i hi; subst hu13; sl_unfold_words; exact local_val_w m c 13 1 (by omega) _ _ (k0_off1_eq c 13) _ _ _ _ (k0_off5_hi c hmx) _ _ _ _ rfl _ _ rfl fo _ _ _ rfl _ i hi))) $$ Ho13
  iclear HIs13 Hrs13
  sl_exec_parts (disch := a2a_disch)
  icases Hp with ⟨⟨⟨%d15, Hd15⟩, #Hrr15⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w15, %hw15, Hq10⟩
  iapply (wp_send_ch m c 15 (k0_off1 c 1920#32) (k0_off1_inb c 15) rfl rfl w15 d15 (by intro i hi; subst hw15; sl_unfold_words; exact send_val m c 15 0 (by omega) _ _ (k0_off1_eq c 15) _ _ _ _ (k0_off4_hi c hmx) _ _ _ _ rfl _ _ rfl d15 _ _ _ rfl _ i hi)) $$ [Hq10 Hd15 HO Hts15 Htr15]
  · iframe # ∗
  iintro ⟨HcS15, HO⟩
  iclear HIr15 Hrr15
  icases HXs with ⟨HX18, HXs⟩
  icases HGs with ⟨⟨#HIs16, #HIr16, HatS16, #Hrs16, Hts16, Htr16, Ho16⟩, HGs⟩
  sl_exec_parts (disch := a2a_disch)
  ihave Hb := (sendPay_lit (F := F) c 14 (k0_off2_hi c hmx) rfl) $$ HatS14_pay1
  icases Hb with ⟨%r14, Hq00⟩
  ihave Hq01 := (cv_lit (F := F) c (k0_off3_hi c hmx)) $$ Hq01
  imod (cell_done m (Ks c 14) (sendCell c 14)) $$ [HatS14] with HzS14
  · iframe # ∗
  ihave Hn := (pts_name (F := F) _ _) $$ Ho14
  icases Hn with ⟨%u14, %hu14, Ho14⟩
  ihave Ho14 := (Entails.of_eq (pointsTo_congr (f := u14) (g := outC m c) (by intro i hi; subst hu14; sl_unfold_words; exact local_val_w m c 14 1 (by omega) _ _ (k0_off1_eq c 14) _ _ _ _ (k0_off3_hi c hmx) _ _ _ _ rfl _ _ rfl fo _ _ _ rfl _ i hi))) $$ Ho14
  iclear HIs14 Hrs14
  sl_exec_parts (disch := a2a_disch)
  icases Hp with ⟨⟨⟨%d16, Hd16⟩, #Hrr16⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w16, %hw16, Hq00⟩
  iapply (wp_send_ch m c 16 (k0_off1 c 2048#32) (k0_off1_inb c 16) rfl rfl w16 d16 (by intro i hi; subst hw16; sl_unfold_words; exact send_val m c 16 0 (by omega) _ _ (k0_off1_eq c 16) _ _ _ _ (k0_off2_hi c hmx) _ _ _ _ rfl _ _ rfl d16 _ _ _ rfl _ i hi)) $$ [Hq00 Hd16 HO Hts16 Htr16]
  · iframe # ∗
  iintro ⟨HcS16, HO⟩
  iclear HIr16 Hrr16
  icases HXs with ⟨HX19, HXs⟩
  icases HGs with ⟨⟨#HIs17, #HIr17, HatS17, #Hrs17, Hts17, Htr17, Ho17⟩, HGs⟩
  sl_exec_parts (disch := a2a_disch)
  ihave Hb := (sendPay_lit (F := F) c 15 (k0_off4_hi c hmx) rfl) $$ HatS15_pay1
  icases Hb with ⟨%r15, Hq10⟩
  ihave Hq11 := (cv_lit (F := F) c (k0_off5_hi c hmx)) $$ Hq11
  imod (cell_done m (Ks c 15) (sendCell c 15)) $$ [HatS15] with HzS15
  · iframe # ∗
  ihave Hn := (pts_name (F := F) _ _) $$ Ho15
  icases Hn with ⟨%u15, %hu15, Ho15⟩
  ihave Ho15 := (Entails.of_eq (pointsTo_congr (f := u15) (g := outC m c) (by intro i hi; subst hu15; sl_unfold_words; exact local_val_w m c 15 1 (by omega) _ _ (k0_off1_eq c 15) _ _ _ _ (k0_off5_hi c hmx) _ _ _ _ rfl _ _ rfl fo _ _ _ rfl _ i hi))) $$ Ho15
  iclear HIs15 Hrs15
  sl_exec_parts (disch := a2a_disch)
  icases Hp with ⟨⟨⟨%d17, Hd17⟩, #Hrr17⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w17, %hw17, Hq10⟩
  iapply (wp_send_ch m c 17 (k0_off1 c 2176#32) (k0_off1_inb c 17) rfl rfl w17 d17 (by intro i hi; subst hw17; sl_unfold_words; exact send_val m c 17 0 (by omega) _ _ (k0_off1_eq c 17) _ _ _ _ (k0_off4_hi c hmx) _ _ _ _ rfl _ _ rfl d17 _ _ _ rfl _ i hi)) $$ [Hq10 Hd17 HO Hts17 Htr17]
  · iframe # ∗
  iintro ⟨HcS17, HO⟩
  iclear HIr17 Hrr17
  icases HXs with ⟨HX20, HXs⟩
  icases HGs with ⟨⟨#HIs18, #HIr18, HatS18, #Hrs18, Hts18, Htr18, Ho18⟩, HGs⟩
  sl_exec_parts (disch := a2a_disch)
  ihave Hb := (sendPay_lit (F := F) c 16 (k0_off2_hi c hmx) rfl) $$ HatS16_pay1
  icases Hb with ⟨%r16, Hq00⟩
  ihave Hq01 := (cv_lit (F := F) c (k0_off3_hi c hmx)) $$ Hq01
  imod (cell_done m (Ks c 16) (sendCell c 16)) $$ [HatS16] with HzS16
  · iframe # ∗
  ihave Hn := (pts_name (F := F) _ _) $$ Ho16
  icases Hn with ⟨%u16, %hu16, Ho16⟩
  ihave Ho16 := (Entails.of_eq (pointsTo_congr (f := u16) (g := outC m c) (by intro i hi; subst hu16; sl_unfold_words; exact local_val_w m c 16 1 (by omega) _ _ (k0_off1_eq c 16) _ _ _ _ (k0_off3_hi c hmx) _ _ _ _ rfl _ _ rfl fo _ _ _ rfl _ i hi))) $$ Ho16
  iclear HIs16 Hrs16
  sl_exec_parts (disch := a2a_disch)
  icases Hp with ⟨⟨⟨%d18, Hd18⟩, #Hrr18⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w18, %hw18, Hq00⟩
  iapply (wp_send_ch m c 18 (k0_off1 c 2304#32) (k0_off1_inb c 18) rfl rfl w18 d18 (by intro i hi; subst hw18; sl_unfold_words; exact send_val m c 18 0 (by omega) _ _ (k0_off1_eq c 18) _ _ _ _ (k0_off2_hi c hmx) _ _ _ _ rfl _ _ rfl d18 _ _ _ rfl _ i hi)) $$ [Hq00 Hd18 HO Hts18 Htr18]
  · iframe # ∗
  iintro ⟨HcS18, HO⟩
  iclear HIr18 Hrr18
  icases HXs with ⟨HX21, HXs⟩
  icases HGs with ⟨⟨#HIs19, #HIr19, HatS19, #Hrs19, Hts19, Htr19, Ho19⟩, HGs⟩
  sl_exec_parts (disch := a2a_disch)
  ihave Hb := (sendPay_lit (F := F) c 17 (k0_off4_hi c hmx) rfl) $$ HatS17_pay1
  icases Hb with ⟨%r17, Hq10⟩
  ihave Hq11 := (cv_lit (F := F) c (k0_off5_hi c hmx)) $$ Hq11
  imod (cell_done m (Ks c 17) (sendCell c 17)) $$ [HatS17] with HzS17
  · iframe # ∗
  ihave Hn := (pts_name (F := F) _ _) $$ Ho17
  icases Hn with ⟨%u17, %hu17, Ho17⟩
  ihave Ho17 := (Entails.of_eq (pointsTo_congr (f := u17) (g := outC m c) (by intro i hi; subst hu17; sl_unfold_words; exact local_val_w m c 17 1 (by omega) _ _ (k0_off1_eq c 17) _ _ _ _ (k0_off5_hi c hmx) _ _ _ _ rfl _ _ rfl fo _ _ _ rfl _ i hi))) $$ Ho17
  iclear HIs17 Hrs17
  sl_exec_parts (disch := a2a_disch)
  icases Hp with ⟨⟨⟨%d19, Hd19⟩, #Hrr19⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w19, %hw19, Hq10⟩
  iapply (wp_send_ch m c 19 (k0_off1 c 2432#32) (k0_off1_inb c 19) rfl rfl w19 d19 (by intro i hi; subst hw19; sl_unfold_words; exact send_val m c 19 0 (by omega) _ _ (k0_off1_eq c 19) _ _ _ _ (k0_off4_hi c hmx) _ _ _ _ rfl _ _ rfl d19 _ _ _ rfl _ i hi)) $$ [Hq10 Hd19 HO Hts19 Htr19]
  · iframe # ∗
  iintro ⟨HcS19, HO⟩
  iclear HIr19 Hrr19
  icases HXs with ⟨HX22, HXs⟩
  icases HGs with ⟨⟨#HIs20, #HIr20, HatS20, #Hrs20, Hts20, Htr20, Ho20⟩, HGs⟩
  sl_exec_parts (disch := a2a_disch)
  ihave Hb := (sendPay_lit (F := F) c 18 (k0_off2_hi c hmx) rfl) $$ HatS18_pay1
  icases Hb with ⟨%r18, Hq00⟩
  ihave Hq01 := (cv_lit (F := F) c (k0_off3_hi c hmx)) $$ Hq01
  imod (cell_done m (Ks c 18) (sendCell c 18)) $$ [HatS18] with HzS18
  · iframe # ∗
  ihave Hn := (pts_name (F := F) _ _) $$ Ho18
  icases Hn with ⟨%u18, %hu18, Ho18⟩
  ihave Ho18 := (Entails.of_eq (pointsTo_congr (f := u18) (g := outC m c) (by intro i hi; subst hu18; sl_unfold_words; exact local_val_w m c 18 1 (by omega) _ _ (k0_off1_eq c 18) _ _ _ _ (k0_off3_hi c hmx) _ _ _ _ rfl _ _ rfl fo _ _ _ rfl _ i hi))) $$ Ho18
  iclear HIs18 Hrs18
  sl_exec_parts (disch := a2a_disch)
  icases Hp with ⟨⟨⟨%d20, Hd20⟩, #Hrr20⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w20, %hw20, Hq00⟩
  iapply (wp_send_ch m c 20 (k0_off1 c 2560#32) (k0_off1_inb c 20) rfl rfl w20 d20 (by intro i hi; subst hw20; sl_unfold_words; exact send_val m c 20 0 (by omega) _ _ (k0_off1_eq c 20) _ _ _ _ (k0_off2_hi c hmx) _ _ _ _ rfl _ _ rfl d20 _ _ _ rfl _ i hi)) $$ [Hq00 Hd20 HO Hts20 Htr20]
  · iframe # ∗
  iintro ⟨HcS20, HO⟩
  iclear HIr20 Hrr20
  icases HXs with ⟨HX23, HXs⟩
  icases HGs with ⟨⟨#HIs21, #HIr21, HatS21, #Hrs21, Hts21, Htr21, Ho21⟩, HGs⟩
  sl_exec_parts (disch := a2a_disch)
  ihave Hb := (sendPay_lit (F := F) c 19 (k0_off4_hi c hmx) rfl) $$ HatS19_pay1
  icases Hb with ⟨%r19, Hq10⟩
  ihave Hq11 := (cv_lit (F := F) c (k0_off5_hi c hmx)) $$ Hq11
  imod (cell_done m (Ks c 19) (sendCell c 19)) $$ [HatS19] with HzS19
  · iframe # ∗
  ihave Hn := (pts_name (F := F) _ _) $$ Ho19
  icases Hn with ⟨%u19, %hu19, Ho19⟩
  ihave Ho19 := (Entails.of_eq (pointsTo_congr (f := u19) (g := outC m c) (by intro i hi; subst hu19; sl_unfold_words; exact local_val_w m c 19 1 (by omega) _ _ (k0_off1_eq c 19) _ _ _ _ (k0_off5_hi c hmx) _ _ _ _ rfl _ _ rfl fo _ _ _ rfl _ i hi))) $$ Ho19
  iclear HIs19 Hrs19
  sl_exec_parts (disch := a2a_disch)
  icases Hp with ⟨⟨⟨%d21, Hd21⟩, #Hrr21⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w21, %hw21, Hq10⟩
  iapply (wp_send_ch m c 21 (k0_off1 c 2688#32) (k0_off1_inb c 21) rfl rfl w21 d21 (by intro i hi; subst hw21; sl_unfold_words; exact send_val m c 21 0 (by omega) _ _ (k0_off1_eq c 21) _ _ _ _ (k0_off4_hi c hmx) _ _ _ _ rfl _ _ rfl d21 _ _ _ rfl _ i hi)) $$ [Hq10 Hd21 HO Hts21 Htr21]
  · iframe # ∗
  iintro ⟨HcS21, HO⟩
  iclear HIr21 Hrr21
  icases HXs with ⟨HX24, HXs⟩
  icases HGs with ⟨⟨#HIs22, #HIr22, HatS22, #Hrs22, Hts22, Htr22, Ho22⟩, HGs⟩
  sl_exec_parts (disch := a2a_disch)
  ihave Hb := (sendPay_lit (F := F) c 20 (k0_off2_hi c hmx) rfl) $$ HatS20_pay1
  icases Hb with ⟨%r20, Hq00⟩
  ihave Hq01 := (cv_lit (F := F) c (k0_off3_hi c hmx)) $$ Hq01
  imod (cell_done m (Ks c 20) (sendCell c 20)) $$ [HatS20] with HzS20
  · iframe # ∗
  ihave Hn := (pts_name (F := F) _ _) $$ Ho20
  icases Hn with ⟨%u20, %hu20, Ho20⟩
  ihave Ho20 := (Entails.of_eq (pointsTo_congr (f := u20) (g := outC m c) (by intro i hi; subst hu20; sl_unfold_words; exact local_val_w m c 20 1 (by omega) _ _ (k0_off1_eq c 20) _ _ _ _ (k0_off3_hi c hmx) _ _ _ _ rfl _ _ rfl fo _ _ _ rfl _ i hi))) $$ Ho20
  iclear HIs20 Hrs20
  sl_exec_parts (disch := a2a_disch)
  icases Hp with ⟨⟨⟨%d22, Hd22⟩, #Hrr22⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w22, %hw22, Hq00⟩
  iapply (wp_send_ch m c 22 (k0_off1 c 2816#32) (k0_off1_inb c 22) rfl rfl w22 d22 (by intro i hi; subst hw22; sl_unfold_words; exact send_val m c 22 0 (by omega) _ _ (k0_off1_eq c 22) _ _ _ _ (k0_off2_hi c hmx) _ _ _ _ rfl _ _ rfl d22 _ _ _ rfl _ i hi)) $$ [Hq00 Hd22 HO Hts22 Htr22]
  · iframe # ∗
  iintro ⟨HcS22, HO⟩
  iclear HIr22 Hrr22
  icases HXs with ⟨HX25, HXs⟩
  icases HGs with ⟨⟨#HIs23, #HIr23, HatS23, #Hrs23, Hts23, Htr23, Ho23⟩, HGs⟩
  sl_exec_parts (disch := a2a_disch)
  ihave Hb := (sendPay_lit (F := F) c 21 (k0_off4_hi c hmx) rfl) $$ HatS21_pay1
  icases Hb with ⟨%r21, Hq10⟩
  ihave Hq11 := (cv_lit (F := F) c (k0_off5_hi c hmx)) $$ Hq11
  imod (cell_done m (Ks c 21) (sendCell c 21)) $$ [HatS21] with HzS21
  · iframe # ∗
  ihave Hn := (pts_name (F := F) _ _) $$ Ho21
  icases Hn with ⟨%u21, %hu21, Ho21⟩
  ihave Ho21 := (Entails.of_eq (pointsTo_congr (f := u21) (g := outC m c) (by intro i hi; subst hu21; sl_unfold_words; exact local_val_w m c 21 1 (by omega) _ _ (k0_off1_eq c 21) _ _ _ _ (k0_off5_hi c hmx) _ _ _ _ rfl _ _ rfl fo _ _ _ rfl _ i hi))) $$ Ho21
  iclear HIs21 Hrs21
  sl_exec_parts (disch := a2a_disch)
  icases Hp with ⟨⟨⟨%d23, Hd23⟩, #Hrr23⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w23, %hw23, Hq10⟩
  iapply (wp_send_ch m c 23 (k0_off1 c 2944#32) (k0_off1_inb c 23) rfl rfl w23 d23 (by intro i hi; subst hw23; sl_unfold_words; exact send_val m c 23 0 (by omega) _ _ (k0_off1_eq c 23) _ _ _ _ (k0_off4_hi c hmx) _ _ _ _ rfl _ _ rfl d23 _ _ _ rfl _ i hi)) $$ [Hq10 Hd23 HO Hts23 Htr23]
  · iframe # ∗
  iintro ⟨HcS23, HO⟩
  iclear HIr23 Hrr23
  icases HXs with ⟨HX26, HXs⟩
  icases HGs with ⟨⟨#HIs24, #HIr24, HatS24, #Hrs24, Hts24, Htr24, Ho24⟩, HGs⟩
  sl_exec_parts (disch := a2a_disch)
  ihave Hb := (sendPay_lit (F := F) c 22 (k0_off2_hi c hmx) rfl) $$ HatS22_pay1
  icases Hb with ⟨%r22, Hq00⟩
  ihave Hq01 := (cv_lit (F := F) c (k0_off3_hi c hmx)) $$ Hq01
  imod (cell_done m (Ks c 22) (sendCell c 22)) $$ [HatS22] with HzS22
  · iframe # ∗
  ihave Hn := (pts_name (F := F) _ _) $$ Ho22
  icases Hn with ⟨%u22, %hu22, Ho22⟩
  ihave Ho22 := (Entails.of_eq (pointsTo_congr (f := u22) (g := outC m c) (by intro i hi; subst hu22; sl_unfold_words; exact local_val_w m c 22 1 (by omega) _ _ (k0_off1_eq c 22) _ _ _ _ (k0_off3_hi c hmx) _ _ _ _ rfl _ _ rfl fo _ _ _ rfl _ i hi))) $$ Ho22
  iclear HIs22 Hrs22
  sl_exec_parts (disch := a2a_disch)
  icases Hp with ⟨⟨⟨%d24, Hd24⟩, #Hrr24⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w24, %hw24, Hq00⟩
  iapply (wp_send_ch m c 24 (k0_off1 c 3072#32) (k0_off1_inb c 24) rfl rfl w24 d24 (by intro i hi; subst hw24; sl_unfold_words; exact send_val m c 24 0 (by omega) _ _ (k0_off1_eq c 24) _ _ _ _ (k0_off2_hi c hmx) _ _ _ _ rfl _ _ rfl d24 _ _ _ rfl _ i hi)) $$ [Hq00 Hd24 HO Hts24 Htr24]
  · iframe # ∗
  iintro ⟨HcS24, HO⟩
  iclear HIr24 Hrr24
  icases HXs with ⟨HX27, HXs⟩
  icases HGs with ⟨⟨#HIs25, #HIr25, HatS25, #Hrs25, Hts25, Htr25, Ho25⟩, HGs⟩
  sl_exec_parts (disch := a2a_disch)
  ihave Hb := (sendPay_lit (F := F) c 23 (k0_off4_hi c hmx) rfl) $$ HatS23_pay1
  icases Hb with ⟨%r23, Hq10⟩
  ihave Hq11 := (cv_lit (F := F) c (k0_off5_hi c hmx)) $$ Hq11
  imod (cell_done m (Ks c 23) (sendCell c 23)) $$ [HatS23] with HzS23
  · iframe # ∗
  ihave Hn := (pts_name (F := F) _ _) $$ Ho23
  icases Hn with ⟨%u23, %hu23, Ho23⟩
  ihave Ho23 := (Entails.of_eq (pointsTo_congr (f := u23) (g := outC m c) (by intro i hi; subst hu23; sl_unfold_words; exact local_val_w m c 23 1 (by omega) _ _ (k0_off1_eq c 23) _ _ _ _ (k0_off5_hi c hmx) _ _ _ _ rfl _ _ rfl fo _ _ _ rfl _ i hi))) $$ Ho23
  iclear HIs23 Hrs23
  sl_exec_parts (disch := a2a_disch)
  icases Hp with ⟨⟨⟨%d25, Hd25⟩, #Hrr25⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w25, %hw25, Hq10⟩
  iapply (wp_send_ch m c 25 (k0_off1 c 3200#32) (k0_off1_inb c 25) rfl rfl w25 d25 (by intro i hi; subst hw25; sl_unfold_words; exact send_val m c 25 0 (by omega) _ _ (k0_off1_eq c 25) _ _ _ _ (k0_off4_hi c hmx) _ _ _ _ rfl _ _ rfl d25 _ _ _ rfl _ i hi)) $$ [Hq10 Hd25 HO Hts25 Htr25]
  · iframe # ∗
  iintro ⟨HcS25, HO⟩
  iclear HIr25 Hrr25
  icases HXs with ⟨HX28, HXs⟩
  icases HGs with ⟨⟨#HIs26, #HIr26, HatS26, #Hrs26, Hts26, Htr26, Ho26⟩, HGs⟩
  sl_exec_parts (disch := a2a_disch)
  ihave Hb := (sendPay_lit (F := F) c 24 (k0_off2_hi c hmx) rfl) $$ HatS24_pay1
  icases Hb with ⟨%r24, Hq00⟩
  ihave Hq01 := (cv_lit (F := F) c (k0_off3_hi c hmx)) $$ Hq01
  imod (cell_done m (Ks c 24) (sendCell c 24)) $$ [HatS24] with HzS24
  · iframe # ∗
  ihave Hn := (pts_name (F := F) _ _) $$ Ho24
  icases Hn with ⟨%u24, %hu24, Ho24⟩
  ihave Ho24 := (Entails.of_eq (pointsTo_congr (f := u24) (g := outC m c) (by intro i hi; subst hu24; sl_unfold_words; exact local_val_w m c 24 1 (by omega) _ _ (k0_off1_eq c 24) _ _ _ _ (k0_off3_hi c hmx) _ _ _ _ rfl _ _ rfl fo _ _ _ rfl _ i hi))) $$ Ho24
  iclear HIs24 Hrs24
  sl_exec_parts (disch := a2a_disch)
  icases Hp with ⟨⟨⟨%d26, Hd26⟩, #Hrr26⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w26, %hw26, Hq00⟩
  iapply (wp_send_ch m c 26 (k0_off1 c 3328#32) (k0_off1_inb c 26) rfl rfl w26 d26 (by intro i hi; subst hw26; sl_unfold_words; exact send_val m c 26 0 (by omega) _ _ (k0_off1_eq c 26) _ _ _ _ (k0_off2_hi c hmx) _ _ _ _ rfl _ _ rfl d26 _ _ _ rfl _ i hi)) $$ [Hq00 Hd26 HO Hts26 Htr26]
  · iframe # ∗
  iintro ⟨HcS26, HO⟩
  iclear HIr26 Hrr26
  icases HXs with ⟨HX29, HXs⟩
  icases HGs with ⟨⟨#HIs27, #HIr27, HatS27, #Hrs27, Hts27, Htr27, Ho27⟩, HGs⟩
  sl_exec_parts (disch := a2a_disch)
  ihave Hb := (sendPay_lit (F := F) c 25 (k0_off4_hi c hmx) rfl) $$ HatS25_pay1
  icases Hb with ⟨%r25, Hq10⟩
  ihave Hq11 := (cv_lit (F := F) c (k0_off5_hi c hmx)) $$ Hq11
  imod (cell_done m (Ks c 25) (sendCell c 25)) $$ [HatS25] with HzS25
  · iframe # ∗
  ihave Hn := (pts_name (F := F) _ _) $$ Ho25
  icases Hn with ⟨%u25, %hu25, Ho25⟩
  ihave Ho25 := (Entails.of_eq (pointsTo_congr (f := u25) (g := outC m c) (by intro i hi; subst hu25; sl_unfold_words; exact local_val_w m c 25 1 (by omega) _ _ (k0_off1_eq c 25) _ _ _ _ (k0_off5_hi c hmx) _ _ _ _ rfl _ _ rfl fo _ _ _ rfl _ i hi))) $$ Ho25
  iclear HIs25 Hrs25
  sl_exec_parts (disch := a2a_disch)
  icases Hp with ⟨⟨⟨%d27, Hd27⟩, #Hrr27⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w27, %hw27, Hq10⟩
  iapply (wp_send_ch m c 27 (k0_off1 c 3456#32) (k0_off1_inb c 27) rfl rfl w27 d27 (by intro i hi; subst hw27; sl_unfold_words; exact send_val m c 27 0 (by omega) _ _ (k0_off1_eq c 27) _ _ _ _ (k0_off4_hi c hmx) _ _ _ _ rfl _ _ rfl d27 _ _ _ rfl _ i hi)) $$ [Hq10 Hd27 HO Hts27 Htr27]
  · iframe # ∗
  iintro ⟨HcS27, HO⟩
  iclear HIr27 Hrr27
  icases HXs with ⟨HX30, HXs⟩
  icases HGs with ⟨⟨#HIs28, #HIr28, HatS28, #Hrs28, Hts28, Htr28, Ho28⟩, HGs⟩
  sl_exec_parts (disch := a2a_disch)
  ihave Hb := (sendPay_lit (F := F) c 26 (k0_off2_hi c hmx) rfl) $$ HatS26_pay1
  icases Hb with ⟨%r26, Hq00⟩
  ihave Hq01 := (cv_lit (F := F) c (k0_off3_hi c hmx)) $$ Hq01
  imod (cell_done m (Ks c 26) (sendCell c 26)) $$ [HatS26] with HzS26
  · iframe # ∗
  ihave Hn := (pts_name (F := F) _ _) $$ Ho26
  icases Hn with ⟨%u26, %hu26, Ho26⟩
  ihave Ho26 := (Entails.of_eq (pointsTo_congr (f := u26) (g := outC m c) (by intro i hi; subst hu26; sl_unfold_words; exact local_val_w m c 26 1 (by omega) _ _ (k0_off1_eq c 26) _ _ _ _ (k0_off3_hi c hmx) _ _ _ _ rfl _ _ rfl fo _ _ _ rfl _ i hi))) $$ Ho26
  iclear HIs26 Hrs26
  sl_exec_parts (disch := a2a_disch)
  icases Hp with ⟨⟨⟨%d28, Hd28⟩, #Hrr28⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w28, %hw28, Hq00⟩
  iapply (wp_send_ch m c 28 (k0_off1 c 3584#32) (k0_off1_inb c 28) rfl rfl w28 d28 (by intro i hi; subst hw28; sl_unfold_words; exact send_val m c 28 0 (by omega) _ _ (k0_off1_eq c 28) _ _ _ _ (k0_off2_hi c hmx) _ _ _ _ rfl _ _ rfl d28 _ _ _ rfl _ i hi)) $$ [Hq00 Hd28 HO Hts28 Htr28]
  · iframe # ∗
  iintro ⟨HcS28, HO⟩
  iclear HIr28 Hrr28
  icases HXs with HX31
  icases HGs with ⟨⟨#HIs29, #HIr29, HatS29, #Hrs29, Hts29, Htr29, Ho29⟩, HGs⟩
  sl_exec_parts (disch := a2a_disch)
  ihave Hb := (sendPay_lit (F := F) c 27 (k0_off4_hi c hmx) rfl) $$ HatS27_pay1
  icases Hb with ⟨%r27, Hq10⟩
  ihave Hq11 := (cv_lit (F := F) c (k0_off5_hi c hmx)) $$ Hq11
  imod (cell_done m (Ks c 27) (sendCell c 27)) $$ [HatS27] with HzS27
  · iframe # ∗
  ihave Hn := (pts_name (F := F) _ _) $$ Ho27
  icases Hn with ⟨%u27, %hu27, Ho27⟩
  ihave Ho27 := (Entails.of_eq (pointsTo_congr (f := u27) (g := outC m c) (by intro i hi; subst hu27; sl_unfold_words; exact local_val_w m c 27 1 (by omega) _ _ (k0_off1_eq c 27) _ _ _ _ (k0_off5_hi c hmx) _ _ _ _ rfl _ _ rfl fo _ _ _ rfl _ i hi))) $$ Ho27
  iclear HIs27 Hrs27
  sl_exec_parts (disch := a2a_disch)
  icases Hp with ⟨⟨⟨%d29, Hd29⟩, #Hrr29⟩, Hp⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w29, %hw29, Hq10⟩
  iapply (wp_send_ch m c 29 (k0_off1 c 3712#32) (k0_off1_inb c 29) rfl rfl w29 d29 (by intro i hi; subst hw29; sl_unfold_words; exact send_val m c 29 0 (by omega) _ _ (k0_off1_eq c 29) _ _ _ _ (k0_off4_hi c hmx) _ _ _ _ rfl _ _ rfl d29 _ _ _ rfl _ i hi)) $$ [Hq10 Hd29 HO Hts29 Htr29]
  · iframe # ∗
  iintro ⟨HcS29, HO⟩
  iclear HIr29 Hrr29
  icases HGs with ⟨⟨#HIs30, #HIr30, HatS30, #Hrs30, Hts30, Htr30, Ho30⟩, HGs⟩
  sl_exec_parts (disch := a2a_disch)
  ihave Hb := (sendPay_lit (F := F) c 28 (k0_off2_hi c hmx) rfl) $$ HatS28_pay1
  icases Hb with ⟨%r28, Hq00⟩
  ihave Hq01 := (cv_lit (F := F) c (k0_off3_hi c hmx)) $$ Hq01
  imod (cell_done m (Ks c 28) (sendCell c 28)) $$ [HatS28] with HzS28
  · iframe # ∗
  ihave Hn := (pts_name (F := F) _ _) $$ Ho28
  icases Hn with ⟨%u28, %hu28, Ho28⟩
  ihave Ho28 := (Entails.of_eq (pointsTo_congr (f := u28) (g := outC m c) (by intro i hi; subst hu28; sl_unfold_words; exact local_val_w m c 28 1 (by omega) _ _ (k0_off1_eq c 28) _ _ _ _ (k0_off3_hi c hmx) _ _ _ _ rfl _ _ rfl fo _ _ _ rfl _ i hi))) $$ Ho28
  iclear HIs28 Hrs28
  sl_exec_parts (disch := a2a_disch)
  icases Hp with ⟨⟨⟨%d30, Hd30⟩, #Hrr30⟩, Hp⟩
  ihave Hq00 := (cv_sym (F := F) c (k0_off2_hi c hmx) (k0_off2_inb c)) $$ Hq00
  ihave Hq01 := (cv_sym (F := F) c (k0_off3_hi c hmx) (k0_off3_inb c)) $$ Hq01
  ihave Hn := (pts_name (F := F) _ _) $$ Hq00
  icases Hn with ⟨%w30, %hw30, Hq00⟩
  iapply (wp_send_ch m c 30 (k0_off1 c 3840#32) (k0_off1_inb c 30) rfl rfl w30 d30 (by intro i hi; subst hw30; sl_unfold_words; exact send_val m c 30 0 (by omega) _ _ (k0_off1_eq c 30) _ _ _ _ (k0_off2_hi c hmx) _ _ _ _ rfl _ _ rfl d30 _ _ _ rfl _ i hi)) $$ [Hq00 Hd30 HO Hts30 Htr30]
  · iframe # ∗
  iintro ⟨HcS30, HO⟩
  iclear HIr30 Hrr30
  icases HGs with ⟨#HIs31, #HIr31, HatS31, #Hrs31, Hts31, Htr31, Ho31⟩
  sl_exec_parts (disch := a2a_disch)
  ihave Hb := (sendPay_lit (F := F) c 29 (k0_off4_hi c hmx) rfl) $$ HatS29_pay1
  icases Hb with ⟨%r29, Hq10⟩
  ihave Hq11 := (cv_lit (F := F) c (k0_off5_hi c hmx)) $$ Hq11
  imod (cell_done m (Ks c 29) (sendCell c 29)) $$ [HatS29] with HzS29
  · iframe # ∗
  ihave Hn := (pts_name (F := F) _ _) $$ Ho29
  icases Hn with ⟨%u29, %hu29, Ho29⟩
  ihave Ho29 := (Entails.of_eq (pointsTo_congr (f := u29) (g := outC m c) (by intro i hi; subst hu29; sl_unfold_words; exact local_val_w m c 29 1 (by omega) _ _ (k0_off1_eq c 29) _ _ _ _ (k0_off5_hi c hmx) _ _ _ _ rfl _ _ rfl fo _ _ _ rfl _ i hi))) $$ Ho29
  iclear HIs29 Hrs29
  sl_exec_parts (disch := a2a_disch)
  icases Hp with ⟨⟨%d31, Hd31⟩, #Hrr31⟩
  ihave Hq10 := (cv_sym (F := F) c (k0_off4_hi c hmx) (k0_off4_inb c)) $$ Hq10
  ihave Hq11 := (cv_sym (F := F) c (k0_off5_hi c hmx) (k0_off5_inb c)) $$ Hq11
  ihave Hn := (pts_name (F := F) _ _) $$ Hq10
  icases Hn with ⟨%w31, %hw31, Hq10⟩
  iapply (wp_send_ch m c 31 (k0_off1 c 3968#32) (k0_off1_inb c 31) rfl rfl w31 d31 (by intro i hi; subst hw31; sl_unfold_words; exact send_val m c 31 0 (by omega) _ _ (k0_off1_eq c 31) _ _ _ _ (k0_off4_hi c hmx) _ _ _ _ rfl _ _ rfl d31 _ _ _ rfl _ i hi)) $$ [Hq10 Hd31 HO Hts31 Htr31]
  · iframe # ∗
  iintro ⟨HcS31, HO⟩
  iclear HIr31 Hrr31
  icases HVs with ⟨⟨#HIv0, HatV0, HcV0⟩, ⟨#HIv1, HatV1, HcV1⟩, ⟨#HIv2, HatV2, HcV2⟩, ⟨#HIv3, HatV3, HcV3⟩, ⟨#HIv4, HatV4, HcV4⟩, ⟨#HIv5, HatV5, HcV5⟩, ⟨#HIv6, HatV6, HcV6⟩, ⟨#HIv7, HatV7, HcV7⟩, ⟨#HIv8, HatV8, HcV8⟩, ⟨#HIv9, HatV9, HcV9⟩, ⟨#HIv10, HatV10, HcV10⟩, ⟨#HIv11, HatV11, HcV11⟩, ⟨#HIv12, HatV12, HcV12⟩, ⟨#HIv13, HatV13, HcV13⟩, ⟨#HIv14, HatV14, HcV14⟩, ⟨#HIv15, HatV15, HcV15⟩, ⟨#HIv16, HatV16, HcV16⟩, ⟨#HIv17, HatV17, HcV17⟩, ⟨#HIv18, HatV18, HcV18⟩, ⟨#HIv19, HatV19, HcV19⟩, ⟨#HIv20, HatV20, HcV20⟩, ⟨#HIv21, HatV21, HcV21⟩, ⟨#HIv22, HatV22, HcV22⟩, ⟨#HIv23, HatV23, HcV23⟩, ⟨#HIv24, HatV24, HcV24⟩, ⟨#HIv25, HatV25, HcV25⟩, ⟨#HIv26, HatV26, HcV26⟩, ⟨#HIv27, HatV27, HcV27⟩, ⟨#HIv28, HatV28, HcV28⟩, ⟨#HIv29, HatV29, HcV29⟩, ⟨#HIv30, HatV30, HcV30⟩, ⟨#HIv31, HatV31, HcV31⟩⟩
  sl_exec_parts (disch := a2a_disch)
  ihave Hb := (sendPay_lit (F := F) c 30 (k0_off2_hi c hmx) rfl) $$ HatS30_pay1
  icases Hb with ⟨%r30, Hq00⟩
  ihave Hq01 := (cv_lit (F := F) c (k0_off3_hi c hmx)) $$ Hq01
  imod (cell_done m (Ks c 30) (sendCell c 30)) $$ [HatS30] with HzS30
  · iframe # ∗
  ihave Hn := (pts_name (F := F) _ _) $$ Ho30
  icases Hn with ⟨%u30, %hu30, Ho30⟩
  ihave Ho30 := (Entails.of_eq (pointsTo_congr (f := u30) (g := outC m c) (by intro i hi; subst hu30; sl_unfold_words; exact local_val_w m c 30 1 (by omega) _ _ (k0_off1_eq c 30) _ _ _ _ (k0_off3_hi c hmx) _ _ _ _ rfl _ _ rfl fo _ _ _ rfl _ i hi))) $$ Ho30
  iclear HIs30 Hrs30
  ihave Hb := (sendPay_lit (F := F) c 31 (k0_off4_hi c hmx) rfl) $$ HatS31_pay1
  icases Hb with ⟨%r31, Hq10⟩
  ihave Hq11 := (cv_lit (F := F) c (k0_off5_hi c hmx)) $$ Hq11
  imod (cell_done m (Ks c 31) (sendCell c 31)) $$ [HatS31] with HzS31
  · iframe # ∗
  ihave Hn := (pts_name (F := F) _ _) $$ Ho31
  icases Hn with ⟨%u31, %hu31, Ho31⟩
  ihave Ho31 := (Entails.of_eq (pointsTo_congr (f := u31) (g := outC m c) (by intro i hi; subst hu31; sl_unfold_words; exact local_val_w m c 31 1 (by omega) _ _ (k0_off1_eq c 31) _ _ _ _ (k0_off5_hi c hmx) _ _ _ _ rfl _ _ rfl fo _ _ _ rfl _ i hi))) $$ Ho31
  iclear HIs31 Hrs31
  imod (cell_done m (Kr c 0) (recvCell c 0)) $$ [HatV0] with HzV0
  · iframe # ∗
  imod (cell_done m (Kr c 1) (recvCell c 1)) $$ [HatV1] with HzV1
  · iframe # ∗
  imod (cell_done m (Kr c 2) (recvCell c 2)) $$ [HatV2] with HzV2
  · iframe # ∗
  imod (cell_done m (Kr c 3) (recvCell c 3)) $$ [HatV3] with HzV3
  · iframe # ∗
  imod (cell_done m (Kr c 4) (recvCell c 4)) $$ [HatV4] with HzV4
  · iframe # ∗
  imod (cell_done m (Kr c 5) (recvCell c 5)) $$ [HatV5] with HzV5
  · iframe # ∗
  imod (cell_done m (Kr c 6) (recvCell c 6)) $$ [HatV6] with HzV6
  · iframe # ∗
  imod (cell_done m (Kr c 7) (recvCell c 7)) $$ [HatV7] with HzV7
  · iframe # ∗
  imod (cell_done m (Kr c 8) (recvCell c 8)) $$ [HatV8] with HzV8
  · iframe # ∗
  imod (cell_done m (Kr c 9) (recvCell c 9)) $$ [HatV9] with HzV9
  · iframe # ∗
  imod (cell_done m (Kr c 10) (recvCell c 10)) $$ [HatV10] with HzV10
  · iframe # ∗
  imod (cell_done m (Kr c 11) (recvCell c 11)) $$ [HatV11] with HzV11
  · iframe # ∗
  imod (cell_done m (Kr c 12) (recvCell c 12)) $$ [HatV12] with HzV12
  · iframe # ∗
  imod (cell_done m (Kr c 13) (recvCell c 13)) $$ [HatV13] with HzV13
  · iframe # ∗
  imod (cell_done m (Kr c 14) (recvCell c 14)) $$ [HatV14] with HzV14
  · iframe # ∗
  imod (cell_done m (Kr c 15) (recvCell c 15)) $$ [HatV15] with HzV15
  · iframe # ∗
  imod (cell_done m (Kr c 16) (recvCell c 16)) $$ [HatV16] with HzV16
  · iframe # ∗
  imod (cell_done m (Kr c 17) (recvCell c 17)) $$ [HatV17] with HzV17
  · iframe # ∗
  imod (cell_done m (Kr c 18) (recvCell c 18)) $$ [HatV18] with HzV18
  · iframe # ∗
  imod (cell_done m (Kr c 19) (recvCell c 19)) $$ [HatV19] with HzV19
  · iframe # ∗
  imod (cell_done m (Kr c 20) (recvCell c 20)) $$ [HatV20] with HzV20
  · iframe # ∗
  imod (cell_done m (Kr c 21) (recvCell c 21)) $$ [HatV21] with HzV21
  · iframe # ∗
  imod (cell_done m (Kr c 22) (recvCell c 22)) $$ [HatV22] with HzV22
  · iframe # ∗
  imod (cell_done m (Kr c 23) (recvCell c 23)) $$ [HatV23] with HzV23
  · iframe # ∗
  imod (cell_done m (Kr c 24) (recvCell c 24)) $$ [HatV24] with HzV24
  · iframe # ∗
  imod (cell_done m (Kr c 25) (recvCell c 25)) $$ [HatV25] with HzV25
  · iframe # ∗
  imod (cell_done m (Kr c 26) (recvCell c 26)) $$ [HatV26] with HzV26
  · iframe # ∗
  imod (cell_done m (Kr c 27) (recvCell c 27)) $$ [HatV27] with HzV27
  · iframe # ∗
  imod (cell_done m (Kr c 28) (recvCell c 28)) $$ [HatV28] with HzV28
  · iframe # ∗
  imod (cell_done m (Kr c 29) (recvCell c 29)) $$ [HatV29] with HzV29
  · iframe # ∗
  imod (cell_done m (Kr c 30) (recvCell c 30)) $$ [HatV30] with HzV30
  · iframe # ∗
  imod (cell_done m (Kr c 31) (recvCell c 31)) $$ [HatV31] with HzV31
  · iframe # ∗
  sl_step
  iapply Hk
  unfold runPost
  simp only [bigSep_fin32r]
  unfold xPc slPts
  isplitl [HX0 HX1 HX2 HX3 HX4 HX5 HX6 HX7 HX8 HX9 HX10 HX11 HX12 HX13 HX14 HX15 HX16 HX17 HX18 HX19 HX20 HX21 HX22 HX23 HX24 HX25 HX26 HX27 HX28 HX29 HX30 HX31]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    iexact HX31
  isplitl [Hst0]; · iexists _; iexact Hst0
  isplitl [Hst1]; · iexists _; iexact Hst1
  isplitl [Hq00]; · iexists _; iexact Hq00
  isplitl [Hq01]; · iexists _; iexact Hq01
  isplitl [Hq10]; · iexists _; iexact Hq10
  isplitl [Hq11]; · iexists _; iexact Hq11
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    isplitl [Ho24]; · iexact Ho24
    isplitl [Ho25]; · iexact Ho25
    isplitl [Ho26]; · iexact Ho26
    isplitl [Ho27]; · iexact Ho27
    isplitl [Ho28]; · iexact Ho28
    isplitl [Ho29]; · iexact Ho29
    isplitl [Ho30]; · iexact Ho30
    iexact Ho31
  isplitl [HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 HatV15_pay1 HatV16_pay1 HatV17_pay1 HatV18_pay1 HatV19_pay1 HatV20_pay1 HatV21_pay1 HatV22_pay1 HatV23_pay1 HatV24_pay1 HatV25_pay1 HatV26_pay1 HatV27_pay1 HatV28_pay1 HatV29_pay1 HatV30_pay1 HatV31_pay1]
  · isplitl [HatV0_pay1]; · iexact HatV0_pay1
    isplitl [HatV1_pay1]; · iexact HatV1_pay1
    isplitl [HatV2_pay1]; · iexact HatV2_pay1
    isplitl [HatV3_pay1]; · iexact HatV3_pay1
    isplitl [HatV4_pay1]; · iexact HatV4_pay1
    isplitl [HatV5_pay1]; · iexact HatV5_pay1
    isplitl [HatV6_pay1]; · iexact HatV6_pay1
    isplitl [HatV7_pay1]; · iexact HatV7_pay1
    isplitl [HatV8_pay1]; · iexact HatV8_pay1
    isplitl [HatV9_pay1]; · iexact HatV9_pay1
    isplitl [HatV10_pay1]; · iexact HatV10_pay1
    isplitl [HatV11_pay1]; · iexact HatV11_pay1
    isplitl [HatV12_pay1]; · iexact HatV12_pay1
    isplitl [HatV13_pay1]; · iexact HatV13_pay1
    isplitl [HatV14_pay1]; · iexact HatV14_pay1
    isplitl [HatV15_pay1]; · iexact HatV15_pay1
    isplitl [HatV16_pay1]; · iexact HatV16_pay1
    isplitl [HatV17_pay1]; · iexact HatV17_pay1
    isplitl [HatV18_pay1]; · iexact HatV18_pay1
    isplitl [HatV19_pay1]; · iexact HatV19_pay1
    isplitl [HatV20_pay1]; · iexact HatV20_pay1
    isplitl [HatV21_pay1]; · iexact HatV21_pay1
    isplitl [HatV22_pay1]; · iexact HatV22_pay1
    isplitl [HatV23_pay1]; · iexact HatV23_pay1
    isplitl [HatV24_pay1]; · iexact HatV24_pay1
    isplitl [HatV25_pay1]; · iexact HatV25_pay1
    isplitl [HatV26_pay1]; · iexact HatV26_pay1
    isplitl [HatV27_pay1]; · iexact HatV27_pay1
    isplitl [HatV28_pay1]; · iexact HatV28_pay1
    isplitl [HatV29_pay1]; · iexact HatV29_pay1
    isplitl [HatV30_pay1]; · iexact HatV30_pay1
    iexact HatV31_pay1
  isplitl [HzS0 HzV0 HzS1 HzV1 HzS2 HzV2 HzS3 HzV3 HzS4 HzV4 HzS5 HzV5 HzS6 HzV6 HzS7 HzV7 HzS8 HzV8 HzS9 HzV9 HzS10 HzV10 HzS11 HzV11 HzS12 HzV12 HzS13 HzV13 HzS14 HzV14 HzS15 HzV15 HzS16 HzV16 HzS17 HzV17 HzS18 HzV18 HzS19 HzV19 HzS20 HzV20 HzS21 HzV21 HzS22 HzV22 HzS23 HzV23 HzS24 HzV24 HzS25 HzV25 HzS26 HzV26 HzS27 HzV27 HzS28 HzV28 HzS29 HzV29 HzS30 HzV30 HzS31 HzV31]
  · isplitl [HzS0 HzV0]; · (isplitl [HzS0]; · iexact HzS0); iexact HzV0
    isplitl [HzS1 HzV1]; · (isplitl [HzS1]; · iexact HzS1); iexact HzV1
    isplitl [HzS2 HzV2]; · (isplitl [HzS2]; · iexact HzS2); iexact HzV2
    isplitl [HzS3 HzV3]; · (isplitl [HzS3]; · iexact HzS3); iexact HzV3
    isplitl [HzS4 HzV4]; · (isplitl [HzS4]; · iexact HzS4); iexact HzV4
    isplitl [HzS5 HzV5]; · (isplitl [HzS5]; · iexact HzS5); iexact HzV5
    isplitl [HzS6 HzV6]; · (isplitl [HzS6]; · iexact HzS6); iexact HzV6
    isplitl [HzS7 HzV7]; · (isplitl [HzS7]; · iexact HzS7); iexact HzV7
    isplitl [HzS8 HzV8]; · (isplitl [HzS8]; · iexact HzS8); iexact HzV8
    isplitl [HzS9 HzV9]; · (isplitl [HzS9]; · iexact HzS9); iexact HzV9
    isplitl [HzS10 HzV10]; · (isplitl [HzS10]; · iexact HzS10); iexact HzV10
    isplitl [HzS11 HzV11]; · (isplitl [HzS11]; · iexact HzS11); iexact HzV11
    isplitl [HzS12 HzV12]; · (isplitl [HzS12]; · iexact HzS12); iexact HzV12
    isplitl [HzS13 HzV13]; · (isplitl [HzS13]; · iexact HzS13); iexact HzV13
    isplitl [HzS14 HzV14]; · (isplitl [HzS14]; · iexact HzS14); iexact HzV14
    isplitl [HzS15 HzV15]; · (isplitl [HzS15]; · iexact HzS15); iexact HzV15
    isplitl [HzS16 HzV16]; · (isplitl [HzS16]; · iexact HzS16); iexact HzV16
    isplitl [HzS17 HzV17]; · (isplitl [HzS17]; · iexact HzS17); iexact HzV17
    isplitl [HzS18 HzV18]; · (isplitl [HzS18]; · iexact HzS18); iexact HzV18
    isplitl [HzS19 HzV19]; · (isplitl [HzS19]; · iexact HzS19); iexact HzV19
    isplitl [HzS20 HzV20]; · (isplitl [HzS20]; · iexact HzS20); iexact HzV20
    isplitl [HzS21 HzV21]; · (isplitl [HzS21]; · iexact HzS21); iexact HzV21
    isplitl [HzS22 HzV22]; · (isplitl [HzS22]; · iexact HzS22); iexact HzV22
    isplitl [HzS23 HzV23]; · (isplitl [HzS23]; · iexact HzS23); iexact HzV23
    isplitl [HzS24 HzV24]; · (isplitl [HzS24]; · iexact HzS24); iexact HzV24
    isplitl [HzS25 HzV25]; · (isplitl [HzS25]; · iexact HzS25); iexact HzV25
    isplitl [HzS26 HzV26]; · (isplitl [HzS26]; · iexact HzS26); iexact HzV26
    isplitl [HzS27 HzV27]; · (isplitl [HzS27]; · iexact HzS27); iexact HzV27
    isplitl [HzS28 HzV28]; · (isplitl [HzS28]; · iexact HzS28); iexact HzV28
    isplitl [HzS29 HzV29]; · (isplitl [HzS29]; · iexact HzS29); iexact HzV29
    isplitl [HzS30 HzV30]; · (isplitl [HzS30]; · iexact HzS30); iexact HzV30
    (isplitl [HzS31]; · iexact HzS31); iexact HzV31
  isplitl [Hc0]; · iexact Hc0
  isplitl [Hc1]; · iexact Hc1
  isplitl [Hl0]; · iexact Hl0
  isplitl [Hl1]; · iexact Hl1
  iexists _; iexact HO

end Cert.Kernel.A2A

end
-- ==== Proof.KA2A.Body.lean ====
import proofs.«900634_g7700000000000635_dist_a2a_v7x_xyz2x2x4_x_m4096_n1024_bf16_1_alg».proof.Proof.KA2A.RunLo
import proofs.«900634_g7700000000000635_dist_a2a_v7x_xyz2x2x4_x_m4096_n1024_bf16_1_alg».proof.Proof.KA2A.RunHi

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sum_fin32_desc {M : Type} [AddCommMonoid M] (f : Fin 32 → M) :
    ∑ k : Fin 32, f k = 0 + f 31 + f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  rw [Fin.sum_univ_def, show List.finRange 32 = ([0, 1, 2, 3, 4, 5, 6, 7, 8, 9, 10, 11, 12, 13, 14, 15, 16, 17, 18, 19, 20, 21, 22, 23, 24, 25, 26, 27, 28, 29, 30, 31] : List (Fin 32)) from by decide]
  simp only [List.map_cons, List.map_nil, List.sum_cons, List.sum_nil]
  ac_rfl

def barPc (c : Dev nD) (k : Fin 32) : sProp 𝕄 :=
  iprop((∃ f, slPts (F := F) c (peer c) k f) ∗ reached ER (recvCell c k) 0)

theorem barPay_peer (c : Dev nD) : barPay (F := F) (peer c) = bigSep Finset.univ (barPc (F := F) c) := by
  unfold barPay barPc; rw [peer_peer]

theorem regroup32 (Ks Kr : Dev nD → Fin 32 → ℕ) (c : Dev nD) (fo : Buf (Elt F) (oM.view.loc (c : Thread nD τ))) :
    iprop((bigSep Finset.univ fun k : Fin 32 => iprop(cellInv ER (Rd m) (Ks c k) (sendCell c k) ∗ cellInv ER (Rd m) (Kr c k) (recvCell c k) ∗ cellInv ER (Rd m) (Kr (peer c) k) (recvCell (peer c) k)))
        ∗ (bigSep Finset.univ fun k : Fin 32 => iprop(atPos ER (sendCell c k) 0 ∅ 0 ∗ atPos ER (recvCell c k) 0 ∅ 0 ∗ reached ER (sendCell c k) 0 ∗ reached ER (recvCell c k) 0 ∗ dutyTok ER (sendCell c k) 0 () ∗ dutyTok ER (recvCell (peer c) k) 0 ()))
        ∗ (bigSep Finset.univ fun k : Fin 32 => cred (tallyAt (recvCell c k) () N))
        ∗ (bigSep Finset.univ fun k : Fin 32 => slPts (F := F) c c k fo)
        ∗ (bigSep Finset.univ fun k : Fin 32 => slPts (F := F) c (peer c) k fo)
        ∗ (bigSep Finset.univ (xPc m c)))
      ⊢ iprop(bigSep Finset.univ (sendGrp m Ks Kr c fo) ∗ bigSep Finset.univ (recvGrp m Kr c) ∗ bigSep Finset.univ (xPc m c)
          ∗ bigSep Finset.univ (barPc (F := F) c)) := by
  have hex : (bigSep Finset.univ fun k : Fin 32 => slPts (F := F) c (peer c) k fo)
      ⊢ (bigSep Finset.univ fun k : Fin 32 => iprop(∃ f, slPts (F := F) c (peer c) k f) : sProp 𝕄) :=
    bigSep_mono fun k _ => (show (slPts (F := F) c (peer c) k fo : sProp 𝕄) ⊢ iprop(∃ f, slPts (F := F) c (peer c) k f) from by
      iintro H; iexists fo; iexact H)
  unfold sendGrp recvGrp barPc slPts at *
  simp only [bigSep_sep']
  iintro ⟨⟨Hi1, Hi2, Hi3⟩, ⟨Ha1, Ha2, Hr1, Hr2, Ht1, Ht2⟩, Hc, Ho1, Ho2, Hx⟩
  ihave Ho2' := hex $$ Ho2
  iframe

theorem pre_to_run (c : Dev nD) :
    bodyPre m c ⊢ iprop(∃ Kb Ks Kr W g q fo, runPre m c Kb Ks Kr W g q fo) := by
  unfold bodyPre Φ₀ start ghost invs locals0 Dat.owesAt Pipeline.owesWithin
  rw [show (dats m 0 c).owed t₀.castSucc = _ from (show O₀ c = _ from by unfold O₀ owedRecv; rw [sum_fin32_desc])]
  iintro ⟨⟨⟨⟨%Kb, %Ks, %Kr, ⟨Hib, Hibp, Hinv⟩, Hab, Hrbp, Htbp, Hgh⟩, Hcb, Hcr, Hlev, Hc0, Hc1, Hl0, Hl1⟩, Hx, ⟨%fo, Ho⟩, ⟨%g, Hst⟩, ⟨%q, Hcv⟩⟩, ⟨%W, %hW, HO⟩⟩
  iexists Kb; iexists Ks; iexists Kr; iexists W; iexists g; iexists q; iexists fo
  ihave Hx' := (x_cut (F := F) c _).1 $$ Hx
  ihave Hst' := (st_cut (F := F) c g).1 $$ Hst
  icases Hst' with ⟨Hs0, Hs1⟩
  ihave Hcv' := (cv_cut (F := F) c q).1 $$ Hcv
  icases Hcv' with ⟨Hq00, Hq01, Hq10, Hq11⟩
  ihave Ho' := (out_cut (F := F) c fo).1 $$ Ho
  icases Ho' with ⟨Ho1, Ho2⟩
  ihave R := (regroup32 m Ks Kr c fo) $$ [Hinv Hgh Hcr Ho1 Ho2 Hx']
  · unfold xPc; iframe
  icases R with ⟨Rs, Rr, Rx, Rb⟩
  ihave Rb' := (Entails.of_eq (barPay_peer (F := F) c).symm) $$ Rb
  unfold runPre cvPts
  iframe
  isplitl [Hc0]; · iexact Hc0
  isplitl [Hc1]; · iexact Hc1
  isplitl [Hl0]; · iexact Hl0
  isplitl [Hl1]; · iexact Hl1
  isplitl [Hs0]; · iexact Hs0
  isplitl [Hs1]; · iexact Hs1
  isplitl [Hq00]; · iexact Hq00
  isplitl [Hq01]; · iexact Hq01
  isplitl [Hq10]; · iexact Hq10
  iexact Hq11

theorem st_join (c : Dev nD) (f0 f1 : Buf (Elt F) (stM.view.loc (c : Thread nD τ))) :
    iprop(((stSl 0).view.loc (c : Thread nD τ) ↦[(stSl 0).view.set]{fullShare} f0) ∗ ((stSl 1).view.loc (c : Thread nD τ) ↦[(stSl 1).view.set]{fullShare} f1))
      ⊢ (iprop(∃ f, stM.view.loc (c : Thread nD τ) ↦{fullShare} f) : sProp 𝕄) := by
  have e0 : ((0 : Fin 2).val) = 0 := rfl
  have e1 : ((1 : Fin 2).val) = 1 := rfl
  obtain ⟨P, hP⟩ : ∃ P, P = (stSl 1).view.set.piecewise f1 f0 := ⟨_, rfl⟩
  have h0 : ((stSl 0).view.loc (c : Thread nD τ) ↦[(stSl 0).view.set]{fullShare} f0 : sProp 𝕄)
      = ((stSl 0).view.loc (c : Thread nD τ) ↦[(stSl 0).view.set]{fullShare} P) :=
    pointsTo_congr fun (i : S2x128x2048.Idx) hi => by
      have a := (mem_stSl 0 i).mp hi
      rw [hP, Finset.piecewise_eq_of_notMem _ _ _ (fun h1 => by have b := (mem_stSl 1 i).mp h1; omega)]
  have h1 : ((stSl 1).view.loc (c : Thread nD τ) ↦[(stSl 1).view.set]{fullShare} f1 : sProp 𝕄)
      = ((stSl 1).view.loc (c : Thread nD τ) ↦[(stSl 1).view.set]{fullShare} P) :=
    pointsTo_congr fun (i : S2x128x2048.Idx) hi => by rw [hP, Finset.piecewise_eq_of_mem _ _ _ hi]
  rw [h0, h1]
  iintro H
  iexists P
  iapply (st_cut (F := F) c _).2
  iexact H

theorem cv_join (c : Dev nD) (f00 f01 f10 f11 : Buf (Elt F) (cvM.view.loc (c : Thread nD τ))) :
    iprop(cvPts c (cvQ 0 0) f00 ∗ cvPts c (cvQ 0 1) f01 ∗ cvPts c (cvQ 1 0) f10 ∗ cvPts c (cvQ 1 1) f11)
      ⊢ (iprop(∃ f, cvM.view.loc (c : Thread nD τ) ↦{fullShare} f) : sProp 𝕄) := by
  have d01 := cvQ_disjoint c 0 0 0 1 (.inr (by decide))
  have d02 := cvQ_disjoint c 0 0 1 0 (.inl (by decide))
  have d03 := cvQ_disjoint c 0 0 1 1 (.inl (by decide))
  have d12 := cvQ_disjoint c 0 1 1 0 (.inl (by decide))
  have d13 := cvQ_disjoint c 0 1 1 1 (.inl (by decide))
  have d23 := cvQ_disjoint c 1 0 1 1 (.inr (by decide))
  obtain ⟨P, hP⟩ : ∃ P, P = (cvQ 0 0).view.set.piecewise f00 ((cvQ 0 1).view.set.piecewise f01 ((cvQ 1 0).view.set.piecewise f10 f11)) := ⟨_, rfl⟩
  have h00 : (cvPts c (cvQ 0 0) f00 : sProp 𝕄) = cvPts c (cvQ 0 0) P := by
    unfold cvPts
    exact pointsTo_congr fun i hi => by rw [hP, Finset.piecewise_eq_of_mem _ _ _ hi]
  have h01 : (cvPts c (cvQ 0 1) f01 : sProp 𝕄) = cvPts c (cvQ 0 1) P := by
    unfold cvPts
    exact pointsTo_congr fun i hi => by
      rw [hP, Finset.piecewise_eq_of_notMem _ _ _ (Finset.disjoint_right.mp d01 hi), Finset.piecewise_eq_of_mem _ _ _ hi]
  have h10 : (cvPts c (cvQ 1 0) f10 : sProp 𝕄) = cvPts c (cvQ 1 0) P := by
    unfold cvPts
    exact pointsTo_congr fun i hi => by
      rw [hP, Finset.piecewise_eq_of_notMem _ _ _ (Finset.disjoint_right.mp d02 hi), Finset.piecewise_eq_of_notMem _ _ _ (Finset.disjoint_right.mp d12 hi),
        Finset.piecewise_eq_of_mem _ _ _ hi]
  have h11 : (cvPts c (cvQ 1 1) f11 : sProp 𝕄) = cvPts c (cvQ 1 1) P := by
    unfold cvPts
    exact pointsTo_congr fun i hi => by
      rw [hP, Finset.piecewise_eq_of_notMem _ _ _ (Finset.disjoint_right.mp d03 hi), Finset.piecewise_eq_of_notMem _ _ _ (Finset.disjoint_right.mp d13 hi),
        Finset.piecewise_eq_of_notMem _ _ _ (Finset.disjoint_right.mp d23 hi)]
  rw [h00, h01, h10, h11]
  iintro H
  iexists P
  iapply (cv_cut (F := F) c _).2
  iexact H

theorem run_to_post (c : Dev nD) : runPost m c ⊢ bodyPost m c := by
  unfold runPost bodyPost Φ₁ locals0 Dat.owesAt Pipeline.owesWithin
  rw [show (dats m 0 c).owed t₀.succ = 0 from rfl]
  iintro ⟨Hx, ⟨%f0, Hs0⟩, ⟨%f1, Hs1⟩, ⟨%q00, Hq00⟩, ⟨%q01, Hq01⟩, ⟨%q10, Hq10⟩, ⟨%q11, Hq11⟩, Hown, Hrecv, Hsv, Hc0, Hc1, Hl0, Hl1, ⟨%W', HO⟩⟩
  isplitr [HO]
  · isplitl [Hx]
    · iapply (x_cut (F := F) c _).2
      unfold xPc; iexact Hx
    isplitl [Hown Hrecv]
    · iapply (out_cut (F := F) c (outC m c)).2
      isplitl [Hown]; · iexact Hown
      unfold recvPay; iexact Hrecv
    isplitl [Hs0 Hs1]
    · iapply (st_join (F := F) c _ _)
      isplitl [Hs0]; · iexact Hs0
      iexact Hs1
    isplitl [Hq00 Hq01 Hq10 Hq11]
    · iapply (cv_join (F := F) c _ _ _ _)
      unfold cvPts
      isplitl [Hq00]; · iexact Hq00
      isplitl [Hq01]; · iexact Hq01
      isplitl [Hq10]; · iexact Hq10
      iexact Hq11
    isplitl [Hc0 Hc1 Hl0 Hl1]
    · isplitl [Hc0]; · iexact Hc0
      isplitl [Hc1]; · iexact Hc1
      isplitl [Hl0]; · iexact Hl0
      iexact Hl1
    iexact Hsv
  · iexists W'
    isplitr
    · ipureintro; exact fun _ _ => Or.inl trivial
    iexact HO

theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ
          (cc0_body xM (Memref.isWhole_whole _) oM (Memref.isWhole_whole _) stM (Memref.isWhole_whole _) cvM (Memref.isWhole_whole _)
            cc0_scratch2 cc0_scratch3 cc0_scratch4 cc0_scratch5) Kt := by
  iintro ⟨Hpre, Hk⟩
  ihave H := (pre_to_run m c) $$ Hpre
  icases H with ⟨%Kb, %Ks, %Kr, %W, %g, %q, %fo, Hrun⟩
  rcases (show c.val / 8 = 0 ∨ c.val / 8 = 1 from by have : c.val < 16 := c.isLt; omega) with hmx | hmx
  · iapply (run_lo m c hmx Kb Ks Kr W g q fo Kt)
    isplitl [Hrun]; · iexact Hrun
    iintro Hpost
    iapply Hk
    iapply (run_to_post m c)
    iexact Hpost
  · iapply (run_hi m c hmx Kb Ks Kr W g q fo Kt)
    isplitl [Hrun]; · iexact Hrun
    iintro Hpost
    iapply Hk
    iapply (run_to_post m c)
    iexact Hpost

end Cert.Kernel.A2A

end
-- ==== Proof.KA2A.Launch.lean ====
import proofs.«900634_g7700000000000635_dist_a2a_v7x_xyz2x2x4_x_m4096_n1024_bf16_1_alg».proof.Proof.KA2A.Body
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : DmaSem sig → SemLoc sig := SemLoc.dma

theorem ownSemFacts : Pipeline.OwnSemFacts cfg0.spec osem :=
  ⟨by decide, fun a b h => by cases h; rfl, fun k w => w.elim0⟩

private theorem cellZero : ((Shape.reshapeEquiv (squeezes_S1_S_).numel_eq (fun i : Fin 0 => i.elim0) : S1.Idx) 0).val < 1 :=
  ((Shape.reshapeEquiv (squeezes_S1_S_).numel_eq (fun i : Fin 0 => i.elim0) : S1.Idx) 0).isLt

theorem copyS_val (s : Fin 2) : (copyS s).val = s.val := by
  simp only [copyS, SemArray.sem, SemArray.ix_squeeze, SemArray.ix_slice, cc0_scratch2, SemArray.consecutive]
  rw [Shape.rowMajor_val_one, Rect.emb_apply]
  have h := cellZero
  simp only [Rect.off_unit, Rect.stride_unit, Matrix.cons_val_zero, Nat.one_mul]
  omega
theorem locS_val (s : Fin 2) : (locS s).val = 2 + s.val := by
  simp only [locS, SemArray.sem, SemArray.ix_squeeze, SemArray.ix_slice, cc0_scratch3, SemArray.consecutive]
  rw [Shape.rowMajor_val_one, Rect.emb_apply]
  have h := cellZero
  simp only [Rect.off_unit, Rect.stride_unit, Matrix.cons_val_zero, Nat.one_mul]
  omega

abbrev JJ : Type := (Fin 2 ⊕ Fin 2) ⊕ (Fin 32 ⊕ Fin 32)

def semOf : JJ → DmaSem sig
  | .inl (.inl s) => copyS s
  | .inl (.inr s) => locS s
  | .inr (.inl k) => sendS k
  | .inr (.inr k) => recvS k

theorem semOf_val (j : JJ) : (semOf j).val = match j with
    | .inl (.inl s) => s.val | .inl (.inr s) => 2 + s.val | .inr (.inl k) => 4 + k.val | .inr (.inr k) => 36 + k.val := by
  rcases j with (s | s) | (k | k)
  · exact copyS_val s
  · exact locS_val s
  · exact sendS_val k
  · exact recvS_val k

theorem semOf_bijective : Function.Bijective semOf := by
  constructor
  · intro a b h
    have hv := congrArg Fin.val h
    rw [semOf_val, semOf_val] at hv
    rcases a with (s | s) | (k | k) <;> rcases b with (s' | s') | (k' | k') <;> simp only at hv <;>
      first
        | (have e : s = s' := Fin.ext (by omega); subst e; rfl)
        | (have e : k = k' := Fin.ext (by omega); subst e; rfl)
        | (exfalso; omega)
  · intro q
    have hq : q.val < 68 := q.isLt
    by_cases h1 : q.val < 2
    · exact ⟨.inl (.inl ⟨q.val, h1⟩), Fin.ext (by rw [semOf_val])⟩
    by_cases h2 : q.val < 4
    · exact ⟨.inl (.inr ⟨q.val - 2, by omega⟩), Fin.ext (by rw [semOf_val]; show 2 + (q.val - 2) = q.val; omega)⟩
    by_cases h3 : q.val < 36
    · exact ⟨.inr (.inl ⟨q.val - 4, by omega⟩), Fin.ext (by rw [semOf_val]; show 4 + (q.val - 4) = q.val; omega)⟩
    · exact ⟨.inr (.inr ⟨q.val - 36, by omega⟩), Fin.ext (by rw [semOf_val]; show 36 + (q.val - 36) = q.val; omega)⟩

def semEquiv : JJ ≃ DmaSem sig := Equiv.ofBijective semOf semOf_bijective

theorem ownSems0_eq (c : Dev nD) : (Pipeline.ownSems0 (Ix := Unit) (Name := ℕ) (U := UU) (Lvl := ℕ) (Val := Elt F) (τ := τ) osem c : sProp 𝕄)
    = iprop(((semVal ((c : Thread nD τ), .dma (copyS 0)) 0 ∗ semVal ((c : Thread nD τ), .dma (copyS 1)) 0)
        ∗ (semVal ((c : Thread nD τ), .dma (locS 0)) 0 ∗ semVal ((c : Thread nD τ), .dma (locS 1)) 0))
      ∗ ((bigSep Finset.univ fun k : Fin 32 => semVal (sendCell c k) 0) ∗ bigSep Finset.univ fun k : Fin 32 => semVal (recvCell c k) 0)) := by
  unfold Pipeline.ownSems0
  rw [bigSep_univ_equiv semEquiv, bigSep_univ_sum, bigSep_univ_sum, bigSep_univ_sum, bigSep_univ_two, bigSep_univ_two]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

abbrev J : Type := Unit ⊕ (Fin 32 ⊕ Fin 32)

def jsem : J → SemLoc sig
  | .inl _ => .reg barS
  | .inr (.inl k) => .dma (sendS k)
  | .inr (.inr k) => .dma (recvS k)

abbrev kcell (ck : Dev nD × J) : GSem nD τ sig := ((ck.1 : Thread nD τ), jsem ck.2)

theorem jsem_injective : Function.Injective jsem := by
  intro a b h
  rcases a with u | k | k <;> rcases b with u' | k' | k' <;>
    first
      | rfl
      | cases h
      | (have hv := congrArg Fin.val (SemLoc.dma.inj h)
         simp only [sendS_val, recvS_val] at hv
         first
           | (have e : k = k' := Fin.ext (by omega); subst e; rfl)
           | (exfalso; omega))

theorem kcell_injective : Function.Injective (kcell : Dev nD × J → GSem nD τ sig) := by
  rintro ⟨c, j⟩ ⟨c', j'⟩ h
  have h1 : c = c' := congrArg (fun g : GSem nD τ sig => g.1.1) h
  subst h1
  have h2 : jsem j = jsem j' := congrArg Prod.snd h
  rw [jsem_injective h2]

theorem bigSep_J (Φ : J → sProp 𝕄) : bigSep Finset.univ Φ
    = iprop(Φ (.inl ()) ∗ (bigSep Finset.univ fun k : Fin 32 => Φ (.inr (.inl k))) ∗ bigSep Finset.univ fun k : Fin 32 => Φ (.inr (.inr k))) := by
  rw [bigSep_univ_sum, bigSep_univ_sum, bigSep_univ_of_subsingleton ()]
  rfl

def ringCells : Finset (GSem nD τ sig) := Finset.univ.map ⟨kcell, kcell_injective⟩
def ringToks : Finset (GSem nD τ sig × ℕ × Unit) :=
  Finset.univ.map ⟨fun ck : Dev nD × J => (kcell ck, 0, ()), fun _ _ h => kcell_injective (congrArg Prod.fst h)⟩

def u₀ : UU :=
  (initOf (Pipeline.cells cfgs cellOf_inj) (Pipeline.launchToks cfgs cellOf_inj), (initOf ringCells ringToks, 1))

def G (c : Dev nD) : sProp 𝕄 :=
  iprop((bigSep Finset.univ fun j : J => roundState ER (Rd m) (kcell (c, j)) 0)
    ∗ (bigSep Finset.univ fun j : J => iprop(atPos ER (kcell (c, j)) 0 ∅ 0 ∗ reached ER (kcell (c, j)) 0))
    ∗ (bigSep Finset.univ fun j : J => dutyTok ER (kcell (c, j)) 0 ()))

def G' (c : Dev nD) : sProp 𝕄 := iprop((∃ Kb Ks Kr, ghost m Kb Ks Kr c) ∗ locals0 c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : J => dutyTok ER (kcell (c, j)) 0 () := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem fund_ring' : BI.own (((Emb.inl : Emb (UR sig nD τ) UX).trans (embR : Emb UX 𝕄)) (initOf ringCells ringToks))
    ⊢ (|==> bigSep Finset.univ (G m) : sProp 𝕄) := fund_ring m

theorem hu₀_pf : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb (embR : Emb UX 𝕄) _ _) $$ HX
  icases H2 with ⟨HR, -⟩
  imod (fund_ring' m) $$ HR with HG
  imodintro
  iframe

theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun j : J => semVal (kcell (c, j)) 0) ∗ locals0 c) := by
  rw [ownSems0_eq, unscopedSems0_eq, bigSep_J]
  unfold locals0
  iintro ⟨⟨⟨⟨Hc0, Hc1⟩, Hl0, Hl1⟩, Hs, Hr⟩, Hb⟩
  isplitl [Hb Hs Hr]
  · isplitl [Hb]; · iexact Hb
    isplitl [Hs]; · iexact Hs
    iexact Hr
  · isplitl [Hc0]; · iexact Hc0
    isplitl [Hc1]; · iexact Hc1
    isplitl [Hl0]; · iexact Hl0
    iexact Hl1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (Rd m) κ (kcell (c, j))))
          ∗ (bigSep Finset.univ fun j : J => iprop(atPos ER (kcell (c, j)) 0 ∅ 0 ∗ reached ER (kcell (c, j)) 0))
          ∗ (bigSep Finset.univ fun j : J => dutyTok ER (kcell (c, j)) 0 ()) ∗ locals0 c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun j : J => semVal (kcell (c, j)) 0) ∗ bigSep Finset.univ fun j : J => roundState ER (Rd m) (kcell (c, j)) 0)
      ⊢ (|={Set.univ}=> bigSep Finset.univ fun j : J => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  iframe

def records (K : Dev nD × J → ℕ) : sProp 𝕄 :=
  iprop((bigSep Finset.univ fun ck : Dev nD × J => cellInv ER (Rd m) (K ck) (kcell ck))
    ∗ bigSep Finset.univ fun ck : Dev nD × J => reached ER (kcell ck) 0)

instance records_persistent (K : Dev nD × J → ℕ) : BI.Persistent (records m K) := by unfold records; infer_instance

theorem inv_at (K : Dev nD × J → ℕ) (ck : Dev nD × J) :
    (bigSep Finset.univ fun ck : Dev nD × J => (cellInv ER (Rd m) (K ck) (kcell ck) : sProp 𝕄)) ⊢ cellInv ER (Rd m) (K ck) (kcell ck) :=
  bigSep_elim (Finset.mem_univ ck)
theorem reached_at (ck : Dev nD × J) :
    (bigSep Finset.univ fun ck : Dev nD × J => (reached ER (kcell ck) 0 : sProp 𝕄)) ⊢ reached ER (kcell ck) 0 :=
  bigSep_elim (Finset.mem_univ ck)

def payToks (c : Dev nD) : sProp 𝕄 :=
  iprop(dutyTok ER (barCell (peer c)) 0 () ∗ (bigSep Finset.univ fun k : Fin 32 => dutyTok ER (sendCell c k) 0 ())
    ∗ bigSep Finset.univ fun k : Fin 32 => dutyTok ER (recvCell (peer c) k) 0 ())
def linear (c : Dev nD) : sProp 𝕄 :=
  iprop((bigSep Finset.univ fun j : J => atPos ER (kcell (c, j)) 0 ∅ 0) ∗ payToks c ∗ locals0 c)

theorem ghost_intro (K : Dev nD × J → ℕ) (c : Dev nD) : iprop(records m K ∗ linear c) ⊢ G' m c := by
  unfold records linear payToks G' ghost invs
  rw [bigSep_J]
  simp only [bigSep_sep']
  iintro ⟨⟨#HI, #HR⟩, ⟨HaB, HaS, HaV⟩, ⟨HtB, HtS, HtV⟩, Hloc⟩
  isplitr [Hloc]
  · iexists (fun d => K (d, .inl ()))
    iexists (fun d k => K (d, .inr (.inl k)))
    iexists (fun d k => K (d, .inr (.inr k)))
    isplitr
    · isplitr; · iapply (inv_at m K (c, .inl ())); iexact HI
      isplitr; · iapply (inv_at m K (peer c, .inl ())); iexact HI
      isplitr; · iapply (bigSep_intro_persistent fun k _ => inv_at m K (c, .inr (.inl k))); iexact HI
      isplitr; · iapply (bigSep_intro_persistent fun k _ => inv_at m K (c, .inr (.inr k))); iexact HI
      iapply (bigSep_intro_persistent fun k _ => inv_at m K (peer c, .inr (.inr k))); iexact HI
    isplitl [HaB]; · iexact HaB
    isplitr; · iapply (reached_at (F := F) (peer c, .inl ())); iexact HR
    isplitl [HtB]; · iexact HtB
    isplitl [HaS]; · iexact HaS
    isplitl [HaV]; · iexact HaV
    isplitr; · iapply (bigSep_intro_persistent fun k _ => reached_at (F := F) (c, .inr (.inl k))); iexact HR
    isplitr; · iapply (bigSep_intro_persistent fun k _ => reached_at (F := F) (c, .inr (.inr k))); iexact HR
    isplitl [HtS]; · iexact HtS
    iexact HtV
  · iexact Hloc

theorem toks_around : (bigSep Finset.univ fun c : Dev nD => (bigSep Finset.univ fun j : J => dutyTok ER (kcell (c, j)) 0 () : sProp 𝕄))
    ⊢ bigSep Finset.univ fun c : Dev nD => payToks c := by
  unfold payToks
  rw [bigSep_congr (s := Finset.univ) (fun (c : Dev nD) _ => bigSep_J (fun j : J => (dutyTok ER (kcell (c, j)) 0 () : sProp 𝕄))),
    bigSep_sep', bigSep_sep', bigSep_sep', bigSep_sep',
    bigSep_univ_equiv swap (fun c : Dev nD => (dutyTok ER (kcell (c, .inl ())) 0 () : sProp 𝕄)),
    bigSep_univ_equiv swap (fun c : Dev nD => (bigSep Finset.univ fun k : Fin 32 => dutyTok ER (kcell (c, .inr (.inr k))) 0 () : sProp 𝕄))]
  exact .rfl

theorem linear_eq : (bigSep Finset.univ fun c : Dev nD => (linear c : sProp 𝕄))
    = iprop((bigSep Finset.univ fun c : Dev nD => bigSep Finset.univ fun j : J => atPos ER (kcell (c, j)) 0 ∅ 0)
        ∗ (bigSep Finset.univ fun c : Dev nD => payToks c) ∗ bigSep Finset.univ fun c : Dev nD => locals0 c) := by
  unfold linear
  rw [bigSep_sep', bigSep_sep']

theorem regroup :
    (bigSep Finset.univ fun c : Dev nD => iprop((bigSep Finset.univ fun j : J => iprop(∃ κ : ℕ, cellInv ER (Rd m) κ (kcell (c, j))))
          ∗ (bigSep Finset.univ fun j : J => iprop(atPos ER (kcell (c, j)) 0 ∅ 0 ∗ reached ER (kcell (c, j)) 0))
          ∗ (bigSep Finset.univ fun j : J => dutyTok ER (kcell (c, j)) 0 ()) ∗ locals0 c) : sProp 𝕄)
      ⊢ bigSep Finset.univ (G' m) := by
  rw [bigSep_sep', bigSep_sep', bigSep_sep', ← bigSep_univ_prod (fun ck : Dev nD × J => iprop(∃ κ : ℕ, cellInv ER (Rd m) κ (kcell ck))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun ck : Dev nD × J => (reached ER (kcell ck) 0 : sProp 𝕄))]
  iintro ⟨HI, ⟨Hat, #HR⟩, Htok, Hloc⟩
  ihave HK := (BI.bigSep_exists_pi Finset.univ (fun (ck : Dev nD × J) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [linear_eq]
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem creds (c : Dev nD) :
    (Pipeline.launchCred O₀ c : sProp 𝕄)
      ⊢ iprop(cred (tallyAt (barCell c) () 1) ∗ bigSep Finset.univ fun k : Fin 32 => cred (tallyAt (recvCell c k) () N)) := by
  refine (Entails.of_eq (Pipeline.launchCred_add (fun d : Dev nD => ∑ k : Fin 32, tallyAt (recvCell (peer d) k) () N)
    (fun d : Dev nD => tallyAt (barCell (peer d)) () 1) c)).trans ?_
  rw [Pipeline.launchCred_sum Finset.univ (fun (k : Fin 32) (d : Dev nD) => tallyAt (recvCell (peer d) k) () N) c]
  iintro ⟨Hr, Hb⟩
  isplitl [Hb]
  · iapply (Pipeline.launchCred_tallyAt (.reg barS) peer peer peer_peer peer_peer () 1 c); iexact Hb
  · iapply (show (_ : sProp 𝕄) ⊢ _ from bigSep_mono (s := Finset.univ) fun (k : Fin 32) _ => Pipeline.launchCred_tallyAt (.dma (recvS k)) peer peer peer_peer peer_peer () N c); iexact Hr

def X (c : Dev nD) : sProp 𝕄 :=
  iprop(start m c
    ∗ (xM.view.loc (c : Thread nD τ) ↦{fullShare} m ((c : Thread nD τ).loc main_arg0))
    ∗ (∃ f, oM.view.loc (c : Thread nD τ) ↦{fullShare} f))

def Y (c : Dev nD) : sProp 𝕄 :=
  iprop((xM.view.loc (c : Thread nD τ) ↦{fullShare} m ((c : Thread nD τ).loc main_arg0))
    ∗ (oM.view.loc (c : Thread nD τ) ↦{fullShare} outC m c))

def QY (c : Dev nD) (s : MemSt nD τ sig (Elt F)) : Prop :=
  s.mem ((c : Thread nD τ).loc main_v1) = outC m c ∧ s.mem ((c : Thread nD τ).loc main_arg0) = m ((c : Thread nD τ).loc main_arg0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X start G'
  icases HG with ⟨Hg, Hloc⟩
  isplitl
  · iframe Hg H1 HN Hlev Hloc Hx
    iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, ⟨Hst, Hcv⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y locals0
  rw [bigSep_sep']
  iintro ⟨Hx, Ho, Hst, Hcv, ⟨Hc0, Hc1, Hl0, Hl1⟩, Hs, Hr⟩
  iframe

theorem waits (c : Dev nD) : (levAts L lv : sProp 𝕄) ⊢ Pipeline.cellsWaits cfgs (dats m) () 0 c :=
  Pipeline.cellsWaits_intro cfgs (dats m) () 0 c fun w => w.elim0

theorem read_off (c : Dev nD) (s' : Phys nD τ sig (Elt F)) :
    iprop(Y m c ∗ emp ∗ SI s') ⊢ |={Set.univ}=> iprop(⌜QY m c s'.mem⌝ ∗ SI s') := by
  unfold Y
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

theorem bigSep_W (Φ : Fin cfg0.W → sProp 𝕄) : bigSep Finset.univ Φ = iprop(emp) := by
  rw [Finset.univ_eq_empty, BI.bigSep_empty]
  rfl

set_option maxRecDepth 16000 in
theorem body_obligation (c : Dev nD) : BodyObligation (dats (F := F) m 0 c) (defs₀ (F := F)) 𝒱₀ () Set.univ := fun t => by
  rw [fin_N t, bigSep_W, bigSep_W, show (dats m 0 c).Φ t₀.castSucc = Φ₀ m c from rfl, show (dats m 0 c).Φ t₀.succ = Φ₁ m c from rfl]
  iintro ⟨HΦ, Ho, -⟩
  iapply (sound_body m c _)
  isplitl [HΦ Ho]
  · unfold bodyPre
    isplitl [HΦ]; · iexact HΦ
    iexact Ho
  · unfold bodyPost
    iintro ⟨H1, H2⟩
    isplitl [H1]; · iexact H1
    isplitl [H2]; · iexact H2
    iempintro

set_option maxRecDepth 16000 in
theorem run_main :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage)
    (hshare := ?hshare) (hdistinct := ?hdistinct)
    (O₀ := O₀) (howed₀ := ?howed0) (howedN := ?howedN)
    (L := L) (lv := lv) (hL := ?hL) (hwaits := ?hwaits)
    (G := G m) (G' := G' m) (u₀ := u₀)
    (hu₀ := ?hu0)
    (hglob := ?hglob)
    (hA := ?hA) (hpf := ?hpf)
    (X := X m) (Y := Y m) (Z := fun _ => iprop(emp))
    (hX := ?hX) (hin := ?hin) (hout := ?hout)
    (QY := QY m)
    (hY := ?hY)
    (hQ := ?hQ)
  case hmain => exact fun _ => rfl
  case hbody => exact fun c => (body_obligation m c).loose
  case hne => exact block_pos0
  case harr => exact arr_whole0
  case hstage => exact stage_whole0
  case hshare => exact fun _ w => w.elim0
  case hdistinct => exact winFacts0.arr_inj
  case howed0 => exact fun _ => rfl
  case howedN => exact fun _ => rfl
  case hL => exact L_of_ne
  case hwaits => exact waits m
  case hu0 => exact hu₀_pf m
  case hglob => exact glob m
  case hA => exact fun _ w => w.elim0
  case hpf => exact fun _ k => k.elim0
  case hX => exact start_intro m ρ
  case hin => exact phi0_intro m
  case hout => exact phi1_exit m
  case hY => exact read_off m
  case hQ => exact fun s h c => (h c).2.2

end Cert.Kernel.A2A

end
-- ==== Proof.lean ====
import proofs.«900634_g7700000000000635_dist_a2a_v7x_xyz2x2x4_x_m4096_n1024_bf16_1_alg».proof.Defs
import proofs.«900634_g7700000000000635_dist_a2a_v7x_xyz2x2x4_x_m4096_n1024_bf16_1_alg».proof.Proof.Gen.Kernel
import proofs.«900634_g7700000000000635_dist_a2a_v7x_xyz2x2x4_x_m4096_n1024_bf16_1_alg».proof.Proof.Gen.Kernel.Skeleton
import proofs.«900634_g7700000000000635_dist_a2a_v7x_xyz2x2x4_x_m4096_n1024_bf16_1_alg».proof.Proof.Gen.Kernel.Launch
import proofs.«900634_g7700000000000635_dist_a2a_v7x_xyz2x2x4_x_m4096_n1024_bf16_1_alg».proof.Proof.Gen.Kernel.Points
import proofs.«900634_g7700000000000635_dist_a2a_v7x_xyz2x2x4_x_m4096_n1024_bf16_1_alg».proof.Proof.Gen.KernelIdeal
import proofs.«900634_g7700000000000635_dist_a2a_v7x_xyz2x2x4_x_m4096_n1024_bf16_1_alg».proof.Proof.Gen.KernelIdeal.Skeleton
import proofs.«900634_g7700000000000635_dist_a2a_v7x_xyz2x2x4_x_m4096_n1024_bf16_1_alg».proof.Proof.Gen.KernelIdeal.Launch
import proofs.«900634_g7700000000000635_dist_a2a_v7x_xyz2x2x4_x_m4096_n1024_bf16_1_alg».proof.Proof.Gen.KernelIdeal.Points
import proofs.«900634_g7700000000000635_dist_a2a_v7x_xyz2x2x4_x_m4096_n1024_bf16_1_alg».proof.Proof.Gen.ReferenceIdeal
import proofs.«900634_g7700000000000635_dist_a2a_v7x_xyz2x2x4_x_m4096_n1024_bf16_1_alg».proof.Proof.Gen.Pre_finite_inputs_Kernel
import proofs.«900634_g7700000000000635_dist_a2a_v7x_xyz2x2x4_x_m4096_n1024_bf16_1_alg».proof.Proof.Gen.Pre_finite_inputs_ReferenceIdeal
import proofs.«900634_g7700000000000635_dist_a2a_v7x_xyz2x2x4_x_m4096_n1024_bf16_1_alg».proof.Proof.A2A.Launch
import proofs.«900634_g7700000000000635_dist_a2a_v7x_xyz2x2x4_x_m4096_n1024_bf16_1_alg».proof.Proof.A2A.Value
import proofs.«900634_g7700000000000635_dist_a2a_v7x_xyz2x2x4_x_m4096_n1024_bf16_1_alg».proof.Proof.KA2A.Launch
import Idealize.ShloMosaic.Adequacy
import Idealize.ShloMosaic.Init

noncomputable section

namespace Cert.Proof.A2AClaims

open Idealize.ShloMosaic Idealize.ShloMosaic.TcCoe Idealize.SL.Sem

theorem frame_k : Cert.frame_Kernel := fun m ρ _ =>
  (θ_run Cert.Kernel.defs _ _).mono (fun _ h c => (h c).2) (Cert.Kernel.A2A.run_main (F := Bits) m ρ)

theorem frame_ki : Cert.frame_KernelIdeal := fun m ρ _ =>
  (θ_run Cert.KernelIdeal.defs _ _).mono (fun _ h c => (h c).2) (Cert.KernelIdeal.A2A.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- A device's result is its own row block and its partner's, narrowed, side by side: its column block of the reference's result. -/
theorem algebraic : Cert.algebraic_KernelIdeal_ReferenceIdeal := by
  intro m ρ m' ρ' _ hagree
  refine ⟨Cert.A2AValue.refOut (m' (((0 : Dev Cert.ReferenceIdeal.nD).tc : Thread Cert.ReferenceIdeal.nD Cert.ReferenceIdeal.τ).loc Cert.ReferenceIdeal.main_arg0)),
    ?_, Cert.A2AValue.ref_run m' ρ'⟩
  refine (θ_run Cert.KernelIdeal.defs _ _).mono (fun r h c => ⟨(h c).1.trans ?_, (h c).2⟩)
    (Cert.KernelIdeal.A2A.run_main (F := Ideal) m ρ)
  unfold Cert.KernelIdeal.A2A.outC Cert.KernelIdeal.A2A.Xc
  rw [hagree c, hagree (Cert.KernelIdeal.A2A.peer c)]
  exact Cert.A2AValue.value_eq _ c

end Cert.Proof.A2AClaims

namespace Cert.Proof

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    A2AClaims.frame_k, A2AClaims.frame_ki, A2AClaims.frame_ri, A2AClaims.preserves, A2AClaims.algebraic⟩

end Cert.Proof

end
